-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S256x512 : Shape := ⟨2, ![256, 512]⟩
abbrev S64x512 : Shape := ⟨2, ![64, 512]⟩
abbrev S10 : Shape := ⟨1, ![10]⟩
abbrev S8 : Shape := ⟨1, ![8]⟩
abbrev S_ : Shape := ⟨0, ![]⟩
abbrev S1 : Shape := ⟨1, ![1]⟩
abbrev S32x512 : Shape := ⟨2, ![32, 512]⟩

abbrev nBuf : Space → Nat
  | .hbm => 2
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S256x512, .f32⟩
  | .local _ .vmem, ⟨3, _⟩ => ⟨S64x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_28 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_27 : BitVec 32 := 16#32
  let v49 : BitVec 32 := Scalar.muli v29 c16_i32_27
  let v50 : BitVec 32 := Scalar.addi c0_i32_28 v49
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v51 : BitVec 32 := Scalar.muli v5 c4_i32_29
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v53 : BitVec 32 := Scalar.muli v8 c1_i32_30
  let v54 : BitVec 32 := Scalar.addi v52 v53
  v54.toNat
def k0_dev2 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_34 : BitVec 32 := 4#32
  let v57 : BitVec 32 := Scalar.muli v32 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v59 : BitVec 32 := Scalar.muli v8 c1_i32_35
  let v60 : BitVec 32 := Scalar.addi v58 v59
  v60.toNat
def k0_dev3 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v61 : BitVec 32 := Scalar.muli v2 c16_i32_37
  let v62 : BitVec 32 := Scalar.addi c0_i32_38 v61
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v63 : BitVec 32 := Scalar.muli v5 c4_i32_39
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_40 : BitVec 32 := 1#32
  let v65 : BitVec 32 := Scalar.muli v35 c1_i32_40
  let v66 : BitVec 32 := Scalar.addi v64 v65
  v66.toNat
def k0_off1 (d0 : Dev nD) (c0_i32_41 : BitVec 32) : Fin 2 → Nat :=
  let c2_i32_18 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v36 : BitVec 32 := Scalar.muli c2_i32_18 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v37 : BitVec 32 := Scalar.addi v36 v28
  let c256_i32 : BitVec 32 := 256#32
  let v67 : BitVec 32 := Scalar.muli v37 c256_i32
  let v68 : BitVec 32 := Scalar.addi v67 c0_i32_41
  let c0_i32_50 : BitVec 32 := 0#32
  ![v68.toNat, 0]
def k0_dev4 (d0 : Dev nD) : Nat :=
  let c0_i32_45 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_44 : BitVec 32 := 16#32
  let v69 : BitVec 32 := Scalar.muli v29 c16_i32_44
  let v70 : BitVec 32 := Scalar.addi c0_i32_45 v69
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_46 : BitVec 32 := 4#32
  let v71 : BitVec 32 := Scalar.muli v5 c4_i32_46
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v73 : BitVec 32 := Scalar.muli v8 c1_i32_47
  let v74 : BitVec 32 := Scalar.addi v72 v73
  v74.toNat
def k0_dev5 (d0 : Dev nD) : Nat :=
  let c0_i32_55 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_54 : BitVec 32 := 16#32
  let v83 : BitVec 32 := Scalar.muli v29 c16_i32_54
  let v84 : BitVec 32 := Scalar.addi c0_i32_55 v83
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_56 : BitVec 32 := 4#32
  let v85 : BitVec 32 := Scalar.muli v5 c4_i32_56
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v87 : BitVec 32 := Scalar.muli v8 c1_i32_57
  let v88 : BitVec 32 := Scalar.addi v86 v87
  v88.toNat
def k0_dev6 (d0 : Dev nD) : Nat :=
  let c0_i32_65 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_64 : BitVec 32 := 16#32
  let v97 : BitVec 32 := Scalar.muli v29 c16_i32_64
  let v98 : BitVec 32 := Scalar.addi c0_i32_65 v97
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_66 : BitVec 32 := 4#32
  let v99 : BitVec 32 := Scalar.muli v5 c4_i32_66
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v101 : BitVec 32 := Scalar.muli v8 c1_i32_67
  let v102 : BitVec 32 := Scalar.addi v100 v101
  v102.toNat
def k0_dev7 (d0 : Dev nD) : Nat :=
  let c0_i32_75 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_74 : BitVec 32 := 16#32
  let v111 : BitVec 32 := Scalar.muli v29 c16_i32_74
  let v112 : BitVec 32 := Scalar.addi c0_i32_75 v111
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v113 : BitVec 32 := Scalar.muli v5 c4_i32_76
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v115 : BitVec 32 := Scalar.muli v8 c1_i32_77
  let v116 : BitVec 32 := Scalar.addi v114 v115
  v116.toNat
def k0_dev8 (d0 : Dev nD) : Nat :=
  let c0_i32_85 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_84 : BitVec 32 := 16#32
  let v125 : BitVec 32 := Scalar.muli v29 c16_i32_84
  let v126 : BitVec 32 := Scalar.addi c0_i32_85 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_86 : BitVec 32 := 4#32
  let v127 : BitVec 32 := Scalar.muli v5 c4_i32_86
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v129 : BitVec 32 := Scalar.muli v8 c1_i32_87
  let v130 : BitVec 32 := Scalar.addi v128 v129
  v130.toNat
def k0_dev9 (d0 : Dev nD) : Nat :=
  let c0_i32_94 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_93 : BitVec 32 := 16#32
  let v139 : BitVec 32 := Scalar.muli v29 c16_i32_93
  let v140 : BitVec 32 := Scalar.addi c0_i32_94 v139
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_95 : BitVec 32 := 4#32
  let v141 : BitVec 32 := Scalar.muli v5 c4_i32_95
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v143 : BitVec 32 := Scalar.muli v8 c1_i32_96
  let v144 : BitVec 32 := Scalar.addi v142 v143
  v144.toNat
def k0_dev10 (d0 : Dev nD) : Nat :=
  let c0_i32_103 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_102 : BitVec 32 := 16#32
  let v153 : BitVec 32 := Scalar.muli v29 c16_i32_102
  let v154 : BitVec 32 := Scalar.addi c0_i32_103 v153
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_104 : BitVec 32 := 4#32
  let v155 : BitVec 32 := Scalar.muli v5 c4_i32_104
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v157 : BitVec 32 := Scalar.muli v8 c1_i32_105
  let v158 : BitVec 32 := Scalar.addi v156 v157
  v158.toNat
def k0_dev11 (d0 : Dev nD) : Nat :=
  let c0_i32_112 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_111 : BitVec 32 := 16#32
  let v167 : BitVec 32 := Scalar.muli v29 c16_i32_111
  let v168 : BitVec 32 := Scalar.addi c0_i32_112 v167
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_113 : BitVec 32 := 4#32
  let v169 : BitVec 32 := Scalar.muli v5 c4_i32_113
  let v170 : BitVec 32 := Scalar.addi v168 v169
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v171 : BitVec 32 := Scalar.muli v8 c1_i32_114
  let v172 : BitVec 32 := Scalar.addi v170 v171
  v172.toNat
def k0_off2 (d0 : Dev nD) (c192_i32_119 : BitVec 32) : Fin 2 → Nat :=
  let c2_i32_24 : BitVec 32 := 2#32
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v44 : BitVec 32 := Scalar.subi c1_i32_23 v18
  let v45 : BitVec 32 := Scalar.muli c2_i32_24 v44
  let c1_i32_25 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v46 : BitVec 32 := Scalar.subi c1_i32_25 v28
  let v47 : BitVec 32 := Scalar.addi v45 v46
  let c256_i32_118 : BitVec 32 := 256#32
  let v179 : BitVec 32 := Scalar.muli v47 c256_i32_118
  let v180 : BitVec 32 := Scalar.addi v179 c192_i32_119
  let c0_i32_127 : BitVec 32 := 0#32
  ![v180.toNat, 0]
def k0_dev12 (d0 : Dev nD) : Nat :=
  let c0_i32_122 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_121 : BitVec 32 := 16#32
  let v181 : BitVec 32 := Scalar.muli v29 c16_i32_121
  let v182 : BitVec 32 := Scalar.addi c0_i32_122 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_123 : BitVec 32 := 4#32
  let v183 : BitVec 32 := Scalar.muli v5 c4_i32_123
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v185 : BitVec 32 := Scalar.muli v8 c1_i32_124
  let v186 : BitVec 32 := Scalar.addi v184 v185
  v186.toNat
def k0_dev13 (d0 : Dev nD) : Nat :=
  let c0_i32_132 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_131 : BitVec 32 := 16#32
  let v195 : BitVec 32 := Scalar.muli v29 c16_i32_131
  let v196 : BitVec 32 := Scalar.addi c0_i32_132 v195
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_133 : BitVec 32 := 4#32
  let v197 : BitVec 32 := Scalar.muli v5 c4_i32_133
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v199 : BitVec 32 := Scalar.muli v8 c1_i32_134
  let v200 : BitVec 32 := Scalar.addi v198 v199
  v200.toNat
def k0_off3 (d0 : Dev nD) (c0_i32_148 : BitVec 32) : Fin 2 → Nat :=
  let c2_i32_18 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v36 : BitVec 32 := Scalar.muli c2_i32_18 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v37 : BitVec 32 := Scalar.addi v36 v28
  let c256_i32_147 : BitVec 32 := 256#32
  let v217 : BitVec 32 := Scalar.muli v37 c256_i32_147
  let v218 : BitVec 32 := Scalar.addi v217 c0_i32_148
  let v219 : Index := Scalar.indexCast v218
  let c0 : Index := 0#32
  ![v219.toNat, 0]
def k0_dev14 (d0 : Dev nD) : Nat :=
  let c0_i32_156 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_155 : BitVec 32 := 16#32
  let v227 : BitVec 32 := Scalar.muli v2 c16_i32_155
  let v228 : BitVec 32 := Scalar.addi c0_i32_156 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_157 : BitVec 32 := 4#32
  let v229 : BitVec 32 := Scalar.muli v32 c4_i32_157
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v231 : BitVec 32 := Scalar.muli v8 c1_i32_158
  let v232 : BitVec 32 := Scalar.addi v230 v231
  v232.toNat
def k0_dev15 (d0 : Dev nD) : Nat :=
  let c0_i32_166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_165 : BitVec 32 := 16#32
  let v239 : BitVec 32 := Scalar.muli v2 c16_i32_165
  let v240 : BitVec 32 := Scalar.addi c0_i32_166 v239
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_167 : BitVec 32 := 4#32
  let v241 : BitVec 32 := Scalar.muli v5 c4_i32_167
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_168 : BitVec 32 := 1#32
  let v243 : BitVec 32 := Scalar.muli v35 c1_i32_168
  let v244 : BitVec 32 := Scalar.addi v242 v243
  v244.toNat
def k0_dev16 (d0 : Dev nD) : Nat :=
  let c0_i32_194 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_193 : BitVec 32 := 16#32
  let v275 : BitVec 32 := Scalar.muli v2 c16_i32_193
  let v276 : BitVec 32 := Scalar.addi c0_i32_194 v275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_195 : BitVec 32 := 4#32
  let v277 : BitVec 32 := Scalar.muli v32 c4_i32_195
  let v278 : BitVec 32 := Scalar.addi v276 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v279 : BitVec 32 := Scalar.muli v8 c1_i32_196
  let v280 : BitVec 32 := Scalar.addi v278 v279
  v280.toNat
def k0_dev17 (d0 : Dev nD) : Nat :=
  let c0_i32_204 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_203 : BitVec 32 := 16#32
  let v287 : BitVec 32 := Scalar.muli v2 c16_i32_203
  let v288 : BitVec 32 := Scalar.addi c0_i32_204 v287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_205 : BitVec 32 := 4#32
  let v289 : BitVec 32 := Scalar.muli v5 c4_i32_205
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_206 : BitVec 32 := 1#32
  let v291 : BitVec 32 := Scalar.muli v35 c1_i32_206
  let v292 : BitVec 32 := Scalar.addi v290 v291
  v292.toNat
def k0_dev18 (d0 : Dev nD) : Nat :=
  let c0_i32_232 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_231 : BitVec 32 := 16#32
  let v323 : BitVec 32 := Scalar.muli v2 c16_i32_231
  let v324 : BitVec 32 := Scalar.addi c0_i32_232 v323
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_233 : BitVec 32 := 4#32
  let v325 : BitVec 32 := Scalar.muli v32 c4_i32_233
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v327 : BitVec 32 := Scalar.muli v8 c1_i32_234
  let v328 : BitVec 32 := Scalar.addi v326 v327
  v328.toNat
def k0_dev19 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v335 : BitVec 32 := Scalar.muli v2 c16_i32_241
  let v336 : BitVec 32 := Scalar.addi c0_i32_242 v335
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_243 : BitVec 32 := 4#32
  let v337 : BitVec 32 := Scalar.muli v5 c4_i32_243
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_244 : BitVec 32 := 1#32
  let v339 : BitVec 32 := Scalar.muli v35 c1_i32_244
  let v340 : BitVec 32 := Scalar.addi v338 v339
  v340.toNat
def k0_dev20 (d0 : Dev nD) : Nat :=
  let c0_i32_270 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_269 : BitVec 32 := 16#32
  let v371 : BitVec 32 := Scalar.muli v2 c16_i32_269
  let v372 : BitVec 32 := Scalar.addi c0_i32_270 v371
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_271 : BitVec 32 := 4#32
  let v373 : BitVec 32 := Scalar.muli v32 c4_i32_271
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_272 : BitVec 32 := 1#32
  let v375 : BitVec 32 := Scalar.muli v8 c1_i32_272
  let v376 : BitVec 32 := Scalar.addi v374 v375
  v376.toNat
def k0_dev21 (d0 : Dev nD) : Nat :=
  let c0_i32_280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_279 : BitVec 32 := 16#32
  let v383 : BitVec 32 := Scalar.muli v2 c16_i32_279
  let v384 : BitVec 32 := Scalar.addi c0_i32_280 v383
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_281 : BitVec 32 := 4#32
  let v385 : BitVec 32 := Scalar.muli v5 c4_i32_281
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_282 : BitVec 32 := 1#32
  let v387 : BitVec 32 := Scalar.muli v35 c1_i32_282
  let v388 : BitVec 32 := Scalar.addi v386 v387
  v388.toNat
def k0_dev22 (d0 : Dev nD) : Nat :=
  let c0_i32_308 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_307 : BitVec 32 := 16#32
  let v419 : BitVec 32 := Scalar.muli v2 c16_i32_307
  let v420 : BitVec 32 := Scalar.addi c0_i32_308 v419
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_309 : BitVec 32 := 4#32
  let v421 : BitVec 32 := Scalar.muli v32 c4_i32_309
  let v422 : BitVec 32 := Scalar.addi v420 v421
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v423 : BitVec 32 := Scalar.muli v8 c1_i32_310
  let v424 : BitVec 32 := Scalar.addi v422 v423
  v424.toNat
def k0_dev23 (d0 : Dev nD) : Nat :=
  let c0_i32_318 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_317 : BitVec 32 := 16#32
  let v431 : BitVec 32 := Scalar.muli v2 c16_i32_317
  let v432 : BitVec 32 := Scalar.addi c0_i32_318 v431
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_319 : BitVec 32 := 4#32
  let v433 : BitVec 32 := Scalar.muli v5 c4_i32_319
  let v434 : BitVec 32 := Scalar.addi v432 v433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_320 : BitVec 32 := 1#32
  let v435 : BitVec 32 := Scalar.muli v35 c1_i32_320
  let v436 : BitVec 32 := Scalar.addi v434 v435
  v436.toNat
def k0_dev24 (d0 : Dev nD) : Nat :=
  let c0_i32_346 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_345 : BitVec 32 := 16#32
  let v467 : BitVec 32 := Scalar.muli v2 c16_i32_345
  let v468 : BitVec 32 := Scalar.addi c0_i32_346 v467
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_347 : BitVec 32 := 4#32
  let v469 : BitVec 32 := Scalar.muli v32 c4_i32_347
  let v470 : BitVec 32 := Scalar.addi v468 v469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v471 : BitVec 32 := Scalar.muli v8 c1_i32_348
  let v472 : BitVec 32 := Scalar.addi v470 v471
  v472.toNat
def k0_dev25 (d0 : Dev nD) : Nat :=
  let c0_i32_356 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_355 : BitVec 32 := 16#32
  let v479 : BitVec 32 := Scalar.muli v2 c16_i32_355
  let v480 : BitVec 32 := Scalar.addi c0_i32_356 v479
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_357 : BitVec 32 := 4#32
  let v481 : BitVec 32 := Scalar.muli v5 c4_i32_357
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_358 : BitVec 32 := 1#32
  let v483 : BitVec 32 := Scalar.muli v35 c1_i32_358
  let v484 : BitVec 32 := Scalar.addi v482 v483
  v484.toNat
def k0_dev26 (d0 : Dev nD) : Nat :=
  let c0_i32_384 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_383 : BitVec 32 := 16#32
  let v515 : BitVec 32 := Scalar.muli v2 c16_i32_383
  let v516 : BitVec 32 := Scalar.addi c0_i32_384 v515
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_385 : BitVec 32 := 4#32
  let v517 : BitVec 32 := Scalar.muli v32 c4_i32_385
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v519 : BitVec 32 := Scalar.muli v8 c1_i32_386
  let v520 : BitVec 32 := Scalar.addi v518 v519
  v520.toNat
def k0_dev27 (d0 : Dev nD) : Nat :=
  let c0_i32_394 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_393 : BitVec 32 := 16#32
  let v527 : BitVec 32 := Scalar.muli v2 c16_i32_393
  let v528 : BitVec 32 := Scalar.addi c0_i32_394 v527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_395 : BitVec 32 := 4#32
  let v529 : BitVec 32 := Scalar.muli v5 c4_i32_395
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_396 : BitVec 32 := 1#32
  let v531 : BitVec 32 := Scalar.muli v35 c1_i32_396
  let v532 : BitVec 32 := Scalar.addi v530 v531
  v532.toNat
def k0_dev28 (d0 : Dev nD) : Nat :=
  let c0_i32_422 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_421 : BitVec 32 := 16#32
  let v563 : BitVec 32 := Scalar.muli v2 c16_i32_421
  let v564 : BitVec 32 := Scalar.addi c0_i32_422 v563
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_423 : BitVec 32 := 4#32
  let v565 : BitVec 32 := Scalar.muli v32 c4_i32_423
  let v566 : BitVec 32 := Scalar.addi v564 v565
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_424 : BitVec 32 := 1#32
  let v567 : BitVec 32 := Scalar.muli v8 c1_i32_424
  let v568 : BitVec 32 := Scalar.addi v566 v567
  v568.toNat
def k0_dev29 (d0 : Dev nD) : Nat :=
  let c0_i32_432 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_431 : BitVec 32 := 16#32
  let v575 : BitVec 32 := Scalar.muli v2 c16_i32_431
  let v576 : BitVec 32 := Scalar.addi c0_i32_432 v575
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_433 : BitVec 32 := 4#32
  let v577 : BitVec 32 := Scalar.muli v5 c4_i32_433
  let v578 : BitVec 32 := Scalar.addi v576 v577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_434 : BitVec 32 := 1#32
  let v579 : BitVec 32 := Scalar.muli v35 c1_i32_434
  let v580 : BitVec 32 := Scalar.addi v578 v579
  v580.toNat
def k0_off4 (d0 : Dev nD) (c0_i32_455 : BitVec 32) : Fin 2 → Nat :=
  let c2_i32_20 : BitVec 32 := 2#32
  let c1_i32_19 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v38 : BitVec 32 := Scalar.subi c1_i32_19 v18
  let v39 : BitVec 32 := Scalar.muli c2_i32_20 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v40 : BitVec 32 := Scalar.addi v39 v28
  let c256_i32_454 : BitVec 32 := 256#32
  let v602 : BitVec 32 := Scalar.muli v40 c256_i32_454
  let v603 : BitVec 32 := Scalar.addi v602 c0_i32_455
  let v604 : Index := Scalar.indexCast v603
  let c0_456 : Index := 0#32
  ![v604.toNat, 0]
def k0_dev30 (d0 : Dev nD) : Nat :=
  let c0_i32_460 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_459 : BitVec 32 := 16#32
  let v606 : BitVec 32 := Scalar.muli v2 c16_i32_459
  let v607 : BitVec 32 := Scalar.addi c0_i32_460 v606
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_461 : BitVec 32 := 4#32
  let v608 : BitVec 32 := Scalar.muli v5 c4_i32_461
  let v609 : BitVec 32 := Scalar.addi v607 v608
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_462 : BitVec 32 := 1#32
  let v610 : BitVec 32 := Scalar.muli v35 c1_i32_462
  let v611 : BitVec 32 := Scalar.addi v609 v610
  v611.toNat
def k0_off5 (d0 : Dev nD) (c0_i32_480 : BitVec 32) : Fin 2 → Nat :=
  let c2_i32_21 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v41 : BitVec 32 := Scalar.muli c2_i32_21 v18
  let c1_i32_22 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v42 : BitVec 32 := Scalar.subi c1_i32_22 v28
  let v43 : BitVec 32 := Scalar.addi v41 v42
  let c256_i32_479 : BitVec 32 := 256#32
  let v629 : BitVec 32 := Scalar.muli v43 c256_i32_479
  let v630 : BitVec 32 := Scalar.addi v629 c0_i32_480
  let v631 : Index := Scalar.indexCast v630
  let c0_481 : Index := 0#32
  ![v631.toNat, 0]
def k0_dev31 (d0 : Dev nD) : Nat :=
  let c0_i32_500 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_499 : BitVec 32 := 16#32
  let v648 : BitVec 32 := Scalar.muli v2 c16_i32_499
  let v649 : BitVec 32 := Scalar.addi c0_i32_500 v648
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_501 : BitVec 32 := 4#32
  let v650 : BitVec 32 := Scalar.muli v5 c4_i32_501
  let v651 : BitVec 32 := Scalar.addi v649 v650
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_502 : BitVec 32 := 1#32
  let v652 : BitVec 32 := Scalar.muli v35 c1_i32_502
  let v653 : BitVec 32 := Scalar.addi v651 v652
  v653.toNat
def k0_dev32 (d0 : Dev nD) : Nat :=
  let c0_i32_540 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_539 : BitVec 32 := 16#32
  let v690 : BitVec 32 := Scalar.muli v2 c16_i32_539
  let v691 : BitVec 32 := Scalar.addi c0_i32_540 v690
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_541 : BitVec 32 := 4#32
  let v692 : BitVec 32 := Scalar.muli v5 c4_i32_541
  let v693 : BitVec 32 := Scalar.addi v691 v692
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_542 : BitVec 32 := 1#32
  let v694 : BitVec 32 := Scalar.muli v35 c1_i32_542
  let v695 : BitVec 32 := Scalar.addi v693 v694
  v695.toNat
def k0_dev33 (d0 : Dev nD) : Nat :=
  let c0_i32_595 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_594 : BitVec 32 := 16#32
  let v747 : BitVec 32 := Scalar.muli v2 c16_i32_594
  let v748 : BitVec 32 := Scalar.addi c0_i32_595 v747
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_596 : BitVec 32 := 4#32
  let v749 : BitVec 32 := Scalar.muli v32 c4_i32_596
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_597 : BitVec 32 := 1#32
  let v751 : BitVec 32 := Scalar.muli v8 c1_i32_597
  let v752 : BitVec 32 := Scalar.addi v750 v751
  v752.toNat
def k0_dev34 (d0 : Dev nD) : Nat :=
  let c0_i32_635 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_634 : BitVec 32 := 16#32
  let v789 : BitVec 32 := Scalar.muli v2 c16_i32_634
  let v790 : BitVec 32 := Scalar.addi c0_i32_635 v789
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_636 : BitVec 32 := 4#32
  let v791 : BitVec 32 := Scalar.muli v32 c4_i32_636
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_637 : BitVec 32 := 1#32
  let v793 : BitVec 32 := Scalar.muli v8 c1_i32_637
  let v794 : BitVec 32 := Scalar.addi v792 v793
  v794.toNat
def k0_dev35 (d0 : Dev nD) : Nat :=
  let c0_i32_675 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_674 : BitVec 32 := 16#32
  let v831 : BitVec 32 := Scalar.muli v2 c16_i32_674
  let v832 : BitVec 32 := Scalar.addi c0_i32_675 v831
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_676 : BitVec 32 := 4#32
  let v833 : BitVec 32 := Scalar.muli v32 c4_i32_676
  let v834 : BitVec 32 := Scalar.addi v832 v833
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_677 : BitVec 32 := 1#32
  let v835 : BitVec 32 := Scalar.muli v8 c1_i32_677
  let v836 : BitVec 32 := Scalar.addi v834 v835
  v836.toNat
def k0_off6 (d0 : Dev nD) (c192_i32_752 : BitVec 32) : Fin 2 → Nat :=
  let c2_i32_24 : BitVec 32 := 2#32
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v44 : BitVec 32 := Scalar.subi c1_i32_23 v18
  let v45 : BitVec 32 := Scalar.muli c2_i32_24 v44
  let c1_i32_25 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v46 : BitVec 32 := Scalar.subi c1_i32_25 v28
  let v47 : BitVec 32 := Scalar.addi v45 v46
  let c256_i32_751 : BitVec 32 := 256#32
  let v913 : BitVec 32 := Scalar.muli v47 c256_i32_751
  let v914 : BitVec 32 := Scalar.addi v913 c192_i32_752
  let v915 : Index := Scalar.indexCast v914
  let c0_753 : Index := 0#32
  ![v915.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S10_S1_0 : ∀ a, (![0] : Fin 1 → Nat) a + S1.size a ≤ S10.size a
  squeezes_S1_S_ : S1.Squeezes S_
  inb_S256x512_S32x512_0_0 : ∀ a, (![0, 0] : Fin 2 → Nat) a + S32x512.size a ≤ S256x512.size a
  inb_S10_S1_1 : ∀ a, (![1] : Fin 1 → Nat) a + S1.size a ≤ S10.size a
  inb_S256x512_S32x512_32_0 : ∀ a, (![32, 0] : Fin 2 → Nat) a + S32x512.size a ≤ S256x512.size a
  inb_S10_S1_2 : ∀ a, (![2] : Fin 1 → Nat) a + S1.size a ≤ S10.size a
  inb_S256x512_S32x512_64_0 : ∀ a, (![64, 0] : Fin 2 → Nat) a + S32x512.size a ≤ S256x512.size a
  inb_S10_S1_3 : ∀ a, (![3] : Fin 1 → Nat) a + S1.size a ≤ S10.size a
  inb_S256x512_S32x512_96_0 : ∀ a, (![96, 0] : Fin 2 → Nat) a + S32x512.size a ≤ S256x512.size a
  inb_S10_S1_4 : ∀ a, (![4] : Fin 1 → Nat) a + S1.size a ≤ S10.size a
  inb_S256x512_S32x512_128_0 : ∀ a, (![128, 0] : Fin 2 → Nat) a + S32x512.size a ≤ S256x512.size a
  inb_S10_S1_5 : ∀ a, (![5] : Fin 1 → Nat) a + S1.size a ≤ S10.size a
  inb_S256x512_S32x512_160_0 : ∀ a, (![160, 0] : Fin 2 → Nat) a + S32x512.size a ≤ S256x512.size a
  inb_S10_S1_6 : ∀ a, (![6] : Fin 1 → Nat) a + S1.size a ≤ S10.size a
  inb_S256x512_S32x512_192_0 : ∀ a, (![192, 0] : Fin 2 → Nat) a + S32x512.size a ≤ S256x512.size a
  inb_S10_S1_7 : ∀ a, (![7] : Fin 1 → Nat) a + S1.size a ≤ S10.size a
  inb_S256x512_S32x512_224_0 : ∀ a, (![224, 0] : Fin 2 → Nat) a + S32x512.size a ≤ S256x512.size a
  inb_S10_S1_8 : ∀ a, (![8] : Fin 1 → Nat) a + S1.size a ≤ S10.size a
  inb_S64x512_S32x512_0_0 : ∀ a, (![0, 0] : Fin 2 → Nat) a + S32x512.size a ≤ S64x512.size a
  inb_S10_S1_9 : ∀ a, (![9] : Fin 1 → Nat) a + S1.size a ≤ S10.size a
  inb_S64x512_S32x512_32_0 : ∀ a, (![32, 0] : Fin 2 → Nat) a + S32x512.size a ≤ S64x512.size a
  h_S32x512 : 0 < S32x512.numel
  shapeCasts_S32x512_S32x512 : S32x512.ShapeCasts S32x512
  inb_S8_S1_0 : ∀ a, (![0] : Fin 1 → Nat) a + S1.size a ≤ S8.size a
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  hcc0_scratch6 : 2 + S10.numel ≤ 86
  hcc0_scratch7 : 12 + S10.numel ≤ 86
  hcc0_scratch8 : 22 + S8.numel ≤ 86
  hcc0_scratch9 : 30 + S8.numel ≤ 86
  hcc0_scratch10 : 38 + S8.numel ≤ 86
  hcc0_scratch11 : 46 + S8.numel ≤ 86
  hcc0_scratch12 : 54 + S8.numel ≤ 86
  hcc0_scratch13 : 62 + S8.numel ≤ 86
  hcc0_scratch14 : 70 + S8.numel ≤ 86
  hcc0_scratch15 : 78 + S8.numel ≤ 86
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 8), ∀ a, (k0_off1 d0 (BitVec.ofNat 32 (32 * r.val))) a + S32x512.size a ≤ S1024x512.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off2_inb : ∀ d0 : Dev nD, ∀ (r : Fin 2), ∀ a, (k0_off2 d0 (BitVec.ofNat 32 (192 + 32 * r.val))) a + S32x512.size a ≤ S1024x512.size a
  k0_dev12_lt : ∀ d0 : Dev nD, (k0_dev12 d0) < nD
  k0_dev13_lt : ∀ d0 : Dev nD, (k0_dev13 d0) < nD
  k0_off3_inb : ∀ d0 : Dev nD, ∀ (r : Fin 8), ∀ a, (k0_off3 d0 (BitVec.ofNat 32 (32 * r.val))) a + S32x512.size a ≤ S1024x512.size a
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_off4_inb : ∀ d0 : Dev nD, ∀ (r : Fin 8), ∀ a, (k0_off4 d0 (BitVec.ofNat 32 (32 * r.val))) a + S32x512.size a ≤ S1024x512.size a
  k0_dev30_lt : ∀ d0 : Dev nD, (k0_dev30 d0) < nD
  k0_off5_inb : ∀ d0 : Dev nD, ∀ (r : Fin 8), ∀ a, (k0_off5 d0 (BitVec.ofNat 32 (32 * r.val))) a + S32x512.size a ≤ S1024x512.size a
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_off6_inb : ∀ d0 : Dev nD, ∀ (r : Fin 8), ∀ a, (k0_off6 d0 (BitVec.ofNat 32 (32 * r.val))) a + S32x512.size a ≤ S1024x512.size a
  hstage0_0 : ∀ j, (stage0_0 j).IsWhole
  hstage0_1 : ∀ j, (stage0_1 j).IsWhole

variable [Facts₀]

abbrev cc0_scratch6 : DmaSems sig S10 := SemArray.consecutive 2 S10 hcc0_scratch6
abbrev cc0_scratch7 : DmaSems sig S10 := SemArray.consecutive 12 S10 hcc0_scratch7
abbrev cc0_scratch8 : DmaSems sig S8 := SemArray.consecutive 22 S8 hcc0_scratch8
abbrev cc0_scratch9 : DmaSems sig S8 := SemArray.consecutive 30 S8 hcc0_scratch9
abbrev cc0_scratch10 : DmaSems sig S8 := SemArray.consecutive 38 S8 hcc0_scratch10
abbrev cc0_scratch11 : DmaSems sig S8 := SemArray.consecutive 46 S8 hcc0_scratch11
abbrev cc0_scratch12 : DmaSems sig S8 := SemArray.consecutive 54 S8 hcc0_scratch12
abbrev cc0_scratch13 : DmaSems sig S8 := SemArray.consecutive 62 S8 hcc0_scratch13
abbrev cc0_scratch14 : DmaSems sig S8 := SemArray.consecutive 70 S8 hcc0_scratch14
abbrev cc0_scratch15 : DmaSems sig S8 := SemArray.consecutive 78 S8 hcc0_scratch15

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩
abbrev S2x1024x512 : Shape := ⟨3, ![2, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2x1024x512, .f32⟩
  | .hbm, ⟨2, _⟩ => ⟨S_, .f32⟩
  | .hbm, ⟨3, _⟩ => ⟨S1024x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S2048x512_S2x1024x512 : S2048x512.ShapeCasts S2x1024x512
  reducesTo_S2x1024x512_S1024x512_d0 : S2x1024x512.ReducesTo [0] S1024x512
  h_S_ : 0 < S_.numel

variable [Facts₀]

class Facts : Prop extends Facts₀ where

variable [Facts]
-- ==== Proof.RefValue.lean ====
import proofs.«900722_g7700000000000723_dist_ar_v7x_xyz2x4x4_x_m1024_n512_f32_1_alg».proof.Defs
import proofs.«900722_g7700000000000723_dist_ar_v7x_xyz2x4x4_x_m1024_n512_f32_1_alg».proof.Proof.Gen.ReferenceIdeal.Run
import proofs.«900722_g7700000000000723_dist_ar_v7x_xyz2x4x4_x_m1024_n512_f32_1_alg».proof.Proof.Gen.ReferenceIdeal.Read
import Idealize.ShloMosaic.Lib.Layout
import Idealize.ShloMosaic.Lib.ValueIdx
import Idealize.ShloMosaic.PureOps.Ideal.Laws

noncomputable section

namespace Cert.ARValue

open Idealize.ShloMosaic Idealize.ShloMosaic.TcCoe Idealize.SL.Sem Idealize.ShloMosaic.ValueIdx

abbrev Whole : Type := (⟨2, ![2048, 512]⟩ : Shape).Idx → EReal

abbrev Half : Type := (⟨2, ![1024, 512]⟩ : Shape).Idx → EReal

abbrev rowOf (k : Fin 2) (i : (⟨2, ![1024, 512]⟩ : Shape).Idx) : (⟨2, ![2048, 512]⟩ : Shape).Idx :=
  ix2 (⟨1024 * k.val + (i 0).val, by have h0 : (i 0).val < 1024 := (i 0).isLt; have hk := k.isLt; omega⟩ : Fin 2048)
    (⟨(i 1).val, (i 1).isLt⟩ : Fin 512)

def half (k : Fin 2) (X : Whole) : Half := fun i => X (rowOf k i)

def refOut (X : Whole) : Half := fun i => half 0 X i + half 1 X i

theorem half_apply (k : Fin 2) (X : Whole) (i : (⟨2, ![1024, 512]⟩ : Shape).Idx) : half k X i = X (rowOf k i) := rfl

theorem refOut_apply (X : Whole) (i : (⟨2, ![1024, 512]⟩ : Shape).Idx) :
    refOut X i = X (rowOf 0 i) + X (rowOf 1 i) := rfl

open Cert.ReferenceIdeal Cert.ReferenceIdeal.Gen in

theorem idx_slab (i : S1024x512.Idx) (k : Fin 2) :
    Cert.ReferenceIdeal.Read.idx_main_v0 (Cert.ReferenceIdeal.Read.idx_main_v1 i k) = rowOf k i := by
  funext a
  refine Fin.ext ?_
  have h0 : (i 0).val < 1024 := (i 0).isLt
  have h1 : (i 1).val < 512 := (i 1).isLt
  have hk : k.val < 2 := k.isLt
  match a with
  | ⟨0, _⟩ =>
    show ((k.val * 1024 + (i 0).val) * 512 + (i 1).val) / 512 = 1024 * k.val + (i 0).val
    omega
  | ⟨1, _⟩ =>
    show ((k.val * 1024 + (i 0).val) * 512 + (i 1).val) % 512 = (i 1).val
    omega

open Cert.ReferenceIdeal Cert.ReferenceIdeal.Gen in

theorem ref_eq (X : (⟨S2048x512, .f32⟩ : BufTy).Contents (Elt Ideal)) :
    Host.reduceAdd (shapeCast _ X shapeCasts_S2048x512_S2x1024x512) (constant (F := Ideal) S_ .f32 0x00000000#32)
      reducesTo_S2x1024x512_S1024x512_d0 h_S_ = refOut X := by
  rw [Cert.ReferenceIdeal.Read.val_main_v1_eq]
  funext i
  rw [Cert.ReferenceIdeal.Read.val_main_v1_apply, Fin.sum_univ_two,
    Cert.ReferenceIdeal.Read.val_main_v0_apply, Cert.ReferenceIdeal.Read.val_main_v0_apply,
    Cert.ReferenceIdeal.Read.val_main_cst_apply, idx_slab, idx_slab]
  show Ideal.ofBits .f32 0x00000000#32 + (X (rowOf 0 i) + X (rowOf 1 i)) = X (rowOf 0 i) + X (rowOf 1 i)
  rw [Ideal.ofBits_zero_f32, zero_add]

theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev Cert.ReferenceIdeal.nD).tc : Thread Cert.ReferenceIdeal.nD Cert.ReferenceIdeal.τ).loc Cert.ReferenceIdeal.main_v1)
            = refOut (m' (((0 : Dev Cert.ReferenceIdeal.nD).tc : Thread Cert.ReferenceIdeal.nD Cert.ReferenceIdeal.τ).loc Cert.ReferenceIdeal.main_arg0))
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => ⟨(h 0).1.trans (ref_eq _), (h 0).2⟩)
    (Cert.ReferenceIdeal.Value.run (F := Ideal) m' ρ')

theorem frame_ri [Cert.Pre_finite_inputs_ReferenceIdeal.Facts] : Cert.frame_ReferenceIdeal := fun m ρ _ =>
  (θ_run Cert.ReferenceIdeal.defs _ _).mono (fun _ h c => (h c).2) (Cert.ReferenceIdeal.Value.run (F := Ideal) m ρ)

abbrev xb (c : Dev 32) (X : Whole) : Half :=
  Layout.blockN ⟨2, ![1024, 512]⟩ ⟨2, ![2048, 512]⟩ (Layout.meshBlock [2, 4, 4] ![[0], []] c) X

theorem meshLin_axis0 : ∀ c : Fin 32, Layout.meshLin [2, 4, 4] c.val [0] = c.val / 16 := by decide

abbrev halfNo (c : Dev 32) : Fin 2 := ⟨c.val / 16, by have := c.isLt; omega⟩

theorem xb_apply (c : Dev 32) (X : Whole) (i : (⟨2, ![1024, 512]⟩ : Shape).Idx) :
    xb c X i = X (rowOf (halfNo c) i) := by
  show X _ = X _
  refine congrArg X (funext fun b => Fin.ext ?_)
  match b with
  | ⟨0, _⟩ =>
    show Layout.meshLin [2, 4, 4] c.val [0] * 1024 + (i 0).val = 1024 * (c.val / 16) + (i 0).val
    rw [meshLin_axis0 c]; omega
  | ⟨1, _⟩ =>
    show 0 * 512 + (i 1).val = (i 1).val
    omega

theorem xb_eq_half (c : Dev 32) (X : Whole) : xb c X = half (halfNo c) X := funext fun i => xb_apply c X i

theorem xb_congr {c c' : Dev 32} (h : c.val / 16 = c'.val / 16) (X : Whole) : xb c X = xb c' X := by
  rw [xb_eq_half, xb_eq_half, show halfNo c = halfNo c' from Fin.ext h]

theorem join_apply {c p : Dev 32} (h : p.val / 16 = 1 - c.val / 16) (X : Whole) (i : (⟨2, ![1024, 512]⟩ : Shape).Idx) :
    (show EReal from xb c X i) + xb p X i = refOut X i := by
  have hc := c.isLt
  have hp := p.isLt
  rw [xb_eq_half, xb_eq_half]
  rcases Nat.lt_or_ge c.val 16 with hlt | hge
  · have e0 : halfNo c = 0 := Fin.ext (show c.val / 16 = 0 by omega)
    have e1 : halfNo p = 1 := Fin.ext (show p.val / 16 = 1 by omega)
    rw [e0, e1]; rfl
  · have e0 : halfNo c = 1 := Fin.ext (show c.val / 16 = 1 by omega)
    have e1 : halfNo p = 0 := Fin.ext (show p.val / 16 = 0 by omega)
    rw [e0, e1]; exact add_comm (G := EReal) _ _

theorem join {c p : Dev 32} (h : p.val / 16 = 1 - c.val / 16) (X : Whole) :
    (fun i => (show EReal from xb c X i) + xb p X i) = refOut X := funext fun i => join_apply h X i

theorem other_half {c p : Dev 32} (h : p.val = (c.val + 16) % 32) : p.val / 16 = 1 - c.val / 16 := by
  have := c.isLt; omega

theorem same_half {c p : Dev 32} (h : p.val / 16 = c.val / 16) (X : Whole) : xb p X = xb c X := xb_congr h X

theorem algebraic_of_run [Cert.KernelIdeal.Facts] [Cert.Pre_finite_inputs_Kernel.Facts]
    (hk : ∀ (m : (ℓ : Loc Cert.KernelIdeal.nD Cert.KernelIdeal.τ Cert.KernelIdeal.sig) → Buf (Elt Ideal) ℓ)
        (g : Dev Cert.KernelIdeal.nD → PrngReg) (X : Whole), Cert.Pre_KernelIdeal m →
        (∀ c : Dev Cert.KernelIdeal.nD,
          m ((c.tc : Thread Cert.KernelIdeal.nD Cert.KernelIdeal.τ).loc Cert.KernelIdeal.main_arg0) = xb c X) →
        θ_run (Cert.KernelIdeal.defs (F := Ideal)) (onTc (τ := Cert.KernelIdeal.τ) (Cert.KernelIdeal.main (F := Ideal)))
          ⟨m, fun _ => 0, g⟩ (fun r => ∀ c : Dev Cert.KernelIdeal.nD,
            r.2.mem ((c.tc : Thread Cert.KernelIdeal.nD Cert.KernelIdeal.τ).loc Cert.KernelIdeal.main_v1) = refOut X
            ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0))) :
    Cert.algebraic_KernelIdeal_ReferenceIdeal :=
  fun m g m' g' hpre hagree => ⟨refOut _, hk m g _ hpre hagree, ref_run m' g'⟩

example [Cert.Pre_finite_inputs_ReferenceIdeal.Facts] :
    Cert.frame_ReferenceIdeal (hReferenceIdeal := Cert.ReferenceIdeal.Gen.facts) := frame_ri

end Cert.ARValue

end
-- ==== Proof.Mesh.lean ====
import proofs.«900722_g7700000000000723_dist_ar_v7x_xyz2x4x4_x_m1024_n512_f32_1_alg».proof.Proof.Gen.KernelIdeal

set_option Elab.async false

namespace Cert.KernelIdeal.AR

open Idealize.ShloMosaic Idealize.SL.Sem
open Cert.KernelIdeal Cert.KernelIdeal.Gen

def px (c : Dev nD) : Dev nD := ⟨c.val + 16 - 32 * (c.val / 16), by have h : c.val < 32 := c.isLt; show _ < 32; omega⟩

def py (c : Dev nD) : Dev nD := ⟨c.val + 4 - 8 * (c.val / 4 % 2), by have h : c.val < 32 := c.isLt; show _ < 32; omega⟩

def pz (c : Dev nD) : Dev nD := ⟨c.val + 1 - 2 * (c.val % 2), by have h : c.val < 32 := c.isLt; show _ < 32; omega⟩

theorem px_val (c : Dev nD) : (px c).val = c.val + 16 - 32 * (c.val / 16) := rfl
theorem py_val (c : Dev nD) : (py c).val = c.val + 4 - 8 * (c.val / 4 % 2) := rfl
theorem pz_val (c : Dev nD) : (pz c).val = c.val + 1 - 2 * (c.val % 2) := rfl

theorem px_px (c : Dev nD) : px (px c) = c := by revert c; decide +kernel
theorem py_py (c : Dev nD) : py (py c) = c := by revert c; decide +kernel
theorem pz_pz (c : Dev nD) : pz (pz c) = c := by revert c; decide +kernel

theorem py_pz (c : Dev nD) : py (pz c) = pz (py c) := by revert c; decide +kernel
theorem px_py (c : Dev nD) : px (py c) = py (px c) := by revert c; decide +kernel
theorem px_pz (c : Dev nD) : px (pz c) = pz (px c) := by revert c; decide +kernel

theorem px_ne (c : Dev nD) : px c ≠ c := by revert c; decide +kernel
theorem py_ne (c : Dev nD) : py c ≠ c := by revert c; decide +kernel
theorem pz_ne (c : Dev nD) : pz c ≠ c := by revert c; decide +kernel
theorem px_ne_py (c : Dev nD) : px c ≠ py c := by revert c; decide +kernel
theorem px_ne_pz (c : Dev nD) : px c ≠ pz c := by revert c; decide +kernel
theorem py_ne_pz (c : Dev nD) : py c ≠ pz c := by revert c; decide +kernel
theorem py_pz_ne (c : Dev nD) : py (pz c) ≠ c := by revert c; decide +kernel
theorem py_pz_ne_px (c : Dev nD) : py (pz c) ≠ px c := by revert c; decide +kernel
theorem py_pz_ne_py (c : Dev nD) : py (pz c) ≠ py c := by revert c; decide +kernel
theorem py_pz_ne_pz (c : Dev nD) : py (pz c) ≠ pz c := by revert c; decide +kernel

theorem px_inj {c d : Dev nD} (h : px c = px d) : c = d := by rw [← px_px c, h, px_px]
theorem py_inj {c d : Dev nD} (h : py c = py d) : c = d := by rw [← py_py c, h, py_py]
theorem pz_inj {c d : Dev nD} (h : pz c = pz d) : c = d := by rw [← pz_pz c, h, pz_pz]

@[sl_canon] theorem dev1_eq (c : Dev nD) : (⟨k0_dev1 c, k0_dev1_lt c⟩ : Dev nD) = px c := by revert c; decide +kernel
@[sl_canon] theorem dev2_eq (c : Dev nD) : (⟨k0_dev2 c, k0_dev2_lt c⟩ : Dev nD) = py c := by revert c; decide +kernel
@[sl_canon] theorem dev3_eq (c : Dev nD) : (⟨k0_dev3 c, k0_dev3_lt c⟩ : Dev nD) = pz c := by revert c; decide +kernel
@[sl_canon] theorem dev4_eq (c : Dev nD) : (⟨k0_dev4 c, k0_dev4_lt c⟩ : Dev nD) = px c := by revert c; decide +kernel
@[sl_canon] theorem dev5_eq (c : Dev nD) : (⟨k0_dev5 c, k0_dev5_lt c⟩ : Dev nD) = px c := by revert c; decide +kernel
@[sl_canon] theorem dev6_eq (c : Dev nD) : (⟨k0_dev6 c, k0_dev6_lt c⟩ : Dev nD) = px c := by revert c; decide +kernel
@[sl_canon] theorem dev7_eq (c : Dev nD) : (⟨k0_dev7 c, k0_dev7_lt c⟩ : Dev nD) = px c := by revert c; decide +kernel
@[sl_canon] theorem dev8_eq (c : Dev nD) : (⟨k0_dev8 c, k0_dev8_lt c⟩ : Dev nD) = px c := by revert c; decide +kernel
@[sl_canon] theorem dev9_eq (c : Dev nD) : (⟨k0_dev9 c, k0_dev9_lt c⟩ : Dev nD) = px c := by revert c; decide +kernel
@[sl_canon] theorem dev10_eq (c : Dev nD) : (⟨k0_dev10 c, k0_dev10_lt c⟩ : Dev nD) = px c := by revert c; decide +kernel
@[sl_canon] theorem dev11_eq (c : Dev nD) : (⟨k0_dev11 c, k0_dev11_lt c⟩ : Dev nD) = px c := by revert c; decide +kernel
@[sl_canon] theorem dev12_eq (c : Dev nD) : (⟨k0_dev12 c, k0_dev12_lt c⟩ : Dev nD) = px c := by revert c; decide +kernel
@[sl_canon] theorem dev13_eq (c : Dev nD) : (⟨k0_dev13 c, k0_dev13_lt c⟩ : Dev nD) = px c := by revert c; decide +kernel
@[sl_canon] theorem dev14_eq (c : Dev nD) : (⟨k0_dev14 c, k0_dev14_lt c⟩ : Dev nD) = py c := by revert c; decide +kernel
@[sl_canon] theorem dev15_eq (c : Dev nD) : (⟨k0_dev15 c, k0_dev15_lt c⟩ : Dev nD) = pz c := by revert c; decide +kernel
@[sl_canon] theorem dev16_eq (c : Dev nD) : (⟨k0_dev16 c, k0_dev16_lt c⟩ : Dev nD) = py c := by revert c; decide +kernel
@[sl_canon] theorem dev17_eq (c : Dev nD) : (⟨k0_dev17 c, k0_dev17_lt c⟩ : Dev nD) = pz c := by revert c; decide +kernel
@[sl_canon] theorem dev18_eq (c : Dev nD) : (⟨k0_dev18 c, k0_dev18_lt c⟩ : Dev nD) = py c := by revert c; decide +kernel
@[sl_canon] theorem dev19_eq (c : Dev nD) : (⟨k0_dev19 c, k0_dev19_lt c⟩ : Dev nD) = pz c := by revert c; decide +kernel
@[sl_canon] theorem dev20_eq (c : Dev nD) : (⟨k0_dev20 c, k0_dev20_lt c⟩ : Dev nD) = py c := by revert c; decide +kernel
@[sl_canon] theorem dev21_eq (c : Dev nD) : (⟨k0_dev21 c, k0_dev21_lt c⟩ : Dev nD) = pz c := by revert c; decide +kernel
@[sl_canon] theorem dev22_eq (c : Dev nD) : (⟨k0_dev22 c, k0_dev22_lt c⟩ : Dev nD) = py c := by revert c; decide +kernel
@[sl_canon] theorem dev23_eq (c : Dev nD) : (⟨k0_dev23 c, k0_dev23_lt c⟩ : Dev nD) = pz c := by revert c; decide +kernel
@[sl_canon] theorem dev24_eq (c : Dev nD) : (⟨k0_dev24 c, k0_dev24_lt c⟩ : Dev nD) = py c := by revert c; decide +kernel
@[sl_canon] theorem dev25_eq (c : Dev nD) : (⟨k0_dev25 c, k0_dev25_lt c⟩ : Dev nD) = pz c := by revert c; decide +kernel
@[sl_canon] theorem dev26_eq (c : Dev nD) : (⟨k0_dev26 c, k0_dev26_lt c⟩ : Dev nD) = py c := by revert c; decide +kernel
@[sl_canon] theorem dev27_eq (c : Dev nD) : (⟨k0_dev27 c, k0_dev27_lt c⟩ : Dev nD) = pz c := by revert c; decide +kernel
@[sl_canon] theorem dev28_eq (c : Dev nD) : (⟨k0_dev28 c, k0_dev28_lt c⟩ : Dev nD) = py c := by revert c; decide +kernel
@[sl_canon] theorem dev29_eq (c : Dev nD) : (⟨k0_dev29 c, k0_dev29_lt c⟩ : Dev nD) = pz c := by revert c; decide +kernel
@[sl_canon] theorem dev30_eq (c : Dev nD) : (⟨k0_dev30 c, k0_dev30_lt c⟩ : Dev nD) = pz c := by revert c; decide +kernel
@[sl_canon] theorem dev31_eq (c : Dev nD) : (⟨k0_dev31 c, k0_dev31_lt c⟩ : Dev nD) = pz c := by revert c; decide +kernel
@[sl_canon] theorem dev32_eq (c : Dev nD) : (⟨k0_dev32 c, k0_dev32_lt c⟩ : Dev nD) = pz c := by revert c; decide +kernel
@[sl_canon] theorem dev33_eq (c : Dev nD) : (⟨k0_dev33 c, k0_dev33_lt c⟩ : Dev nD) = py c := by revert c; decide +kernel
@[sl_canon] theorem dev34_eq (c : Dev nD) : (⟨k0_dev34 c, k0_dev34_lt c⟩ : Dev nD) = py c := by revert c; decide +kernel
@[sl_canon] theorem dev35_eq (c : Dev nD) : (⟨k0_dev35 c, k0_dev35_lt c⟩ : Dev nD) = py c := by revert c; decide +kernel

def qm (c : Dev nD) : ℕ := 2 * (c.val / 4 % 2) + c.val % 2

def qy (c : Dev nD) : ℕ := 2 * (1 - c.val / 4 % 2) + c.val % 2

def qz (c : Dev nD) : ℕ := 2 * (c.val / 4 % 2) + (1 - c.val % 2)

def qd (c : Dev nD) : ℕ := 2 * (1 - c.val / 4 % 2) + (1 - c.val % 2)

theorem qm_lt (c : Dev nD) : qm c < 4 := by unfold qm; omega
theorem qy_lt (c : Dev nD) : qy c < 4 := by unfold qy; omega
theorem qz_lt (c : Dev nD) : qz c < 4 := by unfold qz; omega
theorem qd_lt (c : Dev nD) : qd c < 4 := by unfold qd; omega

theorem qm_ne_qy (c : Dev nD) : qm c ≠ qy c := by unfold qm qy; omega
theorem qm_ne_qz (c : Dev nD) : qm c ≠ qz c := by unfold qm qz; omega
theorem qm_ne_qd (c : Dev nD) : qm c ≠ qd c := by unfold qm qd; omega
theorem qy_ne_qz (c : Dev nD) : qy c ≠ qz c := by unfold qy qz; omega
theorem qy_ne_qd (c : Dev nD) : qy c ≠ qd c := by unfold qy qd; omega
theorem qz_ne_qd (c : Dev nD) : qz c ≠ qd c := by unfold qz qd; omega

theorem quarter_cases (c : Dev nD) (q : ℕ) (hq : q < 4) : q = qm c ∨ q = qy c ∨ q = qz c ∨ q = qd c := by
  unfold qm qy qz qd; omega

theorem qm_px (c : Dev nD) : qm (px c) = qm c := by revert c; decide +kernel
theorem qy_px (c : Dev nD) : qy (px c) = qy c := by revert c; decide +kernel
theorem qz_px (c : Dev nD) : qz (px c) = qz c := by revert c; decide +kernel
theorem qd_px (c : Dev nD) : qd (px c) = qd c := by revert c; decide +kernel

theorem qm_py (c : Dev nD) : qm (py c) = qy c := by revert c; decide +kernel
theorem qy_py (c : Dev nD) : qy (py c) = qm c := by revert c; decide +kernel
theorem qz_py (c : Dev nD) : qz (py c) = qd c := by revert c; decide +kernel
theorem qd_py (c : Dev nD) : qd (py c) = qz c := by revert c; decide +kernel

theorem qm_pz (c : Dev nD) : qm (pz c) = qz c := by revert c; decide +kernel
theorem qz_pz (c : Dev nD) : qz (pz c) = qm c := by revert c; decide +kernel
theorem qy_pz (c : Dev nD) : qy (pz c) = qd c := by revert c; decide +kernel
theorem qd_pz (c : Dev nD) : qd (pz c) = qy c := by revert c; decide +kernel

theorem off1_pt : ∀ (c : Dev nD) (r : Fin 8) (a : Fin 2),
    k0_off1 c (BitVec.ofNat 32 (32 * r.val)) a = (![256 * qm c + 32 * r.val, 0] : Fin 2 → ℕ) a := by decide +kernel
theorem off1_eq (c : Dev nD) (r : Fin 8) :
    k0_off1 c (BitVec.ofNat 32 (32 * r.val)) = ![256 * qm c + 32 * r.val, 0] := funext (off1_pt c r)

theorem off3_pt : ∀ (c : Dev nD) (r : Fin 8) (a : Fin 2),
    k0_off3 c (BitVec.ofNat 32 (32 * r.val)) a = (![256 * qm c + 32 * r.val, 0] : Fin 2 → ℕ) a := by decide +kernel
theorem off3_eq (c : Dev nD) (r : Fin 8) :
    k0_off3 c (BitVec.ofNat 32 (32 * r.val)) = ![256 * qm c + 32 * r.val, 0] := funext (off3_pt c r)

theorem off4_pt : ∀ (c : Dev nD) (r : Fin 8) (a : Fin 2),
    k0_off4 c (BitVec.ofNat 32 (32 * r.val)) a = (![256 * qy c + 32 * r.val, 0] : Fin 2 → ℕ) a := by decide +kernel
theorem off4_eq (c : Dev nD) (r : Fin 8) :
    k0_off4 c (BitVec.ofNat 32 (32 * r.val)) = ![256 * qy c + 32 * r.val, 0] := funext (off4_pt c r)

theorem off5_pt : ∀ (c : Dev nD) (r : Fin 8) (a : Fin 2),
    k0_off5 c (BitVec.ofNat 32 (32 * r.val)) a = (![256 * qz c + 32 * r.val, 0] : Fin 2 → ℕ) a := by decide +kernel
theorem off5_eq (c : Dev nD) (r : Fin 8) :
    k0_off5 c (BitVec.ofNat 32 (32 * r.val)) = ![256 * qz c + 32 * r.val, 0] := funext (off5_pt c r)

theorem off6_pt : ∀ (c : Dev nD) (r : Fin 8) (a : Fin 2),
    k0_off6 c (BitVec.ofNat 32 (32 * r.val)) a = (![256 * qd c + 32 * r.val, 0] : Fin 2 → ℕ) a := by decide +kernel
theorem off6_eq (c : Dev nD) (r : Fin 8) :
    k0_off6 c (BitVec.ofNat 32 (32 * r.val)) = ![256 * qd c + 32 * r.val, 0] := funext (off6_pt c r)

theorem off2_pt : ∀ (c : Dev nD) (r : Fin 2) (a : Fin 2),
    k0_off2 c (BitVec.ofNat 32 (192 + 32 * r.val)) a = (![256 * qd c + 192 + 32 * r.val, 0] : Fin 2 → ℕ) a := by decide +kernel
theorem off2_eq (c : Dev nD) (r : Fin 2) :
    k0_off2 c (BitVec.ofNat 32 (192 + 32 * r.val)) = ![256 * qd c + 192 + 32 * r.val, 0] := funext (off2_pt c r)

theorem off1_w0 (c : Dev nD) : k0_off1 c 0#32 = ![256 * qm c, 0] := off1_eq c 0
theorem off1_w32 (c : Dev nD) : k0_off1 c 32#32 = ![256 * qm c + 32, 0] := off1_eq c 1
theorem off1_w64 (c : Dev nD) : k0_off1 c 64#32 = ![256 * qm c + 64, 0] := off1_eq c 2
theorem off1_w96 (c : Dev nD) : k0_off1 c 96#32 = ![256 * qm c + 96, 0] := off1_eq c 3
theorem off1_w128 (c : Dev nD) : k0_off1 c 128#32 = ![256 * qm c + 128, 0] := off1_eq c 4
theorem off1_w160 (c : Dev nD) : k0_off1 c 160#32 = ![256 * qm c + 160, 0] := off1_eq c 5
theorem off1_w192 (c : Dev nD) : k0_off1 c 192#32 = ![256 * qm c + 192, 0] := off1_eq c 6
theorem off1_w224 (c : Dev nD) : k0_off1 c 224#32 = ![256 * qm c + 224, 0] := off1_eq c 7

theorem off3_w0 (c : Dev nD) : k0_off3 c 0#32 = ![256 * qm c, 0] := off3_eq c 0
theorem off3_w32 (c : Dev nD) : k0_off3 c 32#32 = ![256 * qm c + 32, 0] := off3_eq c 1
theorem off3_w64 (c : Dev nD) : k0_off3 c 64#32 = ![256 * qm c + 64, 0] := off3_eq c 2
theorem off3_w96 (c : Dev nD) : k0_off3 c 96#32 = ![256 * qm c + 96, 0] := off3_eq c 3
theorem off3_w128 (c : Dev nD) : k0_off3 c 128#32 = ![256 * qm c + 128, 0] := off3_eq c 4
theorem off3_w160 (c : Dev nD) : k0_off3 c 160#32 = ![256 * qm c + 160, 0] := off3_eq c 5
theorem off3_w192 (c : Dev nD) : k0_off3 c 192#32 = ![256 * qm c + 192, 0] := off3_eq c 6
theorem off3_w224 (c : Dev nD) : k0_off3 c 224#32 = ![256 * qm c + 224, 0] := off3_eq c 7

theorem off4_w0 (c : Dev nD) : k0_off4 c 0#32 = ![256 * qy c, 0] := off4_eq c 0
theorem off4_w32 (c : Dev nD) : k0_off4 c 32#32 = ![256 * qy c + 32, 0] := off4_eq c 1
theorem off4_w64 (c : Dev nD) : k0_off4 c 64#32 = ![256 * qy c + 64, 0] := off4_eq c 2
theorem off4_w96 (c : Dev nD) : k0_off4 c 96#32 = ![256 * qy c + 96, 0] := off4_eq c 3
theorem off4_w128 (c : Dev nD) : k0_off4 c 128#32 = ![256 * qy c + 128, 0] := off4_eq c 4
theorem off4_w160 (c : Dev nD) : k0_off4 c 160#32 = ![256 * qy c + 160, 0] := off4_eq c 5
theorem off4_w192 (c : Dev nD) : k0_off4 c 192#32 = ![256 * qy c + 192, 0] := off4_eq c 6
theorem off4_w224 (c : Dev nD) : k0_off4 c 224#32 = ![256 * qy c + 224, 0] := off4_eq c 7

theorem off5_w0 (c : Dev nD) : k0_off5 c 0#32 = ![256 * qz c, 0] := off5_eq c 0
theorem off5_w32 (c : Dev nD) : k0_off5 c 32#32 = ![256 * qz c + 32, 0] := off5_eq c 1
theorem off5_w64 (c : Dev nD) : k0_off5 c 64#32 = ![256 * qz c + 64, 0] := off5_eq c 2
theorem off5_w96 (c : Dev nD) : k0_off5 c 96#32 = ![256 * qz c + 96, 0] := off5_eq c 3
theorem off5_w128 (c : Dev nD) : k0_off5 c 128#32 = ![256 * qz c + 128, 0] := off5_eq c 4
theorem off5_w160 (c : Dev nD) : k0_off5 c 160#32 = ![256 * qz c + 160, 0] := off5_eq c 5
theorem off5_w192 (c : Dev nD) : k0_off5 c 192#32 = ![256 * qz c + 192, 0] := off5_eq c 6
theorem off5_w224 (c : Dev nD) : k0_off5 c 224#32 = ![256 * qz c + 224, 0] := off5_eq c 7

theorem off6_w0 (c : Dev nD) : k0_off6 c 0#32 = ![256 * qd c, 0] := off6_eq c 0
theorem off6_w32 (c : Dev nD) : k0_off6 c 32#32 = ![256 * qd c + 32, 0] := off6_eq c 1
theorem off6_w64 (c : Dev nD) : k0_off6 c 64#32 = ![256 * qd c + 64, 0] := off6_eq c 2
theorem off6_w96 (c : Dev nD) : k0_off6 c 96#32 = ![256 * qd c + 96, 0] := off6_eq c 3
theorem off6_w128 (c : Dev nD) : k0_off6 c 128#32 = ![256 * qd c + 128, 0] := off6_eq c 4
theorem off6_w160 (c : Dev nD) : k0_off6 c 160#32 = ![256 * qd c + 160, 0] := off6_eq c 5
theorem off6_w192 (c : Dev nD) : k0_off6 c 192#32 = ![256 * qd c + 192, 0] := off6_eq c 6
theorem off6_w224 (c : Dev nD) : k0_off6 c 224#32 = ![256 * qd c + 224, 0] := off6_eq c 7

theorem off2_w192 (c : Dev nD) : k0_off2 c 192#32 = ![256 * qd c + 192, 0] := off2_eq c 0
theorem off2_w224 (c : Dev nD) : k0_off2 c 224#32 = ![256 * qd c + 224, 0] := off2_eq c 1
end Cert.KernelIdeal.AR
-- ==== Proof.Cells.lean ====
import proofs.«900722_g7700000000000723_dist_ar_v7x_xyz2x4x4_x_m1024_n512_f32_1_alg».proof.Proof.Mesh
import proofs.«900722_g7700000000000723_dist_ar_v7x_xyz2x4x4_x_m1024_n512_f32_1_alg».proof.Proof.Gen.KernelIdeal.Skeleton
import proofs.«900722_g7700000000000723_dist_ar_v7x_xyz2x4x4_x_m1024_n512_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev xM : Memref sig .tc .vmem S1024x512 .f32 := Memref.whole cc0_stg0_0
abbrev oM : Memref sig .tc .vmem S1024x512 .f32 := Memref.whole cc0_stg1_0
abbrev cxM : Memref sig .tc .vmem S256x512 .f32 := Memref.whole cc0_scratch0
abbrev cdM : Memref sig .tc .vmem S64x512 .f32 := Memref.whole cc0_scratch1
abbrev sqM : Memref sig .tc .vmem S256x512 .f32 := Memref.whole cc0_scratch2
abbrev ryM : Memref sig .tc .vmem S256x512 .f32 := Memref.whole cc0_scratch3
abbrev rzM : Memref sig .tc .vmem S256x512 .f32 := Memref.whole cc0_scratch4
abbrev rdM : Memref sig .tc .vmem S256x512 .f32 := Memref.whole cc0_scratch5

theorem inb1024 (row : ℕ) (h : row + 32 ≤ 1024) : ∀ a, (![row, 0] : Fin 2 → Nat) a + S32x512.size a ≤ S1024x512.size a := by
  intro a; fin_cases a
  · show row + 32 ≤ 1024; exact h
  · show 0 + 512 ≤ 512; omega
theorem inb256 (k : Fin 8) : ∀ a, (![32 * k.val, 0] : Fin 2 → Nat) a + S32x512.size a ≤ S256x512.size a := by
  revert k; decide
theorem inb64 (j : Fin 2) : ∀ a, (![32 * j.val, 0] : Fin 2 → Nat) a + S32x512.size a ≤ S64x512.size a := by
  revert j; decide

abbrev r1024 (row : ℕ) (h : row + 32 ≤ 1024) : Rect S1024x512 := Rect.unit (s := S1024x512) ![row, 0] S32x512.size (inb1024 row h)

abbrev r256 (k : Fin 8) : Rect S256x512 := Rect.unit (s := S256x512) ![32 * k.val, 0] S32x512.size (inb256 k)

abbrev r64 (j : Fin 2) : Rect S64x512 := Rect.unit (s := S64x512) ![32 * j.val, 0] S32x512.size (inb64 j)

abbrev ch (M : Memref sig .tc .vmem S256x512 .f32) (k : Fin 8) : Memref sig .tc .vmem S32x512 .f32 := M.slice (r256 k) (fun _ => rfl)
abbrev ch64 (j : Fin 2) : Memref sig .tc .vmem S32x512 .f32 := cdM.slice (r64 j) (fun _ => rfl)
abbrev chRow (M : Memref sig .tc .vmem S1024x512 .f32) (row : ℕ) (h : row + 32 ≤ 1024) : Memref sig .tc .vmem S32x512 .f32 :=
  M.slice (r1024 row h) (fun _ => rfl)

theorem row_le (q : ℕ) (hq : q < 4) (k : Fin 8) : 256 * q + 32 * k.val + 32 ≤ 1024 := by have := k.isLt; omega

theorem inb10 (j : Fin 10) : ∀ a, (![j.val] : Fin 1 → Nat) a + S1.size a ≤ S10.size a := by revert j; decide
theorem inb8 (j : Fin 8) : ∀ a, (![j.val] : Fin 1 → Nat) a + S1.size a ≤ S8.size a := by revert j; decide

abbrev sem10 (A : DmaSems sig S10) (j : Fin 10) : DmaSem sig := ((A.slice (Rect.unit (s := S10) ![j.val] S1.size (inb10 j))).squeeze S_ squeezes_S1_S_).sem

abbrev sem8 (A : DmaSems sig S8) (k : Fin 8) : DmaSem sig := ((A.slice (Rect.unit (s := S8) ![k.val] S1.size (inb8 k))).squeeze S_ squeezes_S1_S_).sem

abbrev barS : Sem sig := (SemArray.scalar (sig.barrier 0 rfl) : Sems sig S_).sem

abbrev sxS (j : Fin 10) : DmaSem sig := sem10 cc0_scratch6 j
abbrev rxS (j : Fin 10) : DmaSem sig := sem10 cc0_scratch7 j
abbrev syS (k : Fin 8) : DmaSem sig := sem8 cc0_scratch8 k
abbrev ryS (k : Fin 8) : DmaSem sig := sem8 cc0_scratch9 k
abbrev szS (k : Fin 8) : DmaSem sig := sem8 cc0_scratch10 k
abbrev rzS (k : Fin 8) : DmaSem sig := sem8 cc0_scratch11 k
abbrev sfyS (k : Fin 8) : DmaSem sig := sem8 cc0_scratch12 k
abbrev rfyS (k : Fin 8) : DmaSem sig := sem8 cc0_scratch13 k
abbrev sfzS (k : Fin 8) : DmaSem sig := sem8 cc0_scratch14 k
abbrev rfzS (k : Fin 8) : DmaSem sig := sem8 cc0_scratch15 k

theorem sxS_val (j : Fin 10) : (sxS j).val = 2 + j.val := by revert j; decide
theorem rxS_val (j : Fin 10) : (rxS j).val = 12 + j.val := by revert j; decide
theorem syS_val (k : Fin 8) : (syS k).val = 22 + k.val := by revert k; decide
theorem ryS_val (k : Fin 8) : (ryS k).val = 30 + k.val := by revert k; decide
theorem szS_val (k : Fin 8) : (szS k).val = 38 + k.val := by revert k; decide
theorem rzS_val (k : Fin 8) : (rzS k).val = 46 + k.val := by revert k; decide
theorem sfyS_val (k : Fin 8) : (sfyS k).val = 54 + k.val := by revert k; decide
theorem rfyS_val (k : Fin 8) : (rfyS k).val = 62 + k.val := by revert k; decide
theorem sfzS_val (k : Fin 8) : (sfzS k).val = 70 + k.val := by revert k; decide
theorem rfzS_val (k : Fin 8) : (rfzS k).val = 78 + k.val := by revert k; decide

abbrev barCell (c : Dev nD) : GSem nD τ sig := ((c : Thread nD τ), .reg barS)
abbrev dcell (c : Dev nD) (s : DmaSem sig) : GSem nD τ sig := ((c : Thread nD τ), .dma s)

abbrev N : ℕ := (ch cxM 0 : Memref sig .tc .vmem S32x512 .f32).view.dmaCredit
theorem N_pos : 0 < N := View.dmaCredit_pos _ (by decide)

variable (m : (ℓ : Loc nD τ sig) → Buf (Elt F) ℓ)

def xb (c : Dev nD) : (cc0_stg0_0 : Ref sig .tc).ty.Contents (Elt F) :=
  (win0_0.blk (0 : Fin 1)).view.read (Elt F) (m ((c : Thread nD τ).loc main_arg0))

def X (c : Dev nD) (row : ℕ) (h : row + 32 ≤ 1024) : Vec F S32x512 .f32 :=
  (xM : Memref sig .tc .vmem S1024x512 .f32).view.readAt (Elt F) (r1024 row h).toLoadRect (xb m c)

def R (c : Dev nD) (row : ℕ) (h : row + 32 ≤ 1024) : Vec F S32x512 .f32 := addf (X m c row h) (X m (px c) row h)

def SQ (c : Dev nD) (k : Fin 8) : Vec F S32x512 .f32 := R m c (256 * qm c + 32 * k.val) (row_le _ (qm_lt c) k)

abbrev hL : PosShare TreeShare := fullShare.left
abbrev hR : PosShare TreeShare := fullShare.right

def canon (c : Dev nD) (v : Memref sig .tc .vmem S32x512 .f32) (V : Vec F S32x512 .f32) : Buf (Elt F) (v.view.loc (c : Thread nD τ)) :=
  v.view.write (Elt F) (m (v.view.loc (c : Thread nD τ))) V Finset.univ

def holds (c : Dev nD) (v : Memref sig .tc .vmem S32x512 .f32) (q : PosShare TreeShare) (V : Vec F S32x512 .f32) : sProp 𝕄 :=
  v.view.loc (c : Thread nD τ) ↦[v.view.set]{q} canon m c v V

def free (c : Dev nD) (v : Memref sig .tc .vmem S32x512 .f32) : sProp 𝕄 :=
  iprop(∃ f : Buf (Elt F) (v.view.loc (c : Thread nD τ)), v.view.loc (c : Thread nD τ) ↦[v.view.set]{fullShare} f)

def free8 (c : Dev nD) (M : Memref sig .tc .vmem S256x512 .f32) : sProp 𝕄 :=
  iprop(free (F := F) c (ch M 0) ∗ free (F := F) c (ch M 1) ∗ free (F := F) c (ch M 2) ∗ free (F := F) c (ch M 3)
    ∗ free (F := F) c (ch M 4) ∗ free (F := F) c (ch M 5) ∗ free (F := F) c (ch M 6) ∗ free (F := F) c (ch M 7))

def xholds (c : Dev nD) (row : ℕ) (h : row + 32 ≤ 1024) (q : PosShare TreeShare) : sProp 𝕄 :=
  (chRow xM row h).view.loc (c : Thread nD τ) ↦[(chRow xM row h).view.set]{q} xb m c

omit [FloatOps F] in
instance holds_storable (c : Dev nD) (v) (q) (V) : BI.Storable (upEmb : UEmb _ 𝕄) (holds (F := F) m c v q V) := by unfold holds; infer_instance
omit [FloatOps F] in
instance free_storable (c : Dev nD) (v) : BI.Storable (upEmb : UEmb _ 𝕄) (free (F := F) c v) := by unfold free; infer_instance
omit [FloatOps F] in
instance free8_storable (c : Dev nD) (M) : BI.Storable (upEmb : UEmb _ 𝕄) (free8 (F := F) c M) := by unfold free8; infer_instance
omit [FloatOps F] in
instance xholds_storable (c : Dev nD) (row h q) : BI.Storable (upEmb : UEmb _ 𝕄) (xholds (F := F) m c row h q) := by unfold xholds; infer_instance

end Cert.KernelIdeal.AR

end
-- ==== Proof.Sched.lean ====
import proofs.«900722_g7700000000000723_dist_ar_v7x_xyz2x4x4_x_m1024_n512_f32_1_alg».proof.Proof.Cells

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

inductive CK where
  | bar
  | sx (j : Fin 10) | rx (j : Fin 10)
  | sy (k : Fin 8) | ry (k : Fin 8) | sz (k : Fin 8) | rz (k : Fin 8)
  | sfy (k : Fin 8) | rfy (k : Fin 8) | sfz (k : Fin 8) | rfz (k : Fin 8)
  | other
  deriving DecidableEq

def decodeDma (n : ℕ) : CK :=
  if h : 2 ≤ n ∧ n < 12 then .sx ⟨n - 2, by omega⟩
  else if h : 12 ≤ n ∧ n < 22 then .rx ⟨n - 12, by omega⟩
  else if h : 22 ≤ n ∧ n < 30 then .sy ⟨n - 22, by omega⟩
  else if h : 30 ≤ n ∧ n < 38 then .ry ⟨n - 30, by omega⟩
  else if h : 38 ≤ n ∧ n < 46 then .sz ⟨n - 38, by omega⟩
  else if h : 46 ≤ n ∧ n < 54 then .rz ⟨n - 46, by omega⟩
  else if h : 54 ≤ n ∧ n < 62 then .sfy ⟨n - 54, by omega⟩
  else if h : 62 ≤ n ∧ n < 70 then .rfy ⟨n - 62, by omega⟩
  else if h : 70 ≤ n ∧ n < 78 then .sfz ⟨n - 70, by omega⟩
  else if h : 78 ≤ n ∧ n < 86 then .rfz ⟨n - 78, by omega⟩
  else .other

def decode : SemLoc sig → CK
  | .reg s => if s = barS then .bar else .other
  | .dma s => decodeDma s.val

theorem decode_bar : decode (.reg barS) = .bar := by decide
theorem decode_sx (j : Fin 10) : decode (.dma (sxS j)) = .sx j := by revert j; decide
theorem decode_rx (j : Fin 10) : decode (.dma (rxS j)) = .rx j := by revert j; decide
theorem decode_sy (k : Fin 8) : decode (.dma (syS k)) = .sy k := by revert k; decide
theorem decode_ry (k : Fin 8) : decode (.dma (ryS k)) = .ry k := by revert k; decide
theorem decode_sz (k : Fin 8) : decode (.dma (szS k)) = .sz k := by revert k; decide
theorem decode_rz (k : Fin 8) : decode (.dma (rzS k)) = .rz k := by revert k; decide
theorem decode_sfy (k : Fin 8) : decode (.dma (sfyS k)) = .sfy k := by revert k; decide
theorem decode_rfy (k : Fin 8) : decode (.dma (rfyS k)) = .rfy k := by revert k; decide
theorem decode_sfz (k : Fin 8) : decode (.dma (sfzS k)) = .sfz k := by revert k; decide
theorem decode_rfz (k : Fin 8) : decode (.dma (rfzS k)) = .rfz k := by revert k; decide

def used : CK → Bool
  | .sfy k => decide (3 ≤ k.val ∧ k.val < 6)
  | .rfy k => decide (3 ≤ k.val ∧ k.val < 6)
  | .sfz k => decide (k.val < 3)
  | .rfz k => decide (k.val < 3)
  | .other => false
  | _ => true

def dutiesCK : CK → Finset (Fin 3)
  | .bar => Finset.univ
  | ck => if used ck then {0} else ∅

def amountCK : CK → ℕ
  | .bar => 1
  | _ => N

def xrow (c : Dev nD) (j : Fin 10) : ℕ := if j.val < 8 then 256 * qm c + 32 * j.val else 256 * qd c + 192 + 32 * (j.val - 8)
theorem xrow_le (c : Dev nD) (j : Fin 10) : xrow c j + 32 ≤ 1024 := by
  have h1 := qm_lt c; have h2 := qd_lt c; have := j.isLt; unfold xrow; split <;> omega

def xdst (j : Fin 10) : Memref sig .tc .vmem S32x512 .f32 :=
  if h : j.val < 8 then ch cxM ⟨j.val, h⟩ else ch64 ⟨j.val - 8, by have := j.isLt; omega⟩

def barPay (c : Dev nD) (d : Fin 3) : sProp 𝕄 :=
  match d with
  | 0 => iprop(free8 (F := F) (px c) cxM ∗ free (F := F) (px c) (ch64 0) ∗ free (F := F) (px c) (ch64 1))
  | 1 => iprop(free8 (F := F) (py c) ryM ∗ free (F := F) (py c) (ch rdM 3) ∗ free (F := F) (py c) (ch rdM 4) ∗ free (F := F) (py c) (ch rdM 5))
  | 2 => iprop(free8 (F := F) (pz c) rzM ∗ free (F := F) (pz c) (ch rdM 0) ∗ free (F := F) (pz c) (ch rdM 1) ∗ free (F := F) (pz c) (ch rdM 2))

def dmaPay (c : Dev nD) : CK → sProp 𝕄
  | .sx j => xholds m c (xrow c j) (xrow_le c j) hL
  | .rx j => holds m c (xdst j) fullShare (X m (px c) (xrow c j) (xrow_le c j))
  | .sy k => holds m c (ch sqM k) hL (SQ m c k)
  | .sz k => holds m c (ch sqM k) hR (SQ m c k)
  | .ry k => holds m c (ch ryM k) fullShare (SQ m (py c) k)
  | .rz k => holds m c (ch rzM k) fullShare (SQ m (pz c) k)
  | .sfz k => holds m c (ch ryM k) fullShare (SQ m (py c) k)
  | .sfy k => holds m c (ch rzM k) fullShare (SQ m (pz c) k)
  | .rfz k => holds m c (ch rdM k) fullShare (SQ m (py (pz c)) k)
  | .rfy k => holds m c (ch rdM k) fullShare (SQ m (py (pz c)) k)
  | _ => iprop(emp)

def payCK (c : Dev nD) (ck : CK) (d : Fin 3) : sProp 𝕄 :=
  match ck with
  | .bar => barPay (F := F) c d
  | ck => dmaPay m c ck

def arRd : Rounds.Schedule (GSem nD τ sig) (Fin 3) 𝕄 where
  duties g r := if r = 0 ∧ g.1.2 = .tc then dutiesCK (decode g.2) else ∅
  unitless _ := False
  amount g _ _ := amountCK (decode g.2)
  payload g _ d := payCK m g.1.1 (decode g.2) d
  amount_pos g _ _ _ := by
    cases h : decode g.2 <;> simp only [amountCK] <;> first | exact Nat.one_pos | exact N_pos

instance arRd_payload_storable (g : GSem nD τ sig) (r : ℕ) (d : Fin 3) :
    BI.Storable (upEmb : UEmb _ 𝕄) ((arRd (F := F) m).payload g r d) := by
  show BI.Storable upEmb (payCK m g.1.1 (decode g.2) d)
  unfold payCK
  cases decode g.2 <;> simp only [] <;> first
    | (unfold barPay; split <;> infer_instance)
    | (unfold dmaPay; infer_instance)

end Cert.KernelIdeal.AR

end
-- ==== Proof.Ghost.lean ====
import proofs.«900722_g7700000000000723_dist_ar_v7x_xyz2x4x4_x_m1024_n512_f32_1_alg».proof.Proof.Sched

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev dsem (s : Fin 84) : DmaSem sig := ⟨s.val + 2, by have := s.isLt; show s.val + 2 < 86; omega⟩

abbrev osem : Fin 84 → SemLoc sig := fun s => .dma (dsem s)

abbrev csem : Fin 85 → SemLoc sig := Fin.cases (.reg barS) (fun s => .dma (dsem s))
abbrev kcell (ck : Dev nD × Fin 85) : GSem nD τ sig := ((ck.1 : Thread nD τ), csem ck.2)

def owedL : List (GSem nD τ sig × ℕ) → CellTallies nD τ sig Unit
  | [] => 0
  | p :: rest => owedL rest + tallyAt p.1 () p.2

def paid (c : Dev nD) : List (GSem nD τ sig × ℕ) :=
  [ (barCell (px c), 1), (barCell (py c), 1), (barCell (pz c), 1),
    (dcell (px c) (rxS 0), N), (dcell (px c) (rxS 1), N), (dcell (px c) (rxS 2), N), (dcell (px c) (rxS 3), N), (dcell (px c) (rxS 4), N),
    (dcell (px c) (rxS 5), N), (dcell (px c) (rxS 6), N), (dcell (px c) (rxS 7), N), (dcell (px c) (rxS 8), N), (dcell (px c) (rxS 9), N),
    (dcell (py c) (ryS 0), N), (dcell (pz c) (rzS 0), N), (dcell (py c) (ryS 1), N), (dcell (pz c) (rzS 1), N),
    (dcell (py c) (ryS 2), N), (dcell (pz c) (rzS 2), N), (dcell (py c) (ryS 3), N), (dcell (pz c) (rzS 3), N),
    (dcell (py c) (ryS 4), N), (dcell (pz c) (rzS 4), N), (dcell (py c) (ryS 5), N), (dcell (pz c) (rzS 5), N),
    (dcell (py c) (ryS 6), N), (dcell (pz c) (rzS 6), N), (dcell (py c) (ryS 7), N), (dcell (pz c) (rzS 7), N),
    (dcell (pz c) (rfzS 0), N), (dcell (pz c) (rfzS 1), N), (dcell (pz c) (rfzS 2), N),
    (dcell (py c) (rfyS 3), N), (dcell (py c) (rfyS 4), N), (dcell (py c) (rfyS 5), N) ]

def O₀ (c : Dev nD) : CellTallies nD τ sig Unit := owedL (paid c)

def L (g : GSem nD τ sig) : Finset Unit := if g.1.2 = .tc then {()} else ∅

def lvCK : CK → ℕ
  | .bar => 1 | .rx _ => 2 | .ry _ => 3 | .rz _ => 3 | .rfy _ => 4 | .rfz _ => 4 | _ => 0
def lv (g : GSem nD τ sig) (_ : Unit) : ℕ := lvCK (decode g.2)

abbrev fz (k : Fin 3) : Fin 8 := ⟨k.val, by have := k.isLt; omega⟩
abbrev fy (k : Fin 3) : Fin 8 := ⟨3 + k.val, by have := k.isLt; omega⟩

def records (K : GSem nD τ sig → ℕ) : sProp 𝕄 :=
  bigSep (Finset.univ : Finset (Dev nD × Fin 85)) fun ck =>
    iprop(cellInv ER (arRd m) (K (kcell ck)) (kcell ck) ∗ reached ER (kcell ck) 0)

def poss (c : Dev nD) : sProp 𝕄 :=
  iprop(atPos ER (barCell c) 0 ∅ 0
    ∗ (bigSep Finset.univ fun j : Fin 10 => iprop(atPos ER (dcell c (sxS j)) 0 ∅ 0 ∗ atPos ER (dcell c (rxS j)) 0 ∅ 0))
    ∗ (bigSep Finset.univ fun k : Fin 8 => iprop(atPos ER (dcell c (syS k)) 0 ∅ 0 ∗ atPos ER (dcell c (ryS k)) 0 ∅ 0
        ∗ atPos ER (dcell c (szS k)) 0 ∅ 0 ∗ atPos ER (dcell c (rzS k)) 0 ∅ 0))
    ∗ (bigSep Finset.univ fun k : Fin 8 => iprop(atPos ER (dcell c (sfyS k)) 0 ∅ 0 ∗ atPos ER (dcell c (rfyS k)) 0 ∅ 0
        ∗ atPos ER (dcell c (sfzS k)) 0 ∅ 0 ∗ atPos ER (dcell c (rfzS k)) 0 ∅ 0)))

def toks (c : Dev nD) : sProp 𝕄 :=
  iprop(dutyTok ER (barCell (px c)) 0 0 ∗ dutyTok ER (barCell (py c)) 0 1 ∗ dutyTok ER (barCell (pz c)) 0 2
    ∗ (bigSep Finset.univ fun j : Fin 10 => iprop(dutyTok ER (dcell c (sxS j)) 0 0 ∗ dutyTok ER (dcell (px c) (rxS j)) 0 0))
    ∗ (bigSep Finset.univ fun k : Fin 8 => iprop(dutyTok ER (dcell c (syS k)) 0 0 ∗ dutyTok ER (dcell (py c) (ryS k)) 0 0
        ∗ dutyTok ER (dcell c (szS k)) 0 0 ∗ dutyTok ER (dcell (pz c) (rzS k)) 0 0))
    ∗ (bigSep Finset.univ fun k : Fin 3 => iprop(dutyTok ER (dcell c (sfzS (fz k))) 0 0 ∗ dutyTok ER (dcell (pz c) (rfzS (fz k))) 0 0))
    ∗ (bigSep Finset.univ fun k : Fin 3 => iprop(dutyTok ER (dcell c (sfyS (fy k))) 0 0 ∗ dutyTok ER (dcell (py c) (rfyS (fy k))) 0 0)))

def creds (c : Dev nD) : sProp 𝕄 :=
  iprop(cred (tallyAt (barCell c) () 3)
    ∗ (bigSep Finset.univ fun j : Fin 10 => cred (tallyAt (dcell c (rxS j)) () N))
    ∗ (bigSep Finset.univ fun k : Fin 8 => iprop(cred (tallyAt (dcell c (ryS k)) () N) ∗ cred (tallyAt (dcell c (rzS k)) () N)))
    ∗ (bigSep Finset.univ fun k : Fin 3 => cred (tallyAt (dcell c (rfzS (fz k))) () N))
    ∗ (bigSep Finset.univ fun k : Fin 3 => cred (tallyAt (dcell c (rfyS (fy k))) () N)))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

def ghost (c : Dev nD) : sProp 𝕄 := iprop(∃ K : GSem nD τ sig → ℕ, records m K ∗ poss c ∗ toks c)

def Φ₀ (c : Dev nD) : sProp 𝕄 := iprop(ghost m c ∗ creds c ∗ levAts L lv ∗ scratch c)

def Φ₁ (c : Dev nD) : sProp 𝕄 := iprop(scratch c ∗ bigSep Finset.univ fun s : Fin 84 => semVal (dcell c (dsem s)) 0)

end Cert.KernelIdeal.AR

end
-- ==== Proof.OutW.lean ====
import proofs.«900722_g7700000000000723_dist_ar_v7x_xyz2x4x4_x_m1024_n512_f32_1_alg».proof.Proof.Ghost

noncomputable section

namespace Cert.KernelIdeal.AR

open Cert.KernelIdeal Cert.KernelIdeal.Gen
open Idealize.ShloMosaic Idealize.ShloMosaic.TcCoe

variable {F : FTy → Type} [FloatOps F]

variable (m : (ℓ : Loc nD τ sig) → Buf (Elt F) ℓ)

def wr (row : ℕ) (h : row + 32 ≤ 1024) (V : Vec F S32x512 .f32) (f : (cc0_stg1_0 : Ref sig .tc).ty.Contents (Elt F)) :
    (cc0_stg1_0 : Ref sig .tc).ty.Contents (Elt F) :=
  ((oM : Memref sig .tc .vmem S1024x512 .f32).access (r1024 row h) : View sig .tc _ _ _).write (Elt F) f V Finset.univ

def outW (c : Dev nD) (g : (cc0_stg1_0 : Ref sig .tc).ty.Contents (Elt F)) : (cc0_stg1_0 : Ref sig .tc).ty.Contents (Elt F) :=
  wr (256 * qd c + 160) (by have := qd_lt c; omega) (SQ m (py (pz c)) 5)
    (wr (256 * qd c + 128) (by have := qd_lt c; omega) (SQ m (py (pz c)) 4)
    (wr (256 * qd c + 96) (by have := qd_lt c; omega) (SQ m (py (pz c)) 3)
    (wr (256 * qd c + 64) (by have := qd_lt c; omega) (SQ m (py (pz c)) 2)
    (wr (256 * qd c + 32) (by have := qd_lt c; omega) (SQ m (py (pz c)) 1)
    (wr (256 * qd c) (by have := qd_lt c; omega) (SQ m (py (pz c)) 0)
    (wr (256 * qd c + 224) (by have := qd_lt c; omega) (R m c (256 * qd c + 224) (by have := qd_lt c; omega))
    (wr (256 * qd c + 192) (by have := qd_lt c; omega) (R m c (256 * qd c + 192) (by have := qd_lt c; omega))
    (wr (256 * qz c + 224) (by have := qz_lt c; omega) (SQ m (pz c) 7)
    (wr (256 * qy c + 224) (by have := qy_lt c; omega) (SQ m (py c) 7)
    (wr (256 * qz c + 192) (by have := qz_lt c; omega) (SQ m (pz c) 6)
    (wr (256 * qy c + 192) (by have := qy_lt c; omega) (SQ m (py c) 6)
    (wr (256 * qz c + 160) (by have := qz_lt c; omega) (SQ m (pz c) 5)
    (wr (256 * qy c + 160) (by have := qy_lt c; omega) (SQ m (py c) 5)
    (wr (256 * qz c + 128) (by have := qz_lt c; omega) (SQ m (pz c) 4)
    (wr (256 * qy c + 128) (by have := qy_lt c; omega) (SQ m (py c) 4)
    (wr (256 * qz c + 96) (by have := qz_lt c; omega) (SQ m (pz c) 3)
    (wr (256 * qy c + 96) (by have := qy_lt c; omega) (SQ m (py c) 3)
    (wr (256 * qz c + 64) (by have := qz_lt c; omega) (SQ m (pz c) 2)
    (wr (256 * qy c + 64) (by have := qy_lt c; omega) (SQ m (py c) 2)
    (wr (256 * qz c + 32) (by have := qz_lt c; omega) (SQ m (pz c) 1)
    (wr (256 * qy c + 32) (by have := qy_lt c; omega) (SQ m (py c) 1)
    (wr (256 * qz c) (by have := qz_lt c; omega) (SQ m (pz c) 0)
    (wr (256 * qy c) (by have := qy_lt c; omega) (SQ m (py c) 0)
    (wr (256 * qm c + 224) (by have := qm_lt c; omega) (SQ m c 7)
    (wr (256 * qm c + 192) (by have := qm_lt c; omega) (SQ m c 6)
    (wr (256 * qm c + 160) (by have := qm_lt c; omega) (SQ m c 5)
    (wr (256 * qm c + 128) (by have := qm_lt c; omega) (SQ m c 4)
    (wr (256 * qm c + 96) (by have := qm_lt c; omega) (SQ m c 3)
    (wr (256 * qm c + 64) (by have := qm_lt c; omega) (SQ m c 2)
    (wr (256 * qm c + 32) (by have := qm_lt c; omega) (SQ m c 1)
    (wr (256 * qm c) (by have := qm_lt c; omega) (SQ m c 0)
    (g))))))))))))))))))))))))))))))))

end Cert.KernelIdeal.AR

end
-- ==== Proof.Data.lean ====
import proofs.«900722_g7700000000000723_dist_ar_v7x_xyz2x4x4_x_m1024_n512_f32_1_alg».proof.Proof.OutW

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def outv (c : Dev nD) : (cc0_stg1_0 : Ref sig .tc).ty.Contents (Elt F) := outW m c (xb m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xb m c
    | ⟨1, _⟩ => outv m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.AR

end
-- ==== Proof.OutValue.lean ====
import proofs.«900722_g7700000000000723_dist_ar_v7x_xyz2x4x4_x_m1024_n512_f32_1_alg».proof.Proof.Data
import Idealize.ShloMosaic.Lib.Writes
import Idealize.ShloMosaic.Lib.Pipeline.Value
import Idealize.ShloMosaic.Lib.ValueIdx

noncomputable section

namespace Cert.KernelIdeal.AR

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

def qq (c : Dev nD) (t : Fin 4) : ℕ := match t with
  | 0 => qm c | 1 => qy c | 2 => qz c | 3 => qd c

theorem qq_lt (c : Dev nD) (t : Fin 4) : qq c t < 4 := by
  match t with
  | 0 => exact qm_lt c
  | 1 => exact qy_lt c
  | 2 => exact qz_lt c
  | 3 => exact qd_lt c

def rowQ (c : Dev nD) (t : Fin 4) (k : Fin 8) : ℕ := 256 * qq c t + 32 * k.val

theorem rowQ_le (c : Dev nD) (t : Fin 4) (k : Fin 8) : rowQ c t k + 32 ≤ 1024 := row_le _ (qq_lt c t) k

def valQ (c : Dev nD) (t : Fin 4) (k : Fin 8) : Vec F S32x512 .f32 := match t with
  | 0 => SQ m c k
  | 1 => SQ m (py c) k
  | 2 => SQ m (pz c) k
  | 3 => if k.val < 6 then SQ m (py (pz c)) k else R m c (rowQ c 3 k) (rowQ_le c 3 k)

def outPiece (c : Dev nD) (tk : Fin 4 × Fin 8) : View.Piece (Elt F) S1024x512 .f32 :=
  ⟨r1024 (rowQ c tk.1 tk.2) (rowQ_le c tk.1 tk.2), valQ m c tk.1 tk.2⟩

def outOrder : List (Fin 4 × Fin 8) :=
  [(3, 5), (3, 4), (3, 3), (3, 2), (3, 1), (3, 0), (3, 7), (3, 6),
   (2, 7), (1, 7), (2, 6), (1, 6), (2, 5), (1, 5), (2, 4), (1, 4), (2, 3), (1, 3), (2, 2), (1, 2), (2, 1), (1, 1), (2, 0), (1, 0),
   (0, 7), (0, 6), (0, 5), (0, 4), (0, 3), (0, 2), (0, 1), (0, 0)]

def outL (c : Dev nD) : List (View.Piece (Elt F) S1024x512 .f32) := outOrder.map (outPiece m c)

theorem outW_eq_writes (c : Dev nD) (g : (cc0_stg1_0 : Ref sig .tc).ty.Contents (Elt F)) :
    outW m c g = (oM : Memref sig .tc .vmem S1024x512 .f32).view.writes (Elt F) g (outL m c) := rfl

section Whole
variable {sg : RefSig} {κ : Kind} {Val : EltTy → Type} (b : Ref sg κ)

theorem whole_writes_apply_eq (f f' : b.ty.Contents Val) (L : List (View.Piece Val b.ty.shape b.ty.elt)) (y : b.ty.shape.Idx)
    (h : ∃ p ∈ L, y ∈ p.1.set) : (View.whole b).writes Val f L y = (View.whole b).writes Val f' L y :=
  View.read_writes_apply_eq (View.whole b) f (View.whole b) f' y L h

theorem whole_writes_apply_of_pieces (f : b.ty.Contents Val) (G : b.ty.shape.Idx → Val b.ty.elt)
    (L : List (View.Piece Val b.ty.shape b.ty.elt)) (hG : ∀ p ∈ L, ∀ x : p.1.shape.Idx, p.2 x = G (p.1.emb x))
    (y : b.ty.shape.Idx) (h : ∃ p ∈ L, y ∈ p.1.set) : (View.whole b).writes Val f L y = G y :=
  View.read_writes_apply_of_pieces (View.whole b) f G L hG y h

theorem whole_writes_apply_of_unique (f : b.ty.Contents Val) (p : View.Piece Val b.ty.shape b.ty.elt) (x : p.1.shape.Idx)
    (L : List (View.Piece Val b.ty.shape b.ty.elt)) (hp : p ∈ L) (hu : ∀ q ∈ L, p.1.emb x ∈ q.1.set → q = p) :
    (View.whole b).writes Val f L (p.1.emb x) = p.2 x :=
  View.read_writes_of_unique (View.whole b) f p x L hp hu

end Whole

theorem outPiece_mem (c : Dev nD) (t : Fin 4) (k : Fin 8) : outPiece m c (t, k) ∈ outL m c :=
  List.mem_map_of_mem (by revert t k; decide)

theorem qq_cases (c : Dev nD) (q : ℕ) (hq : q < 4) : ∃ t : Fin 4, qq c t = q := by
  rcases quarter_cases c q hq with h | h | h | h
  · exact ⟨0, h.symm⟩
  · exact ⟨1, h.symm⟩
  · exact ⟨2, h.symm⟩
  · exact ⟨3, h.symm⟩

theorem mem_rows1024 (row : ℕ) (h : row + 32 ≤ 1024) (y : S1024x512.Idx) :
    y ∈ (r1024 row h).set ↔ row ≤ (y 0).val ∧ (y 0).val < row + 32 := by
  have h1 : (y 1).val < 512 := (y 1).isLt
  rw [Rect.mem_set_unit, Fin.forall_fin_two]
  show (row ≤ (y 0).val ∧ (y 0).val < row + 32) ∧ (0 ≤ (y 1).val ∧ (y 1).val < 0 + 512) ↔ _
  omega

theorem mem_outPiece (c : Dev nD) (t : Fin 4) (k : Fin 8) (y : S1024x512.Idx) :
    y ∈ (outPiece m c (t, k)).1.set ↔ 256 * qq c t + 32 * k.val ≤ (y 0).val ∧ (y 0).val < 256 * qq c t + 32 * k.val + 32 :=
  mem_rows1024 (rowQ c t k) (rowQ_le c t k) y

theorem outL_cover (c : Dev nD) (y : S1024x512.Idx) : ∃ p ∈ outL m c, y ∈ p.1.set := by
  have h0 : (y 0).val < 1024 := (y 0).isLt
  obtain ⟨t, ht⟩ := qq_cases c ((y 0).val / 256) (by omega)
  refine ⟨outPiece m c (t, ⟨(y 0).val % 256 / 32, by omega⟩), outPiece_mem m c t _, (mem_outPiece m c t _ y).mpr ?_⟩
  show 256 * qq c t + 32 * ((y 0).val % 256 / 32) ≤ (y 0).val ∧ (y 0).val < 256 * qq c t + 32 * ((y 0).val % 256 / 32) + 32
  rw [ht]; omega

theorem outW_base (c : Dev nD) (g g' : (cc0_stg1_0 : Ref sig .tc).ty.Contents (Elt F)) : outW m c g = outW m c g' := by
  funext y
  exact (congrFun (outW_eq_writes m c g) y).trans
    ((whole_writes_apply_eq cc0_stg1_0 g g' (outL m c) y (outL_cover m c y)).trans (congrFun (outW_eq_writes m c g') y).symm)

theorem outW_of_pieces (c : Dev nD) (G : S1024x512.Idx → Elt F .f32)
    (hG : ∀ (t : Fin 4) (k : Fin 8) (x : S32x512.Idx), valQ m c t k x = G ((r1024 (rowQ c t k) (rowQ_le c t k)).emb x))
    (g : (cc0_stg1_0 : Ref sig .tc).ty.Contents (Elt F)) : outW m c g = G := by
  funext y
  refine (congrFun (outW_eq_writes m c g) y).trans
    (whole_writes_apply_of_pieces cc0_stg1_0 g G (outL m c) ?_ y (outL_cover m c y))
  intro p hp x
  obtain ⟨⟨t, k⟩, -, rfl⟩ := List.mem_map.mp hp
  exact hG t k x

theorem qq_inj : ∀ (c : Dev nD) (t t' : Fin 4), qq c t = qq c t' → t = t' := by decide +kernel

theorem outW_apply (c : Dev nD) (g : (cc0_stg1_0 : Ref sig .tc).ty.Contents (Elt F)) (t : Fin 4) (k : Fin 8) (x : S32x512.Idx) :
    outW m c g ((r1024 (rowQ c t k) (rowQ_le c t k)).emb x) = valQ m c t k x := by
  refine (congrFun (outW_eq_writes m c g) _).trans
    (whole_writes_apply_of_unique cc0_stg1_0 g (outPiece m c (t, k)) x (outL m c) (outPiece_mem m c t k) ?_)
  intro q hq hmem
  obtain ⟨⟨t', k'⟩, -, rfl⟩ := List.mem_map.mp hq
  have hx : (x 0).val < 32 := (x 0).isLt
  have hk := k.isLt
  have hk' := k'.isLt
  have h := (mem_outPiece m c t' k' _).mp hmem
  have e0 : (((outPiece m c (t, k)).1.emb x) 0).val = 256 * qq c t + 32 * k.val + (x 0).val := by
    show 256 * qq c t + 32 * k.val + 1 * (x 0).val = _
    omega
  rw [e0] at h
  have hq1 := qq_lt c t
  have hq2 := qq_lt c t'
  have ht : t' = t := qq_inj c t' t (by omega)
  subst ht
  have hkk : k' = k := Fin.ext (by omega)
  subst hkk
  rfl

def chunkCoord (row : ℕ) (i : S1024x512.Idx) (hlo : row ≤ (i 0).val) (hhi : (i 0).val < row + 32) : S32x512.Idx :=
  ix2 ⟨(i 0).val - row, by omega⟩ ⟨(i 1).val, (i 1).isLt⟩

theorem emb_chunkCoord (row : ℕ) (h : row + 32 ≤ 1024) (i : S1024x512.Idx) (hlo : row ≤ (i 0).val) (hhi : (i 0).val < row + 32) :
    (r1024 row h).emb (chunkCoord row i hlo hhi) = i := by
  funext a
  refine Fin.ext ?_
  match a with
  | ⟨0, _⟩ => show row + 1 * ((i 0).val - row) = (i 0).val; omega
  | ⟨1, _⟩ => show 0 + 1 * (i 1).val = (i 1).val; omega

theorem outW_at (c : Dev nD) (g : (cc0_stg1_0 : Ref sig .tc).ty.Contents (Elt F)) (t : Fin 4) (k : Fin 8) (i : S1024x512.Idx)
    (hlo : rowQ c t k ≤ (i 0).val) (hhi : (i 0).val < rowQ c t k + 32) :
    outW m c g i = valQ m c t k (chunkCoord (rowQ c t k) i hlo hhi) := by
  have e := outW_apply m c g t k (chunkCoord (rowQ c t k) i hlo hhi)
  rw [emb_chunkCoord] at e
  exact e

theorem valQ_m (c : Dev nD) (k : Fin 8) : valQ m c 0 k = SQ m c k := rfl
theorem valQ_y (c : Dev nD) (k : Fin 8) : valQ m c 1 k = SQ m (py c) k := rfl
theorem valQ_z (c : Dev nD) (k : Fin 8) : valQ m c 2 k = SQ m (pz c) k := rfl
theorem valQ_d_lt (c : Dev nD) (k : Fin 8) (h : k.val < 6) : valQ m c 3 k = SQ m (py (pz c)) k := if_pos h
theorem valQ_d_ge (c : Dev nD) (k : Fin 8) (h : ¬ k.val < 6) : valQ m c 3 k = R m c (256 * qd c + 32 * k.val) (rowQ_le c 3 k) := if_neg h

theorem xb_eq_arg (c : Dev nD) : xb m c = m ((c : Thread nD τ).loc main_arg0) := by
  unfold xb
  exact Memref.read_access_unit_zero (Elt F) main_arg0 (funext fun _ => Nat.zero_mul _) _ _

theorem X_at_coord (c : Dev nD) (row : ℕ) (h : row + 32 ≤ 1024) (x : S32x512.Idx) :
    X m c row h x = xb m c ((r1024 row h).emb x) := rfl

end Cert.KernelIdeal.AR

end
-- ==== Proof.OutIdeal.lean ====
import proofs.«900722_g7700000000000723_dist_ar_v7x_xyz2x4x4_x_m1024_n512_f32_1_alg».proof.Proof.OutValue
import proofs.«900722_g7700000000000723_dist_ar_v7x_xyz2x4x4_x_m1024_n512_f32_1_alg».proof.Proof.RefValue

noncomputable section

namespace Cert.KernelIdeal.AR

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (A : Cert.ARValue.Whole)
  (hagree : ∀ c : Dev nD, m ((c.tc : Thread nD τ).loc main_arg0) = Cert.ARValue.xb c A)

theorem px_other_half (d : Dev nD) : (px d).val / 16 = 1 - d.val / 16 :=
  Cert.ARValue.other_half (by rw [px_val]; have hd : d.val < 32 := d.isLt; omega)

include hagree in

theorem R_ideal (d : Dev nD) (row : ℕ) (h : row + 32 ≤ 1024) (x : S32x512.Idx) :
    R (F := Ideal) m d row h x = Cert.ARValue.refOut A ((r1024 row h).emb x) := by
  unfold R
  rw [addf_apply, X_at_coord, X_at_coord, xb_eq_arg, xb_eq_arg, hagree, hagree]
  exact Cert.ARValue.join_apply (px_other_half d) A _

include hagree in

theorem R_ideal_of_eq (d : Dev nD) {row row' : ℕ} (h : row + 32 ≤ 1024) (h' : row' + 32 ≤ 1024) (e : row = row') (x : S32x512.Idx) :
    R (F := Ideal) m d row h x = Cert.ARValue.refOut A ((r1024 row' h').emb x) := by
  subst e; exact R_ideal m A hagree d row h x

include hagree in

theorem outv_eq_refOut (c : Dev nD) : outv (F := Ideal) m c = Cert.ARValue.refOut A := by
  unfold outv
  refine outW_of_pieces m c (Cert.ARValue.refOut A) ?_ _
  intro t k x
  match t with
  | 0 => exact R_ideal m A hagree c _ _ x
  | 1 =>
    refine R_ideal_of_eq m A hagree (py c) _ _ ?_ x
    show 256 * qm (py c) + 32 * k.val = 256 * qy c + 32 * k.val
    rw [qm_py]
  | 2 =>
    refine R_ideal_of_eq m A hagree (pz c) _ _ ?_ x
    show 256 * qm (pz c) + 32 * k.val = 256 * qz c + 32 * k.val
    rw [qm_pz]
  | 3 =>
    by_cases hk : k.val < 6
    · rw [valQ_d_lt m c k hk]
      refine R_ideal_of_eq m A hagree (py (pz c)) _ _ ?_ x
      show 256 * qm (py (pz c)) + 32 * k.val = 256 * qd c + 32 * k.val
      rw [qm_py, qy_pz]
    · rw [valQ_d_ge m c k hk]
      exact R_ideal m A hagree c _ _ x

theorem algebraic_of_kernel_run [Cert.Pre_finite_inputs_Kernel.Facts]
    (hrun : ∀ (m : (ℓ : Loc nD τ sig) → Buf (Elt Ideal) ℓ) (ρ : Dev nD → PrngReg),
      θ_run (Cert.KernelIdeal.defs (F := Ideal)) (onTc (τ := τ) (main (F := Ideal))) ⟨m, fun _ => 0, ρ⟩ (fun r => ∀ c : Dev nD,
        r.2.mem ((c.tc : Thread nD τ).loc main_v1) = outv (F := Ideal) m c
        ∧ r.2.mem ((c.tc : Thread nD τ).loc main_arg0) = m ((c.tc : Thread nD τ).loc main_arg0))) :
    Cert.algebraic_KernelIdeal_ReferenceIdeal :=
  Cert.ARValue.algebraic_of_run fun m g A _ hagree =>
    (θ_run Cert.KernelIdeal.defs _ _).mono
      (fun _ h c => ⟨(h c).1.trans (outv_eq_refOut m A hagree c), (h c).2⟩) (hrun m g)

end Cert.KernelIdeal.AR

end
-- ==== Proof.Tables.lean ====
import proofs.«900722_g7700000000000723_dist_ar_v7x_xyz2x4x4_x_m1024_n512_f32_1_alg».proof.Proof.Sched

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem decodeDma_ne_bar (n : ℕ) : decodeDma n ≠ .bar := by
  unfold decodeDma; (repeat' split) <;> exact fun h => CK.noConfusion h

theorem dutiesCK_of_ne_bar {ck : CK} (h : ck ≠ .bar) : dutiesCK ck = if used ck then {0} else ∅ := by
  cases ck <;> first | exact absurd rfl h | rfl
theorem amountCK_of_ne_bar {ck : CK} (h : ck ≠ .bar) : amountCK ck = N := by
  cases ck <;> first | exact absurd rfl h | rfl
theorem payCK_of_ne_bar {ck : CK} (h : ck ≠ .bar) (c : Dev nD) (d : Fin 3) : payCK m c ck d = dmaPay m c ck := by
  cases ck <;> first | exact absurd rfl h | rfl

section Tables
variable (c : Dev nD)

theorem duties_bar : (arRd (F := F) m).duties (barCell c) 0 = Finset.univ := by
  dsimp only [arRd]; rw [if_pos ⟨rfl, rfl⟩, decode_bar]; rfl
theorem mem_duties_bar (d : Fin 3) : d ∈ (arRd (F := F) m).duties (barCell c) 0 := by
  rw [duties_bar]; exact Finset.mem_univ _
theorem amount_bar (d : Fin 3) : (arRd (F := F) m).amount (barCell c) 0 d = 1 := by
  dsimp only [arRd]; rw [decode_bar]; rfl
theorem expect_bar : (arRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem payload_bar (d : Fin 3) : (arRd (F := F) m).payload (barCell c) 0 d = barPay c d := by
  dsimp only [arRd]; rw [decode_bar]; rfl

theorem rest_bar : bigSep ((arRd (F := F) m).duties (barCell c) 0 \ ∅) (fun d => (arRd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl

theorem duties_dma (s : DmaSem sig) (h : used (decodeDma s.val) = true) : (arRd (F := F) m).duties (dcell c s) 0 = {0} := by
  dsimp only [arRd]; rw [if_pos ⟨rfl, rfl⟩]
  show dutiesCK (decodeDma s.val) = {0}
  rw [dutiesCK_of_ne_bar (decodeDma_ne_bar _), h]; rfl
theorem duties_dma_unused (s : DmaSem sig) (h : used (decodeDma s.val) = false) : ∀ r, (arRd (F := F) m).duties (dcell c s) r = ∅ := by
  intro r; dsimp only [arRd]
  split
  · show dutiesCK (decodeDma s.val) = ∅
    rw [dutiesCK_of_ne_bar (decodeDma_ne_bar _), h]; rfl
  · rfl
theorem duties_later (g : GSem nD τ sig) : ∀ r, 1 ≤ r → (arRd (F := F) m).duties g r = ∅ :=
  fun r hr => by dsimp only [arRd]; rw [if_neg fun h => by omega]
theorem amount_dma (s : DmaSem sig) (r : ℕ) (d : Fin 3) : (arRd (F := F) m).amount (dcell c s) r d = N :=
  amountCK_of_ne_bar (decodeDma_ne_bar _)
theorem expect_dma (s : DmaSem sig) (h : used (decodeDma s.val) = true) : (arRd (F := F) m).expect (dcell c s) 0 = N := by
  unfold Schedule.expect Schedule.amountOf; rw [duties_dma m c s h, Finset.sum_singleton, amount_dma]
theorem payload_dma (s : DmaSem sig) (r : ℕ) (d : Fin 3) : (arRd (F := F) m).payload (dcell c s) r d = dmaPay m c (decodeDma s.val) :=
  payCK_of_ne_bar m (decodeDma_ne_bar _) c d
theorem rest_dma (s : DmaSem sig) (h : used (decodeDma s.val) = true) :
    bigSep ((arRd (F := F) m).duties (dcell c s) 0 \ ∅) (fun d => (arRd (F := F) m).payload (dcell c s) 0 d) = dmaPay m c (decodeDma s.val) := by
  rw [Finset.sdiff_empty, duties_dma m c s h, bigSep_singleton, payload_dma]

theorem role_sx (j : Fin 10) : decodeDma (sxS j).val = .sx j := decode_sx j
theorem used_sx (j : Fin 10) : used (decodeDma (sxS j).val) = true := by
  rw [role_sx]; rfl
theorem duties_sx (j : Fin 10) : (arRd (F := F) m).duties (dcell c (sxS j)) 0 = {0} := duties_dma m c _ (used_sx j)
theorem mem_duties_sx (j : Fin 10) : (0 : Fin 3) ∈ (arRd (F := F) m).duties (dcell c (sxS j)) 0 := by
  rw [duties_sx m c j]; exact Finset.mem_singleton_self _
theorem expect_sx (j : Fin 10) : (arRd (F := F) m).expect (dcell c (sxS j)) 0 = N := expect_dma m c _ (used_sx j)
theorem payload_sx (j : Fin 10) (r : ℕ) (d : Fin 3) : (arRd (F := F) m).payload (dcell c (sxS j)) r d = xholds m c (xrow c j) (xrow_le c j) hL := by
  rw [payload_dma, role_sx]; rfl
theorem rest_sx (j : Fin 10) :
    bigSep ((arRd (F := F) m).duties (dcell c (sxS j)) 0 \ ∅) (fun d => (arRd (F := F) m).payload (dcell c (sxS j)) 0 d) = xholds m c (xrow c j) (xrow_le c j) hL := by
  rw [rest_dma m c _ (used_sx j), role_sx]; rfl

theorem role_rx (j : Fin 10) : decodeDma (rxS j).val = .rx j := decode_rx j
theorem used_rx (j : Fin 10) : used (decodeDma (rxS j).val) = true := by
  rw [role_rx]; rfl
theorem duties_rx (j : Fin 10) : (arRd (F := F) m).duties (dcell c (rxS j)) 0 = {0} := duties_dma m c _ (used_rx j)
theorem mem_duties_rx (j : Fin 10) : (0 : Fin 3) ∈ (arRd (F := F) m).duties (dcell c (rxS j)) 0 := by
  rw [duties_rx m c j]; exact Finset.mem_singleton_self _
theorem expect_rx (j : Fin 10) : (arRd (F := F) m).expect (dcell c (rxS j)) 0 = N := expect_dma m c _ (used_rx j)
theorem payload_rx (j : Fin 10) (r : ℕ) (d : Fin 3) : (arRd (F := F) m).payload (dcell c (rxS j)) r d = holds m c (xdst j) fullShare (X m (px c) (xrow c j) (xrow_le c j)) := by
  rw [payload_dma, role_rx]; rfl
theorem rest_rx (j : Fin 10) :
    bigSep ((arRd (F := F) m).duties (dcell c (rxS j)) 0 \ ∅) (fun d => (arRd (F := F) m).payload (dcell c (rxS j)) 0 d) = holds m c (xdst j) fullShare (X m (px c) (xrow c j) (xrow_le c j)) := by
  rw [rest_dma m c _ (used_rx j), role_rx]; rfl

theorem role_sy (k : Fin 8) : decodeDma (syS k).val = .sy k := decode_sy k
theorem used_sy (k : Fin 8) : used (decodeDma (syS k).val) = true := by
  rw [role_sy]; rfl
theorem duties_sy (k : Fin 8) : (arRd (F := F) m).duties (dcell c (syS k)) 0 = {0} := duties_dma m c _ (used_sy k)
theorem mem_duties_sy (k : Fin 8) : (0 : Fin 3) ∈ (arRd (F := F) m).duties (dcell c (syS k)) 0 := by
  rw [duties_sy m c k]; exact Finset.mem_singleton_self _
theorem expect_sy (k : Fin 8) : (arRd (F := F) m).expect (dcell c (syS k)) 0 = N := expect_dma m c _ (used_sy k)
theorem payload_sy (k : Fin 8) (r : ℕ) (d : Fin 3) : (arRd (F := F) m).payload (dcell c (syS k)) r d = holds m c (ch sqM k) hL (SQ m c k) := by
  rw [payload_dma, role_sy]; rfl
theorem rest_sy (k : Fin 8) :
    bigSep ((arRd (F := F) m).duties (dcell c (syS k)) 0 \ ∅) (fun d => (arRd (F := F) m).payload (dcell c (syS k)) 0 d) = holds m c (ch sqM k) hL (SQ m c k) := by
  rw [rest_dma m c _ (used_sy k), role_sy]; rfl

theorem role_sz (k : Fin 8) : decodeDma (szS k).val = .sz k := decode_sz k
theorem used_sz (k : Fin 8) : used (decodeDma (szS k).val) = true := by
  rw [role_sz]; rfl
theorem duties_sz (k : Fin 8) : (arRd (F := F) m).duties (dcell c (szS k)) 0 = {0} := duties_dma m c _ (used_sz k)
theorem mem_duties_sz (k : Fin 8) : (0 : Fin 3) ∈ (arRd (F := F) m).duties (dcell c (szS k)) 0 := by
  rw [duties_sz m c k]; exact Finset.mem_singleton_self _
theorem expect_sz (k : Fin 8) : (arRd (F := F) m).expect (dcell c (szS k)) 0 = N := expect_dma m c _ (used_sz k)
theorem payload_sz (k : Fin 8) (r : ℕ) (d : Fin 3) : (arRd (F := F) m).payload (dcell c (szS k)) r d = holds m c (ch sqM k) hR (SQ m c k) := by
  rw [payload_dma, role_sz]; rfl
theorem rest_sz (k : Fin 8) :
    bigSep ((arRd (F := F) m).duties (dcell c (szS k)) 0 \ ∅) (fun d => (arRd (F := F) m).payload (dcell c (szS k)) 0 d) = holds m c (ch sqM k) hR (SQ m c k) := by
  rw [rest_dma m c _ (used_sz k), role_sz]; rfl

theorem role_ry (k : Fin 8) : decodeDma (ryS k).val = .ry k := decode_ry k
theorem used_ry (k : Fin 8) : used (decodeDma (ryS k).val) = true := by
  rw [role_ry]; rfl
theorem duties_ry (k : Fin 8) : (arRd (F := F) m).duties (dcell c (ryS k)) 0 = {0} := duties_dma m c _ (used_ry k)
theorem mem_duties_ry (k : Fin 8) : (0 : Fin 3) ∈ (arRd (F := F) m).duties (dcell c (ryS k)) 0 := by
  rw [duties_ry m c k]; exact Finset.mem_singleton_self _
theorem expect_ry (k : Fin 8) : (arRd (F := F) m).expect (dcell c (ryS k)) 0 = N := expect_dma m c _ (used_ry k)
theorem payload_ry (k : Fin 8) (r : ℕ) (d : Fin 3) : (arRd (F := F) m).payload (dcell c (ryS k)) r d = holds m c (ch ryM k) fullShare (SQ m (py c) k) := by
  rw [payload_dma, role_ry]; rfl
theorem rest_ry (k : Fin 8) :
    bigSep ((arRd (F := F) m).duties (dcell c (ryS k)) 0 \ ∅) (fun d => (arRd (F := F) m).payload (dcell c (ryS k)) 0 d) = holds m c (ch ryM k) fullShare (SQ m (py c) k) := by
  rw [rest_dma m c _ (used_ry k), role_ry]; rfl

theorem role_rz (k : Fin 8) : decodeDma (rzS k).val = .rz k := decode_rz k
theorem used_rz (k : Fin 8) : used (decodeDma (rzS k).val) = true := by
  rw [role_rz]; rfl
theorem duties_rz (k : Fin 8) : (arRd (F := F) m).duties (dcell c (rzS k)) 0 = {0} := duties_dma m c _ (used_rz k)
theorem mem_duties_rz (k : Fin 8) : (0 : Fin 3) ∈ (arRd (F := F) m).duties (dcell c (rzS k)) 0 := by
  rw [duties_rz m c k]; exact Finset.mem_singleton_self _
theorem expect_rz (k : Fin 8) : (arRd (F := F) m).expect (dcell c (rzS k)) 0 = N := expect_dma m c _ (used_rz k)
theorem payload_rz (k : Fin 8) (r : ℕ) (d : Fin 3) : (arRd (F := F) m).payload (dcell c (rzS k)) r d = holds m c (ch rzM k) fullShare (SQ m (pz c) k) := by
  rw [payload_dma, role_rz]; rfl
theorem rest_rz (k : Fin 8) :
    bigSep ((arRd (F := F) m).duties (dcell c (rzS k)) 0 \ ∅) (fun d => (arRd (F := F) m).payload (dcell c (rzS k)) 0 d) = holds m c (ch rzM k) fullShare (SQ m (pz c) k) := by
  rw [rest_dma m c _ (used_rz k), role_rz]; rfl

theorem role_sfz (k : Fin 8) : decodeDma (sfzS k).val = .sfz k := decode_sfz k
theorem used_sfz (k : Fin 8) (hk : k.val < 3) : used (decodeDma (sfzS k).val) = true := by
  rw [role_sfz]; exact decide_eq_true hk
theorem duties_sfz (k : Fin 8) (hk : k.val < 3) : (arRd (F := F) m).duties (dcell c (sfzS k)) 0 = {0} := duties_dma m c _ (used_sfz k hk)
theorem mem_duties_sfz (k : Fin 8) (hk : k.val < 3) : (0 : Fin 3) ∈ (arRd (F := F) m).duties (dcell c (sfzS k)) 0 := by
  rw [duties_sfz m c k hk]; exact Finset.mem_singleton_self _
theorem expect_sfz (k : Fin 8) (hk : k.val < 3) : (arRd (F := F) m).expect (dcell c (sfzS k)) 0 = N := expect_dma m c _ (used_sfz k hk)
theorem payload_sfz (k : Fin 8) (r : ℕ) (d : Fin 3) : (arRd (F := F) m).payload (dcell c (sfzS k)) r d = holds m c (ch ryM k) fullShare (SQ m (py c) k) := by
  rw [payload_dma, role_sfz]; rfl
theorem rest_sfz (k : Fin 8) (hk : k.val < 3) :
    bigSep ((arRd (F := F) m).duties (dcell c (sfzS k)) 0 \ ∅) (fun d => (arRd (F := F) m).payload (dcell c (sfzS k)) 0 d) = holds m c (ch ryM k) fullShare (SQ m (py c) k) := by
  rw [rest_dma m c _ (used_sfz k hk), role_sfz]; rfl

theorem role_rfz (k : Fin 8) : decodeDma (rfzS k).val = .rfz k := decode_rfz k
theorem used_rfz (k : Fin 8) (hk : k.val < 3) : used (decodeDma (rfzS k).val) = true := by
  rw [role_rfz]; exact decide_eq_true hk
theorem duties_rfz (k : Fin 8) (hk : k.val < 3) : (arRd (F := F) m).duties (dcell c (rfzS k)) 0 = {0} := duties_dma m c _ (used_rfz k hk)
theorem mem_duties_rfz (k : Fin 8) (hk : k.val < 3) : (0 : Fin 3) ∈ (arRd (F := F) m).duties (dcell c (rfzS k)) 0 := by
  rw [duties_rfz m c k hk]; exact Finset.mem_singleton_self _
theorem expect_rfz (k : Fin 8) (hk : k.val < 3) : (arRd (F := F) m).expect (dcell c (rfzS k)) 0 = N := expect_dma m c _ (used_rfz k hk)
theorem payload_rfz (k : Fin 8) (r : ℕ) (d : Fin 3) : (arRd (F := F) m).payload (dcell c (rfzS k)) r d = holds m c (ch rdM k) fullShare (SQ m (py (pz c)) k) := by
  rw [payload_dma, role_rfz]; rfl
theorem rest_rfz (k : Fin 8) (hk : k.val < 3) :
    bigSep ((arRd (F := F) m).duties (dcell c (rfzS k)) 0 \ ∅) (fun d => (arRd (F := F) m).payload (dcell c (rfzS k)) 0 d) = holds m c (ch rdM k) fullShare (SQ m (py (pz c)) k) := by
  rw [rest_dma m c _ (used_rfz k hk), role_rfz]; rfl

theorem role_sfy (k : Fin 8) : decodeDma (sfyS k).val = .sfy k := decode_sfy k
theorem used_sfy (k : Fin 8) (hk : 3 ≤ k.val ∧ k.val < 6) : used (decodeDma (sfyS k).val) = true := by
  rw [role_sfy]; exact decide_eq_true hk
theorem duties_sfy (k : Fin 8) (hk : 3 ≤ k.val ∧ k.val < 6) : (arRd (F := F) m).duties (dcell c (sfyS k)) 0 = {0} := duties_dma m c _ (used_sfy k hk)
theorem mem_duties_sfy (k : Fin 8) (hk : 3 ≤ k.val ∧ k.val < 6) : (0 : Fin 3) ∈ (arRd (F := F) m).duties (dcell c (sfyS k)) 0 := by
  rw [duties_sfy m c k hk]; exact Finset.mem_singleton_self _
theorem expect_sfy (k : Fin 8) (hk : 3 ≤ k.val ∧ k.val < 6) : (arRd (F := F) m).expect (dcell c (sfyS k)) 0 = N := expect_dma m c _ (used_sfy k hk)
theorem payload_sfy (k : Fin 8) (r : ℕ) (d : Fin 3) : (arRd (F := F) m).payload (dcell c (sfyS k)) r d = holds m c (ch rzM k) fullShare (SQ m (pz c) k) := by
  rw [payload_dma, role_sfy]; rfl
theorem rest_sfy (k : Fin 8) (hk : 3 ≤ k.val ∧ k.val < 6) :
    bigSep ((arRd (F := F) m).duties (dcell c (sfyS k)) 0 \ ∅) (fun d => (arRd (F := F) m).payload (dcell c (sfyS k)) 0 d) = holds m c (ch rzM k) fullShare (SQ m (pz c) k) := by
  rw [rest_dma m c _ (used_sfy k hk), role_sfy]; rfl

theorem role_rfy (k : Fin 8) : decodeDma (rfyS k).val = .rfy k := decode_rfy k
theorem used_rfy (k : Fin 8) (hk : 3 ≤ k.val ∧ k.val < 6) : used (decodeDma (rfyS k).val) = true := by
  rw [role_rfy]; exact decide_eq_true hk
theorem duties_rfy (k : Fin 8) (hk : 3 ≤ k.val ∧ k.val < 6) : (arRd (F := F) m).duties (dcell c (rfyS k)) 0 = {0} := duties_dma m c _ (used_rfy k hk)
theorem mem_duties_rfy (k : Fin 8) (hk : 3 ≤ k.val ∧ k.val < 6) : (0 : Fin 3) ∈ (arRd (F := F) m).duties (dcell c (rfyS k)) 0 := by
  rw [duties_rfy m c k hk]; exact Finset.mem_singleton_self _
theorem expect_rfy (k : Fin 8) (hk : 3 ≤ k.val ∧ k.val < 6) : (arRd (F := F) m).expect (dcell c (rfyS k)) 0 = N := expect_dma m c _ (used_rfy k hk)
theorem payload_rfy (k : Fin 8) (r : ℕ) (d : Fin 3) : (arRd (F := F) m).payload (dcell c (rfyS k)) r d = holds m c (ch rdM k) fullShare (SQ m (py (pz c)) k) := by
  rw [payload_dma, role_rfy]; rfl
theorem rest_rfy (k : Fin 8) (hk : 3 ≤ k.val ∧ k.val < 6) :
    bigSep ((arRd (F := F) m).duties (dcell c (rfyS k)) 0 \ ∅) (fun d => (arRd (F := F) m).payload (dcell c (rfyS k)) 0 d) = holds m c (ch rdM k) fullShare (SQ m (py (pz c)) k) := by
  rw [rest_dma m c _ (used_rfy k hk), role_rfy]; rfl

end Tables

theorem xrow_lt (c : Dev nD) (j : Fin 10) (h : j.val < 8) : xrow c j = 256 * qm c + 32 * j.val := if_pos h
theorem xrow_ge (c : Dev nD) (j : Fin 10) (h : ¬ j.val < 8) : xrow c j = 256 * qd c + 192 + 32 * (j.val - 8) := if_neg h
theorem xdst_lt (j : Fin 10) (h : j.val < 8) : xdst j = ch cxM ⟨j.val, h⟩ := dif_pos h
theorem xdst_ge (j : Fin 10) (h : ¬ j.val < 8) : xdst j = ch64 ⟨j.val - 8, by have := j.isLt; omega⟩ := dif_neg h

theorem xrow_0 (c : Dev nD) : xrow c 0 = 256 * qm c := rfl
theorem xrow_1 (c : Dev nD) : xrow c 1 = 256 * qm c + 32 := rfl
theorem xrow_2 (c : Dev nD) : xrow c 2 = 256 * qm c + 64 := rfl
theorem xrow_3 (c : Dev nD) : xrow c 3 = 256 * qm c + 96 := rfl
theorem xrow_4 (c : Dev nD) : xrow c 4 = 256 * qm c + 128 := rfl
theorem xrow_5 (c : Dev nD) : xrow c 5 = 256 * qm c + 160 := rfl
theorem xrow_6 (c : Dev nD) : xrow c 6 = 256 * qm c + 192 := rfl
theorem xrow_7 (c : Dev nD) : xrow c 7 = 256 * qm c + 224 := rfl
theorem xrow_8 (c : Dev nD) : xrow c 8 = 256 * qd c + 192 := rfl
theorem xrow_9 (c : Dev nD) : xrow c 9 = 256 * qd c + 224 := rfl
theorem xdst_0 : xdst 0 = ch cxM 0 := rfl
theorem xdst_1 : xdst 1 = ch cxM 1 := rfl
theorem xdst_2 : xdst 2 = ch cxM 2 := rfl
theorem xdst_3 : xdst 3 = ch cxM 3 := rfl
theorem xdst_4 : xdst 4 = ch cxM 4 := rfl
theorem xdst_5 : xdst 5 = ch cxM 5 := rfl
theorem xdst_6 : xdst 6 = ch cxM 6 := rfl
theorem xdst_7 : xdst 7 = ch cxM 7 := rfl
theorem xdst_8 : xdst 8 = ch64 0 := rfl
theorem xdst_9 : xdst 9 = ch64 1 := rfl

end Cert.KernelIdeal.AR

end
-- ==== Proof.Records.lean ====
import proofs.«900722_g7700000000000723_dist_ar_v7x_xyz2x4x4_x_m1024_n512_f32_1_alg».proof.Proof.Ghost
import proofs.«900722_g7700000000000723_dist_ar_v7x_xyz2x4x4_x_m1024_n512_f32_1_alg».proof.Proof.Tables

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

instance records_persistent (K : GSem nD τ sig → ℕ) : BI.Persistent (records m K) := by unfold records; infer_instance

theorem rec_bar (K : GSem nD τ sig → ℕ) (c' : Dev nD) :
    records m K ⊢ iprop(cellInv ER (arRd m) (K (barCell c')) (barCell c') ∗ reached ER (barCell c') 0) := by
  unfold records; exact bigSep_elim (Finset.mem_univ (c', (0 : Fin 85)))

theorem kcell_succ (c' : Dev nD) (s : DmaSem sig) (hs : 2 ≤ s.val) :
    kcell (c', Fin.succ ⟨s.val - 2, by have h : s.val < 86 := s.isLt; omega⟩) = dcell c' s := by
  show ((c' : Thread nD τ), SemLoc.dma (dsem ⟨s.val - 2, _⟩)) = ((c' : Thread nD τ), SemLoc.dma s)
  have e : dsem ⟨s.val - 2, by have h : s.val < 86 := s.isLt; omega⟩ = s := Fin.ext (by show s.val - 2 + 2 = s.val; omega)
  rw [e]

theorem rec_dma (K : GSem nD τ sig → ℕ) (c' : Dev nD) (s : DmaSem sig) (hs : 2 ≤ s.val) :
    records m K ⊢ iprop(cellInv ER (arRd m) (K (dcell c' s)) (dcell c' s) ∗ reached ER (dcell c' s) 0) := by
  rw [← kcell_succ c' s hs]; unfold records
  exact bigSep_elim (Finset.mem_univ (c', Fin.succ ⟨s.val - 2, by have h : s.val < 86 := s.isLt; omega⟩))

theorem rec_sx (K : GSem nD τ sig → ℕ) (c' : Dev nD) (j : Fin 10) :
    records m K ⊢ iprop(cellInv ER (arRd m) (K (dcell c' (sxS j))) (dcell c' (sxS j)) ∗ reached ER (dcell c' (sxS j)) 0) :=
  rec_dma m K c' _ (by rw [sxS_val]; omega)
theorem rec_rx (K : GSem nD τ sig → ℕ) (c' : Dev nD) (j : Fin 10) :
    records m K ⊢ iprop(cellInv ER (arRd m) (K (dcell c' (rxS j))) (dcell c' (rxS j)) ∗ reached ER (dcell c' (rxS j)) 0) :=
  rec_dma m K c' _ (by rw [rxS_val]; omega)
theorem rec_sy (K : GSem nD τ sig → ℕ) (c' : Dev nD) (k : Fin 8) :
    records m K ⊢ iprop(cellInv ER (arRd m) (K (dcell c' (syS k))) (dcell c' (syS k)) ∗ reached ER (dcell c' (syS k)) 0) :=
  rec_dma m K c' _ (by rw [syS_val]; omega)
theorem rec_ry (K : GSem nD τ sig → ℕ) (c' : Dev nD) (k : Fin 8) :
    records m K ⊢ iprop(cellInv ER (arRd m) (K (dcell c' (ryS k))) (dcell c' (ryS k)) ∗ reached ER (dcell c' (ryS k)) 0) :=
  rec_dma m K c' _ (by rw [ryS_val]; omega)
theorem rec_sz (K : GSem nD τ sig → ℕ) (c' : Dev nD) (k : Fin 8) :
    records m K ⊢ iprop(cellInv ER (arRd m) (K (dcell c' (szS k))) (dcell c' (szS k)) ∗ reached ER (dcell c' (szS k)) 0) :=
  rec_dma m K c' _ (by rw [szS_val]; omega)
theorem rec_rz (K : GSem nD τ sig → ℕ) (c' : Dev nD) (k : Fin 8) :
    records m K ⊢ iprop(cellInv ER (arRd m) (K (dcell c' (rzS k))) (dcell c' (rzS k)) ∗ reached ER (dcell c' (rzS k)) 0) :=
  rec_dma m K c' _ (by rw [rzS_val]; omega)
theorem rec_sfy (K : GSem nD τ sig → ℕ) (c' : Dev nD) (k : Fin 8) :
    records m K ⊢ iprop(cellInv ER (arRd m) (K (dcell c' (sfyS k))) (dcell c' (sfyS k)) ∗ reached ER (dcell c' (sfyS k)) 0) :=
  rec_dma m K c' _ (by rw [sfyS_val]; omega)
theorem rec_rfy (K : GSem nD τ sig → ℕ) (c' : Dev nD) (k : Fin 8) :
    records m K ⊢ iprop(cellInv ER (arRd m) (K (dcell c' (rfyS k))) (dcell c' (rfyS k)) ∗ reached ER (dcell c' (rfyS k)) 0) :=
  rec_dma m K c' _ (by rw [rfyS_val]; omega)
theorem rec_sfz (K : GSem nD τ sig → ℕ) (c' : Dev nD) (k : Fin 8) :
    records m K ⊢ iprop(cellInv ER (arRd m) (K (dcell c' (sfzS k))) (dcell c' (sfzS k)) ∗ reached ER (dcell c' (sfzS k)) 0) :=
  rec_dma m K c' _ (by rw [sfzS_val]; omega)
theorem rec_rfz (K : GSem nD τ sig → ℕ) (c' : Dev nD) (k : Fin 8) :
    records m K ⊢ iprop(cellInv ER (arRd m) (K (dcell c' (rfzS k))) (dcell c' (rfzS k)) ∗ reached ER (dcell c' (rfzS k)) 0) :=
  rec_dma m K c' _ (by rw [rfzS_val]; omega)

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

end Cert.KernelIdeal.AR

end
-- ==== Proof.Levels.lean ====
import proofs.«900722_g7700000000000723_dist_ar_v7x_xyz2x4x4_x_m1024_n512_f32_1_alg».proof.Proof.Ghost
import proofs.«900722_g7700000000000723_dist_ar_v7x_xyz2x4x4_x_m1024_n512_f32_1_alg».proof.Proof.Tables

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem L_tc (c : Dev nD) (sm : SemLoc sig) : L ((c : Thread nD τ), sm) = {()} := if_pos rfl
theorem L_of_tc (g : GSem nD τ sig) (h : g.1.2 = .tc) : L g = {()} := if_pos h
theorem L_of_ne (g : GSem nD τ sig) (h : g.1.2 ≠ .tc) : L g = ∅ := if_neg h

theorem lv_bar (c : Dev nD) : lv (barCell c) () = 1 := by show lvCK (decode (.reg barS)) = 1; rw [decode_bar]; rfl
theorem lv_sx (c : Dev nD) (j : Fin 10) : lv (dcell c (sxS j)) () = 0 := by show lvCK (decode (.dma (sxS j))) = 0; rw [decode_sx]; rfl
theorem lv_rx (c : Dev nD) (j : Fin 10) : lv (dcell c (rxS j)) () = 2 := by show lvCK (decode (.dma (rxS j))) = 2; rw [decode_rx]; rfl
theorem lv_sy (c : Dev nD) (k : Fin 8) : lv (dcell c (syS k)) () = 0 := by show lvCK (decode (.dma (syS k))) = 0; rw [decode_sy]; rfl
theorem lv_sz (c : Dev nD) (k : Fin 8) : lv (dcell c (szS k)) () = 0 := by show lvCK (decode (.dma (szS k))) = 0; rw [decode_sz]; rfl
theorem lv_ry (c : Dev nD) (k : Fin 8) : lv (dcell c (ryS k)) () = 3 := by show lvCK (decode (.dma (ryS k))) = 3; rw [decode_ry]; rfl
theorem lv_rz (c : Dev nD) (k : Fin 8) : lv (dcell c (rzS k)) () = 3 := by show lvCK (decode (.dma (rzS k))) = 3; rw [decode_rz]; rfl
theorem lv_sfz (c : Dev nD) (k : Fin 8) : lv (dcell c (sfzS k)) () = 0 := by show lvCK (decode (.dma (sfzS k))) = 0; rw [decode_sfz]; rfl
theorem lv_rfz (c : Dev nD) (k : Fin 8) : lv (dcell c (rfzS k)) () = 4 := by show lvCK (decode (.dma (rfzS k))) = 4; rw [decode_rfz]; rfl
theorem lv_sfy (c : Dev nD) (k : Fin 8) : lv (dcell c (sfyS k)) () = 0 := by show lvCK (decode (.dma (sfyS k))) = 0; rw [decode_sfy]; rfl
theorem lv_rfy (c : Dev nD) (k : Fin 8) : lv (dcell c (rfyS k)) () = 4 := by show lvCK (decode (.dma (rfyS k))) = 4; rw [decode_rfy]; rfl

theorem owedL_nil : owedL ([] : List (GSem nD τ sig × ℕ)) = 0 := rfl
theorem owedL_cons (p : GSem nD τ sig × ℕ) (l : List (GSem nD τ sig × ℕ)) : owedL (p :: l) = owedL l + tallyAt p.1 () p.2 := rfl

theorem owedL_pos {l : List (GSem nD τ sig × ℕ)} {g : GSem nD τ sig} {u : Unit} (h : 0 < owedL l g u) : ∃ p ∈ l, p.1 = g := by
  induction l with
  | nil => rw [owedL_nil, Pi.zero_apply, Finsupp.zero_apply] at h; exact absurd h (Nat.lt_irrefl 0)
  | cons p l ih =>
    rw [owedL_cons, Pi.add_apply, Finsupp.add_apply, tallyAt_apply] at h
    by_cases hp : g = p.1 ∧ u = ()
    · exact ⟨p, List.mem_cons_self, hp.1.symm⟩
    · rw [if_neg hp, Nat.add_zero] at h
      obtain ⟨q, hq, hqg⟩ := ih h
      exact ⟨q, List.mem_cons_of_mem _ hq, hqg⟩

theorem mayWait_of_lt (c : Dev nD) (sm : SemLoc sig) (n : ℕ) (hn : lv ((c : Thread nD τ), sm) () = n)
    (l : List (GSem nD τ sig × ℕ)) (hl : ∀ p ∈ l, p.1.1.2 = .tc ∧ n < lv p.1 ()) :
    (levAts L lv : sProp 𝕄) ⊢ MayWait (c : Thread nD τ) sm () (owedL l) :=
  MayOwe.of_cut (L := L) (lev := lv) n
    (fun p hp => by rw [Finset.mem_singleton.mp hp, L_tc]; exact Finset.mem_singleton_self _)
    (fun g u hg => by obtain ⟨p, hp, rfl⟩ := owedL_pos hg; rw [L_of_tc _ (hl p hp).1]; exact Finset.mem_singleton_self _)
    (fun p hp => by rw [Finset.mem_singleton.mp hp]; exact le_of_eq hn)
    (fun g u hg => by obtain ⟨p, hp, rfl⟩ := owedL_pos hg; exact (hl p hp).2)

theorem mayWait_zero (c : Dev nD) (sm : SemLoc sig) :
    (levAts L lv : sProp 𝕄) ⊢ MayWait (c : Thread nD τ) sm () (0 : CellTallies nD τ sig Unit) := by
  rw [MayWait_zero]; iintro -; iempintro

theorem mem_drop_of_le {α : Type} {l : List α} {a : α} {i j : ℕ} (h : j ≤ i) (ha : a ∈ l.drop i) : a ∈ l.drop j := by
  obtain ⟨k, rfl⟩ := Nat.exists_eq_add_of_le h
  rw [← List.drop_drop] at ha
  exact List.mem_of_mem_drop ha

theorem paid_length (c : Dev nD) : (paid c).length = 35 := rfl
theorem paid_drop_nil (c : Dev nD) (i : ℕ) (hi : 35 ≤ i) : (paid c).drop i = [] :=
  List.drop_eq_nil_of_le (by rw [paid_length]; exact hi)

theorem paid_tc (c : Dev nD) : ∀ p ∈ paid c, p.1.1.2 = .tc := by
  intro p hp
  simp only [paid, List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> rfl

def paidLv : List ℕ := [1, 1, 1, 2, 2, 2, 2, 2, 2, 2, 2, 2, 2, 3, 3, 3, 3, 3, 3, 3, 3, 3, 3, 3, 3, 3, 3, 3, 3, 4, 4, 4, 4, 4, 4]

theorem paid_levels (c : Dev nD) : (paid c).map (fun p => lv p.1 ()) = paidLv := by
  simp only [paid, List.map_cons, List.map_nil, lv_bar, lv_rx, lv_ry, lv_rz, lv_rfy, lv_rfz, paidLv]

theorem paid_lt (c : Dev nD) (i n : ℕ) (h : ∀ x ∈ paidLv.drop i, n < x) : ∀ p ∈ (paid c).drop i, n < lv p.1 () := by
  intro p hp
  have hm := List.mem_map_of_mem (f := fun p : GSem nD τ sig × ℕ => lv p.1 ()) hp
  rw [List.map_drop, paid_levels] at hm
  exact h _ hm

theorem mayWait_paid (c : Dev nD) (sm : SemLoc sig) (n : ℕ) (hn : lv ((c : Thread nD τ), sm) () = n) (j : ℕ)
    (h : ∀ x ∈ paidLv.drop j, n < x) (i : ℕ) (hi : j ≤ i) :
    (levAts L lv : sProp 𝕄) ⊢ MayWait (c : Thread nD τ) sm () (owedL ((paid c).drop i)) :=
  mayWait_of_lt c sm n hn _ fun p hp => ⟨paid_tc c p (List.mem_of_mem_drop hp), paid_lt c j n h p (mem_drop_of_le hi hp)⟩

theorem mayWait_barS (c : Dev nD) (i : ℕ) (hi : 3 ≤ i) :
    (levAts L lv : sProp 𝕄) ⊢ MayWait (c : Thread nD τ) (.reg barS) () (owedL ((paid c).drop i)) :=
  mayWait_paid c _ 1 (lv_bar c) 3 (by decide) i hi

theorem mayWait_rx (c : Dev nD) (j : Fin 10) (i : ℕ) (hi : 13 ≤ i) :
    (levAts L lv : sProp 𝕄) ⊢ MayWait (c : Thread nD τ) (.dma (rxS j)) () (owedL ((paid c).drop i)) :=
  mayWait_paid c _ 2 (lv_rx c j) 13 (by decide) i hi

theorem mayWait_ry (c : Dev nD) (k : Fin 8) (i : ℕ) (hi : 29 ≤ i) :
    (levAts L lv : sProp 𝕄) ⊢ MayWait (c : Thread nD τ) (.dma (ryS k)) () (owedL ((paid c).drop i)) :=
  mayWait_paid c _ 3 (lv_ry c k) 29 (by decide) i hi

theorem mayWait_rz (c : Dev nD) (k : Fin 8) (i : ℕ) (hi : 29 ≤ i) :
    (levAts L lv : sProp 𝕄) ⊢ MayWait (c : Thread nD τ) (.dma (rzS k)) () (owedL ((paid c).drop i)) :=
  mayWait_paid c _ 3 (lv_rz c k) 29 (by decide) i hi

theorem mayWait_done (c : Dev nD) (sm : SemLoc sig) (i : ℕ) (hi : 35 ≤ i) :
    (levAts L lv : sProp 𝕄) ⊢ MayWait (c : Thread nD τ) sm () (owedL ((paid c).drop i)) := by
  rw [paid_drop_nil c i hi, owedL_nil]; exact mayWait_zero c sm

theorem mayWait_low (c : Dev nD) (sm : SemLoc sig) (h0 : lv ((c : Thread nD τ), sm) () = 0) (i : ℕ) :
    (levAts L lv : sProp 𝕄) ⊢ MayWait (c : Thread nD τ) sm () (owedL ((paid c).drop i)) :=
  mayWait_paid c sm 0 h0 0 (by decide) i (Nat.zero_le i)

theorem mayWait_sx (c : Dev nD) (j : Fin 10) (i : ℕ) :
    (levAts L lv : sProp 𝕄) ⊢ MayWait (c : Thread nD τ) (.dma (sxS j)) () (owedL ((paid c).drop i)) := mayWait_low c _ (lv_sx c j) i
theorem mayWait_sy (c : Dev nD) (k : Fin 8) (i : ℕ) :
    (levAts L lv : sProp 𝕄) ⊢ MayWait (c : Thread nD τ) (.dma (syS k)) () (owedL ((paid c).drop i)) := mayWait_low c _ (lv_sy c k) i
theorem mayWait_sz (c : Dev nD) (k : Fin 8) (i : ℕ) :
    (levAts L lv : sProp 𝕄) ⊢ MayWait (c : Thread nD τ) (.dma (szS k)) () (owedL ((paid c).drop i)) := mayWait_low c _ (lv_sz c k) i
theorem mayWait_sfz (c : Dev nD) (k : Fin 8) (i : ℕ) :
    (levAts L lv : sProp 𝕄) ⊢ MayWait (c : Thread nD τ) (.dma (sfzS k)) () (owedL ((paid c).drop i)) := mayWait_low c _ (lv_sfz c k) i
theorem mayWait_sfy (c : Dev nD) (k : Fin 8) (i : ℕ) :
    (levAts L lv : sProp 𝕄) ⊢ MayWait (c : Thread nD τ) (.dma (sfyS k)) () (owedL ((paid c).drop i)) := mayWait_low c _ (lv_sfy c k) i

end Cert.KernelIdeal.AR

end
-- ==== Proof.Reindex.lean ====
import proofs.«900722_g7700000000000723_dist_ar_v7x_xyz2x4x4_x_m1024_n512_f32_1_alg».proof.Proof.Ghost

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]
  rfl

abbrev T84 : Type := (Fin 10 ⊕ Fin 10) ⊕ ((Fin 8 ⊕ (Fin 8 ⊕ (Fin 8 ⊕ Fin 8))) ⊕ (Fin 8 ⊕ (Fin 8 ⊕ (Fin 8 ⊕ Fin 8))))

def g84 : T84 → Fin 84
  | .inl (.inl j) => ⟨j.val, by have := j.isLt; omega⟩
  | .inl (.inr j) => ⟨10 + j.val, by have := j.isLt; omega⟩
  | .inr (.inl (.inl k)) => ⟨20 + k.val, by have := k.isLt; omega⟩
  | .inr (.inl (.inr (.inl k))) => ⟨28 + k.val, by have := k.isLt; omega⟩
  | .inr (.inl (.inr (.inr (.inl k)))) => ⟨36 + k.val, by have := k.isLt; omega⟩
  | .inr (.inl (.inr (.inr (.inr k)))) => ⟨44 + k.val, by have := k.isLt; omega⟩
  | .inr (.inr (.inl k)) => ⟨52 + k.val, by have := k.isLt; omega⟩
  | .inr (.inr (.inr (.inl k))) => ⟨60 + k.val, by have := k.isLt; omega⟩
  | .inr (.inr (.inr (.inr (.inl k)))) => ⟨68 + k.val, by have := k.isLt; omega⟩
  | .inr (.inr (.inr (.inr (.inr k)))) => ⟨76 + k.val, by have := k.isLt; omega⟩

def f84 : T84 → DmaSem sig
  | .inl (.inl j) => sxS j
  | .inl (.inr j) => rxS j
  | .inr (.inl (.inl k)) => syS k
  | .inr (.inl (.inr (.inl k))) => ryS k
  | .inr (.inl (.inr (.inr (.inl k)))) => szS k
  | .inr (.inl (.inr (.inr (.inr k)))) => rzS k
  | .inr (.inr (.inl k)) => sfyS k
  | .inr (.inr (.inr (.inl k))) => rfyS k
  | .inr (.inr (.inr (.inr (.inl k)))) => sfzS k
  | .inr (.inr (.inr (.inr (.inr k)))) => rfzS k

theorem g84_bijective : Function.Bijective g84 := by decide +kernel

theorem dsem_g84 (t : T84) : dsem (g84 t) = f84 t := by
  rcases t with (j | j) | ((k | k | k | k) | (k | k | k | k)) <;> apply Fin.ext <;>
    simp only [g84, f84, sxS_val, rxS_val, syS_val, ryS_val, szS_val, rzS_val, sfyS_val, rfyS_val, sfzS_val, rfzS_val] <;> omega

omit [FloatOps F] in

theorem split84 (Ψ : DmaSem sig → sProp 𝕄) :
    (bigSep Finset.univ fun s : Fin 84 => Ψ (dsem s)) =
      iprop((bigSep Finset.univ fun j : Fin 10 => iprop(Ψ (sxS j) ∗ Ψ (rxS j)))
        ∗ (bigSep Finset.univ fun k : Fin 8 => iprop(Ψ (syS k) ∗ Ψ (ryS k) ∗ Ψ (szS k) ∗ Ψ (rzS k)))
        ∗ (bigSep Finset.univ fun k : Fin 8 => iprop(Ψ (sfyS k) ∗ Ψ (rfyS k) ∗ Ψ (sfzS k) ∗ Ψ (rfzS k)))) := by
  rw [bigSep_univ_equiv (Equiv.ofBijective g84 g84_bijective) (fun s : Fin 84 => Ψ (dsem s))]
  simp only [Equiv.ofBijective_apply, dsem_g84]
  simp only [bigSep_univ_sum, f84, bigSep_sep']
  rfl

omit [FloatOps F] in

theorem split85 (Ψ : SemLoc sig → sProp 𝕄) :
    (bigSep Finset.univ fun k : Fin 85 => Ψ (csem k)) =
      iprop(Ψ (.reg barS)
        ∗ (bigSep Finset.univ fun j : Fin 10 => iprop(Ψ (.dma (sxS j)) ∗ Ψ (.dma (rxS j))))
        ∗ (bigSep Finset.univ fun k : Fin 8 => iprop(Ψ (.dma (syS k)) ∗ Ψ (.dma (ryS k)) ∗ Ψ (.dma (szS k)) ∗ Ψ (.dma (rzS k))))
        ∗ (bigSep Finset.univ fun k : Fin 8 => iprop(Ψ (.dma (sfyS k)) ∗ Ψ (.dma (rfyS k)) ∗ Ψ (.dma (sfzS k)) ∗ Ψ (.dma (rfzS k))))) := by
  rw [bigSep_fin_succ, ← split84 (fun s => Ψ (.dma s))]
  rfl

end Cert.KernelIdeal.AR

end
-- ==== Proof.Deal.lean ====
import proofs.«900722_g7700000000000723_dist_ar_v7x_xyz2x4x4_x_m1024_n512_f32_1_alg».proof.Proof.Data
import proofs.«900722_g7700000000000723_dist_ar_v7x_xyz2x4x4_x_m1024_n512_f32_1_alg».proof.Proof.Records
import proofs.«900722_g7700000000000723_dist_ar_v7x_xyz2x4x4_x_m1024_n512_f32_1_alg».proof.Proof.Levels
import proofs.«900722_g7700000000000723_dist_ar_v7x_xyz2x4x4_x_m1024_n512_f32_1_alg».proof.Proof.Reindex

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem dsem_injective : Function.Injective dsem := fun a b h => by
  have h2 : a.val + 2 = b.val + 2 := congrArg Fin.val h
  exact Fin.ext (by omega)

theorem osem_injective : Function.Injective osem := fun a b h => dsem_injective (SemLoc.dma.inj h)

theorem csem_injective : Function.Injective csem := by
  intro a b h
  induction a using Fin.cases with
  | zero =>
    induction b using Fin.cases with
    | zero => rfl
    | succ j => simp only [csem, Fin.cases_zero, Fin.cases_succ] at h; cases h
  | succ i =>
    induction b using Fin.cases with
    | zero => simp only [csem, Fin.cases_zero, Fin.cases_succ] at h; cases h
    | succ j =>
      simp only [csem, Fin.cases_succ] at h
      rw [dsem_injective (SemLoc.dma.inj h)]

theorem kcell_injective : Function.Injective (kcell : Dev nD × Fin 85 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def arCells : Finset (GSem nD τ sig) := Finset.univ.map ⟨kcell, kcell_injective⟩

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

def fzE : Fin 3 ↪ Fin 8 := ⟨fz, fun a b h => Fin.ext (by have := congrArg Fin.val h; simpa using this)⟩
def fyE : Fin 3 ↪ Fin 8 := ⟨fy, fun a b h => Fin.ext (by have := congrArg Fin.val h; simp only [fy] at this; omega)⟩

theorem restrict8 (e : Fin 3 ↪ Fin 8) (Φ : Fin 8 → sProp 𝕄) :
    bigSep Finset.univ Φ ⊢ bigSep Finset.univ fun k : Fin 3 => Φ (e k) := by
  rw [← bigSep_map e]
  exact bigSep_subset (Finset.subset_univ _)

abbrev tokOf (x : Dev nD × Fin 85 × Fin 3) : GSem nD τ sig × ℕ × Fin 3 := (kcell (x.1, x.2.1), 0, x.2.2)

theorem tokOf_injective : Function.Injective (tokOf : Dev nD × Fin 85 × Fin 3 → GSem nD τ sig × ℕ × Fin 3) := by
  rintro ⟨c, k, d⟩ ⟨c', k', d'⟩ h
  have h1 : kcell (c, k) = kcell (c', k') := congrArg (fun x : GSem nD τ sig × ℕ × Fin 3 => x.1) h
  have h2 : d = d' := congrArg (fun x : GSem nD τ sig × ℕ × Fin 3 => x.2.2) h
  have h3 := kcell_injective h1
  cases h3; cases h2; rfl

def arToks : Finset (GSem nD τ sig × ℕ × Fin 3) := Finset.univ.map ⟨tokOf, tokOf_injective⟩

def allToks (c : Dev nD) : sProp 𝕄 :=
  bigSep Finset.univ fun k : Fin 85 => bigSep Finset.univ fun d : Fin 3 => dutyTok ER (kcell (c, k)) 0 d

def G (c : Dev nD) : sProp 𝕄 :=
  iprop((bigSep Finset.univ fun k : Fin 85 => roundState ER (arRd m) (kcell (c, k)) 0)
    ∗ (bigSep Finset.univ fun k : Fin 85 => iprop(atPos ER (kcell (c, k)) 0 ∅ 0 ∗ reached ER (kcell (c, k)) 0)) ∗ allToks c)

/-- One update turns the launch element into every device's cells at round 0 and all their duty tokens. -/
theorem fund_ar : BI.own (ER (initOf arCells arToks)) ⊢ (|==> bigSep Finset.univ (G m) : sProp 𝕄) := by
  have hX (Φ : GSem nD τ sig → sProp 𝕄) : bigSep arCells Φ = bigSep Finset.univ fun c : Dev nD => bigSep Finset.univ fun k : Fin 85 => Φ (kcell (c, k)) := by
    unfold arCells; rw [bigSep_map, bigSep_univ_prod]; rfl
  have hT : bigSep arToks (fun x => (dutyTok ER x.1 x.2.1 x.2.2 : sProp 𝕄)) = bigSep Finset.univ fun c : Dev nD => allToks c := by
    unfold arToks allToks; rw [bigSep_map, bigSep_univ_prod]
    exact bigSep_congr fun c _ => bigSep_univ_prod (fun kd : Fin 85 × Fin 3 => (dutyTok ER (kcell (c, kd.1)) 0 kd.2 : sProp 𝕄))
  iintro HX
  imod (Rounds.fund ER (arRd m) arCells arToks) $$ HX with ⟨Hst, Hr, Hat, Htok⟩
  imodintro
  ihave Hst' := (Entails.of_eq (hX fun g => roundState ER (arRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 85 => semVal (kcell (c, k)) 0 : sProp 𝕄) := by
  rw [unscopedSems0_eq, bigSep_fin_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 85 => iprop(∃ κ : ℕ, cellInv ER (arRd m) κ (kcell (c, k))))
          ∗ (bigSep Finset.univ fun k : Fin 85 => iprop(atPos ER (kcell (c, k)) 0 ∅ 0 ∗ reached ER (kcell (c, k)) 0)) ∗ allToks c) := by
  unfold G
  iintro ⟨Hos, Hus, Hst, Hat, Htok⟩
  ihave Hv := (sems0_eq (F := F) c) $$ [Hos Hus]
  · isplitl [Hos] <;> iassumption
  imod (show iprop((bigSep Finset.univ fun k : Fin 85 => semVal (kcell (c, k)) 0) ∗ bigSep Finset.univ fun k : Fin 85 => roundState ER (arRd m) (kcell (c, k)) 0)
      ⊢ (|={Set.univ}=> bigSep Finset.univ fun k : Fin 85 => iprop(∃ κ : ℕ, cellInv ER (arRd m) κ (kcell (c, k))) : sProp 𝕄) from by
        rw [← bigSep_sep']
        exact (bigSep_mono fun k _ => (Rounds.body_intro ER (arRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def ownToks (c : Dev nD) : sProp 𝕄 :=
  iprop(dutyTok ER (barCell c) 0 0 ∗ dutyTok ER (barCell c) 0 1 ∗ dutyTok ER (barCell c) 0 2
    ∗ (bigSep Finset.univ fun j : Fin 10 => iprop(dutyTok ER (dcell c (sxS j)) 0 0 ∗ dutyTok ER (dcell c (rxS j)) 0 0))
    ∗ (bigSep Finset.univ fun k : Fin 8 => iprop(dutyTok ER (dcell c (syS k)) 0 0 ∗ dutyTok ER (dcell c (ryS k)) 0 0
        ∗ dutyTok ER (dcell c (szS k)) 0 0 ∗ dutyTok ER (dcell c (rzS k)) 0 0))
    ∗ (bigSep Finset.univ fun k : Fin 3 => iprop(dutyTok ER (dcell c (sfzS (fz k))) 0 0 ∗ dutyTok ER (dcell c (rfzS (fz k))) 0 0))
    ∗ (bigSep Finset.univ fun k : Fin 3 => iprop(dutyTok ER (dcell c (sfyS (fy k))) 0 0 ∗ dutyTok ER (dcell c (rfyS (fy k))) 0 0)))

theorem tok0 (g : GSem nD τ sig) : (bigSep Finset.univ fun d : Fin 3 => (dutyTok ER g 0 d : sProp 𝕄)) ⊢ dutyTok ER g 0 0 :=
  bigSep_elim (Finset.mem_univ 0)

theorem tok2 (g h : GSem nD τ sig) :
    iprop((bigSep Finset.univ fun d : Fin 3 => (dutyTok ER g 0 d : sProp 𝕄)) ∗ (bigSep Finset.univ fun d : Fin 3 => (dutyTok ER h 0 d : sProp 𝕄)))
      ⊢ iprop(dutyTok ER g 0 0 ∗ dutyTok ER h 0 0) := by
  iintro ⟨H1, H2⟩
  isplitl [H1]
  · iapply (tok0 (F := F) g); iexact H1
  · iapply (tok0 (F := F) h); iexact H2

theorem tok4 (g1 g2 g3 g4 : GSem nD τ sig) :
    iprop((bigSep Finset.univ fun d : Fin 3 => (dutyTok ER g1 0 d : sProp 𝕄)) ∗ (bigSep Finset.univ fun d : Fin 3 => (dutyTok ER g2 0 d : sProp 𝕄))
        ∗ (bigSep Finset.univ fun d : Fin 3 => (dutyTok ER g3 0 d : sProp 𝕄)) ∗ (bigSep Finset.univ fun d : Fin 3 => (dutyTok ER g4 0 d : sProp 𝕄)))
      ⊢ iprop(dutyTok ER g1 0 0 ∗ dutyTok ER g2 0 0 ∗ dutyTok ER g3 0 0 ∗ dutyTok ER g4 0 0) := by
  iintro ⟨H1, H2, H3, H4⟩
  isplitl [H1]; · iapply (tok0 (F := F) g1); iexact H1
  isplitl [H2]; · iapply (tok0 (F := F) g2); iexact H2
  isplitl [H3]; · iapply (tok0 (F := F) g3); iexact H3
  iapply (tok0 (F := F) g4); iexact H4

theorem own_x (c : Dev nD) :
    (bigSep Finset.univ fun j : Fin 10 => iprop((bigSep Finset.univ fun d : Fin 3 => (dutyTok ER ((c : Thread nD τ), SemLoc.dma (sxS j)) 0 d : sProp 𝕄))
        ∗ (bigSep Finset.univ fun d : Fin 3 => (dutyTok ER ((c : Thread nD τ), SemLoc.dma (rxS j)) 0 d : sProp 𝕄))))
      ⊢ bigSep Finset.univ fun j : Fin 10 => iprop(dutyTok ER (dcell c (sxS j)) 0 0 ∗ dutyTok ER (dcell c (rxS j)) 0 0) :=
  bigSep_mono fun j _ => tok2 (F := F) _ _

theorem own_yz (c : Dev nD) :
    (bigSep Finset.univ fun k : Fin 8 => iprop((bigSep Finset.univ fun d : Fin 3 => (dutyTok ER ((c : Thread nD τ), SemLoc.dma (syS k)) 0 d : sProp 𝕄))
        ∗ (bigSep Finset.univ fun d : Fin 3 => (dutyTok ER ((c : Thread nD τ), SemLoc.dma (ryS k)) 0 d : sProp 𝕄))
        ∗ (bigSep Finset.univ fun d : Fin 3 => (dutyTok ER ((c : Thread nD τ), SemLoc.dma (szS k)) 0 d : sProp 𝕄))
        ∗ (bigSep Finset.univ fun d : Fin 3 => (dutyTok ER ((c : Thread nD τ), SemLoc.dma (rzS k)) 0 d : sProp 𝕄))))
      ⊢ bigSep Finset.univ fun k : Fin 8 => iprop(dutyTok ER (dcell c (syS k)) 0 0 ∗ dutyTok ER (dcell c (ryS k)) 0 0
        ∗ dutyTok ER (dcell c (szS k)) 0 0 ∗ dutyTok ER (dcell c (rzS k)) 0 0) :=
  bigSep_mono fun k _ => tok4 (F := F) _ _ _ _

theorem tok4_swap (g1 g2 g3 g4 : GSem nD τ sig) :
    iprop((bigSep Finset.univ fun d : Fin 3 => (dutyTok ER g1 0 d : sProp 𝕄)) ∗ (bigSep Finset.univ fun d : Fin 3 => (dutyTok ER g2 0 d : sProp 𝕄))
        ∗ (bigSep Finset.univ fun d : Fin 3 => (dutyTok ER g3 0 d : sProp 𝕄)) ∗ (bigSep Finset.univ fun d : Fin 3 => (dutyTok ER g4 0 d : sProp 𝕄)))
      ⊢ iprop(iprop(dutyTok ER g3 0 0 ∗ dutyTok ER g4 0 0) ∗ iprop(dutyTok ER g1 0 0 ∗ dutyTok ER g2 0 0)) := by
  iintro H
  ihave H' := (tok4 (F := F) g1 g2 g3 g4) $$ H
  icases H' with ⟨A, B, C, D⟩
  isplitl [C D]
  · isplitl [C] <;> iassumption
  · isplitl [A] <;> iassumption

theorem own_f (c : Dev nD) :
    (bigSep Finset.univ fun k : Fin 8 => iprop((bigSep Finset.univ fun d : Fin 3 => (dutyTok ER ((c : Thread nD τ), SemLoc.dma (sfyS k)) 0 d : sProp 𝕄))
        ∗ (bigSep Finset.univ fun d : Fin 3 => (dutyTok ER ((c : Thread nD τ), SemLoc.dma (rfyS k)) 0 d : sProp 𝕄))
        ∗ (bigSep Finset.univ fun d : Fin 3 => (dutyTok ER ((c : Thread nD τ), SemLoc.dma (sfzS k)) 0 d : sProp 𝕄))
        ∗ (bigSep Finset.univ fun d : Fin 3 => (dutyTok ER ((c : Thread nD τ), SemLoc.dma (rfzS k)) 0 d : sProp 𝕄))))
      ⊢ iprop((bigSep Finset.univ fun k : Fin 3 => iprop(dutyTok ER (dcell c (sfzS (fz k))) 0 0 ∗ dutyTok ER (dcell c (rfzS (fz k))) 0 0))
        ∗ (bigSep Finset.univ fun k : Fin 3 => iprop(dutyTok ER (dcell c (sfyS (fy k))) 0 0 ∗ dutyTok ER (dcell c (rfyS (fy k))) 0 0))) := by
  have h1 : (bigSep Finset.univ fun k : Fin 8 => iprop((bigSep Finset.univ fun d : Fin 3 => (dutyTok ER ((c : Thread nD τ), SemLoc.dma (sfyS k)) 0 d : sProp 𝕄))
        ∗ (bigSep Finset.univ fun d : Fin 3 => (dutyTok ER ((c : Thread nD τ), SemLoc.dma (rfyS k)) 0 d : sProp 𝕄))
        ∗ (bigSep Finset.univ fun d : Fin 3 => (dutyTok ER ((c : Thread nD τ), SemLoc.dma (sfzS k)) 0 d : sProp 𝕄))
        ∗ (bigSep Finset.univ fun d : Fin 3 => (dutyTok ER ((c : Thread nD τ), SemLoc.dma (rfzS k)) 0 d : sProp 𝕄))))
      ⊢ bigSep Finset.univ fun k : Fin 8 => iprop(iprop(dutyTok ER (dcell c (sfzS k)) 0 0 ∗ dutyTok ER (dcell c (rfzS k)) 0 0)
          ∗ iprop(dutyTok ER (dcell c (sfyS k)) 0 0 ∗ dutyTok ER (dcell c (rfyS k)) 0 0)) :=
    bigSep_mono fun k _ => tok4_swap (F := F) _ _ _ _
  refine h1.trans ?_
  rw [bigSep_sep']
  iintro ⟨Hz, Hy⟩
  isplitl [Hz]
  · iapply (restrict8 (F := F) fzE fun k : Fin 8 => iprop(dutyTok ER (dcell c (sfzS k)) 0 0 ∗ dutyTok ER (dcell c (rfzS k)) 0 0))
    iexact Hz
  · iapply (restrict8 (F := F) fyE fun k : Fin 8 => iprop(dutyTok ER (dcell c (sfyS k)) 0 0 ∗ dutyTok ER (dcell c (rfyS k)) 0 0))
    iexact Hy

theorem allToks_own (c : Dev nD) : (allToks c : sProp 𝕄) ⊢ ownToks c := by
  unfold allToks ownToks
  rw [split85 (fun sm => bigSep Finset.univ fun d : Fin 3 => (dutyTok ER ((c : Thread nD τ), sm) 0 d : sProp 𝕄)), bigSep_fin3]
  iintro ⟨⟨Hb0, Hb1, Hb2⟩, Hx, Hyz, Hf⟩
  isplitl [Hb0]; · iexact Hb0
  isplitl [Hb1]; · iexact Hb1
  isplitl [Hb2]; · iexact Hb2
  isplitl [Hx]; · iapply (own_x (F := F) c); iexact Hx
  isplitl [Hyz]; · iapply (own_yz (F := F) c); iexact Hyz
  iapply (own_f (F := F) c); iexact Hf

def pxE : Dev nD ≃ Dev nD := ⟨px, px, px_px, px_px⟩
def pyE : Dev nD ≃ Dev nD := ⟨py, py, py_py, py_py⟩
def pzE : Dev nD ≃ Dev nD := ⟨pz, pz, pz_pz, pz_pz⟩

theorem toks_around : (bigSep Finset.univ fun c : Dev nD => (ownToks c : sProp 𝕄)) ⊢ bigSep Finset.univ fun c : Dev nD => toks c := by
  unfold ownToks toks
  simp only [bigSep_sep']
  rw [bigSep_univ_equiv pxE (fun c : Dev nD => (dutyTok ER (barCell c) 0 0 : sProp 𝕄)),
    bigSep_univ_equiv pyE (fun c : Dev nD => (dutyTok ER (barCell c) 0 1 : sProp 𝕄)),
    bigSep_univ_equiv pzE (fun c : Dev nD => (dutyTok ER (barCell c) 0 2 : sProp 𝕄)),
    bigSep_univ_equiv pxE (fun c : Dev nD => bigSep Finset.univ fun j : Fin 10 => (dutyTok ER (dcell c (rxS j)) 0 0 : sProp 𝕄)),
    bigSep_univ_equiv pyE (fun c : Dev nD => bigSep Finset.univ fun k : Fin 8 => (dutyTok ER (dcell c (ryS k)) 0 0 : sProp 𝕄)),
    bigSep_univ_equiv pzE (fun c : Dev nD => bigSep Finset.univ fun k : Fin 8 => (dutyTok ER (dcell c (rzS k)) 0 0 : sProp 𝕄)),
    bigSep_univ_equiv pzE (fun c : Dev nD => bigSep Finset.univ fun k : Fin 3 => (dutyTok ER (dcell c (rfzS (fz k))) 0 0 : sProp 𝕄)),
    bigSep_univ_equiv pyE (fun c : Dev nD => bigSep Finset.univ fun k : Fin 3 => (dutyTok ER (dcell c (rfyS (fy k))) 0 0 : sProp 𝕄))]
  exact .rfl

theorem toks_deal : (bigSep Finset.univ fun c : Dev nD => (allToks c : sProp 𝕄)) ⊢ bigSep Finset.univ fun c : Dev nD => toks c :=
  (bigSep_mono fun c _ => allToks_own (F := F) c).trans (toks_around (F := F))

theorem regroup :
    (bigSep Finset.univ fun c : Dev nD => iprop((bigSep Finset.univ fun k : Fin 85 => iprop(∃ κ : ℕ, cellInv ER (arRd m) κ (kcell (c, k))))
          ∗ (bigSep Finset.univ fun k : Fin 85 => iprop(atPos ER (kcell (c, k)) 0 ∅ 0 ∗ reached ER (kcell (c, k)) 0)) ∗ allToks c) : sProp 𝕄)
      ⊢ bigSep Finset.univ (ghost m) := by
  rw [bigSep_sep', bigSep_sep', ← bigSep_univ_prod (fun ck : Dev nD × Fin 85 => iprop(∃ κ : ℕ, cellInv ER (arRd m) κ (kcell ck))),
    bigSep_congr (s := Finset.univ) (fun (c : Dev nD) _ => bigSep_sep' Finset.univ (fun k : Fin 85 => (atPos ER (kcell (c, k)) 0 ∅ 0 : sProp 𝕄)) (fun k => reached ER (kcell (c, k)) 0)),
    bigSep_sep', ← bigSep_univ_prod (fun ck : Dev nD × Fin 85 => (reached ER (kcell ck) 0 : sProp 𝕄))]
  iintro ⟨HI, ⟨Hat, #HR⟩, Htok⟩
  ihave HK := (BI.bigSep_exists_pi Finset.univ (fun (ck : Dev nD × Fin 85) (κ : ℕ) => (cellInv ER (arRd m) κ (kcell ck) : sProp 𝕄))) $$ HI
  icases HK with ⟨%K', #HI⟩
  ihave Htk := (toks_deal (F := F)) $$ Htok
  ihave Hps := (Entails.of_eq (bigSep_congr (s := Finset.univ) fun (c : Dev nD) _ =>
      show (bigSep Finset.univ fun k : Fin 85 => (atPos ER (kcell (c, k)) 0 ∅ 0 : sProp 𝕄)) = poss c from by
        unfold poss
        exact split85 (fun sm => (atPos ER ((c : Thread nD τ), sm) 0 ∅ 0 : sProp 𝕄)))) $$ Hat
  iapply (bigSep_with_persistent (R := records m fun g => K' (Function.invFun kcell g)) fun c _ =>
    show iprop(records m (fun g => K' (Function.invFun kcell g)) ∗ (poss c ∗ toks c)) ⊢ ghost m c from by
      unfold ghost; iintro ⟨HR, HP, HT⟩; iexists (fun g => K' (Function.invFun kcell g))
      isplitl [HR]; · iexact HR
      isplitl [HP] <;> iassumption)
  isplitr
  · unfold records
    iapply (Entails.of_eq (bigSep_sep' Finset.univ (fun ck : Dev nD × Fin 85 => (cellInv ER (arRd m) ((fun g => K' (Function.invFun kcell g)) (kcell ck)) (kcell ck) : sProp 𝕄))
      (fun ck => reached ER (kcell ck) 0)).symm)
    isplitl
    · iapply (Entails.of_eq (bigSep_congr (s := Finset.univ) fun (ck : Dev nD × Fin 85) _ =>
        show (cellInv ER (arRd m) (K' ck) (kcell ck) : sProp 𝕄) = cellInv ER (arRd m) ((fun g => K' (Function.invFun kcell g)) (kcell ck)) (kcell ck) from by
          rw [show (fun g => K' (Function.invFun kcell g)) (kcell ck) = K' ck from congrArg K' (Function.leftInverse_invFun kcell_injective ck)]))
      iexact HI
    · iexact HR
  · iapply (Entails.of_eq (bigSep_sep' Finset.univ (fun c : Dev nD => (poss c : sProp 𝕄)) toks).symm)
    isplitl [Hps]; · iexact Hps
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

abbrev Site : Type := SemLoc sig × (Dev nD ≃ Dev nD) × ℕ

abbrev siteOf (d : Dev nD) (s : Site) : GSem nD τ sig × ℕ := ((((s.2.1 d : Dev nD) : Thread nD τ), s.1), s.2.2)

def sites : List Site :=
  [ (.reg barS, pxE, 1),
    (.reg barS, pyE, 1),
    (.reg barS, pzE, 1),
    (.dma (rxS 0), pxE, N),
    (.dma (rxS 1), pxE, N),
    (.dma (rxS 2), pxE, N),
    (.dma (rxS 3), pxE, N),
    (.dma (rxS 4), pxE, N),
    (.dma (rxS 5), pxE, N),
    (.dma (rxS 6), pxE, N),
    (.dma (rxS 7), pxE, N),
    (.dma (rxS 8), pxE, N),
    (.dma (rxS 9), pxE, N),
    (.dma (ryS 0), pyE, N),
    (.dma (rzS 0), pzE, N),
    (.dma (ryS 1), pyE, N),
    (.dma (rzS 1), pzE, N),
    (.dma (ryS 2), pyE, N),
    (.dma (rzS 2), pzE, N),
    (.dma (ryS 3), pyE, N),
    (.dma (rzS 3), pzE, N),
    (.dma (ryS 4), pyE, N),
    (.dma (rzS 4), pzE, N),
    (.dma (ryS 5), pyE, N),
    (.dma (rzS 5), pzE, N),
    (.dma (ryS 6), pyE, N),
    (.dma (rzS 6), pzE, N),
    (.dma (ryS 7), pyE, N),
    (.dma (rzS 7), pzE, N),
    (.dma (rfzS 0), pzE, N),
    (.dma (rfzS 1), pzE, N),
    (.dma (rfzS 2), pzE, N),
    (.dma (rfyS 3), pyE, N),
    (.dma (rfyS 4), pyE, N),
    (.dma (rfyS 5), pyE, N) ]

theorem paid_eq (d : Dev nD) : paid d = sites.map (siteOf d) := rfl

theorem sepI (A B : sProp 𝕄) : BI.sep A B = iprop(A ∗ B) := rfl

theorem launchCred_sites (l : List Site) (c : Dev nD) :
    (Pipeline.launchCred (fun d => owedL (l.map (siteOf d))) c : sProp 𝕄)
      ⊢ bigSepL l fun s => cred (tallyAt ((c : Thread nD τ), s.1) () s.2.2) := by
  induction l with
  | nil =>
    show (Pipeline.launchCred (fun _ : Dev nD => (0 : CellTallies nD τ sig Unit)) c : sProp 𝕄) ⊢ _
    rw [Pipeline.launchCred_zero]; exact Entails.of_eq rfl
  | cons s l ih =>
    show (Pipeline.launchCred (fun d => owedL (l.map (siteOf d)) + tallyAt (siteOf d s).1 () (siteOf d s).2) c : sProp 𝕄) ⊢ _
    rw [Pipeline.launchCred_add, bigSepL_cons, sepI]
    iintro ⟨Hl, Hs⟩
    isplitl [Hs]
    · iapply (Pipeline.launchCred_tallyAt s.1 s.2.1 s.2.1.symm s.2.1.apply_symm_apply s.2.1.symm_apply_apply () s.2.2 c); iexact Hs
    · iapply ih; iexact Hl

theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  iintro ⟨H1, H2, H3⟩
  iapply (cred_add _ _).2
  isplitl [H1]; · iexact H1
  iapply (cred_add _ _).2
  isplitl [H2] <;> iassumption

theorem creds_of (c : Dev nD) : (bigSepL sites fun s => (cred (tallyAt ((c : Thread nD τ), s.1) () s.2.2) : sProp 𝕄)) ⊢ creds c := by
  unfold creds sites
  simp only [bigSepL_cons_cons, bigSepL_singleton, sepI]
  rw [bigSep_fin10, bigSep_fin8, bigSep_fin3, bigSep_fin3]
  iintro ⟨B1, B2, B3, X0, X1, X2, X3, X4, X5, X6, X7, X8, X9, Y0, Z0, Y1, Z1, Y2, Z2, Y3, Z3, Y4, Z4, Y5, Z5, Y6, Z6, Y7, Z7, FZ0, FZ1, FZ2, FY3, FY4, FY5⟩
  isplitl [B1 B2 B3]
  · iapply (cred3 (F := F) (barCell c))
    isplitl [B1]; · iexact B1
    isplitl [B2]; · iexact B2
    iexact B3
  isplitl [X0 X1 X2 X3 X4 X5 X6 X7 X8 X9]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    iexact X9
  isplitl [Y0 Z0 Y1 Z1 Y2 Z2 Y3 Z3 Y4 Z4 Y5 Z5 Y6 Z6 Y7 Z7]
  · isplitl [Y0 Z0]
    · isplitl [Y0] <;> iassumption
    isplitl [Y1 Z1]
    · isplitl [Y1] <;> iassumption
    isplitl [Y2 Z2]
    · isplitl [Y2] <;> iassumption
    isplitl [Y3 Z3]
    · isplitl [Y3] <;> iassumption
    isplitl [Y4 Z4]
    · isplitl [Y4] <;> iassumption
    isplitl [Y5 Z5]
    · isplitl [Y5] <;> iassumption
    isplitl [Y6 Z6]
    · isplitl [Y6] <;> iassumption
    isplitl [Y7] <;> iassumption
  isplitl [FZ0 FZ1 FZ2]
  · isplitl [FZ0]; · iexact FZ0
    isplitl [FZ1]; · iexact FZ1
    iexact FZ2
  isplitl [FY3]; · iexact FY3
  isplitl [FY4]; · iexact FY4
  iexact FY5

theorem launch_creds (c : Dev nD) : (Pipeline.launchCred O₀ c : sProp 𝕄) ⊢ creds c :=
  (show (Pipeline.launchCred O₀ c : sProp 𝕄) ⊢ bigSepL sites fun s => cred (tallyAt ((c : Thread nD τ), s.1) () s.2.2) from
    launchCred_sites sites c).trans (creds_of c)

end Cert.KernelIdeal.AR

end
-- ==== Proof.ViewLemmas.lean ====
import proofs.«900722_g7700000000000723_dist_ar_v7x_xyz2x4x4_x_m1024_n512_f32_1_alg».proof.Proof.Cells
import Idealize.ShloMosaic.Rules.PointsTo
import Idealize.ShloMosaic.Lib.Pipeline.Value

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

theorem holds_of_write (c : Dev nD) (v : Memref sig .tc .vmem S32x512 .f32) (q : PosShare TreeShare) (V : Vec F S32x512 .f32)
    (f : Buf (Elt F) (v.view.loc (c : Thread nD τ))) :
    (v.view.loc (c : Thread nD τ) ↦[v.view.set]{q} v.view.write (Elt F) f V Finset.univ : sProp 𝕄) = holds m c v q V := by
  unfold holds canon
  refine pointsTo_congr fun i hi => ?_
  obtain ⟨y, rfl⟩ := View.exists_emb_of_mem_set v.view hi
  rw [View.write_emb_of_mem _ _ (Finset.mem_univ y), View.write_emb_of_mem _ _ (Finset.mem_univ y)]

theorem read_canon (c : Dev nD) (v : Memref sig .tc .vmem S32x512 .f32) (V : Vec F S32x512 .f32) :
    View.read (Elt F) v.view (canon m c v V) = V := View.read_write_univ _ _

section Through

variable {sp : Space} {s : Shape} {e : EltTy}

theorem readAt_eq_read (M : Memref sig .tc sp s e) (r : Rect s) (h : ∀ a, r.stride a = 1) (f : M.view.ty.Contents (Elt F)) :
    View.readAt (Elt F) M.view r.toLoadRect f = View.read (Elt F) (M.slice r h).view f := rfl

theorem access_eq_view (M : Memref sig .tc sp s e) (r : Rect s) (h : ∀ a, r.stride a = 1) :
    M.access r = (M.slice r h).view := rfl

theorem load_set_eq (M : Memref sig .tc sp s e) (r : Rect s) (h : ∀ a, r.stride a = 1) :
    M.view.setOn r.toLoadRect.set = (M.slice r h).view.set := (View.set_slice M.view r).symm

theorem load_subset (M : Memref sig .tc sp s e) (r : Rect s) (h : ∀ a, r.stride a = 1) :
    M.view.setOn r.toLoadRect.set ⊆ (M.slice r h).view.set := (load_set_eq M r h).subset

theorem store_set_eq (M : Memref sig .tc sp s e) (r : Rect s) (h : ∀ a, r.stride a = 1) :
    (M.access r).setOn Finset.univ = (M.slice r h).view.set := rfl

theorem store_subset (M : Memref sig .tc sp s e) (r : Rect s) (h : ∀ a, r.stride a = 1) :
    (M.access r).setOn Finset.univ ⊆ (M.slice r h).view.set := subset_rfl

end Through

theorem load_ch (c : Dev nD) (M : Memref sig .tc .vmem S256x512 .f32) (k : Fin 8) (V : Vec F S32x512 .f32) :
    View.readAt (Elt F) M.view (r256 k).toLoadRect (canon m c (ch M k) V) = V := read_canon m c (ch M k) V

theorem load_ch64 (c : Dev nD) (j : Fin 2) (V : Vec F S32x512 .f32) :
    View.readAt (Elt F) (cdM : Memref sig .tc .vmem S64x512 .f32).view (r64 j).toLoadRect (canon m c (ch64 j) V) = V :=
  read_canon m c (ch64 j) V

theorem load_chRow (c : Dev nD) (M : Memref sig .tc .vmem S1024x512 .f32) (row : ℕ) (h : row + 32 ≤ 1024) (V : Vec F S32x512 .f32) :
    View.readAt (Elt F) M.view (r1024 row h).toLoadRect (canon m c (chRow M row h) V) = V := read_canon m c (chRow M row h) V

theorem store_ch (c : Dev nD) (v : Memref sig .tc .vmem S32x512 .f32) (f : Buf (Elt F) (v.view.loc (c : Thread nD τ)))
    (w : Vec F S32x512 .f32) :
    (v.view.loc (c : Thread nD τ) ↦[v.view.set]{fullShare} View.write (Elt F) v.view f w Finset.univ : sProp 𝕄)
      = holds m c v fullShare w := holds_of_write m c v fullShare w f

theorem load_x (c : Dev nD) (row : ℕ) (h : row + 32 ≤ 1024) :
    View.readAt (Elt F) (xM : Memref sig .tc .vmem S1024x512 .f32).view (r1024 row h).toLoadRect (xb m c) = X m c row h := rfl

theorem share_halves {ℓ : Loc nD τ sig} {S : Finset (Idx ℓ)} (f : Buf (Elt F) ℓ) :
    (ℓ ↦[S]{fullShare} f : sProp 𝕄) ⊣⊢ iprop((ℓ ↦[S]{hL} f) ∗ ℓ ↦[S]{hR} f) :=
  pointsTo_share (PosShare.mem_left_op_right fullShare)

theorem holds_halves (c : Dev nD) (v : Memref sig .tc .vmem S32x512 .f32) (V : Vec F S32x512 .f32) :
    holds m c v fullShare V ⊣⊢ iprop(holds m c v hL V ∗ holds m c v hR V) := share_halves _

theorem xholds_halves (c : Dev nD) (row : ℕ) (h : row + 32 ≤ 1024) :
    xholds m c row h fullShare ⊣⊢ iprop(xholds m c row h hL ∗ xholds m c row h hR) := share_halves _

theorem chRow_disjoint (M : Memref sig .tc .vmem S1024x512 .f32) {row row' : ℕ} (h : row + 32 ≤ 1024) (h' : row' + 32 ≤ 1024)
    (hd : row + 32 ≤ row' ∨ row' + 32 ≤ row) : Disjoint (chRow M row h).view.set (chRow M row' h').view.set := by
  have e1 : (chRow M row h).view.set = (r1024 row h).set.map M.view.emb := View.set_slice M.view _
  have e2 : (chRow M row' h').view.set = (r1024 row' h').set.map M.view.emb := View.set_slice M.view _
  rw [e1, e2, Finset.disjoint_map]
  exact Rect.unit_disjoint (0 : Fin 2) hd

theorem subset_sdiff_of_disjoint {α : Type} [DecidableEq α] {A B S : Finset α} (hA : A ⊆ S) (hd : Disjoint A B) : A ⊆ S \ B :=
  Finset.subset_sdiff.mpr ⟨hA, hd⟩

theorem take_chRow (c : Dev nD) (M : Memref sig .tc .vmem S1024x512 .f32) (row : ℕ) (h : row + 32 ≤ 1024)
    {S : Finset (Idx (M.view.loc (c : Thread nD τ)))} (q : PosShare TreeShare) (f : Buf (Elt F) (M.view.loc (c : Thread nD τ)))
    (hS : (chRow M row h).view.set ⊆ S) :
    (M.view.loc (c : Thread nD τ) ↦[S]{q} f : sProp 𝕄)
      ⊣⊢ iprop(((chRow M row h).view.loc (c : Thread nD τ) ↦[(chRow M row h).view.set]{q} f)
          ∗ (M.view.loc (c : Thread nD τ) ↦[S \ (chRow M row h).view.set]{q} f)) :=
  pointsTo_split_subset hS

theorem take_x (c : Dev nD) (row : ℕ) (h : row + 32 ≤ 1024)
    {S : Finset (Idx ((xM : Memref sig .tc .vmem S1024x512 .f32).view.loc (c : Thread nD τ)))} (q : PosShare TreeShare)
    (hS : (chRow xM row h).view.set ⊆ S) :
    ((xM : Memref sig .tc .vmem S1024x512 .f32).view.loc (c : Thread nD τ) ↦[S]{q} xb m c : sProp 𝕄)
      ⊣⊢ iprop(xholds m c row h q
          ∗ ((xM : Memref sig .tc .vmem S1024x512 .f32).view.loc (c : Thread nD τ) ↦[S \ (chRow xM row h).view.set]{q} xb m c)) :=
  pointsTo_split_subset hS

def rowsFrom256 (lo : ℕ) : Finset S256x512.Idx := Finset.univ.filter fun i => lo ≤ (i 0).val

theorem rowsFrom256_zero : rowsFrom256 0 = Finset.univ := by
  ext i; simp [rowsFrom256]

theorem rowsFrom256_end : rowsFrom256 256 = ∅ := by
  ext i
  have h0 : (i 0).val < 256 := (i 0).isLt
  simp only [rowsFrom256, Finset.mem_filter, Finset.mem_univ, true_and, Finset.notMem_empty, iff_false]
  omega

theorem mem_r256 (k : Fin 8) (i : S256x512.Idx) : i ∈ (r256 k).set ↔ 32 * k.val ≤ (i 0).val ∧ (i 0).val < 32 * k.val + 32 := by
  have h1 : (i 1).val < 512 := (i 1).isLt
  rw [Rect.mem_set_unit, Fin.forall_fin_two]
  show (32 * k.val ≤ (i 0).val ∧ (i 0).val < 32 * k.val + 32) ∧ (0 ≤ (i 1).val ∧ (i 1).val < 0 + 512) ↔ _
  omega

theorem rowsFrom256_step (k : Fin 8) {lo hi : ℕ} (hlo : lo = 32 * k.val) (hhi : hi = lo + 32) :
    rowsFrom256 lo = (r256 k).set ∪ rowsFrom256 hi := by
  subst hlo hhi
  ext i
  rw [Finset.mem_union, mem_r256]
  simp only [rowsFrom256, Finset.mem_filter, Finset.mem_univ, true_and]
  omega

theorem rowsFrom256_disjoint (k : Fin 8) {lo hi : ℕ} (hlo : lo = 32 * k.val) (hhi : hi = lo + 32) :
    Disjoint (r256 k).set (rowsFrom256 hi) := by
  subst hlo hhi
  refine Finset.disjoint_left.mpr fun i hi hi' => ?_
  rw [mem_r256] at hi
  simp only [rowsFrom256, Finset.mem_filter, Finset.mem_univ, true_and] at hi'
  omega

theorem tail256 (c : Dev nD) (M : Memref sig .tc .vmem S256x512 .f32) (q : PosShare TreeShare)
    (f : Buf (Elt F) (M.view.loc (c : Thread nD τ))) (k : Fin 8) {lo hi : ℕ} (hlo : lo = 32 * k.val) (hhi : hi = lo + 32) :
    (M.view.loc (c : Thread nD τ) ↦[M.view.setOn (rowsFrom256 lo)]{q} f : sProp 𝕄)
      = iprop(((ch M k).view.loc (c : Thread nD τ) ↦[(ch M k).view.set]{q} f)
          ∗ (M.view.loc (c : Thread nD τ) ↦[M.view.setOn (rowsFrom256 hi)]{q} f)) := by
  have e1 : (ch M k).view.set = M.view.setOn (r256 k).set := View.set_slice M.view _
  have e2 : M.view.setOn (rowsFrom256 lo) = M.view.setOn (r256 k).set ∪ M.view.setOn (rowsFrom256 hi) := by
    rw [rowsFrom256_step k hlo hhi]; exact Finset.map_union _ _
  have hd : Disjoint (M.view.setOn (r256 k).set) (M.view.setOn (rowsFrom256 hi)) :=
    (Finset.disjoint_map _).mpr (rowsFrom256_disjoint k hlo hhi)
  have hu := pointsTo_union (Val := Elt F) (Ix := Unit) (Name := ℕ) (U := UU) (Lvl := ℕ)
    (ℓ := M.view.loc (c : Thread nD τ)) (q := q) (f := f) hd
  rw [e2, e1]
  exact BI.equiv_iff.mp ⟨hu.1, hu.2⟩

theorem split8_eq (c : Dev nD) (M : Memref sig .tc .vmem S256x512 .f32) (q : PosShare TreeShare)
    (f : Buf (Elt F) (M.view.loc (c : Thread nD τ))) :
    (M.view.loc (c : Thread nD τ) ↦[M.view.set]{q} f : sProp 𝕄)
      = iprop(((ch M 0).view.loc (c : Thread nD τ) ↦[(ch M 0).view.set]{q} f)
          ∗ ((ch M 1).view.loc (c : Thread nD τ) ↦[(ch M 1).view.set]{q} f)
          ∗ ((ch M 2).view.loc (c : Thread nD τ) ↦[(ch M 2).view.set]{q} f)
          ∗ ((ch M 3).view.loc (c : Thread nD τ) ↦[(ch M 3).view.set]{q} f)
          ∗ ((ch M 4).view.loc (c : Thread nD τ) ↦[(ch M 4).view.set]{q} f)
          ∗ ((ch M 5).view.loc (c : Thread nD τ) ↦[(ch M 5).view.set]{q} f)
          ∗ ((ch M 6).view.loc (c : Thread nD τ) ↦[(ch M 6).view.set]{q} f)
          ∗ ((ch M 7).view.loc (c : Thread nD τ) ↦[(ch M 7).view.set]{q} f)) := by
  have e0 : M.view.set = M.view.setOn (rowsFrom256 0) := by rw [rowsFrom256_zero]; rfl
  have e8 : (M.view.loc (c : Thread nD τ) ↦[M.view.setOn (rowsFrom256 256)]{q} f : sProp 𝕄) = iprop(emp) := by
    rw [rowsFrom256_end]; exact pointsTo_empty
  rw [e0, tail256 c M q f 0 (lo := 0) (hi := 32) rfl rfl, tail256 c M q f 1 (lo := 32) (hi := 64) rfl rfl,
    tail256 c M q f 2 (lo := 64) (hi := 96) rfl rfl, tail256 c M q f 3 (lo := 96) (hi := 128) rfl rfl,
    tail256 c M q f 4 (lo := 128) (hi := 160) rfl rfl, tail256 c M q f 5 (lo := 160) (hi := 192) rfl rfl,
    tail256 c M q f 6 (lo := 192) (hi := 224) rfl rfl, tail256 c M q f 7 (lo := 224) (hi := 256) rfl rfl, e8]
  exact congrArg _ (congrArg _ (congrArg _ (congrArg _ (congrArg _ (congrArg _ (congrArg _ (BI.equiv_iff.mp ⟨sep_emp.1, sep_emp.2⟩)))))))

theorem split8 (c : Dev nD) (M : Memref sig .tc .vmem S256x512 .f32) (q : PosShare TreeShare)
    (f : Buf (Elt F) (M.view.loc (c : Thread nD τ))) :
    (M.view.loc (c : Thread nD τ) ↦[M.view.set]{q} f : sProp 𝕄)
      ⊣⊢ iprop(((ch M 0).view.loc (c : Thread nD τ) ↦[(ch M 0).view.set]{q} f)
          ∗ ((ch M 1).view.loc (c : Thread nD τ) ↦[(ch M 1).view.set]{q} f)
          ∗ ((ch M 2).view.loc (c : Thread nD τ) ↦[(ch M 2).view.set]{q} f)
          ∗ ((ch M 3).view.loc (c : Thread nD τ) ↦[(ch M 3).view.set]{q} f)
          ∗ ((ch M 4).view.loc (c : Thread nD τ) ↦[(ch M 4).view.set]{q} f)
          ∗ ((ch M 5).view.loc (c : Thread nD τ) ↦[(ch M 5).view.set]{q} f)
          ∗ ((ch M 6).view.loc (c : Thread nD τ) ↦[(ch M 6).view.set]{q} f)
          ∗ ((ch M 7).view.loc (c : Thread nD τ) ↦[(ch M 7).view.set]{q} f)) :=
  ⟨Entails.of_eq (split8_eq c M q f), Entails.of_eq (split8_eq c M q f).symm⟩

theorem free8_of_whole (c : Dev nD) (M : Memref sig .tc .vmem S256x512 .f32) (f : Buf (Elt F) (M.view.loc (c : Thread nD τ))) :
    (M.view.loc (c : Thread nD τ) ↦[M.view.set]{fullShare} f : sProp 𝕄) ⊢ free8 (F := F) c M := by
  rw [split8_eq c M fullShare f]
  unfold free8 free
  iintro ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

def rowsFrom64 (lo : ℕ) : Finset S64x512.Idx := Finset.univ.filter fun i => lo ≤ (i 0).val

theorem rowsFrom64_zero : rowsFrom64 0 = Finset.univ := by
  ext i; simp [rowsFrom64]

theorem rowsFrom64_end : rowsFrom64 64 = ∅ := by
  ext i
  have h0 : (i 0).val < 64 := (i 0).isLt
  simp only [rowsFrom64, Finset.mem_filter, Finset.mem_univ, true_and, Finset.notMem_empty, iff_false]
  omega

theorem mem_r64 (j : Fin 2) (i : S64x512.Idx) : i ∈ (r64 j).set ↔ 32 * j.val ≤ (i 0).val ∧ (i 0).val < 32 * j.val + 32 := by
  have h1 : (i 1).val < 512 := (i 1).isLt
  rw [Rect.mem_set_unit, Fin.forall_fin_two]
  show (32 * j.val ≤ (i 0).val ∧ (i 0).val < 32 * j.val + 32) ∧ (0 ≤ (i 1).val ∧ (i 1).val < 0 + 512) ↔ _
  omega

theorem rowsFrom64_step (j : Fin 2) {lo hi : ℕ} (hlo : lo = 32 * j.val) (hhi : hi = lo + 32) :
    rowsFrom64 lo = (r64 j).set ∪ rowsFrom64 hi := by
  subst hlo hhi
  ext i
  rw [Finset.mem_union, mem_r64]
  simp only [rowsFrom64, Finset.mem_filter, Finset.mem_univ, true_and]
  omega

theorem rowsFrom64_disjoint (j : Fin 2) {lo hi : ℕ} (hlo : lo = 32 * j.val) (hhi : hi = lo + 32) :
    Disjoint (r64 j).set (rowsFrom64 hi) := by
  subst hlo hhi
  refine Finset.disjoint_left.mpr fun i hi hi' => ?_
  rw [mem_r64] at hi
  simp only [rowsFrom64, Finset.mem_filter, Finset.mem_univ, true_and] at hi'
  omega

theorem tail64 (c : Dev nD) (q : PosShare TreeShare)
    (f : Buf (Elt F) ((cdM : Memref sig .tc .vmem S64x512 .f32).view.loc (c : Thread nD τ))) (j : Fin 2) {lo hi : ℕ}
    (hlo : lo = 32 * j.val) (hhi : hi = lo + 32) :
    ((cdM : Memref sig .tc .vmem S64x512 .f32).view.loc (c : Thread nD τ)
        ↦[(cdM : Memref sig .tc .vmem S64x512 .f32).view.setOn (rowsFrom64 lo)]{q} f : sProp 𝕄)
      = iprop(((ch64 j).view.loc (c : Thread nD τ) ↦[(ch64 j).view.set]{q} f)
          ∗ ((cdM : Memref sig .tc .vmem S64x512 .f32).view.loc (c : Thread nD τ)
              ↦[(cdM : Memref sig .tc .vmem S64x512 .f32).view.setOn (rowsFrom64 hi)]{q} f)) := by
  have e1 : (ch64 j).view.set = (cdM : Memref sig .tc .vmem S64x512 .f32).view.setOn (r64 j).set := View.set_slice _ _
  have e2 : (cdM : Memref sig .tc .vmem S64x512 .f32).view.setOn (rowsFrom64 lo)
      = (cdM : Memref sig .tc .vmem S64x512 .f32).view.setOn (r64 j).set
        ∪ (cdM : Memref sig .tc .vmem S64x512 .f32).view.setOn (rowsFrom64 hi) := by
    rw [rowsFrom64_step j hlo hhi]; exact Finset.map_union _ _
  have hd : Disjoint ((cdM : Memref sig .tc .vmem S64x512 .f32).view.setOn (r64 j).set)
      ((cdM : Memref sig .tc .vmem S64x512 .f32).view.setOn (rowsFrom64 hi)) :=
    (Finset.disjoint_map _).mpr (rowsFrom64_disjoint j hlo hhi)
  have hu := pointsTo_union (Val := Elt F) (Ix := Unit) (Name := ℕ) (U := UU) (Lvl := ℕ)
    (ℓ := (cdM : Memref sig .tc .vmem S64x512 .f32).view.loc (c : Thread nD τ)) (q := q) (f := f) hd
  rw [e2, e1]
  exact BI.equiv_iff.mp ⟨hu.1, hu.2⟩

theorem split2_eq (c : Dev nD) (q : PosShare TreeShare)
    (f : Buf (Elt F) ((cdM : Memref sig .tc .vmem S64x512 .f32).view.loc (c : Thread nD τ))) :
    ((cdM : Memref sig .tc .vmem S64x512 .f32).view.loc (c : Thread nD τ)
        ↦[(cdM : Memref sig .tc .vmem S64x512 .f32).view.set]{q} f : sProp 𝕄)
      = iprop(((ch64 0).view.loc (c : Thread nD τ) ↦[(ch64 0).view.set]{q} f)
          ∗ ((ch64 1).view.loc (c : Thread nD τ) ↦[(ch64 1).view.set]{q} f)) := by
  have e0 : (cdM : Memref sig .tc .vmem S64x512 .f32).view.set
      = (cdM : Memref sig .tc .vmem S64x512 .f32).view.setOn (rowsFrom64 0) := by rw [rowsFrom64_zero]; rfl
  have e2 : ((cdM : Memref sig .tc .vmem S64x512 .f32).view.loc (c : Thread nD τ)
      ↦[(cdM : Memref sig .tc .vmem S64x512 .f32).view.setOn (rowsFrom64 64)]{q} f : sProp 𝕄) = iprop(emp) := by
    rw [rowsFrom64_end]; exact pointsTo_empty
  rw [e0, tail64 c q f 0 (lo := 0) (hi := 32) rfl rfl, tail64 c q f 1 (lo := 32) (hi := 64) rfl rfl, e2]
  exact congrArg _ (BI.equiv_iff.mp ⟨sep_emp.1, sep_emp.2⟩)

theorem split2 (c : Dev nD) (q : PosShare TreeShare)
    (f : Buf (Elt F) ((cdM : Memref sig .tc .vmem S64x512 .f32).view.loc (c : Thread nD τ))) :
    ((cdM : Memref sig .tc .vmem S64x512 .f32).view.loc (c : Thread nD τ)
        ↦[(cdM : Memref sig .tc .vmem S64x512 .f32).view.set]{q} f : sProp 𝕄)
      ⊣⊢ iprop(((ch64 0).view.loc (c : Thread nD τ) ↦[(ch64 0).view.set]{q} f)
          ∗ ((ch64 1).view.loc (c : Thread nD τ) ↦[(ch64 1).view.set]{q} f)) :=
  ⟨Entails.of_eq (split2_eq c q f), Entails.of_eq (split2_eq c q f).symm⟩

end Cert.KernelIdeal.AR

end
-- ==== Proof.ViewLemmas2.lean ====
import proofs.«900722_g7700000000000723_dist_ar_v7x_xyz2x4x4_x_m1024_n512_f32_1_alg».proof.Proof.Sched
import proofs.«900722_g7700000000000723_dist_ar_v7x_xyz2x4x4_x_m1024_n512_f32_1_alg».proof.Proof.ViewLemmas

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

def band (lo hi : ℕ) : Finset S1024x512.Idx := Finset.univ.filter fun i => lo ≤ (i 0).val ∧ (i 0).val < hi

theorem mem_band {lo hi : ℕ} {i : S1024x512.Idx} : i ∈ band lo hi ↔ lo ≤ (i 0).val ∧ (i 0).val < hi := by
  simp only [band, Finset.mem_filter, Finset.mem_univ, true_and]

theorem mem_r1024 (row : ℕ) (h : row + 32 ≤ 1024) (i : S1024x512.Idx) :
    i ∈ (r1024 row h).set ↔ row ≤ (i 0).val ∧ (i 0).val < row + 32 := by
  have h1 : (i 1).val < 512 := (i 1).isLt
  rw [Rect.mem_set_unit, Fin.forall_fin_two]
  show (row ≤ (i 0).val ∧ (i 0).val < row + 32) ∧ (0 ≤ (i 1).val ∧ (i 1).val < 0 + 512) ↔ _
  omega

theorem band_empty (lo : ℕ) : band lo lo = ∅ := by
  ext i; rw [mem_band]; simp only [Finset.notMem_empty, iff_false]; omega

theorem band_step {lo mid hi : ℕ} (h : lo + 32 ≤ 1024) (hmid : mid = lo + 32) (hhi : mid ≤ hi) :
    band lo hi = (r1024 lo h).set ∪ band mid hi := by
  subst hmid; ext i; rw [Finset.mem_union, mem_r1024, mem_band, mem_band]; omega

theorem band_disjoint {lo mid hi : ℕ} (h : lo + 32 ≤ 1024) (hmid : mid = lo + 32) :
    Disjoint (r1024 lo h).set (band mid hi) := by
  subst hmid
  refine Finset.disjoint_left.mpr fun i hi hi' => ?_
  rw [mem_r1024] at hi; rw [mem_band] at hi'; omega

def outside (a a' b b' : ℕ) : Finset S1024x512.Idx :=
  Finset.univ.filter fun i => ¬ (a ≤ (i 0).val ∧ (i 0).val < a') ∧ ¬ (b ≤ (i 0).val ∧ (i 0).val < b')

theorem mem_outside {a a' b b' : ℕ} {i : S1024x512.Idx} :
    i ∈ outside a a' b b' ↔ ¬ (a ≤ (i 0).val ∧ (i 0).val < a') ∧ ¬ (b ≤ (i 0).val ∧ (i 0).val < b') := by
  simp only [outside, Finset.mem_filter, Finset.mem_univ, true_and]

theorem univ_eq_bands (a a' b b' : ℕ) :
    (Finset.univ : Finset S1024x512.Idx) = band a a' ∪ (band b b' ∪ outside a a' b b') := by
  ext i
  simp only [Finset.mem_univ, true_iff, Finset.mem_union, mem_band, mem_outside]
  omega

theorem chunk_disjoint_first {lo a a' b b' : ℕ} (h : lo + 32 ≤ 1024) (hin : a ≤ lo ∧ lo + 32 ≤ a') (hab : a' ≤ b ∨ b' ≤ a) :
    Disjoint (r1024 lo h).set (band b b' ∪ outside a a' b b') := by
  refine Finset.disjoint_left.mpr fun i hi hi' => ?_
  rw [mem_r1024] at hi
  simp only [Finset.mem_union, mem_band, mem_outside] at hi'
  omega

theorem chunk_disjoint_second {lo a a' b b' : ℕ} (h : lo + 32 ≤ 1024) (hin : b ≤ lo ∧ lo + 32 ≤ b') :
    Disjoint (r1024 lo h).set (outside a a' b b') := by
  refine Finset.disjoint_left.mpr fun i hi hi' => ?_
  rw [mem_r1024] at hi
  rw [mem_outside] at hi'
  omega

theorem tailZ (c : Dev nD) (M : Memref sig .tc .vmem S1024x512 .f32) (q : PosShare TreeShare)
    (f : Buf (Elt F) (M.view.loc (c : Thread nD τ))) {lo mid hi : ℕ} (Z : Finset S1024x512.Idx) (h : lo + 32 ≤ 1024)
    (hmid : mid = lo + 32) (hhi : mid ≤ hi) (hZ : Disjoint (r1024 lo h).set Z) :
    (M.view.loc (c : Thread nD τ) ↦[M.view.setOn (band lo hi ∪ Z)]{q} f : sProp 𝕄)
      = iprop(((chRow M lo h).view.loc (c : Thread nD τ) ↦[(chRow M lo h).view.set]{q} f)
          ∗ (M.view.loc (c : Thread nD τ) ↦[M.view.setOn (band mid hi ∪ Z)]{q} f)) := by
  have e1 : (chRow M lo h).view.set = M.view.setOn (r1024 lo h).set := View.set_slice M.view _
  have e2 : M.view.setOn (band lo hi ∪ Z) = M.view.setOn (r1024 lo h).set ∪ M.view.setOn (band mid hi ∪ Z) := by
    rw [band_step h hmid hhi, Finset.union_assoc]; exact Finset.map_union _ _
  have hd : Disjoint (M.view.setOn (r1024 lo h).set) (M.view.setOn (band mid hi ∪ Z)) :=
    (Finset.disjoint_map _).mpr (Finset.disjoint_union_right.mpr ⟨band_disjoint h hmid, hZ⟩)
  have hu := pointsTo_union (Val := Elt F) (Ix := Unit) (Name := ℕ) (U := UU) (Lvl := ℕ)
    (ℓ := M.view.loc (c : Thread nD τ)) (q := q) (f := f) hd
  rw [e2, e1]
  exact BI.equiv_iff.mp ⟨hu.1, hu.2⟩

theorem xrow_lo (c : Dev nD) (j : Fin 10) (h : j.val < 8) : xrow c j = 256 * qm c + 32 * j.val := by
  unfold xrow; rw [if_pos h]

theorem xrow_hi (c : Dev nD) (j : Fin 10) (h : ¬ j.val < 8) : xrow c j = 256 * qd c + 192 + 32 * (j.val - 8) := by
  unfold xrow; rw [if_neg h]

def xrest (c : Dev nD) : Finset S1024x512.Idx := outside (256 * qm c) (256 * qm c + 256) (256 * qd c + 192) (256 * qd c + 256)

theorem take10_eq (c : Dev nD) (q : PosShare TreeShare) :
    ((xM : Memref sig .tc .vmem S1024x512 .f32).view.loc (c : Thread nD τ)
        ↦[(xM : Memref sig .tc .vmem S1024x512 .f32).view.set]{q} xb m c : sProp 𝕄)
      = iprop(xholds m c (xrow c 0) (xrow_le c 0) q ∗ xholds m c (xrow c 1) (xrow_le c 1) q
          ∗ xholds m c (xrow c 2) (xrow_le c 2) q ∗ xholds m c (xrow c 3) (xrow_le c 3) q
          ∗ xholds m c (xrow c 4) (xrow_le c 4) q ∗ xholds m c (xrow c 5) (xrow_le c 5) q
          ∗ xholds m c (xrow c 6) (xrow_le c 6) q ∗ xholds m c (xrow c 7) (xrow_le c 7) q
          ∗ xholds m c (xrow c 8) (xrow_le c 8) q ∗ xholds m c (xrow c 9) (xrow_le c 9) q
          ∗ ((xM : Memref sig .tc .vmem S1024x512 .f32).view.loc (c : Thread nD τ)
              ↦[(xM : Memref sig .tc .vmem S1024x512 .f32).view.setOn (xrest c)]{q} xb m c)) := by
  have hm := qm_lt c
  have hd := qd_lt c
  have hne := qm_ne_qd c
  have r0 : xrow c 0 = 256 * qm c + 32 * 0 := xrow_lo c 0 (by decide)
  have r1 : xrow c 1 = 256 * qm c + 32 * 1 := xrow_lo c 1 (by decide)
  have r2 : xrow c 2 = 256 * qm c + 32 * 2 := xrow_lo c 2 (by decide)
  have r3 : xrow c 3 = 256 * qm c + 32 * 3 := xrow_lo c 3 (by decide)
  have r4 : xrow c 4 = 256 * qm c + 32 * 4 := xrow_lo c 4 (by decide)
  have r5 : xrow c 5 = 256 * qm c + 32 * 5 := xrow_lo c 5 (by decide)
  have r6 : xrow c 6 = 256 * qm c + 32 * 6 := xrow_lo c 6 (by decide)
  have r7 : xrow c 7 = 256 * qm c + 32 * 7 := xrow_lo c 7 (by decide)
  have r8 : xrow c 8 = 256 * qd c + 192 + 32 * 0 := xrow_hi c 8 (by decide)
  have r9 : xrow c 9 = 256 * qd c + 192 + 32 * 1 := xrow_hi c 9 (by decide)
  have hab : 256 * qm c + 256 ≤ 256 * qd c + 192 ∨ 256 * qd c + 256 ≤ 256 * qm c := by omega
  have e0 : (xM : Memref sig .tc .vmem S1024x512 .f32).view.set
      = (xM : Memref sig .tc .vmem S1024x512 .f32).view.setOn
          (band (xrow c 0) (256 * qm c + 256) ∪ (band (xrow c 8) (256 * qd c + 256) ∪ xrest c)) := by
    rw [r0, r8, show 256 * qm c + 32 * 0 = 256 * qm c from by omega, show 256 * qd c + 192 + 32 * 0 = 256 * qd c + 192 from by omega]
    unfold xrest
    rw [← univ_eq_bands]; rfl
  have eA : band (256 * qm c + 256) (256 * qm c + 256) ∪ (band (xrow c 8) (256 * qd c + 256) ∪ xrest c)
      = band (xrow c 8) (256 * qd c + 256) ∪ xrest c := by rw [band_empty, Finset.empty_union]
  have eB : band (256 * qd c + 256) (256 * qd c + 256) ∪ xrest c = xrest c := by rw [band_empty, Finset.empty_union]
  unfold xholds
  rw [e0,
    tailZ c xM q (xb m c) (lo := xrow c 0) (mid := xrow c 1) (hi := 256 * qm c + 256) _ (xrow_le c 0) (by omega) (by omega)
      (by unfold xrest; exact chunk_disjoint_first _ (by omega) hab),
    tailZ c xM q (xb m c) (lo := xrow c 1) (mid := xrow c 2) (hi := 256 * qm c + 256) _ (xrow_le c 1) (by omega) (by omega)
      (by unfold xrest; exact chunk_disjoint_first _ (by omega) hab),
    tailZ c xM q (xb m c) (lo := xrow c 2) (mid := xrow c 3) (hi := 256 * qm c + 256) _ (xrow_le c 2) (by omega) (by omega)
      (by unfold xrest; exact chunk_disjoint_first _ (by omega) hab),
    tailZ c xM q (xb m c) (lo := xrow c 3) (mid := xrow c 4) (hi := 256 * qm c + 256) _ (xrow_le c 3) (by omega) (by omega)
      (by unfold xrest; exact chunk_disjoint_first _ (by omega) hab),
    tailZ c xM q (xb m c) (lo := xrow c 4) (mid := xrow c 5) (hi := 256 * qm c + 256) _ (xrow_le c 4) (by omega) (by omega)
      (by unfold xrest; exact chunk_disjoint_first _ (by omega) hab),
    tailZ c xM q (xb m c) (lo := xrow c 5) (mid := xrow c 6) (hi := 256 * qm c + 256) _ (xrow_le c 5) (by omega) (by omega)
      (by unfold xrest; exact chunk_disjoint_first _ (by omega) hab),
    tailZ c xM q (xb m c) (lo := xrow c 6) (mid := xrow c 7) (hi := 256 * qm c + 256) _ (xrow_le c 6) (by omega) (by omega)
      (by unfold xrest; exact chunk_disjoint_first _ (by omega) hab),
    tailZ c xM q (xb m c) (lo := xrow c 7) (mid := 256 * qm c + 256) (hi := 256 * qm c + 256) _ (xrow_le c 7) (by omega) (Nat.le_refl _)
      (by unfold xrest; exact chunk_disjoint_first _ (by omega) hab),
    eA,
    tailZ c xM q (xb m c) (lo := xrow c 8) (mid := xrow c 9) (hi := 256 * qd c + 256) _ (xrow_le c 8) (by omega) (by omega)
      (by unfold xrest; exact chunk_disjoint_second _ (by omega)),
    tailZ c xM q (xb m c) (lo := xrow c 9) (mid := 256 * qd c + 256) (hi := 256 * qd c + 256) _ (xrow_le c 9) (by omega) (Nat.le_refl _)
      (by unfold xrest; exact chunk_disjoint_second _ (by omega)),
    eB]

theorem take10 (c : Dev nD) (q : PosShare TreeShare) :
    ((xM : Memref sig .tc .vmem S1024x512 .f32).view.loc (c : Thread nD τ)
        ↦[(xM : Memref sig .tc .vmem S1024x512 .f32).view.set]{q} xb m c : sProp 𝕄)
      ⊣⊢ iprop(xholds m c (xrow c 0) (xrow_le c 0) q ∗ xholds m c (xrow c 1) (xrow_le c 1) q
          ∗ xholds m c (xrow c 2) (xrow_le c 2) q ∗ xholds m c (xrow c 3) (xrow_le c 3) q
          ∗ xholds m c (xrow c 4) (xrow_le c 4) q ∗ xholds m c (xrow c 5) (xrow_le c 5) q
          ∗ xholds m c (xrow c 6) (xrow_le c 6) q ∗ xholds m c (xrow c 7) (xrow_le c 7) q
          ∗ xholds m c (xrow c 8) (xrow_le c 8) q ∗ xholds m c (xrow c 9) (xrow_le c 9) q
          ∗ ((xM : Memref sig .tc .vmem S1024x512 .f32).view.loc (c : Thread nD τ)
              ↦[(xM : Memref sig .tc .vmem S1024x512 .f32).view.setOn (xrest c)]{q} xb m c)) :=
  ⟨Entails.of_eq (take10_eq m c q), Entails.of_eq (take10_eq m c q).symm⟩

end Cert.KernelIdeal.AR

end
-- ==== Proof.Steps.lean ====
import proofs.«900722_g7700000000000723_dist_ar_v7x_xyz2x4x4_x_m1024_n512_f32_1_alg».proof.Proof.Data
import proofs.«900722_g7700000000000723_dist_ar_v7x_xyz2x4x4_x_m1024_n512_f32_1_alg».proof.Proof.Levels
import proofs.«900722_g7700000000000723_dist_ar_v7x_xyz2x4x4_x_m1024_n512_f32_1_alg».proof.Proof.Records
import proofs.«900722_g7700000000000723_dist_ar_v7x_xyz2x4x4_x_m1024_n512_f32_1_alg».proof.Proof.ViewLemmas2
import proofs.«900722_g7700000000000723_dist_ar_v7x_xyz2x4x4_x_m1024_n512_f32_1_alg».proof.Proof.Gen.KernelIdeal.Points

set_option maxRecDepth 16384

noncomputable section
namespace Cert.KernelIdeal.AR
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Λ : Labels} {D : Defs nD τ sig (Elt F) Λ}
local notation "𝕄" => MT nD τ sig Unit (Elt F) ℕ UU ℕ
variable (m : (ℓ : Loc nD τ sig) → Buf (Elt F) ℓ)

/-- Waiting on a DMA cell at round 0 brings its owner the cell's one payload and leaves the cell at round 1. -/
theorem wp_dmawait (K : GSem nD τ sig → ℕ) (c : Dev nD) (s : DmaSem sig) (hs : 2 ≤ s.val) (hu : used (decodeDma s.val) = true)
    (src dst : Memref sig .tc .vmem S32x512 .f32) {hsrc : src.view.WordExact} {hdst : dst.view.WordExact}
    (hN : dst.view.dmaCredit = N) (W : Waits sig Unit) (O : CellTallies nD τ sig Unit)
    {α : Type} {Q : α → sProp 𝕄} {k : PUnit → Prog (TpuEff nD τ sig (Elt F) Λ .tc) α} :
    iprop(records m K ∗ cred (tallyAt (dcell c s) () N) ∗ owes (c : Thread nD τ) O W ∗ MayWait (c : Thread nD τ) (.dma s) () O
        ∗ atPos ER (dcell c s) 0 ∅ 0)
      ⊢ iprop(((owes (c : Thread nD τ) O (insert (SemLoc.dma s, ()) W) ∗ atPos ER (dcell c s) 1 ∅ 0 ∗ dmaPay m c (decodeDma s.val))
            -∗ wp frame (wpE D 𝒱₀ (c : Thread nD τ) none) Set.univ (k ⟨⟩) Q)
          -∗ wp frame (wpE D 𝒱₀ (c : Thread nD τ) none) Set.univ (.op (.waitDma2 s src dst hsrc hdst) k) Q) := by
  rw [← hN]
  iintro ⟨#HR, Hc, HO, Hmw, Hat⟩ Hk
  ihave HI := (rec_dma m K c s hs) $$ HR
  icases HI with ⟨#Hinv, #Hreach⟩
  iapply (Rounds.wp_wait_rest_token 𝒱₀ ER (arRd m) (c : Thread nD τ) none (κ := K (dcell c s))
      (wpE_waitDma2_eq 𝒱₀ (c : Thread nD τ) none Set.univ) (Set.mem_univ _) () (O := O) (W := W) (R := 0) (m := 0) (T := ∅)
      (by rw [expect_dma m c s hu, hN, Nat.zero_add])) $$ [$Hinv $Hc $HO $Hmw $Hat]
  iintro ⟨HO, Hat, -, Hpay⟩
  ihave Hp := (Entails.of_eq (rest_dma m c s hu)) $$ Hpay
  iapply Hk $$ [$HO $Hat $Hp]

/-- A remote copy of one chunk pays two duties: the source, lent at share q, goes to the issuer's send cell, the written chunk to the peer's receive cell. -/
theorem wp_copy (K : GSem nD τ sig → ℕ) (c c' : Dev nD) (sS sR : DmaSem sig) (hsS : 2 ≤ sS.val) (hsR : 2 ≤ sR.val)
    (huS : used (decodeDma sS.val) = true) (huR : used (decodeDma sR.val) = true)
    (src dst : Memref sig .tc .vmem S32x512 .f32) {hsc : dst.view.ref.isScScratch = false}
    {hsrc : src.view.WordExact} {hdst : dst.view.WordExact}
    {hsem : DmaTarget.Typed (nD := nD) (τ := τ) (p := Proc.tc) Space.vmem (SemLoc.dma sR) (.remote (Dev.tc c') dst (.dma sS) hsc)}
    (hN : dst.view.dmaCredit = N) (q : PosShare TreeShare)
    (fs : Buf (Elt F) (src.view.loc (c : Thread nD τ))) (fd : Buf (Elt F) (dst.view.loc (c' : Thread nD τ)))
    (W : Waits sig Unit) (O : CellTallies nD τ sig Unit)
    (hpay₁ : (src.view.loc (c : Thread nD τ) ↦[src.view.set]{q} fs : sProp 𝕄) ⊢ dmaPay m c (decodeDma sS.val))
    (hpay₂ : (dst.view.loc (c' : Thread nD τ) ↦[dst.view.set]{fullShare}
        dst.view.write (Elt F) fd (src.view.read (Elt F) fs) Finset.univ : sProp 𝕄) ⊢ dmaPay m c' (decodeDma sR.val))
    {α : Type} {Q : α → sProp 𝕄} {k : PUnit → Prog (TpuEff nD τ sig (Elt F) Λ .tc) α} :
    iprop(records m K ∗ (src.view.loc (c : Thread nD τ) ↦[src.view.set]{q} fs)
        ∗ (dst.view.loc (c' : Thread nD τ) ↦[dst.view.set]{fullShare} fd)
        ∗ owes (c : Thread nD τ) (O + tallyAt (dcell c' sR) () N) W
        ∗ dutyTok ER (dcell c sS) 0 0 ∗ dutyTok ER (dcell c' sR) 0 0)
      ⊢ iprop(((cred (tallyAt (dcell c sS) () N) ∗ owes (c : Thread nD τ) O W)
            -∗ wp frame (wpE D 𝒱₀ (c : Thread nD τ) none) Set.univ (k ⟨⟩) Q)
          -∗ wp frame (wpE D 𝒱₀ (c : Thread nD τ) none) Set.univ
              (.op (.enqueueDma src (.remote (Dev.tc c') dst (.dma sS) hsc) (.dma sR) hsrc hdst hsem) k) Q) := by
  iintro ⟨#HR, Hsrc, Hdst, HO, HtS, HtR⟩ Hk
  ihave HIS := (rec_dma m K c sS hsS) $$ HR
  icases HIS with ⟨#HinvS, #HreachS⟩
  ihave HIR := (rec_dma m K c' sR hsR) $$ HR
  icases HIR with ⟨#HinvR, #HreachR⟩
  iapply (Rounds.wp_send_pointsTo 𝒱₀ ER (arRd m) (c : Thread nD τ) none (c' := (c' : Thread nD τ)) (src := src) (dst := dst)
      (sS := .dma sS) (sem := .dma sR) (q := q) (fs := fs) (fd := fd) (r₁ := 0) (r₂ := 0) (d₁ := 0) (d₂ := 0)
      (κ₁ := K (dcell c sS)) (κ₂ := K (dcell c' sR))
      (by rw [duties_dma m c sS huS]; exact Finset.mem_singleton_self _)
      (by rw [duties_dma m c' sR huR]; exact Finset.mem_singleton_self _)
      () () N hN (amount_dma m c sS 0 0) (amount_dma m c' sR 0 0) O rfl
      (by rw [payload_dma]; exact hpay₁) (by rw [payload_dma]; exact hpay₂)) $$ [$HinvS $HinvR $Hsrc $Hdst $HO $HtS $HreachS $HtR $HreachR]
  iexact Hk

theorem wait_sx (K : GSem nD τ sig → ℕ) (c : Dev nD) (j : Fin 10)
    (src dst : Memref sig .tc .vmem S32x512 .f32) {hsrc : src.view.WordExact} {hdst : dst.view.WordExact}
    (hN : dst.view.dmaCredit = N) (W : Waits sig Unit) (O : CellTallies nD τ sig Unit)
    {α : Type} {Q : α → sProp 𝕄} {k' : PUnit → Prog (TpuEff nD τ sig (Elt F) Λ .tc) α} :
    iprop(records m K ∗ cred (tallyAt (dcell c (sxS j)) () N) ∗ owes (c : Thread nD τ) O W
        ∗ MayWait (c : Thread nD τ) (.dma (sxS j)) () O ∗ atPos ER (dcell c (sxS j)) 0 ∅ 0)
      ⊢ iprop(((owes (c : Thread nD τ) O (insert (SemLoc.dma (sxS j), ()) W) ∗ atPos ER (dcell c (sxS j)) 1 ∅ 0
              ∗ xholds m c (xrow c j) (xrow_le c j) hL)
            -∗ wp frame (wpE D 𝒱₀ (c : Thread nD τ) none) Set.univ (k' ⟨⟩) Q)
          -∗ wp frame (wpE D 𝒱₀ (c : Thread nD τ) none) Set.univ (.op (.waitDma2 (sxS j) src dst hsrc hdst) k') Q) := by
  have h := wp_dmawait (D := D) m K c (sxS j) (by rw [sxS_val]; omega) (used_sx j) src dst (hsrc := hsrc) (hdst := hdst) hN W O
    (Q := Q) (k := k')
  rw [role_sx] at h
  exact h

theorem wait_rx (K : GSem nD τ sig → ℕ) (c : Dev nD) (j : Fin 10)
    (src dst : Memref sig .tc .vmem S32x512 .f32) {hsrc : src.view.WordExact} {hdst : dst.view.WordExact}
    (hN : dst.view.dmaCredit = N) (W : Waits sig Unit) (O : CellTallies nD τ sig Unit)
    {α : Type} {Q : α → sProp 𝕄} {k' : PUnit → Prog (TpuEff nD τ sig (Elt F) Λ .tc) α} :
    iprop(records m K ∗ cred (tallyAt (dcell c (rxS j)) () N) ∗ owes (c : Thread nD τ) O W
        ∗ MayWait (c : Thread nD τ) (.dma (rxS j)) () O ∗ atPos ER (dcell c (rxS j)) 0 ∅ 0)
      ⊢ iprop(((owes (c : Thread nD τ) O (insert (SemLoc.dma (rxS j), ()) W) ∗ atPos ER (dcell c (rxS j)) 1 ∅ 0
              ∗ holds m c (xdst j) fullShare (X m (px c) (xrow c j) (xrow_le c j)))
            -∗ wp frame (wpE D 𝒱₀ (c : Thread nD τ) none) Set.univ (k' ⟨⟩) Q)
          -∗ wp frame (wpE D 𝒱₀ (c : Thread nD τ) none) Set.univ (.op (.waitDma2 (rxS j) src dst hsrc hdst) k') Q) := by
  have h := wp_dmawait (D := D) m K c (rxS j) (by rw [rxS_val]; omega) (used_rx j) src dst (hsrc := hsrc) (hdst := hdst) hN W O
    (Q := Q) (k := k')
  rw [role_rx] at h
  exact h

theorem wait_sy (K : GSem nD τ sig → ℕ) (c : Dev nD) (k : Fin 8)
    (src dst : Memref sig .tc .vmem S32x512 .f32) {hsrc : src.view.WordExact} {hdst : dst.view.WordExact}
    (hN : dst.view.dmaCredit = N) (W : Waits sig Unit) (O : CellTallies nD τ sig Unit)
    {α : Type} {Q : α → sProp 𝕄} {k' : PUnit → Prog (TpuEff nD τ sig (Elt F) Λ .tc) α} :
    iprop(records m K ∗ cred (tallyAt (dcell c (syS k)) () N) ∗ owes (c : Thread nD τ) O W
        ∗ MayWait (c : Thread nD τ) (.dma (syS k)) () O ∗ atPos ER (dcell c (syS k)) 0 ∅ 0)
      ⊢ iprop(((owes (c : Thread nD τ) O (insert (SemLoc.dma (syS k), ()) W) ∗ atPos ER (dcell c (syS k)) 1 ∅ 0
              ∗ holds m c (ch sqM k) hL (SQ m c k))
            -∗ wp frame (wpE D 𝒱₀ (c : Thread nD τ) none) Set.univ (k' ⟨⟩) Q)
          -∗ wp frame (wpE D 𝒱₀ (c : Thread nD τ) none) Set.univ (.op (.waitDma2 (syS k) src dst hsrc hdst) k') Q) := by
  have h := wp_dmawait (D := D) m K c (syS k) (by rw [syS_val]; omega) (used_sy k) src dst (hsrc := hsrc) (hdst := hdst) hN W O
    (Q := Q) (k := k')
  rw [role_sy] at h
  exact h

theorem wait_sz (K : GSem nD τ sig → ℕ) (c : Dev nD) (k : Fin 8)
    (src dst : Memref sig .tc .vmem S32x512 .f32) {hsrc : src.view.WordExact} {hdst : dst.view.WordExact}
    (hN : dst.view.dmaCredit = N) (W : Waits sig Unit) (O : CellTallies nD τ sig Unit)
    {α : Type} {Q : α → sProp 𝕄} {k' : PUnit → Prog (TpuEff nD τ sig (Elt F) Λ .tc) α} :
    iprop(records m K ∗ cred (tallyAt (dcell c (szS k)) () N) ∗ owes (c : Thread nD τ) O W
        ∗ MayWait (c : Thread nD τ) (.dma (szS k)) () O ∗ atPos ER (dcell c (szS k)) 0 ∅ 0)
      ⊢ iprop(((owes (c : Thread nD τ) O (insert (SemLoc.dma (szS k), ()) W) ∗ atPos ER (dcell c (szS k)) 1 ∅ 0
              ∗ holds m c (ch sqM k) hR (SQ m c k))
            -∗ wp frame (wpE D 𝒱₀ (c : Thread nD τ) none) Set.univ (k' ⟨⟩) Q)
          -∗ wp frame (wpE D 𝒱₀ (c : Thread nD τ) none) Set.univ (.op (.waitDma2 (szS k) src dst hsrc hdst) k') Q) := by
  have h := wp_dmawait (D := D) m K c (szS k) (by rw [szS_val]; omega) (used_sz k) src dst (hsrc := hsrc) (hdst := hdst) hN W O
    (Q := Q) (k := k')
  rw [role_sz] at h
  exact h

theorem wait_ry (K : GSem nD τ sig → ℕ) (c : Dev nD) (k : Fin 8)
    (src dst : Memref sig .tc .vmem S32x512 .f32) {hsrc : src.view.WordExact} {hdst : dst.view.WordExact}
    (hN : dst.view.dmaCredit = N) (W : Waits sig Unit) (O : CellTallies nD τ sig Unit)
    {α : Type} {Q : α → sProp 𝕄} {k' : PUnit → Prog (TpuEff nD τ sig (Elt F) Λ .tc) α} :
    iprop(records m K ∗ cred (tallyAt (dcell c (ryS k)) () N) ∗ owes (c : Thread nD τ) O W
        ∗ MayWait (c : Thread nD τ) (.dma (ryS k)) () O ∗ atPos ER (dcell c (ryS k)) 0 ∅ 0)
      ⊢ iprop(((owes (c : Thread nD τ) O (insert (SemLoc.dma (ryS k), ()) W) ∗ atPos ER (dcell c (ryS k)) 1 ∅ 0
              ∗ holds m c (ch ryM k) fullShare (SQ m (py c) k))
            -∗ wp frame (wpE D 𝒱₀ (c : Thread nD τ) none) Set.univ (k' ⟨⟩) Q)
          -∗ wp frame (wpE D 𝒱₀ (c : Thread nD τ) none) Set.univ (.op (.waitDma2 (ryS k) src dst hsrc hdst) k') Q) := by
  have h := wp_dmawait (D := D) m K c (ryS k) (by rw [ryS_val]; omega) (used_ry k) src dst (hsrc := hsrc) (hdst := hdst) hN W O
    (Q := Q) (k := k')
  rw [role_ry] at h
  exact h

theorem wait_rz (K : GSem nD τ sig → ℕ) (c : Dev nD) (k : Fin 8)
    (src dst : Memref sig .tc .vmem S32x512 .f32) {hsrc : src.view.WordExact} {hdst : dst.view.WordExact}
    (hN : dst.view.dmaCredit = N) (W : Waits sig Unit) (O : CellTallies nD τ sig Unit)
    {α : Type} {Q : α → sProp 𝕄} {k' : PUnit → Prog (TpuEff nD τ sig (Elt F) Λ .tc) α} :
    iprop(records m K ∗ cred (tallyAt (dcell c (rzS k)) () N) ∗ owes (c : Thread nD τ) O W
        ∗ MayWait (c : Thread nD τ) (.dma (rzS k)) () O ∗ atPos ER (dcell c (rzS k)) 0 ∅ 0)
      ⊢ iprop(((owes (c : Thread nD τ) O (insert (SemLoc.dma (rzS k), ()) W) ∗ atPos ER (dcell c (rzS k)) 1 ∅ 0
              ∗ holds m c (ch rzM k) fullShare (SQ m (pz c) k))
            -∗ wp frame (wpE D 𝒱₀ (c : Thread nD τ) none) Set.univ (k' ⟨⟩) Q)
          -∗ wp frame (wpE D 𝒱₀ (c : Thread nD τ) none) Set.univ (.op (.waitDma2 (rzS k) src dst hsrc hdst) k') Q) := by
  have h := wp_dmawait (D := D) m K c (rzS k) (by rw [rzS_val]; omega) (used_rz k) src dst (hsrc := hsrc) (hdst := hdst) hN W O
    (Q := Q) (k := k')
  rw [role_rz] at h
  exact h

theorem wait_sfz (K : GSem nD τ sig → ℕ) (c : Dev nD) (k : Fin 8) (hk : k.val < 3)
    (src dst : Memref sig .tc .vmem S32x512 .f32) {hsrc : src.view.WordExact} {hdst : dst.view.WordExact}
    (hN : dst.view.dmaCredit = N) (W : Waits sig Unit) (O : CellTallies nD τ sig Unit)
    {α : Type} {Q : α → sProp 𝕄} {k' : PUnit → Prog (TpuEff nD τ sig (Elt F) Λ .tc) α} :
    iprop(records m K ∗ cred (tallyAt (dcell c (sfzS k)) () N) ∗ owes (c : Thread nD τ) O W
        ∗ MayWait (c : Thread nD τ) (.dma (sfzS k)) () O ∗ atPos ER (dcell c (sfzS k)) 0 ∅ 0)
      ⊢ iprop(((owes (c : Thread nD τ) O (insert (SemLoc.dma (sfzS k), ()) W) ∗ atPos ER (dcell c (sfzS k)) 1 ∅ 0
              ∗ holds m c (ch ryM k) fullShare (SQ m (py c) k))
            -∗ wp frame (wpE D 𝒱₀ (c : Thread nD τ) none) Set.univ (k' ⟨⟩) Q)
          -∗ wp frame (wpE D 𝒱₀ (c : Thread nD τ) none) Set.univ (.op (.waitDma2 (sfzS k) src dst hsrc hdst) k') Q) := by
  have h := wp_dmawait (D := D) m K c (sfzS k) (by rw [sfzS_val]; omega) (used_sfz k hk) src dst (hsrc := hsrc) (hdst := hdst) hN W O
    (Q := Q) (k := k')
  rw [role_sfz] at h
  exact h

theorem wait_rfz (K : GSem nD τ sig → ℕ) (c : Dev nD) (k : Fin 8) (hk : k.val < 3)
    (src dst : Memref sig .tc .vmem S32x512 .f32) {hsrc : src.view.WordExact} {hdst : dst.view.WordExact}
    (hN : dst.view.dmaCredit = N) (W : Waits sig Unit) (O : CellTallies nD τ sig Unit)
    {α : Type} {Q : α → sProp 𝕄} {k' : PUnit → Prog (TpuEff nD τ sig (Elt F) Λ .tc) α} :
    iprop(records m K ∗ cred (tallyAt (dcell c (rfzS k)) () N) ∗ owes (c : Thread nD τ) O W
        ∗ MayWait (c : Thread nD τ) (.dma (rfzS k)) () O ∗ atPos ER (dcell c (rfzS k)) 0 ∅ 0)
      ⊢ iprop(((owes (c : Thread nD τ) O (insert (SemLoc.dma (rfzS k), ()) W) ∗ atPos ER (dcell c (rfzS k)) 1 ∅ 0
              ∗ holds m c (ch rdM k) fullShare (SQ m (py (pz c)) k))
            -∗ wp frame (wpE D 𝒱₀ (c : Thread nD τ) none) Set.univ (k' ⟨⟩) Q)
          -∗ wp frame (wpE D 𝒱₀ (c : Thread nD τ) none) Set.univ (.op (.waitDma2 (rfzS k) src dst hsrc hdst) k') Q) := by
  have h := wp_dmawait (D := D) m K c (rfzS k) (by rw [rfzS_val]; omega) (used_rfz k hk) src dst (hsrc := hsrc) (hdst := hdst) hN W O
    (Q := Q) (k := k')
  rw [role_rfz] at h
  exact h

theorem wait_sfy (K : GSem nD τ sig → ℕ) (c : Dev nD) (k : Fin 8) (hk : 3 ≤ k.val ∧ k.val < 6)
    (src dst : Memref sig .tc .vmem S32x512 .f32) {hsrc : src.view.WordExact} {hdst : dst.view.WordExact}
    (hN : dst.view.dmaCredit = N) (W : Waits sig Unit) (O : CellTallies nD τ sig Unit)
    {α : Type} {Q : α → sProp 𝕄} {k' : PUnit → Prog (TpuEff nD τ sig (Elt F) Λ .tc) α} :
    iprop(records m K ∗ cred (tallyAt (dcell c (sfyS k)) () N) ∗ owes (c : Thread nD τ) O W
        ∗ MayWait (c : Thread nD τ) (.dma (sfyS k)) () O ∗ atPos ER (dcell c (sfyS k)) 0 ∅ 0)
      ⊢ iprop(((owes (c : Thread nD τ) O (insert (SemLoc.dma (sfyS k), ()) W) ∗ atPos ER (dcell c (sfyS k)) 1 ∅ 0
              ∗ holds m c (ch rzM k) fullShare (SQ m (pz c) k))
            -∗ wp frame (wpE D 𝒱₀ (c : Thread nD τ) none) Set.univ (k' ⟨⟩) Q)
          -∗ wp frame (wpE D 𝒱₀ (c : Thread nD τ) none) Set.univ (.op (.waitDma2 (sfyS k) src dst hsrc hdst) k') Q) := by
  have h := wp_dmawait (D := D) m K c (sfyS k) (by rw [sfyS_val]; omega) (used_sfy k hk) src dst (hsrc := hsrc) (hdst := hdst) hN W O
    (Q := Q) (k := k')
  rw [role_sfy] at h
  exact h

theorem wait_rfy (K : GSem nD τ sig → ℕ) (c : Dev nD) (k : Fin 8) (hk : 3 ≤ k.val ∧ k.val < 6)
    (src dst : Memref sig .tc .vmem S32x512 .f32) {hsrc : src.view.WordExact} {hdst : dst.view.WordExact}
    (hN : dst.view.dmaCredit = N) (W : Waits sig Unit) (O : CellTallies nD τ sig Unit)
    {α : Type} {Q : α → sProp 𝕄} {k' : PUnit → Prog (TpuEff nD τ sig (Elt F) Λ .tc) α} :
    iprop(records m K ∗ cred (tallyAt (dcell c (rfyS k)) () N) ∗ owes (c : Thread nD τ) O W
        ∗ MayWait (c : Thread nD τ) (.dma (rfyS k)) () O ∗ atPos ER (dcell c (rfyS k)) 0 ∅ 0)
      ⊢ iprop(((owes (c : Thread nD τ) O (insert (SemLoc.dma (rfyS k), ()) W) ∗ atPos ER (dcell c (rfyS k)) 1 ∅ 0
              ∗ holds m c (ch rdM k) fullShare (SQ m (py (pz c)) k))
            -∗ wp frame (wpE D 𝒱₀ (c : Thread nD τ) none) Set.univ (k' ⟨⟩) Q)
          -∗ wp frame (wpE D 𝒱₀ (c : Thread nD τ) none) Set.univ (.op (.waitDma2 (rfyS k) src dst hsrc hdst) k') Q) := by
  have h := wp_dmawait (D := D) m K c (rfyS k) (by rw [rfyS_val]; omega) (used_rfy k hk) src dst (hsrc := hsrc) (hdst := hdst) hN W O
    (Q := Q) (k := k')
  rw [role_rfy] at h
  exact h

theorem xdst_credit (j : Fin 10) : (xdst j).view.dmaCredit = N := by
  unfold xdst; split <;> rfl

theorem xrow_px (c : Dev nD) (j : Fin 10) : xrow (px c) j = xrow c j := by
  unfold xrow; rw [qm_px, qd_px]

theorem X_px_px (c : Dev nD) (j : Fin 10) :
    X m (px (px c)) (xrow (px c) j) (xrow_le (px c) j) = X m c (xrow c j) (xrow_le c j) := by
  have hgen : ∀ (c' : Dev nD) (row : ℕ) (h' : row + 32 ≤ 1024), c' = c → row = xrow c j →
      X m c' row h' = X m c (xrow c j) (xrow_le c j) := by
    intro c' row h' e1 e2; subst e1 e2; rfl
  exact hgen _ _ _ (px_px c) (xrow_px c j)

theorem read_x (c : Dev nD) (row : ℕ) (h : row + 32 ≤ 1024) :
    View.read (Elt F) (chRow xM row h).view (xb m c) = X m c row h := rfl

theorem copyX (K : GSem nD τ sig → ℕ) (c : Dev nD) (j : Fin 10) (p : Dev nD) (hp : p = px c) (off : Fin 2 → ℕ)
    (hinb : ∀ a, off a + S32x512.size a ≤ S1024x512.size a) (hoff : off = ![xrow c j, 0])
    {hsc : (xdst j).view.ref.isScScratch = false} {hsrc : ((xM : Memref sig .tc .vmem S1024x512 .f32).slice (Rect.unit (s := S1024x512) off S32x512.size hinb) (fun _ => rfl)).view.WordExact} {hdst : (xdst j).view.WordExact}
    {hsem : DmaTarget.Typed (nD := nD) (τ := τ) (p := Proc.tc) Space.vmem (SemLoc.dma (rxS j)) (.remote (Dev.tc p) (xdst j) (.dma (sxS j)) hsc)}
    (W : Waits sig Unit) (O : CellTallies nD τ sig Unit)
    {α : Type} {Q : α → sProp 𝕄} {k' : PUnit → Prog (TpuEff nD τ sig (Elt F) Λ .tc) α} :
    iprop(records m K ∗ xholds m c (xrow c j) (xrow_le c j) hL ∗ free (F := F) (px c) (xdst j)
        ∗ owes (c : Thread nD τ) (O + tallyAt (dcell (px c) (rxS j)) () N) W
        ∗ dutyTok ER (dcell c (sxS j)) 0 0 ∗ dutyTok ER (dcell (px c) (rxS j)) 0 0)
      ⊢ iprop(((cred (tallyAt (dcell c (sxS j)) () N) ∗ owes (c : Thread nD τ) O W)
            -∗ wp frame (wpE D 𝒱₀ (c : Thread nD τ) none) Set.univ (k' ⟨⟩) Q)
          -∗ wp frame (wpE D 𝒱₀ (c : Thread nD τ) none) Set.univ
              (.op (.enqueueDma ((xM : Memref sig .tc .vmem S1024x512 .f32).slice (Rect.unit (s := S1024x512) off S32x512.size hinb) (fun _ => rfl)) (.remote (Dev.tc p) (xdst j) (.dma (sxS j)) hsc) (.dma (rxS j)) hsrc hdst hsem) k') Q) := by
  subst hp hoff
  unfold free xholds
  iintro ⟨#HR, Hsrc, Hdst, HO, HtS, HtR⟩ Hk
  icases Hdst with ⟨%fd, Hdst⟩
  iapply (wp_copy m K c (px c) (sxS j) (rxS j) (by rw [sxS_val]; omega) (by rw [rxS_val]; omega) (used_sx j) (used_rx j)
      (chRow xM (xrow c j) (xrow_le c j)) (xdst j) (hsc := hsc) (hsrc := hsrc) (hdst := hdst) (hsem := hsem) (xdst_credit j) hL (xb m c) fd W O
      (by rw [role_sx]; exact .rfl)
      (by rw [role_rx, read_x, holds_of_write m (px c) (xdst j) fullShare _ fd, ← X_px_px m c j]; exact .rfl)) $$ [$HR $Hsrc $Hdst $HO $HtS $HtR]
  iexact Hk

theorem copyY (K : GSem nD τ sig → ℕ) (c : Dev nD) (k : Fin 8) (p : Dev nD) (hp : p = py c)
    {hsc : (ch ryM k).view.ref.isScScratch = false} {hsrc : (ch sqM k).view.WordExact} {hdst : (ch ryM k).view.WordExact}
    {hsem : DmaTarget.Typed (nD := nD) (τ := τ) (p := Proc.tc) Space.vmem (SemLoc.dma (ryS k)) (.remote (Dev.tc p) (ch ryM k) (.dma (syS k)) hsc)}
    (W : Waits sig Unit) (O : CellTallies nD τ sig Unit)
    {α : Type} {Q : α → sProp 𝕄} {k' : PUnit → Prog (TpuEff nD τ sig (Elt F) Λ .tc) α} :
    iprop(records m K ∗ holds m c (ch sqM k) hL (SQ m c k) ∗ free (F := F) (py c) (ch ryM k)
        ∗ owes (c : Thread nD τ) (O + tallyAt (dcell (py c) (ryS k)) () N) W
        ∗ dutyTok ER (dcell c (syS k)) 0 0 ∗ dutyTok ER (dcell (py c) (ryS k)) 0 0)
      ⊢ iprop(((cred (tallyAt (dcell c (syS k)) () N) ∗ owes (c : Thread nD τ) O W)
            -∗ wp frame (wpE D 𝒱₀ (c : Thread nD τ) none) Set.univ (k' ⟨⟩) Q)
          -∗ wp frame (wpE D 𝒱₀ (c : Thread nD τ) none) Set.univ
              (.op (.enqueueDma (ch sqM k) (.remote (Dev.tc p) (ch ryM k) (.dma (syS k)) hsc) (.dma (ryS k)) hsrc hdst hsem) k') Q) := by
  subst hp
  unfold free holds
  iintro ⟨#HR, Hsrc, Hdst, HO, HtS, HtR⟩ Hk
  icases Hdst with ⟨%fd, Hdst⟩
  iapply (wp_copy m K c (py c) (syS k) (ryS k) (by rw [syS_val]; omega) (by rw [ryS_val]; omega) (used_sy k) (used_ry k)
      (ch sqM k) (ch ryM k) (hsc := hsc) (hsrc := hsrc) (hdst := hdst) (hsem := hsem) rfl hL (canon m c (ch sqM k) (SQ m c k)) fd W O
      (by rw [role_sy]; exact .rfl)
      (by rw [role_ry, read_canon, holds_of_write m (py c) (ch ryM k) fullShare _ fd]; show _ ⊢ holds m (py c) (ch ryM k) fullShare (SQ m (py (py c)) k); rw [py_py])) $$ [$HR $Hsrc $Hdst $HO $HtS $HtR]
  iexact Hk

theorem copyZ (K : GSem nD τ sig → ℕ) (c : Dev nD) (k : Fin 8) (p : Dev nD) (hp : p = pz c)
    {hsc : (ch rzM k).view.ref.isScScratch = false} {hsrc : (ch sqM k).view.WordExact} {hdst : (ch rzM k).view.WordExact}
    {hsem : DmaTarget.Typed (nD := nD) (τ := τ) (p := Proc.tc) Space.vmem (SemLoc.dma (rzS k)) (.remote (Dev.tc p) (ch rzM k) (.dma (szS k)) hsc)}
    (W : Waits sig Unit) (O : CellTallies nD τ sig Unit)
    {α : Type} {Q : α → sProp 𝕄} {k' : PUnit → Prog (TpuEff nD τ sig (Elt F) Λ .tc) α} :
    iprop(records m K ∗ holds m c (ch sqM k) hR (SQ m c k) ∗ free (F := F) (pz c) (ch rzM k)
        ∗ owes (c : Thread nD τ) (O + tallyAt (dcell (pz c) (rzS k)) () N) W
        ∗ dutyTok ER (dcell c (szS k)) 0 0 ∗ dutyTok ER (dcell (pz c) (rzS k)) 0 0)
      ⊢ iprop(((cred (tallyAt (dcell c (szS k)) () N) ∗ owes (c : Thread nD τ) O W)
            -∗ wp frame (wpE D 𝒱₀ (c : Thread nD τ) none) Set.univ (k' ⟨⟩) Q)
          -∗ wp frame (wpE D 𝒱₀ (c : Thread nD τ) none) Set.univ
              (.op (.enqueueDma (ch sqM k) (.remote (Dev.tc p) (ch rzM k) (.dma (szS k)) hsc) (.dma (rzS k)) hsrc hdst hsem) k') Q) := by
  subst hp
  unfold free holds
  iintro ⟨#HR, Hsrc, Hdst, HO, HtS, HtR⟩ Hk
  icases Hdst with ⟨%fd, Hdst⟩
  iapply (wp_copy m K c (pz c) (szS k) (rzS k) (by rw [szS_val]; omega) (by rw [rzS_val]; omega) (used_sz k) (used_rz k)
      (ch sqM k) (ch rzM k) (hsc := hsc) (hsrc := hsrc) (hdst := hdst) (hsem := hsem) rfl hR (canon m c (ch sqM k) (SQ m c k)) fd W O
      (by rw [role_sz]; exact .rfl)
      (by rw [role_rz, read_canon, holds_of_write m (pz c) (ch rzM k) fullShare _ fd]; show _ ⊢ holds m (pz c) (ch rzM k) fullShare (SQ m (pz (pz c)) k); rw [pz_pz])) $$ [$HR $Hsrc $Hdst $HO $HtS $HtR]
  iexact Hk

theorem fwdZ (K : GSem nD τ sig → ℕ) (c : Dev nD) (k : Fin 8) (hk : k.val < 3) (p : Dev nD) (hp : p = pz c)
    {hsc : (ch rdM k).view.ref.isScScratch = false} {hsrc : (ch ryM k).view.WordExact} {hdst : (ch rdM k).view.WordExact}
    {hsem : DmaTarget.Typed (nD := nD) (τ := τ) (p := Proc.tc) Space.vmem (SemLoc.dma (rfzS k)) (.remote (Dev.tc p) (ch rdM k) (.dma (sfzS k)) hsc)}
    (W : Waits sig Unit) (O : CellTallies nD τ sig Unit)
    {α : Type} {Q : α → sProp 𝕄} {k' : PUnit → Prog (TpuEff nD τ sig (Elt F) Λ .tc) α} :
    iprop(records m K ∗ holds m c (ch ryM k) fullShare (SQ m (py c) k) ∗ free (F := F) (pz c) (ch rdM k)
        ∗ owes (c : Thread nD τ) (O + tallyAt (dcell (pz c) (rfzS k)) () N) W
        ∗ dutyTok ER (dcell c (sfzS k)) 0 0 ∗ dutyTok ER (dcell (pz c) (rfzS k)) 0 0)
      ⊢ iprop(((cred (tallyAt (dcell c (sfzS k)) () N) ∗ owes (c : Thread nD τ) O W)
            -∗ wp frame (wpE D 𝒱₀ (c : Thread nD τ) none) Set.univ (k' ⟨⟩) Q)
          -∗ wp frame (wpE D 𝒱₀ (c : Thread nD τ) none) Set.univ
              (.op (.enqueueDma (ch ryM k) (.remote (Dev.tc p) (ch rdM k) (.dma (sfzS k)) hsc) (.dma (rfzS k)) hsrc hdst hsem) k') Q) := by
  subst hp
  unfold free holds
  iintro ⟨#HR, Hsrc, Hdst, HO, HtS, HtR⟩ Hk
  icases Hdst with ⟨%fd, Hdst⟩
  iapply (wp_copy m K c (pz c) (sfzS k) (rfzS k) (by rw [sfzS_val]; omega) (by rw [rfzS_val]; omega) (used_sfz k hk) (used_rfz k hk)
      (ch ryM k) (ch rdM k) (hsc := hsc) (hsrc := hsrc) (hdst := hdst) (hsem := hsem) rfl fullShare (canon m c (ch ryM k) (SQ m (py c) k)) fd W O
      (by rw [role_sfz]; exact .rfl)
      (by rw [role_rfz, read_canon, holds_of_write m (pz c) (ch rdM k) fullShare _ fd]; show _ ⊢ holds m (pz c) (ch rdM k) fullShare (SQ m (py (pz (pz c))) k); rw [pz_pz])) $$ [$HR $Hsrc $Hdst $HO $HtS $HtR]
  iexact Hk

theorem fwdY (K : GSem nD τ sig → ℕ) (c : Dev nD) (k : Fin 8) (hk : 3 ≤ k.val ∧ k.val < 6) (p : Dev nD) (hp : p = py c)
    {hsc : (ch rdM k).view.ref.isScScratch = false} {hsrc : (ch rzM k).view.WordExact} {hdst : (ch rdM k).view.WordExact}
    {hsem : DmaTarget.Typed (nD := nD) (τ := τ) (p := Proc.tc) Space.vmem (SemLoc.dma (rfyS k)) (.remote (Dev.tc p) (ch rdM k) (.dma (sfyS k)) hsc)}
    (W : Waits sig Unit) (O : CellTallies nD τ sig Unit)
    {α : Type} {Q : α → sProp 𝕄} {k' : PUnit → Prog (TpuEff nD τ sig (Elt F) Λ .tc) α} :
    iprop(records m K ∗ holds m c (ch rzM k) fullShare (SQ m (pz c) k) ∗ free (F := F) (py c) (ch rdM k)
        ∗ owes (c : Thread nD τ) (O + tallyAt (dcell (py c) (rfyS k)) () N) W
        ∗ dutyTok ER (dcell c (sfyS k)) 0 0 ∗ dutyTok ER (dcell (py c) (rfyS k)) 0 0)
      ⊢ iprop(((cred (tallyAt (dcell c (sfyS k)) () N) ∗ owes (c : Thread nD τ) O W)
            -∗ wp frame (wpE D 𝒱₀ (c : Thread nD τ) none) Set.univ (k' ⟨⟩) Q)
          -∗ wp frame (wpE D 𝒱₀ (c : Thread nD τ) none) Set.univ
              (.op (.enqueueDma (ch rzM k) (.remote (Dev.tc p) (ch rdM k) (.dma (sfyS k)) hsc) (.dma (rfyS k)) hsrc hdst hsem) k') Q) := by
  subst hp
  unfold free holds
  iintro ⟨#HR, Hsrc, Hdst, HO, HtS, HtR⟩ Hk
  icases Hdst with ⟨%fd, Hdst⟩
  iapply (wp_copy m K c (py c) (sfyS k) (rfyS k) (by rw [sfyS_val]; omega) (by rw [rfyS_val]; omega) (used_sfy k hk) (used_rfy k hk)
      (ch rzM k) (ch rdM k) (hsc := hsc) (hsrc := hsrc) (hdst := hdst) (hsem := hsem) rfl fullShare (canon m c (ch rzM k) (SQ m (pz c) k)) fd W O
      (by rw [role_sfy]; exact .rfl)
      (by rw [role_rfy, read_canon, holds_of_write m (py c) (ch rdM k) fullShare _ fd]; show _ ⊢ holds m (py c) (ch rdM k) fullShare (SQ m (py (pz (py c))) k); rw [py_pz, py_py])) $$ [$HR $Hsrc $Hdst $HO $HtS $HtR]
  iexact Hk

end Cert.KernelIdeal.AR
end
-- ==== Proof.SegBar.lean ====
import proofs.«900722_g7700000000000723_dist_ar_v7x_xyz2x4x4_x_m1024_n512_f32_1_alg».proof.Proof.Data
import proofs.«900722_g7700000000000723_dist_ar_v7x_xyz2x4x4_x_m1024_n512_f32_1_alg».proof.Proof.Levels
import proofs.«900722_g7700000000000723_dist_ar_v7x_xyz2x4x4_x_m1024_n512_f32_1_alg».proof.Proof.ViewLemmas
import proofs.«900722_g7700000000000723_dist_ar_v7x_xyz2x4x4_x_m1024_n512_f32_1_alg».proof.Proof.Gen.KernelIdeal.Points
import proofs.«900722_g7700000000000723_dist_ar_v7x_xyz2x4x4_x_m1024_n512_f32_1_alg».proof.Proof.Gen.KernelIdeal.Frame

set_option maxRecDepth 16384

noncomputable section
namespace Cert.KernelIdeal.AR
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Λ : Labels} {D : Defs nD τ sig (Elt F) Λ}
local notation "𝕄" => MT nD τ sig Unit (Elt F) ℕ UU ℕ
variable (m : (ℓ : Loc nD τ sig) → Buf (Elt F) ℓ) (ρ : Dev nD → PrngReg)

theorem seg_bar (c p1 p2 p3 : Dev nD) (h1 : p1 = px c) (h2 : p2 = py c) (h3 : p3 = pz c) (sem : Sem sig) (hs : sem = barS)
    (κ0 κ1 κ2 κ3 : ℕ) (W : Waits sig Unit) (O : CellTallies nD τ sig Unit)
    {α : Type} {Q : α → sProp 𝕄} {k : PUnit → Prog (TpuEff nD τ sig (Elt F) Λ .tc) α} :
    iprop(cellInv ER (arRd m) κ0 (barCell c) ∗ cellInv ER (arRd m) κ1 (barCell (px c)) ∗ cellInv ER (arRd m) κ2 (barCell (py c)) ∗ cellInv ER (arRd m) κ3 (barCell (pz c))
        ∗ reached ER (barCell (px c)) 0 ∗ reached ER (barCell (py c)) 0 ∗ reached ER (barCell (pz c)) 0
        ∗ dutyTok ER (barCell (px c)) 0 0 ∗ dutyTok ER (barCell (py c)) 0 1 ∗ dutyTok ER (barCell (pz c)) 0 2
        ∗ barPay (F := F) (px c) 0 ∗ barPay (F := F) (py c) 1 ∗ barPay (F := F) (pz c) 2
        ∗ owes (c : Thread nD τ) (((O + tallyAt (barCell (pz c)) () 1) + tallyAt (barCell (py c)) () 1) + tallyAt (barCell (px c)) () 1) W
        ∗ cred (tallyAt (barCell c) () 3) ∗ atPos ER (barCell c) 0 ∅ 0 ∗ MayWait (c : Thread nD τ) (.reg barS) () O)
      ⊢ iprop(((owes (c : Thread nD τ) O (insert (SemLoc.reg barS, ()) W) ∗ atPos ER (barCell c) 1 ∅ 0
              ∗ barPay (F := F) c 0 ∗ barPay (F := F) c 1 ∗ barPay (F := F) c 2)
            -∗ wp frame (wpE D 𝒱₀ (c : Thread nD τ) none) Set.univ (k ⟨⟩) Q)
          -∗ wp frame (wpE D 𝒱₀ (c : Thread nD τ) none) Set.univ
              (.op (.semSignal (Dev.tc p1 : Thread nD τ) sem 1) fun _ =>
               .op (.semSignal (Dev.tc p2 : Thread nD τ) sem 1) fun _ =>
               .op (.semSignal (Dev.tc p3 : Thread nD τ) sem 1) fun _ =>
               .op (.semWait sem 3) k) Q) := by
  subst h1 h2 h3 hs
  iintro ⟨#HI0, #HI1, #HI2, #HI3, #Hr1, #Hr2, #Hr3, Ht1, Ht2, Ht3, Hp1, Hp2, Hp3, HO, Hc, Hat, Hmw⟩ Hk
  iapply (Rounds.wp_signal 𝒱₀ ER (arRd m) (c : Thread nD τ) none (dst := (px c : Thread nD τ)) (κ := κ1)
      (d := 0) (mem_duties_bar m (px c) 0) (amount_bar m (px c) 0) () ((O + tallyAt (barCell (pz c)) () 1) + tallyAt (barCell (py c)) () 1) rfl)
    $$ [HO Ht1 Hp1]
  · isplitr; · iexact HI1
    isplitl [HO]; · iexact HO
    isplitl [Ht1]; · iexact Ht1
    isplitl [Hp1]; · rw [payload_bar]; iexact Hp1
    iexact Hr1
  iintro HO
  iapply (Rounds.wp_signal 𝒱₀ ER (arRd m) (c : Thread nD τ) none (dst := (py c : Thread nD τ)) (κ := κ2)
      (d := 1) (mem_duties_bar m (py c) 1) (amount_bar m (py c) 1) () (O + tallyAt (barCell (pz c)) () 1) rfl)
    $$ [HO Ht2 Hp2]
  · isplitr; · iexact HI2
    isplitl [HO]; · iexact HO
    isplitl [Ht2]; · iexact Ht2
    isplitl [Hp2]; · rw [payload_bar]; iexact Hp2
    iexact Hr2
  iintro HO
  iapply (Rounds.wp_signal 𝒱₀ ER (arRd m) (c : Thread nD τ) none (dst := (pz c : Thread nD τ)) (κ := κ3)
      (d := 2) (mem_duties_bar m (pz c) 2) (amount_bar m (pz c) 2) () O rfl)
    $$ [HO Ht3 Hp3]
  · isplitr; · iexact HI3
    isplitl [HO]; · iexact HO
    isplitl [Ht3]; · iexact Ht3
    isplitl [Hp3]; · rw [payload_bar]; iexact Hp3
    iexact Hr3
  iintro HO
  iapply (Rounds.wp_wait_rest_token 𝒱₀ ER (arRd m) (c : Thread nD τ) none (κ := κ0)
      (wpE_semWait_eq 𝒱₀ (c : Thread nD τ) none Set.univ) (Set.mem_univ _) () (O := O) (W := W) (R := 0) (m := 0) (T := ∅)
      (by rw [expect_bar])) $$ [$HI0 $Hc $HO $Hmw $Hat]
  iintro ⟨HO, Hat, -, Hpay⟩
  ihave Hp := (Entails.of_eq (rest_bar m c)) $$ Hpay
  icases Hp with ⟨Hq0, Hq1, Hq2⟩
  iapply Hk $$ [$HO $Hat $Hq0 $Hq1 $Hq2]

end Cert.KernelIdeal.AR
end
-- ==== Proof.Seg2.lean ====
import proofs.«900722_g7700000000000723_dist_ar_v7x_xyz2x4x4_x_m1024_n512_f32_1_alg».proof.Proof.Steps
import proofs.«900722_g7700000000000723_dist_ar_v7x_xyz2x4x4_x_m1024_n512_f32_1_alg».proof.Proof.OutW

set_option maxRecDepth 16384

noncomputable section
namespace Cert.KernelIdeal.AR
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Λ : Labels} {D : Defs nD τ sig (Elt F) Λ}
local notation "𝕄" => MT nD τ sig Unit (Elt F) ℕ UU ℕ
variable (m : (ℓ : Loc nD τ sig) → Buf (Elt F) ℓ)

abbrev k10 (k : Fin 8) : Fin 10 := ⟨k.val, by have := k.isLt; omega⟩

theorem X_congr (d : Dev nD) {r r' : ℕ} (e : r = r') (h : r + 32 ≤ 1024) (h' : r' + 32 ≤ 1024) : X m d r h = X m d r' h' := by
  subst e; rfl

theorem xdst_k10 (k : Fin 8) : xdst (k10 k) = ch cxM k := xdst_lt (k10 k) k.isLt
theorem xrow_k10 (c : Dev nD) (k : Fin 8) : xrow c (k10 k) = 256 * qm c + 32 * k.val := xrow_lt c (k10 k) k.isLt

theorem sum_eq_SQ (c : Dev nD) (k : Fin 8) :
    addf (X m c (256 * qm c + 32 * k.val) (row_le _ (qm_lt c) k)) (X m (px c) (xrow c (k10 k)) (xrow_le c (k10 k))) = SQ m c k := by
  rw [X_congr m (px c) (xrow_k10 c k) (xrow_le c (k10 k)) (row_le _ (qm_lt c) k)]; rfl

theorem seg2 (K : GSem nD τ sig → ℕ) (c : Dev nD) (k : Fin 8) (p1 p2 : Dev nD) (hp1 : p1 = py c) (hp2 : p2 = pz c)
    (offx offo : Fin 2 → ℕ) (hinbx : ∀ a, offx a + S32x512.size a ≤ S1024x512.size a)
    (hinbo : ∀ a, offo a + S32x512.size a ≤ S1024x512.size a)
    (hoffx : offx = ![256 * qm c + 32 * k.val, 0]) (hoffo : offo = ![256 * qm c + 32 * k.val, 0])
    (gS gO : Vec F S32x512 .f32 → Vec F S32x512 .f32 → Vec F S32x512 .f32) (hgS : ∀ a b, gS a b = addf a b) (hgO : ∀ a b, gO a b = addf a b)
    (wsrc wdst : Memref sig .tc .vmem S32x512 .f32) {hws : wsrc.view.WordExact} {hwd : wdst.view.WordExact} (hN : wdst.view.dmaCredit = N)
    (fq : Buf (Elt F) ((ch sqM k).view.loc (c : Thread nD τ)))
    {hlx : (xM : Memref sig .tc .vmem S1024x512 .f32).view.LoadsAt (Rect.unit (s := S1024x512) offx S32x512.size hinbx).toLoadRect}
    {hlc : (cxM : Memref sig .tc .vmem S256x512 .f32).view.LoadsAt (r256 k).toLoadRect}
    {hlq : (sqM : Memref sig .tc .vmem S256x512 .f32).view.LoadsAt (r256 k).toLoadRect}
    {hsq : ((sqM : Memref sig .tc .vmem S256x512 .f32).access (r256 k)).Stores Finset.univ}
    {hmq : (Finset.univ : Finset (r256 k).shape.Idx) = Finset.univ ∨ ∀ a, (r256 k).stride a = 1}
    {hscY : (ch ryM k).view.ref.isScScratch = false} {hsrcY : (ch sqM k).view.WordExact} {hdstY : (ch ryM k).view.WordExact}
    {hsemY : DmaTarget.Typed (nD := nD) (τ := τ) (p := Proc.tc) Space.vmem (SemLoc.dma (ryS k)) (.remote (Dev.tc p1) (ch ryM k) (.dma (syS k)) hscY)}
    {hscZ : (ch rzM k).view.ref.isScScratch = false} {hsrcZ : (ch sqM k).view.WordExact} {hdstZ : (ch rzM k).view.WordExact}
    {hsemZ : DmaTarget.Typed (nD := nD) (τ := τ) (p := Proc.tc) Space.vmem (SemLoc.dma (rzS k)) (.remote (Dev.tc p2) (ch rzM k) (.dma (szS k)) hscZ)}
    {hlo : (oM : Memref sig .tc .vmem S1024x512 .f32).view.LoadsAt (Rect.unit (s := S1024x512) offo S32x512.size hinbo).toLoadRect}
    {hso : ((oM : Memref sig .tc .vmem S1024x512 .f32).access (Rect.unit (s := S1024x512) offo S32x512.size hinbo)).Stores Finset.univ}
    {hmo : (Finset.univ : Finset (Rect.unit (s := S1024x512) offo S32x512.size hinbo).shape.Idx) = Finset.univ
      ∨ ∀ a, (Rect.unit (s := S1024x512) offo S32x512.size hinbo).stride a = 1}
    (W : Waits sig Unit) (O : CellTallies nD τ sig Unit) (g : (cc0_stg1_0 : Ref sig .tc).ty.Contents (Elt F))
    {α : Type} {Q : α → sProp 𝕄} {k' : PUnit → Prog (TpuEff nD τ sig (Elt F) Λ .tc) α} :
    iprop(records m K ∗ cred (tallyAt (dcell c (rxS (k10 k))) () N) ∗ atPos ER (dcell c (rxS (k10 k))) 0 ∅ 0
        ∗ MayWait (c : Thread nD τ) (.dma (rxS (k10 k))) () ((O + tallyAt (dcell (pz c) (rzS k)) () N) + tallyAt (dcell (py c) (ryS k)) () N)
        ∗ owes (c : Thread nD τ) ((O + tallyAt (dcell (pz c) (rzS k)) () N) + tallyAt (dcell (py c) (ryS k)) () N) W
        ∗ ((xM : Memref sig .tc .vmem S1024x512 .f32).view.loc (c : Thread nD τ) ↦[(xM : Memref sig .tc .vmem S1024x512 .f32).view.set]{hR} xb m c)
        ∗ ((ch sqM k).view.loc (c : Thread nD τ) ↦[(ch sqM k).view.set]{fullShare} fq)
        ∗ free (F := F) (py c) (ch ryM k) ∗ free (F := F) (pz c) (ch rzM k)
        ∗ dutyTok ER (dcell c (syS k)) 0 0 ∗ dutyTok ER (dcell (py c) (ryS k)) 0 0
        ∗ dutyTok ER (dcell c (szS k)) 0 0 ∗ dutyTok ER (dcell (pz c) (rzS k)) 0 0
        ∗ ((oM : Memref sig .tc .vmem S1024x512 .f32).view.loc (c : Thread nD τ) ↦[(oM : Memref sig .tc .vmem S1024x512 .f32).view.set]{fullShare} g))
      ⊢ iprop(((owes (c : Thread nD τ) O (insert (SemLoc.dma (rxS (k10 k)), ()) W) ∗ atPos ER (dcell c (rxS (k10 k))) 1 ∅ 0
              ∗ holds m c (xdst (k10 k)) fullShare (X m (px c) (xrow c (k10 k)) (xrow_le c (k10 k)))
              ∗ ((xM : Memref sig .tc .vmem S1024x512 .f32).view.loc (c : Thread nD τ) ↦[(xM : Memref sig .tc .vmem S1024x512 .f32).view.set]{hR} xb m c)
              ∗ cred (tallyAt (dcell c (syS k)) () N) ∗ cred (tallyAt (dcell c (szS k)) () N)
              ∗ ((oM : Memref sig .tc .vmem S1024x512 .f32).view.loc (c : Thread nD τ) ↦[(oM : Memref sig .tc .vmem S1024x512 .f32).view.set]{fullShare}
                  wr (256 * qm c + 32 * k.val) (row_le _ (qm_lt c) k) (SQ m c k) g))
            -∗ wp frame (wpE D 𝒱₀ (c : Thread nD τ) none) Set.univ (k' ⟨⟩) Q)
          -∗ wp frame (wpE D 𝒱₀ (c : Thread nD τ) none) Set.univ
              (.op (.waitDma2 (rxS (k10 k)) wsrc wdst hws hwd) fun _ =>
               .op (.load (xM : Memref sig .tc .vmem S1024x512 .f32) (Rect.unit (s := S1024x512) offx S32x512.size hinbx).toLoadRect hlx) fun vx =>
               .op (.load (cxM : Memref sig .tc .vmem S256x512 .f32) (r256 k).toLoadRect hlc) fun vc =>
               .op (.load (sqM : Memref sig .tc .vmem S256x512 .f32) (r256 k).toLoadRect hlq) fun _ =>
               .op (.store (sqM : Memref sig .tc .vmem S256x512 .f32) (r256 k) (gS vx vc) Finset.univ hsq hmq) fun _ =>
               .op (.enqueueDma (ch sqM k) (.remote (Dev.tc p1) (ch ryM k) (.dma (syS k)) hscY) (.dma (ryS k)) hsrcY hdstY hsemY) fun _ =>
               .op (.enqueueDma (ch sqM k) (.remote (Dev.tc p2) (ch rzM k) (.dma (szS k)) hscZ) (.dma (rzS k)) hsrcZ hdstZ hsemZ) fun _ =>
               .op (.load (oM : Memref sig .tc .vmem S1024x512 .f32) (Rect.unit (s := S1024x512) offo S32x512.size hinbo).toLoadRect hlo) fun _ =>
               .op (.store (oM : Memref sig .tc .vmem S1024x512 .f32) (Rect.unit (s := S1024x512) offo S32x512.size hinbo) (gO vx vc) Finset.univ hso hmo) k') Q) := by
  subst hp1 hp2 hoffx hoffo

  have hvc : (cxM : Memref sig .tc .vmem S256x512 .f32).view.readAt (Elt F) (r256 k).toLoadRect
      (canon m c (ch cxM k) (X m (px c) (xrow c (k10 k)) (xrow_le c (k10 k)))) = X m (px c) (xrow c (k10 k)) (xrow_le c (k10 k)) :=
    load_ch m c cxM k _
  have hland : holds m c (xdst (k10 k)) fullShare (X m (px c) (xrow c (k10 k)) (xrow_le c (k10 k)))
      ⊣⊢ holds m c (ch cxM k) fullShare (X m (px c) (xrow c (k10 k)) (xrow_le c (k10 k))) := by rw [xdst_k10]
  have hland' : ((cxM : Memref sig .tc .vmem S256x512 .f32).view.loc (c : Thread nD τ) ↦[(ch cxM k).view.set]{fullShare}
        canon m c (ch cxM k) (X m (px c) (xrow c (k10 k)) (xrow_le c (k10 k))) : sProp 𝕄)
      ⊢ ((xdst (k10 k)).view.loc (c : Thread nD τ) ↦[(xdst (k10 k)).view.set]{fullShare}
        canon m c (xdst (k10 k)) (X m (px c) (xrow c (k10 k)) (xrow_le c (k10 k)))) := by
    show holds m c (ch cxM k) fullShare (X m (px c) (xrow c (k10 k)) (xrow_le c (k10 k)))
      ⊢ holds m c (xdst (k10 k)) fullShare (X m (px c) (xrow c (k10 k)) (xrow_le c (k10 k)))
    rw [xdst_k10]
  have hS : gS (View.readAt (Elt F) (xM : Memref sig .tc .vmem S1024x512 .f32).view
        (Rect.unit (s := S1024x512) ![256 * qm c + 32 * k.val, 0] S32x512.size hinbx).toLoadRect (xb m c))
      (View.readAt (Elt F) (cxM : Memref sig .tc .vmem S256x512 .f32).view (r256 k).toLoadRect
        (canon m c (ch cxM k) (X m (px c) (xrow c (k10 k)) (xrow_le c (k10 k))))) = SQ m c k := by
    rw [hvc, hgS]; exact sum_eq_SQ m c k
  have hO : gO (View.readAt (Elt F) (xM : Memref sig .tc .vmem S1024x512 .f32).view
        (Rect.unit (s := S1024x512) ![256 * qm c + 32 * k.val, 0] S32x512.size hinbx).toLoadRect (xb m c))
      (View.readAt (Elt F) (cxM : Memref sig .tc .vmem S256x512 .f32).view (r256 k).toLoadRect
        (canon m c (ch cxM k) (X m (px c) (xrow c (k10 k)) (xrow_le c (k10 k))))) = SQ m c k := by
    rw [hvc, hgO]; exact sum_eq_SQ m c k
  have eq1 : (View.loc (c : Thread nD τ) ((sqM : Memref sig .tc .vmem S256x512 .f32).access (r256 k)) ↦[(ch sqM k).view.set]{fullShare}
      View.write (Elt F) ((sqM : Memref sig .tc .vmem S256x512 .f32).access (r256 k)) fq
        (gS (View.readAt (Elt F) (xM : Memref sig .tc .vmem S1024x512 .f32).view
            (Rect.unit (s := S1024x512) ![256 * qm c + 32 * k.val, 0] S32x512.size hinbx).toLoadRect (xb m c))
          (View.readAt (Elt F) (cxM : Memref sig .tc .vmem S256x512 .f32).view (r256 k).toLoadRect
            (canon m c (ch cxM k) (X m (px c) (xrow c (k10 k)) (xrow_le c (k10 k)))))) Finset.univ : sProp 𝕄)
      = holds m c (ch sqM k) fullShare (SQ m c k) := by
    rw [hS]; exact store_ch m c (ch sqM k) fq (SQ m c k)
  have eq2 : (View.loc (c : Thread nD τ) ((oM : Memref sig .tc .vmem S1024x512 .f32).access
        (Rect.unit (s := S1024x512) ![256 * qm c + 32 * k.val, 0] S32x512.size hinbo)) ↦[(oM : Memref sig .tc .vmem S1024x512 .f32).view.set]{fullShare}
      View.write (Elt F) ((oM : Memref sig .tc .vmem S1024x512 .f32).access
          (Rect.unit (s := S1024x512) ![256 * qm c + 32 * k.val, 0] S32x512.size hinbo)) g
        (gO (View.readAt (Elt F) (xM : Memref sig .tc .vmem S1024x512 .f32).view
            (Rect.unit (s := S1024x512) ![256 * qm c + 32 * k.val, 0] S32x512.size hinbx).toLoadRect (xb m c))
          (View.readAt (Elt F) (cxM : Memref sig .tc .vmem S256x512 .f32).view (r256 k).toLoadRect
            (canon m c (ch cxM k) (X m (px c) (xrow c (k10 k)) (xrow_le c (k10 k)))))) Finset.univ : sProp 𝕄)
      = ((oM : Memref sig .tc .vmem S1024x512 .f32).view.loc (c : Thread nD τ) ↦[(oM : Memref sig .tc .vmem S1024x512 .f32).view.set]{fullShare}
          wr (256 * qm c + 32 * k.val) (row_le _ (qm_lt c) k) (SQ m c k) g) := by
    rw [hO]; rfl
  iintro ⟨#HR, Hc, Hat, Hmw, HO, HXR, Hq, HfY, HfZ, HtSY, HtRY, HtSZ, HtRZ, HOUT⟩ Hk

  iapply (wait_rx m K c (k10 k) wsrc wdst (hsrc := hws) (hdst := hwd) hN W
      ((O + tallyAt (dcell (pz c) (rzS k)) () N) + tallyAt (dcell (py c) (ryS k)) () N)) $$ [$HR $Hc $HO $Hmw $Hat]
  iintro ⟨HO, Hat, Hland⟩
  ihave Hland := hland.1 $$ Hland
  unfold holds

  iapply (wp_load 𝒱₀ (c : Thread nD τ) none Set.univ (m := (xM : Memref sig .tc .vmem S1024x512 .f32))
      (View.setOn_subset_set _ _)) $$ HXR; iintro HXR
  iapply (wp_load 𝒱₀ (c : Thread nD τ) none Set.univ (m := (cxM : Memref sig .tc .vmem S256x512 .f32))
      (load_subset cxM (r256 k) (fun _ => rfl))) $$ Hland; iintro Hland
  iapply (wp_load 𝒱₀ (c : Thread nD τ) none Set.univ (m := (sqM : Memref sig .tc .vmem S256x512 .f32))
      (load_subset sqM (r256 k) (fun _ => rfl))) $$ Hq; iintro Hq
  iapply (wp_store 𝒱₀ (c : Thread nD τ) none Set.univ (m := (sqM : Memref sig .tc .vmem S256x512 .f32)) (r := r256 k) (Mk := Finset.univ)
      (store_subset sqM (r256 k) (fun _ => rfl))) $$ Hq; iintro Hq
  ihave Hq := (Entails.of_eq eq1) $$ Hq
  ihave Hh := (holds_halves m c (ch sqM k) (SQ m c k)).1 $$ Hq
  icases Hh with ⟨HqL, HqR⟩

  iapply (copyY m K c k (py c) rfl (hsc := hscY) (hsrc := hsrcY) (hdst := hdstY) (hsem := hsemY)
      (insert (SemLoc.dma (rxS (k10 k)), ()) W) (O + tallyAt (dcell (pz c) (rzS k)) () N)) $$ [$HR $HqL $HfY $HO $HtSY $HtRY]
  iintro ⟨HcY, HO⟩
  iapply (copyZ m K c k (pz c) rfl (hsc := hscZ) (hsrc := hsrcZ) (hdst := hdstZ) (hsem := hsemZ)
      (insert (SemLoc.dma (rxS (k10 k)), ()) W) O) $$ [$HR $HqR $HfZ $HO $HtSZ $HtRZ]
  iintro ⟨HcZ, HO⟩

  iapply (wp_load 𝒱₀ (c : Thread nD τ) none Set.univ (m := (oM : Memref sig .tc .vmem S1024x512 .f32))
      (View.setOn_subset_set _ _)) $$ HOUT; iintro HOUT
  iapply (wp_store 𝒱₀ (c : Thread nD τ) none Set.univ (m := (oM : Memref sig .tc .vmem S1024x512 .f32))
      (r := Rect.unit (s := S1024x512) ![256 * qm c + 32 * k.val, 0] S32x512.size hinbo) (Mk := Finset.univ)
      (View.set_slice_subset _ _)) $$ HOUT; iintro HOUT
  ihave HOUT := (Entails.of_eq eq2) $$ HOUT
  ihave Hland := hland' $$ Hland
  iapply Hk $$ [$HO $Hat $Hland $HXR $HcY $HcZ $HOUT]

end Cert.KernelIdeal.AR
end
-- ==== Proof.Seg3.lean ====
import proofs.«900722_g7700000000000723_dist_ar_v7x_xyz2x4x4_x_m1024_n512_f32_1_alg».proof.Proof.Steps

set_option maxRecDepth 16384

noncomputable section
namespace Cert.KernelIdeal.AR
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Λ : Labels} {D : Defs nD τ sig (Elt F) Λ}
local notation "𝕄" => MT nD τ sig Unit (Elt F) ℕ UU ℕ
variable (m : (ℓ : Loc nD τ sig) → Buf (Elt F) ℓ)

theorem place_eq (c : Dev nD) (M : Memref sig .tc .vmem S256x512 .f32) (k : Fin 8) (V : Vec F S32x512 .f32)
    (row : ℕ) (h : row + 32 ≤ 1024) (hinb : ∀ a, (![row, 0] : Fin 2 → ℕ) a + S32x512.size a ≤ S1024x512.size a)
    (g : (cc0_stg1_0 : Ref sig .tc).ty.Contents (Elt F)) :
    View.write (Elt F) ((oM : Memref sig .tc .vmem S1024x512 .f32).access (Rect.unit (s := S1024x512) ![row, 0] S32x512.size hinb)) g
        (View.readAt (Elt F) M.view (r256 k).toLoadRect (canon m c (ch M k) V)) Finset.univ
      = wr row h V g := by
  rw [load_ch]; rfl

theorem place (c : Dev nD) (M : Memref sig .tc .vmem S256x512 .f32) (k : Fin 8) (V : Vec F S32x512 .f32)
    (row : ℕ) (h : row + 32 ≤ 1024) (hinb : ∀ a, (![row, 0] : Fin 2 → ℕ) a + S32x512.size a ≤ S1024x512.size a)
    {hl1 : M.view.LoadsAt (r256 k).toLoadRect}
    {hl2 : (oM : Memref sig .tc .vmem S1024x512 .f32).view.LoadsAt (Rect.unit (s := S1024x512) ![row, 0] S32x512.size hinb).toLoadRect}
    {hx : ((oM : Memref sig .tc .vmem S1024x512 .f32).access (Rect.unit (s := S1024x512) ![row, 0] S32x512.size hinb)).Stores Finset.univ}
    {hm : (Finset.univ : Finset (Rect.unit (s := S1024x512) ![row, 0] S32x512.size hinb).shape.Idx) = Finset.univ
      ∨ ∀ a, (Rect.unit (s := S1024x512) ![row, 0] S32x512.size hinb).stride a = 1}
    (g : (cc0_stg1_0 : Ref sig .tc).ty.Contents (Elt F))
    {α : Type} {Q : α → sProp 𝕄} {k' : PUnit → Prog (TpuEff nD τ sig (Elt F) Λ .tc) α} :
    iprop(holds m c (ch M k) fullShare V
        ∗ ((oM : Memref sig .tc .vmem S1024x512 .f32).view.loc (c : Thread nD τ) ↦[(oM : Memref sig .tc .vmem S1024x512 .f32).view.set]{fullShare} g))
      ⊢ iprop(((holds m c (ch M k) fullShare V
              ∗ ((oM : Memref sig .tc .vmem S1024x512 .f32).view.loc (c : Thread nD τ) ↦[(oM : Memref sig .tc .vmem S1024x512 .f32).view.set]{fullShare} wr row h V g))
            -∗ wp frame (wpE D 𝒱₀ (c : Thread nD τ) none) Set.univ (k' ⟨⟩) Q)
          -∗ wp frame (wpE D 𝒱₀ (c : Thread nD τ) none) Set.univ
              (.op (.load M (r256 k).toLoadRect hl1) fun v =>
               .op (.load (oM : Memref sig .tc .vmem S1024x512 .f32) (Rect.unit (s := S1024x512) ![row, 0] S32x512.size hinb).toLoadRect hl2) fun _ =>
               .op (.store (oM : Memref sig .tc .vmem S1024x512 .f32) (Rect.unit (s := S1024x512) ![row, 0] S32x512.size hinb) v Finset.univ hx hm) k') Q) := by
  unfold holds
  iintro ⟨Hch, Hout⟩ Hk
  iapply (wp_load 𝒱₀ (c : Thread nD τ) none Set.univ (m := M) (S := (ch M k).view.set) (load_subset M (r256 k) (fun _ => rfl))) $$ Hch
  iintro Hch
  iapply (wp_load 𝒱₀ (c : Thread nD τ) none Set.univ (m := (oM : Memref sig .tc .vmem S1024x512 .f32))
    (S := (oM : Memref sig .tc .vmem S1024x512 .f32).view.set) (View.setOn_subset_set _ _)) $$ Hout
  iintro Hout
  iapply (wp_store 𝒱₀ (c : Thread nD τ) none Set.univ (m := (oM : Memref sig .tc .vmem S1024x512 .f32))
    (r := Rect.unit (s := S1024x512) ![row, 0] S32x512.size hinb) (Mk := Finset.univ)
    (S := (oM : Memref sig .tc .vmem S1024x512 .f32).view.set) (View.set_slice_subset _ _)) $$ Hout
  iintro Hout
  rw [place_eq m c M k V row h hinb g]
  iapply Hk $$ [$Hch $Hout]

theorem seg3y (K : GSem nD τ sig → ℕ) (c : Dev nD) (k : Fin 8)
    (offo : Fin 2 → ℕ) (hinbo : ∀ a, offo a + S32x512.size a ≤ S1024x512.size a) (hoffo : offo = ![256 * qy c + 32 * k.val, 0])
    (wsrc wdst : Memref sig .tc .vmem S32x512 .f32) {hwsrc : wsrc.view.WordExact} {hwdst : wdst.view.WordExact}
    (hN : wdst.view.dmaCredit = N)
    {hl1 : (ryM : Memref sig .tc .vmem S256x512 .f32).view.LoadsAt (r256 k).toLoadRect}
    {hl2 : (oM : Memref sig .tc .vmem S1024x512 .f32).view.LoadsAt (Rect.unit (s := S1024x512) offo S32x512.size hinbo).toLoadRect}
    {hx : ((oM : Memref sig .tc .vmem S1024x512 .f32).access (Rect.unit (s := S1024x512) offo S32x512.size hinbo)).Stores Finset.univ}
    {hm : (Finset.univ : Finset (Rect.unit (s := S1024x512) offo S32x512.size hinbo).shape.Idx) = Finset.univ
      ∨ ∀ a, (Rect.unit (s := S1024x512) offo S32x512.size hinbo).stride a = 1}
    (W : Waits sig Unit) (O : CellTallies nD τ sig Unit) (g : (cc0_stg1_0 : Ref sig .tc).ty.Contents (Elt F))
    {α : Type} {Q : α → sProp 𝕄} {k' : PUnit → Prog (TpuEff nD τ sig (Elt F) Λ .tc) α} :
    iprop(records m K ∗ cred (tallyAt (dcell c (ryS k)) () N) ∗ atPos ER (dcell c (ryS k)) 0 ∅ 0
        ∗ MayWait (c : Thread nD τ) (.dma (ryS k)) () O ∗ owes (c : Thread nD τ) O W
        ∗ ((oM : Memref sig .tc .vmem S1024x512 .f32).view.loc (c : Thread nD τ) ↦[(oM : Memref sig .tc .vmem S1024x512 .f32).view.set]{fullShare} g))
      ⊢ iprop(((owes (c : Thread nD τ) O (insert (SemLoc.dma (ryS k), ()) W) ∗ atPos ER (dcell c (ryS k)) 1 ∅ 0
              ∗ ((oM : Memref sig .tc .vmem S1024x512 .f32).view.loc (c : Thread nD τ) ↦[(oM : Memref sig .tc .vmem S1024x512 .f32).view.set]{fullShare}
                  wr (256 * qy c + 32 * k.val) (row_le _ (qy_lt c) k) (SQ m (py c) k) g)
              ∗ holds m c (ch ryM k) fullShare (SQ m (py c) k))
            -∗ wp frame (wpE D 𝒱₀ (c : Thread nD τ) none) Set.univ (k' ⟨⟩) Q)
          -∗ wp frame (wpE D 𝒱₀ (c : Thread nD τ) none) Set.univ
              (.op (.waitDma2 (ryS k) wsrc wdst hwsrc hwdst) fun _ =>
               .op (.load (ryM : Memref sig .tc .vmem S256x512 .f32) (r256 k).toLoadRect hl1) fun v =>
               .op (.load (oM : Memref sig .tc .vmem S1024x512 .f32) (Rect.unit (s := S1024x512) offo S32x512.size hinbo).toLoadRect hl2) fun _ =>
               .op (.store (oM : Memref sig .tc .vmem S1024x512 .f32) (Rect.unit (s := S1024x512) offo S32x512.size hinbo) v Finset.univ hx hm) k') Q) := by
  subst hoffo
  iintro ⟨#HR, Hc, Hat, Hmw, HO, Hout⟩ Hk
  iapply (wait_ry m K c k wsrc wdst (hsrc := hwsrc) (hdst := hwdst) hN W O) $$ [$HR $Hc $HO $Hmw $Hat]
  iintro ⟨HO, Hat, Hch⟩
  iapply (place m c ryM k (SQ m (py c) k) (256 * qy c + 32 * k.val) (row_le _ (qy_lt c) k) hinbo
    (hl1 := hl1) (hl2 := hl2) (hx := hx) (hm := hm) g) $$ [$Hch $Hout]
  iintro ⟨Hch, Hout⟩
  iapply Hk $$ [$HO $Hat $Hout $Hch]

theorem seg3y_fwd (K : GSem nD τ sig → ℕ) (c : Dev nD) (k : Fin 8) (hk : k.val < 3) (p : Dev nD) (hp : p = pz c)
    (offo : Fin 2 → ℕ) (hinbo : ∀ a, offo a + S32x512.size a ≤ S1024x512.size a) (hoffo : offo = ![256 * qy c + 32 * k.val, 0])
    (wsrc wdst : Memref sig .tc .vmem S32x512 .f32) {hwsrc : wsrc.view.WordExact} {hwdst : wdst.view.WordExact}
    (hN : wdst.view.dmaCredit = N)
    {hl1 : (ryM : Memref sig .tc .vmem S256x512 .f32).view.LoadsAt (r256 k).toLoadRect}
    {hl2 : (oM : Memref sig .tc .vmem S1024x512 .f32).view.LoadsAt (Rect.unit (s := S1024x512) offo S32x512.size hinbo).toLoadRect}
    {hx : ((oM : Memref sig .tc .vmem S1024x512 .f32).access (Rect.unit (s := S1024x512) offo S32x512.size hinbo)).Stores Finset.univ}
    {hm : (Finset.univ : Finset (Rect.unit (s := S1024x512) offo S32x512.size hinbo).shape.Idx) = Finset.univ
      ∨ ∀ a, (Rect.unit (s := S1024x512) offo S32x512.size hinbo).stride a = 1}
    {hsc : (ch rdM k).view.ref.isScScratch = false} {hsrc : (ch ryM k).view.WordExact} {hdst : (ch rdM k).view.WordExact}
    {hsem : DmaTarget.Typed (nD := nD) (τ := τ) (p := Proc.tc) Space.vmem (SemLoc.dma (rfzS k)) (.remote (Dev.tc p) (ch rdM k) (.dma (sfzS k)) hsc)}
    (W : Waits sig Unit) (O : CellTallies nD τ sig Unit) (g : (cc0_stg1_0 : Ref sig .tc).ty.Contents (Elt F))
    {α : Type} {Q : α → sProp 𝕄} {k' : PUnit → Prog (TpuEff nD τ sig (Elt F) Λ .tc) α} :
    iprop(records m K ∗ cred (tallyAt (dcell c (ryS k)) () N) ∗ atPos ER (dcell c (ryS k)) 0 ∅ 0
        ∗ MayWait (c : Thread nD τ) (.dma (ryS k)) () (O + tallyAt (dcell (pz c) (rfzS k)) () N)
        ∗ owes (c : Thread nD τ) (O + tallyAt (dcell (pz c) (rfzS k)) () N) W
        ∗ ((oM : Memref sig .tc .vmem S1024x512 .f32).view.loc (c : Thread nD τ) ↦[(oM : Memref sig .tc .vmem S1024x512 .f32).view.set]{fullShare} g)
        ∗ free (F := F) (pz c) (ch rdM k) ∗ dutyTok ER (dcell c (sfzS k)) 0 0 ∗ dutyTok ER (dcell (pz c) (rfzS k)) 0 0)
      ⊢ iprop(((owes (c : Thread nD τ) O (insert (SemLoc.dma (ryS k), ()) W) ∗ atPos ER (dcell c (ryS k)) 1 ∅ 0
              ∗ ((oM : Memref sig .tc .vmem S1024x512 .f32).view.loc (c : Thread nD τ) ↦[(oM : Memref sig .tc .vmem S1024x512 .f32).view.set]{fullShare}
                  wr (256 * qy c + 32 * k.val) (row_le _ (qy_lt c) k) (SQ m (py c) k) g)
              ∗ cred (tallyAt (dcell c (sfzS k)) () N))
            -∗ wp frame (wpE D 𝒱₀ (c : Thread nD τ) none) Set.univ (k' ⟨⟩) Q)
          -∗ wp frame (wpE D 𝒱₀ (c : Thread nD τ) none) Set.univ
              (.op (.waitDma2 (ryS k) wsrc wdst hwsrc hwdst) fun _ =>
               .op (.load (ryM : Memref sig .tc .vmem S256x512 .f32) (r256 k).toLoadRect hl1) fun v =>
               .op (.load (oM : Memref sig .tc .vmem S1024x512 .f32) (Rect.unit (s := S1024x512) offo S32x512.size hinbo).toLoadRect hl2) fun _ =>
               .op (.store (oM : Memref sig .tc .vmem S1024x512 .f32) (Rect.unit (s := S1024x512) offo S32x512.size hinbo) v Finset.univ hx hm) fun _ =>
               .op (.enqueueDma (ch ryM k) (.remote (Dev.tc p) (ch rdM k) (.dma (sfzS k)) hsc) (.dma (rfzS k)) hsrc hdst hsem) k') Q) := by
  subst hoffo hp
  iintro ⟨#HR, Hc, Hat, Hmw, HO, Hout, Hfree, HtS, HtR⟩ Hk
  iapply (wait_ry m K c k wsrc wdst (hsrc := hwsrc) (hdst := hwdst) hN W (O + tallyAt (dcell (pz c) (rfzS k)) () N)) $$ [$HR $Hc $HO $Hmw $Hat]
  iintro ⟨HO, Hat, Hch⟩
  iapply (place m c ryM k (SQ m (py c) k) (256 * qy c + 32 * k.val) (row_le _ (qy_lt c) k) hinbo
    (hl1 := hl1) (hl2 := hl2) (hx := hx) (hm := hm) g) $$ [$Hch $Hout]
  iintro ⟨Hch, Hout⟩
  iapply (fwdZ m K c k hk (pz c) rfl (hsc := hsc) (hsrc := hsrc) (hdst := hdst) (hsem := hsem)
    (insert (SemLoc.dma (ryS k), ()) W) O) $$ [$HR $Hch $Hfree $HO $HtS $HtR]
  iintro ⟨Hcs, HO⟩
  iapply Hk $$ [$HO $Hat $Hout $Hcs]

theorem seg3z (K : GSem nD τ sig → ℕ) (c : Dev nD) (k : Fin 8)
    (offo : Fin 2 → ℕ) (hinbo : ∀ a, offo a + S32x512.size a ≤ S1024x512.size a) (hoffo : offo = ![256 * qz c + 32 * k.val, 0])
    (wsrc wdst : Memref sig .tc .vmem S32x512 .f32) {hwsrc : wsrc.view.WordExact} {hwdst : wdst.view.WordExact}
    (hN : wdst.view.dmaCredit = N)
    {hl1 : (rzM : Memref sig .tc .vmem S256x512 .f32).view.LoadsAt (r256 k).toLoadRect}
    {hl2 : (oM : Memref sig .tc .vmem S1024x512 .f32).view.LoadsAt (Rect.unit (s := S1024x512) offo S32x512.size hinbo).toLoadRect}
    {hx : ((oM : Memref sig .tc .vmem S1024x512 .f32).access (Rect.unit (s := S1024x512) offo S32x512.size hinbo)).Stores Finset.univ}
    {hm : (Finset.univ : Finset (Rect.unit (s := S1024x512) offo S32x512.size hinbo).shape.Idx) = Finset.univ
      ∨ ∀ a, (Rect.unit (s := S1024x512) offo S32x512.size hinbo).stride a = 1}
    (W : Waits sig Unit) (O : CellTallies nD τ sig Unit) (g : (cc0_stg1_0 : Ref sig .tc).ty.Contents (Elt F))
    {α : Type} {Q : α → sProp 𝕄} {k' : PUnit → Prog (TpuEff nD τ sig (Elt F) Λ .tc) α} :
    iprop(records m K ∗ cred (tallyAt (dcell c (rzS k)) () N) ∗ atPos ER (dcell c (rzS k)) 0 ∅ 0
        ∗ MayWait (c : Thread nD τ) (.dma (rzS k)) () O ∗ owes (c : Thread nD τ) O W
        ∗ ((oM : Memref sig .tc .vmem S1024x512 .f32).view.loc (c : Thread nD τ) ↦[(oM : Memref sig .tc .vmem S1024x512 .f32).view.set]{fullShare} g))
      ⊢ iprop(((owes (c : Thread nD τ) O (insert (SemLoc.dma (rzS k), ()) W) ∗ atPos ER (dcell c (rzS k)) 1 ∅ 0
              ∗ ((oM : Memref sig .tc .vmem S1024x512 .f32).view.loc (c : Thread nD τ) ↦[(oM : Memref sig .tc .vmem S1024x512 .f32).view.set]{fullShare}
                  wr (256 * qz c + 32 * k.val) (row_le _ (qz_lt c) k) (SQ m (pz c) k) g)
              ∗ holds m c (ch rzM k) fullShare (SQ m (pz c) k))
            -∗ wp frame (wpE D 𝒱₀ (c : Thread nD τ) none) Set.univ (k' ⟨⟩) Q)
          -∗ wp frame (wpE D 𝒱₀ (c : Thread nD τ) none) Set.univ
              (.op (.waitDma2 (rzS k) wsrc wdst hwsrc hwdst) fun _ =>
               .op (.load (rzM : Memref sig .tc .vmem S256x512 .f32) (r256 k).toLoadRect hl1) fun v =>
               .op (.load (oM : Memref sig .tc .vmem S1024x512 .f32) (Rect.unit (s := S1024x512) offo S32x512.size hinbo).toLoadRect hl2) fun _ =>
               .op (.store (oM : Memref sig .tc .vmem S1024x512 .f32) (Rect.unit (s := S1024x512) offo S32x512.size hinbo) v Finset.univ hx hm) k') Q) := by
  subst hoffo
  iintro ⟨#HR, Hc, Hat, Hmw, HO, Hout⟩ Hk
  iapply (wait_rz m K c k wsrc wdst (hsrc := hwsrc) (hdst := hwdst) hN W O) $$ [$HR $Hc $HO $Hmw $Hat]
  iintro ⟨HO, Hat, Hch⟩
  iapply (place m c rzM k (SQ m (pz c) k) (256 * qz c + 32 * k.val) (row_le _ (qz_lt c) k) hinbo
    (hl1 := hl1) (hl2 := hl2) (hx := hx) (hm := hm) g) $$ [$Hch $Hout]
  iintro ⟨Hch, Hout⟩
  iapply Hk $$ [$HO $Hat $Hout $Hch]

theorem seg3z_fwd (K : GSem nD τ sig → ℕ) (c : Dev nD) (k : Fin 8) (hk : 3 ≤ k.val ∧ k.val < 6) (p : Dev nD) (hp : p = py c)
    (offo : Fin 2 → ℕ) (hinbo : ∀ a, offo a + S32x512.size a ≤ S1024x512.size a) (hoffo : offo = ![256 * qz c + 32 * k.val, 0])
    (wsrc wdst : Memref sig .tc .vmem S32x512 .f32) {hwsrc : wsrc.view.WordExact} {hwdst : wdst.view.WordExact}
    (hN : wdst.view.dmaCredit = N)
    {hl1 : (rzM : Memref sig .tc .vmem S256x512 .f32).view.LoadsAt (r256 k).toLoadRect}
    {hl2 : (oM : Memref sig .tc .vmem S1024x512 .f32).view.LoadsAt (Rect.unit (s := S1024x512) offo S32x512.size hinbo).toLoadRect}
    {hx : ((oM : Memref sig .tc .vmem S1024x512 .f32).access (Rect.unit (s := S1024x512) offo S32x512.size hinbo)).Stores Finset.univ}
    {hm : (Finset.univ : Finset (Rect.unit (s := S1024x512) offo S32x512.size hinbo).shape.Idx) = Finset.univ
      ∨ ∀ a, (Rect.unit (s := S1024x512) offo S32x512.size hinbo).stride a = 1}
    {hsc : (ch rdM k).view.ref.isScScratch = false} {hsrc : (ch rzM k).view.WordExact} {hdst : (ch rdM k).view.WordExact}
    {hsem : DmaTarget.Typed (nD := nD) (τ := τ) (p := Proc.tc) Space.vmem (SemLoc.dma (rfyS k)) (.remote (Dev.tc p) (ch rdM k) (.dma (sfyS k)) hsc)}
    (W : Waits sig Unit) (O : CellTallies nD τ sig Unit) (g : (cc0_stg1_0 : Ref sig .tc).ty.Contents (Elt F))
    {α : Type} {Q : α → sProp 𝕄} {k' : PUnit → Prog (TpuEff nD τ sig (Elt F) Λ .tc) α} :
    iprop(records m K ∗ cred (tallyAt (dcell c (rzS k)) () N) ∗ atPos ER (dcell c (rzS k)) 0 ∅ 0
        ∗ MayWait (c : Thread nD τ) (.dma (rzS k)) () (O + tallyAt (dcell (py c) (rfyS k)) () N)
        ∗ owes (c : Thread nD τ) (O + tallyAt (dcell (py c) (rfyS k)) () N) W
        ∗ ((oM : Memref sig .tc .vmem S1024x512 .f32).view.loc (c : Thread nD τ) ↦[(oM : Memref sig .tc .vmem S1024x512 .f32).view.set]{fullShare} g)
        ∗ free (F := F) (py c) (ch rdM k) ∗ dutyTok ER (dcell c (sfyS k)) 0 0 ∗ dutyTok ER (dcell (py c) (rfyS k)) 0 0)
      ⊢ iprop(((owes (c : Thread nD τ) O (insert (SemLoc.dma (rzS k), ()) W) ∗ atPos ER (dcell c (rzS k)) 1 ∅ 0
              ∗ ((oM : Memref sig .tc .vmem S1024x512 .f32).view.loc (c : Thread nD τ) ↦[(oM : Memref sig .tc .vmem S1024x512 .f32).view.set]{fullShare}
                  wr (256 * qz c + 32 * k.val) (row_le _ (qz_lt c) k) (SQ m (pz c) k) g)
              ∗ cred (tallyAt (dcell c (sfyS k)) () N))
            -∗ wp frame (wpE D 𝒱₀ (c : Thread nD τ) none) Set.univ (k' ⟨⟩) Q)
          -∗ wp frame (wpE D 𝒱₀ (c : Thread nD τ) none) Set.univ
              (.op (.waitDma2 (rzS k) wsrc wdst hwsrc hwdst) fun _ =>
               .op (.load (rzM : Memref sig .tc .vmem S256x512 .f32) (r256 k).toLoadRect hl1) fun v =>
               .op (.load (oM : Memref sig .tc .vmem S1024x512 .f32) (Rect.unit (s := S1024x512) offo S32x512.size hinbo).toLoadRect hl2) fun _ =>
               .op (.store (oM : Memref sig .tc .vmem S1024x512 .f32) (Rect.unit (s := S1024x512) offo S32x512.size hinbo) v Finset.univ hx hm) fun _ =>
               .op (.enqueueDma (ch rzM k) (.remote (Dev.tc p) (ch rdM k) (.dma (sfyS k)) hsc) (.dma (rfyS k)) hsrc hdst hsem) k') Q) := by
  subst hoffo hp
  iintro ⟨#HR, Hc, Hat, Hmw, HO, Hout, Hfree, HtS, HtR⟩ Hk
  iapply (wait_rz m K c k wsrc wdst (hsrc := hwsrc) (hdst := hwdst) hN W (O + tallyAt (dcell (py c) (rfyS k)) () N)) $$ [$HR $Hc $HO $Hmw $Hat]
  iintro ⟨HO, Hat, Hch⟩
  iapply (place m c rzM k (SQ m (pz c) k) (256 * qz c + 32 * k.val) (row_le _ (qz_lt c) k) hinbo
    (hl1 := hl1) (hl2 := hl2) (hx := hx) (hm := hm) g) $$ [$Hch $Hout]
  iintro ⟨Hch, Hout⟩
  iapply (fwdY m K c k hk (py c) rfl (hsc := hsc) (hsrc := hsrc) (hdst := hdst) (hsem := hsem)
    (insert (SemLoc.dma (rzS k), ()) W) O) $$ [$HR $Hch $Hfree $HO $HtS $HtR]
  iintro ⟨Hcs, HO⟩
  iapply Hk $$ [$HO $Hat $Hout $Hcs]

end Cert.KernelIdeal.AR
end
-- ==== Proof.Seg45.lean ====
import proofs.«900722_g7700000000000723_dist_ar_v7x_xyz2x4x4_x_m1024_n512_f32_1_alg».proof.Proof.Steps

set_option maxRecDepth 16384

noncomputable section
namespace Cert.KernelIdeal.AR
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Λ : Labels} {D : Defs nD τ sig (Elt F) Λ}
local notation "𝕄" => MT nD τ sig Unit (Elt F) ℕ UU ℕ
variable (m : (ℓ : Loc nD τ sig) → Buf (Elt F) ℓ)

theorem holds_def (c : Dev nD) (v : Memref sig .tc .vmem S32x512 .f32) (q : PosShare TreeShare) (V : Vec F S32x512 .f32) :
    holds m c v q V = (v.view.loc (c : Thread nD τ) ↦[v.view.set]{q} canon m c v V : sProp 𝕄) := rfl

theorem X_congr (d : Dev nD) {r r' : ℕ} (e : r = r') (h : r + 32 ≤ 1024) (h' : r' + 32 ≤ 1024) : X m d r h = X m d r' h' := by
  subst e; rfl

abbrev jx (j : Fin 2) : Fin 10 := ⟨8 + j.val, by have := j.isLt; omega⟩

theorem row4_le (c : Dev nD) (j : Fin 2) : 256 * qd c + 192 + 32 * j.val + 32 ≤ 1024 := by
  have := qd_lt c; have := j.isLt; omega

theorem xrow_jx (c : Dev nD) (j : Fin 2) : xrow c (jx j) = 256 * qd c + 192 + 32 * j.val := by
  rw [xrow_ge c (jx j) (by show ¬ 8 + j.val < 8; omega)]
  show 256 * qd c + 192 + 32 * (8 + j.val - 8) = _
  omega

theorem xdst_jx (j : Fin 2) : xdst (jx j) = ch64 j := by
  fin_cases j <;> rfl

theorem wsx (K : GSem nD τ sig → ℕ) (c : Dev nD) (j : Fin 10)
    (wsrc wdst : Memref sig .tc .vmem S32x512 .f32) {hwsrc : wsrc.view.WordExact} {hwdst : wdst.view.WordExact}
    (hN : wdst.view.dmaCredit = N) (W : Waits sig Unit)
    {α : Type} {Q : α → sProp 𝕄} {k' : PUnit → Prog (TpuEff nD τ sig (Elt F) Λ .tc) α} :
    iprop(records m K ∗ cred (tallyAt (dcell c (sxS j)) () N) ∗ atPos ER (dcell c (sxS j)) 0 ∅ 0
        ∗ owes (c : Thread nD τ) 0 W ∗ levAts L lv)
      ⊢ iprop(((owes (c : Thread nD τ) 0 (insert (SemLoc.dma (sxS j), ()) W) ∗ atPos ER (dcell c (sxS j)) 1 ∅ 0
              ∗ xholds m c (xrow c j) (xrow_le c j) hL)
            -∗ wp frame (wpE D 𝒱₀ (c : Thread nD τ) none) Set.univ (k' ⟨⟩) Q)
          -∗ wp frame (wpE D 𝒱₀ (c : Thread nD τ) none) Set.univ (.op (.waitDma2 (sxS j) wsrc wdst hwsrc hwdst) k') Q) := by
  iintro ⟨#HR, Hc, Hat, HO, #Hlv⟩ Hk
  ihave #Hmw := (mayWait_zero (F := F) c (.dma (sxS j))) $$ Hlv
  iapply (wait_sx m K c j wsrc wdst (hsrc := hwsrc) (hdst := hwdst) hN W 0) $$ [$HR $Hc $HO $Hmw $Hat]
  iexact Hk

theorem wsy (K : GSem nD τ sig → ℕ) (c : Dev nD) (k : Fin 8)
    (wsrc wdst : Memref sig .tc .vmem S32x512 .f32) {hwsrc : wsrc.view.WordExact} {hwdst : wdst.view.WordExact}
    (hN : wdst.view.dmaCredit = N) (W : Waits sig Unit)
    {α : Type} {Q : α → sProp 𝕄} {k' : PUnit → Prog (TpuEff nD τ sig (Elt F) Λ .tc) α} :
    iprop(records m K ∗ cred (tallyAt (dcell c (syS k)) () N) ∗ atPos ER (dcell c (syS k)) 0 ∅ 0
        ∗ owes (c : Thread nD τ) 0 W ∗ levAts L lv)
      ⊢ iprop(((owes (c : Thread nD τ) 0 (insert (SemLoc.dma (syS k), ()) W) ∗ atPos ER (dcell c (syS k)) 1 ∅ 0
              ∗ holds m c (ch sqM k) hL (SQ m c k))
            -∗ wp frame (wpE D 𝒱₀ (c : Thread nD τ) none) Set.univ (k' ⟨⟩) Q)
          -∗ wp frame (wpE D 𝒱₀ (c : Thread nD τ) none) Set.univ (.op (.waitDma2 (syS k) wsrc wdst hwsrc hwdst) k') Q) := by
  iintro ⟨#HR, Hc, Hat, HO, #Hlv⟩ Hk
  ihave #Hmw := (mayWait_zero (F := F) c (.dma (syS k))) $$ Hlv
  iapply (wait_sy m K c k wsrc wdst (hsrc := hwsrc) (hdst := hwdst) hN W 0) $$ [$HR $Hc $HO $Hmw $Hat]
  iexact Hk

theorem wsz (K : GSem nD τ sig → ℕ) (c : Dev nD) (k : Fin 8)
    (wsrc wdst : Memref sig .tc .vmem S32x512 .f32) {hwsrc : wsrc.view.WordExact} {hwdst : wdst.view.WordExact}
    (hN : wdst.view.dmaCredit = N) (W : Waits sig Unit)
    {α : Type} {Q : α → sProp 𝕄} {k' : PUnit → Prog (TpuEff nD τ sig (Elt F) Λ .tc) α} :
    iprop(records m K ∗ cred (tallyAt (dcell c (szS k)) () N) ∗ atPos ER (dcell c (szS k)) 0 ∅ 0
        ∗ owes (c : Thread nD τ) 0 W ∗ levAts L lv)
      ⊢ iprop(((owes (c : Thread nD τ) 0 (insert (SemLoc.dma (szS k), ()) W) ∗ atPos ER (dcell c (szS k)) 1 ∅ 0
              ∗ holds m c (ch sqM k) hR (SQ m c k))
            -∗ wp frame (wpE D 𝒱₀ (c : Thread nD τ) none) Set.univ (k' ⟨⟩) Q)
          -∗ wp frame (wpE D 𝒱₀ (c : Thread nD τ) none) Set.univ (.op (.waitDma2 (szS k) wsrc wdst hwsrc hwdst) k') Q) := by
  iintro ⟨#HR, Hc, Hat, HO, #Hlv⟩ Hk
  ihave #Hmw := (mayWait_zero (F := F) c (.dma (szS k))) $$ Hlv
  iapply (wait_sz m K c k wsrc wdst (hsrc := hwsrc) (hdst := hwdst) hN W 0) $$ [$HR $Hc $HO $Hmw $Hat]
  iexact Hk

theorem wsfz (K : GSem nD τ sig → ℕ) (c : Dev nD) (k : Fin 8) (hk : k.val < 3)
    (wsrc wdst : Memref sig .tc .vmem S32x512 .f32) {hwsrc : wsrc.view.WordExact} {hwdst : wdst.view.WordExact}
    (hN : wdst.view.dmaCredit = N) (W : Waits sig Unit)
    {α : Type} {Q : α → sProp 𝕄} {k' : PUnit → Prog (TpuEff nD τ sig (Elt F) Λ .tc) α} :
    iprop(records m K ∗ cred (tallyAt (dcell c (sfzS k)) () N) ∗ atPos ER (dcell c (sfzS k)) 0 ∅ 0
        ∗ owes (c : Thread nD τ) 0 W ∗ levAts L lv)
      ⊢ iprop(((owes (c : Thread nD τ) 0 (insert (SemLoc.dma (sfzS k), ()) W) ∗ atPos ER (dcell c (sfzS k)) 1 ∅ 0
              ∗ holds m c (ch ryM k) fullShare (SQ m (py c) k))
            -∗ wp frame (wpE D 𝒱₀ (c : Thread nD τ) none) Set.univ (k' ⟨⟩) Q)
          -∗ wp frame (wpE D 𝒱₀ (c : Thread nD τ) none) Set.univ (.op (.waitDma2 (sfzS k) wsrc wdst hwsrc hwdst) k') Q) := by
  iintro ⟨#HR, Hc, Hat, HO, #Hlv⟩ Hk
  ihave #Hmw := (mayWait_zero (F := F) c (.dma (sfzS k))) $$ Hlv
  iapply (wait_sfz m K c k hk wsrc wdst (hsrc := hwsrc) (hdst := hwdst) hN W 0) $$ [$HR $Hc $HO $Hmw $Hat]
  iexact Hk

theorem wsfy (K : GSem nD τ sig → ℕ) (c : Dev nD) (k : Fin 8) (hk : 3 ≤ k.val ∧ k.val < 6)
    (wsrc wdst : Memref sig .tc .vmem S32x512 .f32) {hwsrc : wsrc.view.WordExact} {hwdst : wdst.view.WordExact}
    (hN : wdst.view.dmaCredit = N) (W : Waits sig Unit)
    {α : Type} {Q : α → sProp 𝕄} {k' : PUnit → Prog (TpuEff nD τ sig (Elt F) Λ .tc) α} :
    iprop(records m K ∗ cred (tallyAt (dcell c (sfyS k)) () N) ∗ atPos ER (dcell c (sfyS k)) 0 ∅ 0
        ∗ owes (c : Thread nD τ) 0 W ∗ levAts L lv)
      ⊢ iprop(((owes (c : Thread nD τ) 0 (insert (SemLoc.dma (sfyS k), ()) W) ∗ atPos ER (dcell c (sfyS k)) 1 ∅ 0
              ∗ holds m c (ch rzM k) fullShare (SQ m (pz c) k))
            -∗ wp frame (wpE D 𝒱₀ (c : Thread nD τ) none) Set.univ (k' ⟨⟩) Q)
          -∗ wp frame (wpE D 𝒱₀ (c : Thread nD τ) none) Set.univ (.op (.waitDma2 (sfyS k) wsrc wdst hwsrc hwdst) k') Q) := by
  iintro ⟨#HR, Hc, Hat, HO, #Hlv⟩ Hk
  ihave #Hmw := (mayWait_zero (F := F) c (.dma (sfyS k))) $$ Hlv
  iapply (wait_sfy m K c k hk wsrc wdst (hsrc := hwsrc) (hdst := hwdst) hN W 0) $$ [$HR $Hc $HO $Hmw $Hat]
  iexact Hk

theorem seg5z (K : GSem nD τ sig → ℕ) (c : Dev nD) (k : Fin 8) (hk : k.val < 3)
    (offo : Fin 2 → ℕ) (hinbo : ∀ a, offo a + S32x512.size a ≤ S1024x512.size a) (hoffo : offo = ![256 * qd c + 32 * k.val, 0])
    (wsrc wdst : Memref sig .tc .vmem S32x512 .f32) {hwsrc : wsrc.view.WordExact} {hwdst : wdst.view.WordExact}
    (hN : wdst.view.dmaCredit = N) (W : Waits sig Unit) (g : (cc0_stg1_0 : Ref sig .tc).ty.Contents (Elt F))
    {hld : (rdM : Memref sig .tc .vmem S256x512 .f32).view.LoadsAt (r256 k).toLoadRect}
    {hlo : (oM : Memref sig .tc .vmem S1024x512 .f32).view.LoadsAt (Rect.unit (s := S1024x512) offo S32x512.size hinbo).toLoadRect}
    {hst : ((oM : Memref sig .tc .vmem S1024x512 .f32).access (Rect.unit (s := S1024x512) offo S32x512.size hinbo)).Stores Finset.univ}
    {hsm : (Finset.univ : Finset (Rect.unit (s := S1024x512) offo S32x512.size hinbo).shape.Idx) = Finset.univ
        ∨ ∀ a, (Rect.unit (s := S1024x512) offo S32x512.size hinbo).stride a = 1}
    {α : Type} {Q : α → sProp 𝕄} {k' : PUnit → Prog (TpuEff nD τ sig (Elt F) Λ .tc) α} :
    iprop(records m K ∗ cred (tallyAt (dcell c (rfzS k)) () N) ∗ atPos ER (dcell c (rfzS k)) 0 ∅ 0
        ∗ owes (c : Thread nD τ) 0 W ∗ levAts L lv
        ∗ ((oM : Memref sig .tc .vmem S1024x512 .f32).view.loc (c : Thread nD τ) ↦[(oM : Memref sig .tc .vmem S1024x512 .f32).view.set]{fullShare} g))
      ⊢ iprop(((owes (c : Thread nD τ) 0 (insert (SemLoc.dma (rfzS k), ()) W) ∗ atPos ER (dcell c (rfzS k)) 1 ∅ 0
              ∗ holds m c (ch rdM k) fullShare (SQ m (py (pz c)) k)
              ∗ ((oM : Memref sig .tc .vmem S1024x512 .f32).view.loc (c : Thread nD τ) ↦[(oM : Memref sig .tc .vmem S1024x512 .f32).view.set]{fullShare}
                  wr (256 * qd c + 32 * k.val) (row_le _ (qd_lt c) k) (SQ m (py (pz c)) k) g))
            -∗ wp frame (wpE D 𝒱₀ (c : Thread nD τ) none) Set.univ (k' ⟨⟩) Q)
          -∗ wp frame (wpE D 𝒱₀ (c : Thread nD τ) none) Set.univ
              (.op (.waitDma2 (rfzS k) wsrc wdst hwsrc hwdst) fun _ =>
               .op (.load (rdM : Memref sig .tc .vmem S256x512 .f32) (r256 k).toLoadRect hld) fun v =>
               .op (.load (oM : Memref sig .tc .vmem S1024x512 .f32) (Rect.unit (s := S1024x512) offo S32x512.size hinbo).toLoadRect hlo) fun _ =>
               .op (.store (oM : Memref sig .tc .vmem S1024x512 .f32) (Rect.unit (s := S1024x512) offo S32x512.size hinbo) v Finset.univ hst hsm) k') Q) := by
  subst hoffo
  unfold wr
  iintro ⟨#HR, Hc, Hat, HO, #Hlv, Hout⟩ Hk
  ihave #Hmw := (mayWait_zero (F := F) c (.dma (rfzS k))) $$ Hlv
  iapply (wait_rfz m K c k hk wsrc wdst (hsrc := hwsrc) (hdst := hwdst) hN W 0) $$ [$HR $Hc $HO $Hmw $Hat]
  iintro ⟨HO, Hat, Hh⟩
  ihave Hh := (Entails.of_eq (holds_def m c (ch rdM k) fullShare (SQ m (py (pz c)) k))) $$ Hh
  iapply (wp_load 𝒱₀ (c : Thread nD τ) none Set.univ (m := (rdM : Memref sig .tc .vmem S256x512 .f32)) (r := (r256 k).toLoadRect)
      (S := (ch rdM k).view.set) (load_subset rdM (r256 k) (fun _ => rfl))) $$ Hh; iintro Hh
  rw [load_ch]
  iapply (wp_load 𝒱₀ (c : Thread nD τ) none Set.univ (m := (oM : Memref sig .tc .vmem S1024x512 .f32))
      (S := (oM : Memref sig .tc .vmem S1024x512 .f32).view.set) (View.setOn_subset_set _ _)) $$ Hout; iintro Hout
  have hS : ((oM : Memref sig .tc .vmem S1024x512 .f32).access (Rect.unit (s := S1024x512) ![256 * qd c + 32 * k.val, 0] S32x512.size hinbo)).setOn Finset.univ
      ⊆ (oM : Memref sig .tc .vmem S1024x512 .f32).view.set := View.set_slice_subset _ _
  iapply (wp_store 𝒱₀ (c : Thread nD τ) none Set.univ (m := (oM : Memref sig .tc .vmem S1024x512 .f32))
      (r := Rect.unit (s := S1024x512) ![256 * qd c + 32 * k.val, 0] S32x512.size hinbo) (Mk := Finset.univ) hS) $$ Hout; iintro Hout
  iapply Hk
  isplitl [HO]; · iexact HO
  isplitl [Hat]; · iexact Hat
  isplitl [Hh]; · iapply (Entails.of_eq (holds_def m c (ch rdM k) fullShare (SQ m (py (pz c)) k)).symm) $$ Hh
  iexact Hout

theorem seg5y (K : GSem nD τ sig → ℕ) (c : Dev nD) (k : Fin 8) (hk : 3 ≤ k.val ∧ k.val < 6)
    (offo : Fin 2 → ℕ) (hinbo : ∀ a, offo a + S32x512.size a ≤ S1024x512.size a) (hoffo : offo = ![256 * qd c + 32 * k.val, 0])
    (wsrc wdst : Memref sig .tc .vmem S32x512 .f32) {hwsrc : wsrc.view.WordExact} {hwdst : wdst.view.WordExact}
    (hN : wdst.view.dmaCredit = N) (W : Waits sig Unit) (g : (cc0_stg1_0 : Ref sig .tc).ty.Contents (Elt F))
    {hld : (rdM : Memref sig .tc .vmem S256x512 .f32).view.LoadsAt (r256 k).toLoadRect}
    {hlo : (oM : Memref sig .tc .vmem S1024x512 .f32).view.LoadsAt (Rect.unit (s := S1024x512) offo S32x512.size hinbo).toLoadRect}
    {hst : ((oM : Memref sig .tc .vmem S1024x512 .f32).access (Rect.unit (s := S1024x512) offo S32x512.size hinbo)).Stores Finset.univ}
    {hsm : (Finset.univ : Finset (Rect.unit (s := S1024x512) offo S32x512.size hinbo).shape.Idx) = Finset.univ
        ∨ ∀ a, (Rect.unit (s := S1024x512) offo S32x512.size hinbo).stride a = 1}
    {α : Type} {Q : α → sProp 𝕄} {k' : PUnit → Prog (TpuEff nD τ sig (Elt F) Λ .tc) α} :
    iprop(records m K ∗ cred (tallyAt (dcell c (rfyS k)) () N) ∗ atPos ER (dcell c (rfyS k)) 0 ∅ 0
        ∗ owes (c : Thread nD τ) 0 W ∗ levAts L lv
        ∗ ((oM : Memref sig .tc .vmem S1024x512 .f32).view.loc (c : Thread nD τ) ↦[(oM : Memref sig .tc .vmem S1024x512 .f32).view.set]{fullShare} g))
      ⊢ iprop(((owes (c : Thread nD τ) 0 (insert (SemLoc.dma (rfyS k), ()) W) ∗ atPos ER (dcell c (rfyS k)) 1 ∅ 0
              ∗ holds m c (ch rdM k) fullShare (SQ m (py (pz c)) k)
              ∗ ((oM : Memref sig .tc .vmem S1024x512 .f32).view.loc (c : Thread nD τ) ↦[(oM : Memref sig .tc .vmem S1024x512 .f32).view.set]{fullShare}
                  wr (256 * qd c + 32 * k.val) (row_le _ (qd_lt c) k) (SQ m (py (pz c)) k) g))
            -∗ wp frame (wpE D 𝒱₀ (c : Thread nD τ) none) Set.univ (k' ⟨⟩) Q)
          -∗ wp frame (wpE D 𝒱₀ (c : Thread nD τ) none) Set.univ
              (.op (.waitDma2 (rfyS k) wsrc wdst hwsrc hwdst) fun _ =>
               .op (.load (rdM : Memref sig .tc .vmem S256x512 .f32) (r256 k).toLoadRect hld) fun v =>
               .op (.load (oM : Memref sig .tc .vmem S1024x512 .f32) (Rect.unit (s := S1024x512) offo S32x512.size hinbo).toLoadRect hlo) fun _ =>
               .op (.store (oM : Memref sig .tc .vmem S1024x512 .f32) (Rect.unit (s := S1024x512) offo S32x512.size hinbo) v Finset.univ hst hsm) k') Q) := by
  subst hoffo
  unfold wr
  iintro ⟨#HR, Hc, Hat, HO, #Hlv, Hout⟩ Hk
  ihave #Hmw := (mayWait_zero (F := F) c (.dma (rfyS k))) $$ Hlv
  iapply (wait_rfy m K c k hk wsrc wdst (hsrc := hwsrc) (hdst := hwdst) hN W 0) $$ [$HR $Hc $HO $Hmw $Hat]
  iintro ⟨HO, Hat, Hh⟩
  ihave Hh := (Entails.of_eq (holds_def m c (ch rdM k) fullShare (SQ m (py (pz c)) k))) $$ Hh
  iapply (wp_load 𝒱₀ (c : Thread nD τ) none Set.univ (m := (rdM : Memref sig .tc .vmem S256x512 .f32)) (r := (r256 k).toLoadRect)
      (S := (ch rdM k).view.set) (load_subset rdM (r256 k) (fun _ => rfl))) $$ Hh; iintro Hh
  rw [load_ch]
  iapply (wp_load 𝒱₀ (c : Thread nD τ) none Set.univ (m := (oM : Memref sig .tc .vmem S1024x512 .f32))
      (S := (oM : Memref sig .tc .vmem S1024x512 .f32).view.set) (View.setOn_subset_set _ _)) $$ Hout; iintro Hout
  have hS : ((oM : Memref sig .tc .vmem S1024x512 .f32).access (Rect.unit (s := S1024x512) ![256 * qd c + 32 * k.val, 0] S32x512.size hinbo)).setOn Finset.univ
      ⊆ (oM : Memref sig .tc .vmem S1024x512 .f32).view.set := View.set_slice_subset _ _
  iapply (wp_store 𝒱₀ (c : Thread nD τ) none Set.univ (m := (oM : Memref sig .tc .vmem S1024x512 .f32))
      (r := Rect.unit (s := S1024x512) ![256 * qd c + 32 * k.val, 0] S32x512.size hinbo) (Mk := Finset.univ) hS) $$ Hout; iintro Hout
  iapply Hk
  isplitl [HO]; · iexact HO
  isplitl [Hat]; · iexact Hat
  isplitl [Hh]; · iapply (Entails.of_eq (holds_def m c (ch rdM k) fullShare (SQ m (py (pz c)) k)).symm) $$ Hh
  iexact Hout

theorem seg4 (K : GSem nD τ sig → ℕ) (c : Dev nD) (j : Fin 2)
    (offx offo : Fin 2 → ℕ)
    (hinbx : ∀ a, offx a + S32x512.size a ≤ S1024x512.size a) (hinbo : ∀ a, offo a + S32x512.size a ≤ S1024x512.size a)
    (hoffx : offx = ![256 * qd c + 192 + 32 * j.val, 0]) (hoffo : offo = ![256 * qd c + 192 + 32 * j.val, 0])
    (gO : Vec F S32x512 .f32 → Vec F S32x512 .f32 → Vec F S32x512 .f32) (hgO : ∀ a b, gO a b = addf a b)
    (wsrc wdst : Memref sig .tc .vmem S32x512 .f32) {hwsrc : wsrc.view.WordExact} {hwdst : wdst.view.WordExact}
    (hN : wdst.view.dmaCredit = N) (W : Waits sig Unit) (g : (cc0_stg1_0 : Ref sig .tc).ty.Contents (Elt F))
    {hlx : (xM : Memref sig .tc .vmem S1024x512 .f32).view.LoadsAt (Rect.unit (s := S1024x512) offx S32x512.size hinbx).toLoadRect}
    {hlc : (cdM : Memref sig .tc .vmem S64x512 .f32).view.LoadsAt (r64 j).toLoadRect}
    {hlo : (oM : Memref sig .tc .vmem S1024x512 .f32).view.LoadsAt (Rect.unit (s := S1024x512) offo S32x512.size hinbo).toLoadRect}
    {hst : ((oM : Memref sig .tc .vmem S1024x512 .f32).access (Rect.unit (s := S1024x512) offo S32x512.size hinbo)).Stores Finset.univ}
    {hsm : (Finset.univ : Finset (Rect.unit (s := S1024x512) offo S32x512.size hinbo).shape.Idx) = Finset.univ
        ∨ ∀ a, (Rect.unit (s := S1024x512) offo S32x512.size hinbo).stride a = 1}
    {α : Type} {Q : α → sProp 𝕄} {k' : PUnit → Prog (TpuEff nD τ sig (Elt F) Λ .tc) α} :
    iprop(records m K ∗ cred (tallyAt (dcell c (rxS (jx j))) () N) ∗ atPos ER (dcell c (rxS (jx j))) 0 ∅ 0
        ∗ owes (c : Thread nD τ) 0 W ∗ levAts L lv
        ∗ ((xM : Memref sig .tc .vmem S1024x512 .f32).view.loc (c : Thread nD τ) ↦[(xM : Memref sig .tc .vmem S1024x512 .f32).view.set]{hR} xb m c)
        ∗ ((oM : Memref sig .tc .vmem S1024x512 .f32).view.loc (c : Thread nD τ) ↦[(oM : Memref sig .tc .vmem S1024x512 .f32).view.set]{fullShare} g))
      ⊢ iprop(((owes (c : Thread nD τ) 0 (insert (SemLoc.dma (rxS (jx j)), ()) W) ∗ atPos ER (dcell c (rxS (jx j))) 1 ∅ 0
              ∗ holds m c (xdst (jx j)) fullShare (X m (px c) (xrow c (jx j)) (xrow_le c (jx j)))
              ∗ ((xM : Memref sig .tc .vmem S1024x512 .f32).view.loc (c : Thread nD τ) ↦[(xM : Memref sig .tc .vmem S1024x512 .f32).view.set]{hR} xb m c)
              ∗ ((oM : Memref sig .tc .vmem S1024x512 .f32).view.loc (c : Thread nD τ) ↦[(oM : Memref sig .tc .vmem S1024x512 .f32).view.set]{fullShare}
                  wr (256 * qd c + 192 + 32 * j.val) (row4_le c j) (R m c (256 * qd c + 192 + 32 * j.val) (row4_le c j)) g))
            -∗ wp frame (wpE D 𝒱₀ (c : Thread nD τ) none) Set.univ (k' ⟨⟩) Q)
          -∗ wp frame (wpE D 𝒱₀ (c : Thread nD τ) none) Set.univ
              (.op (.waitDma2 (rxS (jx j)) wsrc wdst hwsrc hwdst) fun _ =>
               .op (.load (xM : Memref sig .tc .vmem S1024x512 .f32) (Rect.unit (s := S1024x512) offx S32x512.size hinbx).toLoadRect hlx) fun vx =>
               .op (.load (cdM : Memref sig .tc .vmem S64x512 .f32) (r64 j).toLoadRect hlc) fun vc =>
               .op (.load (oM : Memref sig .tc .vmem S1024x512 .f32) (Rect.unit (s := S1024x512) offo S32x512.size hinbo).toLoadRect hlo) fun _ =>
               .op (.store (oM : Memref sig .tc .vmem S1024x512 .f32) (Rect.unit (s := S1024x512) offo S32x512.size hinbo) (gO vx vc) Finset.univ hst hsm) k') Q) := by
  subst hoffx hoffo
  have hval : R m c (256 * qd c + 192 + 32 * j.val) (row4_le c j)
      = gO (X m c (256 * qd c + 192 + 32 * j.val) (row4_le c j)) (X m (px c) (xrow c (jx j)) (xrow_le c (jx j))) := by
    rw [hgO, X_congr m (px c) (xrow_jx c j) (xrow_le c (jx j)) (row4_le c j)]; rfl
  have hh : holds m c (xdst (jx j)) fullShare (X m (px c) (xrow c (jx j)) (xrow_le c (jx j)))
      = ((ch64 j).view.loc (c : Thread nD τ) ↦[(ch64 j).view.set]{fullShare}
          canon m c (ch64 j) (X m (px c) (xrow c (jx j)) (xrow_le c (jx j))) : sProp 𝕄) := by
    rw [xdst_jx]; rfl
  rw [hval]
  unfold wr
  iintro ⟨#HR, Hc, Hat, HO, #Hlv, Hx, Hout⟩ Hk
  ihave #Hmw := (mayWait_zero (F := F) c (.dma (rxS (jx j)))) $$ Hlv
  iapply (wait_rx m K c (jx j) wsrc wdst (hsrc := hwsrc) (hdst := hwdst) hN W 0) $$ [$HR $Hc $HO $Hmw $Hat]
  iintro ⟨HO, Hat, Hh⟩
  iapply (wp_load 𝒱₀ (c : Thread nD τ) none Set.univ (m := (xM : Memref sig .tc .vmem S1024x512 .f32))
      (S := (xM : Memref sig .tc .vmem S1024x512 .f32).view.set) (View.setOn_subset_set _ _)) $$ Hx; iintro Hx
  rw [load_x m c (256 * qd c + 192 + 32 * j.val) (row4_le c j)]
  ihave Hh := (Entails.of_eq hh) $$ Hh
  iapply (wp_load 𝒱₀ (c : Thread nD τ) none Set.univ (m := (cdM : Memref sig .tc .vmem S64x512 .f32)) (r := (r64 j).toLoadRect)
      (S := (ch64 j).view.set) (load_subset cdM (r64 j) (fun _ => rfl))) $$ Hh; iintro Hh
  rw [load_ch64]
  iapply (wp_load 𝒱₀ (c : Thread nD τ) none Set.univ (m := (oM : Memref sig .tc .vmem S1024x512 .f32))
      (S := (oM : Memref sig .tc .vmem S1024x512 .f32).view.set) (View.setOn_subset_set _ _)) $$ Hout; iintro Hout
  have hS : ((oM : Memref sig .tc .vmem S1024x512 .f32).access (Rect.unit (s := S1024x512) ![256 * qd c + 192 + 32 * j.val, 0] S32x512.size hinbo)).setOn Finset.univ
      ⊆ (oM : Memref sig .tc .vmem S1024x512 .f32).view.set := View.set_slice_subset _ _
  iapply (wp_store 𝒱₀ (c : Thread nD τ) none Set.univ (m := (oM : Memref sig .tc .vmem S1024x512 .f32))
      (r := Rect.unit (s := S1024x512) ![256 * qd c + 192 + 32 * j.val, 0] S32x512.size hinbo) (Mk := Finset.univ) hS) $$ Hout; iintro Hout
  iapply Hk
  isplitl [HO]; · iexact HO
  isplitl [Hat]; · iexact Hat
  isplitl [Hh]; · iapply (Entails.of_eq hh.symm) $$ Hh
  isplitl [Hx]; · iexact Hx
  iexact Hout

end Cert.KernelIdeal.AR
end
-- ==== Proof.ViewLemmas3.lean ====
import proofs.«900722_g7700000000000723_dist_ar_v7x_xyz2x4x4_x_m1024_n512_f32_1_alg».proof.Proof.ViewLemmas

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A whole buffer held outright is the points-to over its whole view: the view's elements are all of them. -/
theorem whole_pts (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [View.set_whole]

def someFrom256 (c : Dev nD) (M : Memref sig .tc .vmem S256x512 .f32) (lo : ℕ) : sProp 𝕄 :=
  iprop(∃ f : Buf (Elt F) (M.view.loc (c : Thread nD τ)),
    M.view.loc (c : Thread nD τ) ↦[M.view.setOn (rowsFrom256 lo)]{fullShare} f)

theorem join_tail256 (c : Dev nD) (M : Memref sig .tc .vmem S256x512 .f32)
    (g : Buf (Elt F) (M.view.loc (c : Thread nD τ))) (k : Fin 8) {lo hi : ℕ} (hlo : lo = 32 * k.val) (hhi : hi = lo + 32) :
    iprop(((ch M k).view.loc (c : Thread nD τ) ↦[(ch M k).view.set]{fullShare} g) ∗ someFrom256 (F := F) c M hi)
      ⊢ someFrom256 (F := F) c M lo := by
  have e1 : (ch M k).view.set = M.view.setOn (r256 k).set := View.set_slice M.view _
  have e2 : M.view.setOn (rowsFrom256 lo) = M.view.setOn (r256 k).set ∪ M.view.setOn (rowsFrom256 hi) := by
    rw [rowsFrom256_step k hlo hhi]; exact Finset.map_union _ _
  have hd : Disjoint (M.view.setOn (r256 k).set) (M.view.setOn (rowsFrom256 hi)) :=
    (Finset.disjoint_map _).mpr (rowsFrom256_disjoint k hlo hhi)
  have key : ∀ f : Buf (Elt F) (M.view.loc (c : Thread nD τ)),
      iprop(((ch M k).view.loc (c : Thread nD τ) ↦[(ch M k).view.set]{fullShare} g)
          ∗ (M.view.loc (c : Thread nD τ) ↦[M.view.setOn (rowsFrom256 hi)]{fullShare} f))
        ⊢ (M.view.loc (c : Thread nD τ) ↦[M.view.setOn (rowsFrom256 lo)]{fullShare}
            ((M.view.setOn (rowsFrom256 hi)).piecewise f g) : sProp 𝕄) := by
    intro f
    rw [e2, e1]
    exact pointsTo_join (Val := Elt F) (Ix := Unit) (Name := ℕ) (U := UU) (Lvl := ℕ) hd
  unfold someFrom256
  iintro ⟨Hk, ⟨%f, Hf⟩⟩
  iexists ((M.view.setOn (rowsFrom256 hi)).piecewise f g)
  iapply (key f)
  isplitl [Hk]
  · iexact Hk
  · iexact Hf

theorem last256 (c : Dev nD) (M : Memref sig .tc .vmem S256x512 .f32) (g : Buf (Elt F) (M.view.loc (c : Thread nD τ))) :
    ((ch M 7).view.loc (c : Thread nD τ) ↦[(ch M 7).view.set]{fullShare} g : sProp 𝕄) ⊢ someFrom256 (F := F) c M 224 := by
  have e : (M.view.loc (c : Thread nD τ) ↦[M.view.setOn (rowsFrom256 224)]{fullShare} g : sProp 𝕄)
      = iprop(((ch M 7).view.loc (c : Thread nD τ) ↦[(ch M 7).view.set]{fullShare} g) ∗ emp) := by
    have e8 : (M.view.loc (c : Thread nD τ) ↦[M.view.setOn (rowsFrom256 256)]{fullShare} g : sProp 𝕄) = iprop(emp) := by
      rw [rowsFrom256_end]; exact pointsTo_empty
    rw [tail256 c M fullShare g 7 (lo := 224) (hi := 256) rfl rfl, e8]
  unfold someFrom256
  iintro H
  iexists g
  rw [e]
  iapply (sep_emp (PROP := sProp 𝕄)).2
  iexact H

theorem join8_ex (c : Dev nD) (M : Memref sig .tc .vmem S256x512 .f32)
    (f0 f1 f2 f3 f4 f5 f6 f7 : Buf (Elt F) (M.view.loc (c : Thread nD τ))) :
    iprop(((ch M 0).view.loc (c : Thread nD τ) ↦[(ch M 0).view.set]{fullShare} f0)
        ∗ ((ch M 1).view.loc (c : Thread nD τ) ↦[(ch M 1).view.set]{fullShare} f1)
        ∗ ((ch M 2).view.loc (c : Thread nD τ) ↦[(ch M 2).view.set]{fullShare} f2)
        ∗ ((ch M 3).view.loc (c : Thread nD τ) ↦[(ch M 3).view.set]{fullShare} f3)
        ∗ ((ch M 4).view.loc (c : Thread nD τ) ↦[(ch M 4).view.set]{fullShare} f4)
        ∗ ((ch M 5).view.loc (c : Thread nD τ) ↦[(ch M 5).view.set]{fullShare} f5)
        ∗ ((ch M 6).view.loc (c : Thread nD τ) ↦[(ch M 6).view.set]{fullShare} f6)
        ∗ ((ch M 7).view.loc (c : Thread nD τ) ↦[(ch M 7).view.set]{fullShare} f7))
      ⊢ (iprop(∃ f : Buf (Elt F) (M.view.loc (c : Thread nD τ)),
            M.view.loc (c : Thread nD τ) ↦[M.view.set]{fullShare} f) : sProp 𝕄) := by
  have e0 : M.view.set = M.view.setOn (rowsFrom256 0) := by rw [rowsFrom256_zero]; rfl
  have fin : someFrom256 (F := F) c M 0
      ⊢ (iprop(∃ f : Buf (Elt F) (M.view.loc (c : Thread nD τ)),
            M.view.loc (c : Thread nD τ) ↦[M.view.set]{fullShare} f) : sProp 𝕄) := by
    unfold someFrom256; rw [← e0]
  refine BIBase.Entails.trans ?_ fin
  iintro ⟨H0, H1, H2, H3, H4, H5, H6, H7⟩
  iapply (join_tail256 c M f0 0 (lo := 0) (hi := 32) rfl rfl)
  isplitl [H0]; · iexact H0
  iapply (join_tail256 c M f1 1 (lo := 32) (hi := 64) rfl rfl)
  isplitl [H1]; · iexact H1
  iapply (join_tail256 c M f2 2 (lo := 64) (hi := 96) rfl rfl)
  isplitl [H2]; · iexact H2
  iapply (join_tail256 c M f3 3 (lo := 96) (hi := 128) rfl rfl)
  isplitl [H3]; · iexact H3
  iapply (join_tail256 c M f4 4 (lo := 128) (hi := 160) rfl rfl)
  isplitl [H4]; · iexact H4
  iapply (join_tail256 c M f5 5 (lo := 160) (hi := 192) rfl rfl)
  isplitl [H5]; · iexact H5
  iapply (join_tail256 c M f6 6 (lo := 192) (hi := 224) rfl rfl)
  isplitl [H6]; · iexact H6
  iapply (last256 c M f7)
  iexact H7

theorem join8_whole (c : Dev nD) (M : Memref sig .tc .vmem S256x512 .f32) (hM : M.IsWhole)
    (f0 f1 f2 f3 f4 f5 f6 f7 : Buf (Elt F) (M.view.loc (c : Thread nD τ))) :
    iprop(((ch M 0).view.loc (c : Thread nD τ) ↦[(ch M 0).view.set]{fullShare} f0)
        ∗ ((ch M 1).view.loc (c : Thread nD τ) ↦[(ch M 1).view.set]{fullShare} f1)
        ∗ ((ch M 2).view.loc (c : Thread nD τ) ↦[(ch M 2).view.set]{fullShare} f2)
        ∗ ((ch M 3).view.loc (c : Thread nD τ) ↦[(ch M 3).view.set]{fullShare} f3)
        ∗ ((ch M 4).view.loc (c : Thread nD τ) ↦[(ch M 4).view.set]{fullShare} f4)
        ∗ ((ch M 5).view.loc (c : Thread nD τ) ↦[(ch M 5).view.set]{fullShare} f5)
        ∗ ((ch M 6).view.loc (c : Thread nD τ) ↦[(ch M 6).view.set]{fullShare} f6)
        ∗ ((ch M 7).view.loc (c : Thread nD τ) ↦[(ch M 7).view.set]{fullShare} f7))
      ⊢ (iprop(∃ f : Buf (Elt F) (M.view.loc (c : Thread nD τ)), M.view.loc (c : Thread nD τ) ↦{fullShare} f) : sProp 𝕄) := by
  have h := join8_ex (F := F) c M f0 f1 f2 f3 f4 f5 f6 f7
  rw [hM.set_eq_univ] at h
  exact h

def someFrom64 (c : Dev nD) (lo : ℕ) : sProp 𝕄 :=
  iprop(∃ f : Buf (Elt F) ((cdM : Memref sig .tc .vmem S64x512 .f32).view.loc (c : Thread nD τ)),
    (cdM : Memref sig .tc .vmem S64x512 .f32).view.loc (c : Thread nD τ)
      ↦[(cdM : Memref sig .tc .vmem S64x512 .f32).view.setOn (rowsFrom64 lo)]{fullShare} f)

theorem join_tail64 (c : Dev nD) (g : Buf (Elt F) ((cdM : Memref sig .tc .vmem S64x512 .f32).view.loc (c : Thread nD τ)))
    (j : Fin 2) {lo hi : ℕ} (hlo : lo = 32 * j.val) (hhi : hi = lo + 32) :
    iprop(((ch64 j).view.loc (c : Thread nD τ) ↦[(ch64 j).view.set]{fullShare} g) ∗ someFrom64 (F := F) c hi)
      ⊢ someFrom64 (F := F) c lo := by
  have e1 : (ch64 j).view.set = (cdM : Memref sig .tc .vmem S64x512 .f32).view.setOn (r64 j).set := View.set_slice _ _
  have e2 : (cdM : Memref sig .tc .vmem S64x512 .f32).view.setOn (rowsFrom64 lo)
      = (cdM : Memref sig .tc .vmem S64x512 .f32).view.setOn (r64 j).set
        ∪ (cdM : Memref sig .tc .vmem S64x512 .f32).view.setOn (rowsFrom64 hi) := by
    rw [rowsFrom64_step j hlo hhi]; exact Finset.map_union _ _
  have hd : Disjoint ((cdM : Memref sig .tc .vmem S64x512 .f32).view.setOn (r64 j).set)
      ((cdM : Memref sig .tc .vmem S64x512 .f32).view.setOn (rowsFrom64 hi)) :=
    (Finset.disjoint_map _).mpr (rowsFrom64_disjoint j hlo hhi)
  have key : ∀ f : Buf (Elt F) ((cdM : Memref sig .tc .vmem S64x512 .f32).view.loc (c : Thread nD τ)),
      iprop(((ch64 j).view.loc (c : Thread nD τ) ↦[(ch64 j).view.set]{fullShare} g)
          ∗ ((cdM : Memref sig .tc .vmem S64x512 .f32).view.loc (c : Thread nD τ)
              ↦[(cdM : Memref sig .tc .vmem S64x512 .f32).view.setOn (rowsFrom64 hi)]{fullShare} f))
        ⊢ ((cdM : Memref sig .tc .vmem S64x512 .f32).view.loc (c : Thread nD τ)
            ↦[(cdM : Memref sig .tc .vmem S64x512 .f32).view.setOn (rowsFrom64 lo)]{fullShare}
            (((cdM : Memref sig .tc .vmem S64x512 .f32).view.setOn (rowsFrom64 hi)).piecewise f g) : sProp 𝕄) := by
    intro f
    rw [e2, e1]
    exact pointsTo_join (Val := Elt F) (Ix := Unit) (Name := ℕ) (U := UU) (Lvl := ℕ) hd
  unfold someFrom64
  iintro ⟨Hk, ⟨%f, Hf⟩⟩
  iexists (((cdM : Memref sig .tc .vmem S64x512 .f32).view.setOn (rowsFrom64 hi)).piecewise f g)
  iapply (key f)
  isplitl [Hk]
  · iexact Hk
  · iexact Hf

theorem last64 (c : Dev nD) (g : Buf (Elt F) ((cdM : Memref sig .tc .vmem S64x512 .f32).view.loc (c : Thread nD τ))) :
    ((ch64 1).view.loc (c : Thread nD τ) ↦[(ch64 1).view.set]{fullShare} g : sProp 𝕄) ⊢ someFrom64 (F := F) c 32 := by
  have e : ((cdM : Memref sig .tc .vmem S64x512 .f32).view.loc (c : Thread nD τ)
        ↦[(cdM : Memref sig .tc .vmem S64x512 .f32).view.setOn (rowsFrom64 32)]{fullShare} g : sProp 𝕄)
      = iprop(((ch64 1).view.loc (c : Thread nD τ) ↦[(ch64 1).view.set]{fullShare} g) ∗ emp) := by
    have e2 : ((cdM : Memref sig .tc .vmem S64x512 .f32).view.loc (c : Thread nD τ)
        ↦[(cdM : Memref sig .tc .vmem S64x512 .f32).view.setOn (rowsFrom64 64)]{fullShare} g : sProp 𝕄) = iprop(emp) := by
      rw [rowsFrom64_end]; exact pointsTo_empty
    rw [tail64 c fullShare g 1 (lo := 32) (hi := 64) rfl rfl, e2]
  unfold someFrom64
  iintro H
  iexists g
  rw [e]
  iapply (sep_emp (PROP := sProp 𝕄)).2
  iexact H

theorem join2_ex (c : Dev nD) (f0 f1 : Buf (Elt F) ((cdM : Memref sig .tc .vmem S64x512 .f32).view.loc (c : Thread nD τ))) :
    iprop(((ch64 0).view.loc (c : Thread nD τ) ↦[(ch64 0).view.set]{fullShare} f0)
        ∗ ((ch64 1).view.loc (c : Thread nD τ) ↦[(ch64 1).view.set]{fullShare} f1))
      ⊢ (iprop(∃ f : Buf (Elt F) ((cdM : Memref sig .tc .vmem S64x512 .f32).view.loc (c : Thread nD τ)),
            (cdM : Memref sig .tc .vmem S64x512 .f32).view.loc (c : Thread nD τ)
              ↦[(cdM : Memref sig .tc .vmem S64x512 .f32).view.set]{fullShare} f) : sProp 𝕄) := by
  have e0 : (cdM : Memref sig .tc .vmem S64x512 .f32).view.set
      = (cdM : Memref sig .tc .vmem S64x512 .f32).view.setOn (rowsFrom64 0) := by rw [rowsFrom64_zero]; rfl
  have fin : someFrom64 (F := F) c 0
      ⊢ (iprop(∃ f : Buf (Elt F) ((cdM : Memref sig .tc .vmem S64x512 .f32).view.loc (c : Thread nD τ)),
            (cdM : Memref sig .tc .vmem S64x512 .f32).view.loc (c : Thread nD τ)
              ↦[(cdM : Memref sig .tc .vmem S64x512 .f32).view.set]{fullShare} f) : sProp 𝕄) := by
    unfold someFrom64; rw [← e0]
  refine BIBase.Entails.trans ?_ fin
  iintro ⟨H0, H1⟩
  iapply (join_tail64 c f0 0 (lo := 0) (hi := 32) rfl rfl)
  isplitl [H0]; · iexact H0
  iapply (last64 c f1)
  iexact H1

theorem join2_whole (c : Dev nD) (f0 f1 : Buf (Elt F) ((cdM : Memref sig .tc .vmem S64x512 .f32).view.loc (c : Thread nD τ))) :
    iprop(((ch64 0).view.loc (c : Thread nD τ) ↦[(ch64 0).view.set]{fullShare} f0)
        ∗ ((ch64 1).view.loc (c : Thread nD τ) ↦[(ch64 1).view.set]{fullShare} f1))
      ⊢ (iprop(∃ f : Buf (Elt F) ((cdM : Memref sig .tc .vmem S64x512 .f32).view.loc (c : Thread nD τ)),
            (cdM : Memref sig .tc .vmem S64x512 .f32).view.loc (c : Thread nD τ) ↦{fullShare} f) : sProp 𝕄) := by
  have h := join2_ex (F := F) c f0 f1
  rw [(Memref.isWhole_whole cc0_scratch1).set_eq_univ] at h
  exact h

example (c : Dev nD) (f0 f1 f2 f3 f4 f5 f6 f7 : Buf (Elt F) ((c : Thread nD τ).loc cc0_scratch0)) :
    iprop(((ch cxM 0).view.loc (c : Thread nD τ) ↦[(ch cxM 0).view.set]{fullShare} f0)
        ∗ ((ch cxM 1).view.loc (c : Thread nD τ) ↦[(ch cxM 1).view.set]{fullShare} f1)
        ∗ ((ch cxM 2).view.loc (c : Thread nD τ) ↦[(ch cxM 2).view.set]{fullShare} f2)
        ∗ ((ch cxM 3).view.loc (c : Thread nD τ) ↦[(ch cxM 3).view.set]{fullShare} f3)
        ∗ ((ch cxM 4).view.loc (c : Thread nD τ) ↦[(ch cxM 4).view.set]{fullShare} f4)
        ∗ ((ch cxM 5).view.loc (c : Thread nD τ) ↦[(ch cxM 5).view.set]{fullShare} f5)
        ∗ ((ch cxM 6).view.loc (c : Thread nD τ) ↦[(ch cxM 6).view.set]{fullShare} f6)
        ∗ ((ch cxM 7).view.loc (c : Thread nD τ) ↦[(ch cxM 7).view.set]{fullShare} f7))
      ⊢ (iprop(∃ f : Buf (Elt F) ((c : Thread nD τ).loc cc0_scratch0), ((c : Thread nD τ).loc cc0_scratch0) ↦{fullShare} f) : sProp 𝕄) :=
  join8_whole c cxM (Memref.isWhole_whole _) f0 f1 f2 f3 f4 f5 f6 f7

example (c : Dev nD) (f0 f1 : Buf (Elt F) ((c : Thread nD τ).loc cc0_scratch1)) :
    iprop(((ch64 0).view.loc (c : Thread nD τ) ↦[(ch64 0).view.set]{fullShare} f0)
        ∗ ((ch64 1).view.loc (c : Thread nD τ) ↦[(ch64 1).view.set]{fullShare} f1))
      ⊢ (iprop(∃ f : Buf (Elt F) ((c : Thread nD τ).loc cc0_scratch1), ((c : Thread nD τ).loc cc0_scratch1) ↦{fullShare} f) : sProp 𝕄) :=
  join2_whole c f0 f1

end Cert.KernelIdeal.AR
-- ==== Proof.CloseCells.lean ====
import proofs.«900722_g7700000000000723_dist_ar_v7x_xyz2x4x4_x_m1024_n512_f32_1_alg».proof.Proof.Tables
import Idealize.SL.ProofMode.BigOp

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem cells_close {I : Type} (S : Finset I) (g : I → GSem nD τ sig) (κ : I → ℕ) (R : I → ℕ) {Es : Set ℕ}
    (hE : ∀ i ∈ S, κ i ∈ Es) (hR : ∀ i ∈ S, ∀ r, R i ≤ r → (arRd (F := F) m).duties (g i) r = ∅) :
    bigSep S (fun i => iprop(Rounds.cellInv (ER (F := F)) (arRd m) (κ i) (g i) ∗ Rounds.atPos (ER (F := F)) (g i) (R i) ∅ 0))
      ⊢ (iprop(|={Es}=> bigSep S fun i => semVal (g i) 0) : sProp 𝕄) :=
  (bigSep_mono fun i hi => Rounds.cell_close (ER (F := F)) (arRd m) (hE i hi) (fun h => h) (hR i hi)).trans (bigSep_fupd _ _)

def endRound (s : DmaSem sig) : ℕ := if used (decodeDma s.val) = true then 1 else 0

theorem no_duty_from_endRound (c : Dev nD) (s : DmaSem sig) :
    ∀ r, endRound s ≤ r → (arRd (F := F) m).duties (dcell c s) r = ∅ := by
  intro r hr
  unfold endRound at hr
  by_cases h : used (decodeDma s.val) = true
  · rw [if_pos h] at hr; exact duties_later m (dcell c s) r hr
  · exact duties_dma_unused m c s (by simpa using h) r

theorem dma_cells_close (c : Dev nD) (S : Finset (DmaSem sig)) (κ : DmaSem sig → ℕ) {Es : Set ℕ} (hE : ∀ s ∈ S, κ s ∈ Es) :
    bigSep S (fun s => iprop(Rounds.cellInv (ER (F := F)) (arRd m) (κ s) (dcell c s)
        ∗ Rounds.atPos (ER (F := F)) (dcell c s) (endRound s) ∅ 0))
      ⊢ (iprop(|={Es}=> bigSep S fun s => semVal (dcell c s) 0) : sProp 𝕄) :=
  cells_close m S (fun s => dcell c s) κ endRound hE fun s _ => no_duty_from_endRound m c s

end Cert.KernelIdeal.AR

end
-- ==== Proof.Close.lean ====
import proofs.«900722_g7700000000000723_dist_ar_v7x_xyz2x4x4_x_m1024_n512_f32_1_alg».proof.Proof.Reindex
import proofs.«900722_g7700000000000723_dist_ar_v7x_xyz2x4x4_x_m1024_n512_f32_1_alg».proof.Proof.Records
import proofs.«900722_g7700000000000723_dist_ar_v7x_xyz2x4x4_x_m1024_n512_f32_1_alg».proof.Proof.CloseCells
import proofs.«900722_g7700000000000723_dist_ar_v7x_xyz2x4x4_x_m1024_n512_f32_1_alg».proof.Proof.Tables

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def endZ (k : Fin 8) : ℕ := if k.val < 3 then 1 else 0

def endY (k : Fin 8) : ℕ := if 3 ≤ k.val ∧ k.val < 6 then 1 else 0

theorem endRound_sx (j : Fin 10) : endRound (sxS j) = 1 := by revert j; decide
theorem endRound_rx (j : Fin 10) : endRound (rxS j) = 1 := by revert j; decide
theorem endRound_sy (k : Fin 8) : endRound (syS k) = 1 := by revert k; decide
theorem endRound_ry (k : Fin 8) : endRound (ryS k) = 1 := by revert k; decide
theorem endRound_sz (k : Fin 8) : endRound (szS k) = 1 := by revert k; decide
theorem endRound_rz (k : Fin 8) : endRound (rzS k) = 1 := by revert k; decide
theorem endRound_sfy (k : Fin 8) : endRound (sfyS k) = endY k := by revert k; decide
theorem endRound_rfy (k : Fin 8) : endRound (rfyS k) = endY k := by revert k; decide
theorem endRound_sfz (k : Fin 8) : endRound (sfzS k) = endZ k := by revert k; decide
theorem endRound_rfz (k : Fin 8) : endRound (rfzS k) = endZ k := by revert k; decide

def possEnd (c : Dev nD) : sProp 𝕄 :=
  iprop((bigSep Finset.univ fun j : Fin 10 => iprop(atPos ER (dcell c (sxS j)) 1 ∅ 0 ∗ atPos ER (dcell c (rxS j)) 1 ∅ 0))
    ∗ (bigSep Finset.univ fun k : Fin 8 => iprop(atPos ER (dcell c (syS k)) 1 ∅ 0 ∗ atPos ER (dcell c (ryS k)) 1 ∅ 0
        ∗ atPos ER (dcell c (szS k)) 1 ∅ 0 ∗ atPos ER (dcell c (rzS k)) 1 ∅ 0))
    ∗ (bigSep Finset.univ fun k : Fin 8 => iprop(atPos ER (dcell c (sfyS k)) (endY k) ∅ 0 ∗ atPos ER (dcell c (rfyS k)) (endY k) ∅ 0
        ∗ atPos ER (dcell c (sfzS k)) (endZ k) ∅ 0 ∗ atPos ER (dcell c (rfzS k)) (endZ k) ∅ 0)))

theorem possEnd_split (c : Dev nD) :
    (possEnd c : sProp 𝕄) = bigSep Finset.univ fun s : Fin 84 => atPos ER (dcell c (dsem s)) (endRound (dsem s)) ∅ 0 := by
  rw [split84 (fun s => (atPos ER (dcell c s) (endRound s) ∅ 0 : sProp 𝕄))]
  simp only [endRound_sx, endRound_rx, endRound_sy, endRound_ry, endRound_sz, endRound_rz, endRound_sfy, endRound_rfy,
    endRound_sfz, endRound_rfz]
  rfl

theorem recs_dma (K : GSem nD τ sig → ℕ) (c : Dev nD) :
    records m K ⊢ bigSep Finset.univ fun s : Fin 84 => cellInv ER (arRd m) (K (dcell c (dsem s))) (dcell c (dsem s)) :=
  BI.bigSep_intro_persistent fun s _ =>
    (rec_dma m K c (dsem s) (by show 2 ≤ s.val + 2; omega)).trans (by iintro ⟨H, -⟩; iexact H)

theorem close_all (K : GSem nD τ sig → ℕ) (c : Dev nD) :
    iprop(records m K ∗ possEnd c) ⊢ iprop(|={Set.univ}=> bigSep Finset.univ fun s : Fin 84 => semVal (dcell c (dsem s)) 0) := by
  rw [possEnd_split]
  have h : iprop(records m K ∗ bigSep Finset.univ fun s : Fin 84 => atPos ER (dcell c (dsem s)) (endRound (dsem s)) ∅ 0)
      ⊢ (bigSep Finset.univ fun s : Fin 84 => iprop(cellInv ER (arRd m) (K (dcell c (dsem s))) (dcell c (dsem s))
          ∗ atPos ER (dcell c (dsem s)) (endRound (dsem s)) ∅ 0) : sProp 𝕄) := by
    rw [bigSep_sep']
    iintro ⟨HR, HP⟩
    isplitl [HR]
    · iapply (recs_dma m K c); iexact HR
    · iexact HP
  exact h.trans (cells_close m Finset.univ (fun s : Fin 84 => dcell c (dsem s)) (fun s => K (dcell c (dsem s)))
    (fun s => endRound (dsem s)) (fun _ _ => Set.mem_univ _) (fun s _ => no_duty_from_endRound m c (dsem s)))

end Cert.KernelIdeal.AR

end
-- ==== Proof.CloseOpen.lean ====
import proofs.«900722_g7700000000000723_dist_ar_v7x_xyz2x4x4_x_m1024_n512_f32_1_alg».proof.Proof.Close

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem possEnd_eq (c : Dev nD) : (possEnd c : sProp 𝕄) = iprop(((atPos ER (dcell c (sxS 0)) 1 ∅ 0 ∗ atPos ER (dcell c (rxS 0)) 1 ∅ 0)
      ∗ (atPos ER (dcell c (sxS 1)) 1 ∅ 0 ∗ atPos ER (dcell c (rxS 1)) 1 ∅ 0)
      ∗ (atPos ER (dcell c (sxS 2)) 1 ∅ 0 ∗ atPos ER (dcell c (rxS 2)) 1 ∅ 0)
      ∗ (atPos ER (dcell c (sxS 3)) 1 ∅ 0 ∗ atPos ER (dcell c (rxS 3)) 1 ∅ 0)
      ∗ (atPos ER (dcell c (sxS 4)) 1 ∅ 0 ∗ atPos ER (dcell c (rxS 4)) 1 ∅ 0)
      ∗ (atPos ER (dcell c (sxS 5)) 1 ∅ 0 ∗ atPos ER (dcell c (rxS 5)) 1 ∅ 0)
      ∗ (atPos ER (dcell c (sxS 6)) 1 ∅ 0 ∗ atPos ER (dcell c (rxS 6)) 1 ∅ 0)
      ∗ (atPos ER (dcell c (sxS 7)) 1 ∅ 0 ∗ atPos ER (dcell c (rxS 7)) 1 ∅ 0)
      ∗ (atPos ER (dcell c (sxS 8)) 1 ∅ 0 ∗ atPos ER (dcell c (rxS 8)) 1 ∅ 0)
      ∗ (atPos ER (dcell c (sxS 9)) 1 ∅ 0 ∗ atPos ER (dcell c (rxS 9)) 1 ∅ 0))
    ∗ ((atPos ER (dcell c (syS 0)) 1 ∅ 0 ∗ atPos ER (dcell c (ryS 0)) 1 ∅ 0 ∗ atPos ER (dcell c (szS 0)) 1 ∅ 0 ∗ atPos ER (dcell c (rzS 0)) 1 ∅ 0)
      ∗ (atPos ER (dcell c (syS 1)) 1 ∅ 0 ∗ atPos ER (dcell c (ryS 1)) 1 ∅ 0 ∗ atPos ER (dcell c (szS 1)) 1 ∅ 0 ∗ atPos ER (dcell c (rzS 1)) 1 ∅ 0)
      ∗ (atPos ER (dcell c (syS 2)) 1 ∅ 0 ∗ atPos ER (dcell c (ryS 2)) 1 ∅ 0 ∗ atPos ER (dcell c (szS 2)) 1 ∅ 0 ∗ atPos ER (dcell c (rzS 2)) 1 ∅ 0)
      ∗ (atPos ER (dcell c (syS 3)) 1 ∅ 0 ∗ atPos ER (dcell c (ryS 3)) 1 ∅ 0 ∗ atPos ER (dcell c (szS 3)) 1 ∅ 0 ∗ atPos ER (dcell c (rzS 3)) 1 ∅ 0)
      ∗ (atPos ER (dcell c (syS 4)) 1 ∅ 0 ∗ atPos ER (dcell c (ryS 4)) 1 ∅ 0 ∗ atPos ER (dcell c (szS 4)) 1 ∅ 0 ∗ atPos ER (dcell c (rzS 4)) 1 ∅ 0)
      ∗ (atPos ER (dcell c (syS 5)) 1 ∅ 0 ∗ atPos ER (dcell c (ryS 5)) 1 ∅ 0 ∗ atPos ER (dcell c (szS 5)) 1 ∅ 0 ∗ atPos ER (dcell c (rzS 5)) 1 ∅ 0)
      ∗ (atPos ER (dcell c (syS 6)) 1 ∅ 0 ∗ atPos ER (dcell c (ryS 6)) 1 ∅ 0 ∗ atPos ER (dcell c (szS 6)) 1 ∅ 0 ∗ atPos ER (dcell c (rzS 6)) 1 ∅ 0)
      ∗ (atPos ER (dcell c (syS 7)) 1 ∅ 0 ∗ atPos ER (dcell c (ryS 7)) 1 ∅ 0 ∗ atPos ER (dcell c (szS 7)) 1 ∅ 0 ∗ atPos ER (dcell c (rzS 7)) 1 ∅ 0))
    ∗ ((atPos ER (dcell c (sfyS 0)) 0 ∅ 0 ∗ atPos ER (dcell c (rfyS 0)) 0 ∅ 0 ∗ atPos ER (dcell c (sfzS 0)) 1 ∅ 0 ∗ atPos ER (dcell c (rfzS 0)) 1 ∅ 0)
      ∗ (atPos ER (dcell c (sfyS 1)) 0 ∅ 0 ∗ atPos ER (dcell c (rfyS 1)) 0 ∅ 0 ∗ atPos ER (dcell c (sfzS 1)) 1 ∅ 0 ∗ atPos ER (dcell c (rfzS 1)) 1 ∅ 0)
      ∗ (atPos ER (dcell c (sfyS 2)) 0 ∅ 0 ∗ atPos ER (dcell c (rfyS 2)) 0 ∅ 0 ∗ atPos ER (dcell c (sfzS 2)) 1 ∅ 0 ∗ atPos ER (dcell c (rfzS 2)) 1 ∅ 0)
      ∗ (atPos ER (dcell c (sfyS 3)) 1 ∅ 0 ∗ atPos ER (dcell c (rfyS 3)) 1 ∅ 0 ∗ atPos ER (dcell c (sfzS 3)) 0 ∅ 0 ∗ atPos ER (dcell c (rfzS 3)) 0 ∅ 0)
      ∗ (atPos ER (dcell c (sfyS 4)) 1 ∅ 0 ∗ atPos ER (dcell c (rfyS 4)) 1 ∅ 0 ∗ atPos ER (dcell c (sfzS 4)) 0 ∅ 0 ∗ atPos ER (dcell c (rfzS 4)) 0 ∅ 0)
      ∗ (atPos ER (dcell c (sfyS 5)) 1 ∅ 0 ∗ atPos ER (dcell c (rfyS 5)) 1 ∅ 0 ∗ atPos ER (dcell c (sfzS 5)) 0 ∅ 0 ∗ atPos ER (dcell c (rfzS 5)) 0 ∅ 0)
      ∗ (atPos ER (dcell c (sfyS 6)) 0 ∅ 0 ∗ atPos ER (dcell c (rfyS 6)) 0 ∅ 0 ∗ atPos ER (dcell c (sfzS 6)) 0 ∅ 0 ∗ atPos ER (dcell c (rfzS 6)) 0 ∅ 0)
      ∗ (atPos ER (dcell c (sfyS 7)) 0 ∅ 0 ∗ atPos ER (dcell c (rfyS 7)) 0 ∅ 0 ∗ atPos ER (dcell c (sfzS 7)) 0 ∅ 0 ∗ atPos ER (dcell c (rfzS 7)) 0 ∅ 0))) := by
  unfold possEnd; rw [bigSep_fin10, bigSep_fin8, bigSep_fin8]
  rfl

end Cert.KernelIdeal.AR

end
-- ==== Proof.GhostOpen.lean ====
import proofs.«900722_g7700000000000723_dist_ar_v7x_xyz2x4x4_x_m1024_n512_f32_1_alg».proof.Proof.Records

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem poss_eq (c : Dev nD) : (poss c : sProp 𝕄) = iprop(atPos ER (barCell c) 0 ∅ 0
    ∗ ((atPos ER (dcell c (sxS 0)) 0 ∅ 0 ∗ atPos ER (dcell c (rxS 0)) 0 ∅ 0)
      ∗ (atPos ER (dcell c (sxS 1)) 0 ∅ 0 ∗ atPos ER (dcell c (rxS 1)) 0 ∅ 0)
      ∗ (atPos ER (dcell c (sxS 2)) 0 ∅ 0 ∗ atPos ER (dcell c (rxS 2)) 0 ∅ 0)
      ∗ (atPos ER (dcell c (sxS 3)) 0 ∅ 0 ∗ atPos ER (dcell c (rxS 3)) 0 ∅ 0)
      ∗ (atPos ER (dcell c (sxS 4)) 0 ∅ 0 ∗ atPos ER (dcell c (rxS 4)) 0 ∅ 0)
      ∗ (atPos ER (dcell c (sxS 5)) 0 ∅ 0 ∗ atPos ER (dcell c (rxS 5)) 0 ∅ 0)
      ∗ (atPos ER (dcell c (sxS 6)) 0 ∅ 0 ∗ atPos ER (dcell c (rxS 6)) 0 ∅ 0)
      ∗ (atPos ER (dcell c (sxS 7)) 0 ∅ 0 ∗ atPos ER (dcell c (rxS 7)) 0 ∅ 0)
      ∗ (atPos ER (dcell c (sxS 8)) 0 ∅ 0 ∗ atPos ER (dcell c (rxS 8)) 0 ∅ 0)
      ∗ (atPos ER (dcell c (sxS 9)) 0 ∅ 0 ∗ atPos ER (dcell c (rxS 9)) 0 ∅ 0))
    ∗ ((atPos ER (dcell c (syS 0)) 0 ∅ 0 ∗ atPos ER (dcell c (ryS 0)) 0 ∅ 0 ∗ atPos ER (dcell c (szS 0)) 0 ∅ 0 ∗ atPos ER (dcell c (rzS 0)) 0 ∅ 0)
      ∗ (atPos ER (dcell c (syS 1)) 0 ∅ 0 ∗ atPos ER (dcell c (ryS 1)) 0 ∅ 0 ∗ atPos ER (dcell c (szS 1)) 0 ∅ 0 ∗ atPos ER (dcell c (rzS 1)) 0 ∅ 0)
      ∗ (atPos ER (dcell c (syS 2)) 0 ∅ 0 ∗ atPos ER (dcell c (ryS 2)) 0 ∅ 0 ∗ atPos ER (dcell c (szS 2)) 0 ∅ 0 ∗ atPos ER (dcell c (rzS 2)) 0 ∅ 0)
      ∗ (atPos ER (dcell c (syS 3)) 0 ∅ 0 ∗ atPos ER (dcell c (ryS 3)) 0 ∅ 0 ∗ atPos ER (dcell c (szS 3)) 0 ∅ 0 ∗ atPos ER (dcell c (rzS 3)) 0 ∅ 0)
      ∗ (atPos ER (dcell c (syS 4)) 0 ∅ 0 ∗ atPos ER (dcell c (ryS 4)) 0 ∅ 0 ∗ atPos ER (dcell c (szS 4)) 0 ∅ 0 ∗ atPos ER (dcell c (rzS 4)) 0 ∅ 0)
      ∗ (atPos ER (dcell c (syS 5)) 0 ∅ 0 ∗ atPos ER (dcell c (ryS 5)) 0 ∅ 0 ∗ atPos ER (dcell c (szS 5)) 0 ∅ 0 ∗ atPos ER (dcell c (rzS 5)) 0 ∅ 0)
      ∗ (atPos ER (dcell c (syS 6)) 0 ∅ 0 ∗ atPos ER (dcell c (ryS 6)) 0 ∅ 0 ∗ atPos ER (dcell c (szS 6)) 0 ∅ 0 ∗ atPos ER (dcell c (rzS 6)) 0 ∅ 0)
      ∗ (atPos ER (dcell c (syS 7)) 0 ∅ 0 ∗ atPos ER (dcell c (ryS 7)) 0 ∅ 0 ∗ atPos ER (dcell c (szS 7)) 0 ∅ 0 ∗ atPos ER (dcell c (rzS 7)) 0 ∅ 0))
    ∗ ((atPos ER (dcell c (sfyS 0)) 0 ∅ 0 ∗ atPos ER (dcell c (rfyS 0)) 0 ∅ 0 ∗ atPos ER (dcell c (sfzS 0)) 0 ∅ 0 ∗ atPos ER (dcell c (rfzS 0)) 0 ∅ 0)
      ∗ (atPos ER (dcell c (sfyS 1)) 0 ∅ 0 ∗ atPos ER (dcell c (rfyS 1)) 0 ∅ 0 ∗ atPos ER (dcell c (sfzS 1)) 0 ∅ 0 ∗ atPos ER (dcell c (rfzS 1)) 0 ∅ 0)
      ∗ (atPos ER (dcell c (sfyS 2)) 0 ∅ 0 ∗ atPos ER (dcell c (rfyS 2)) 0 ∅ 0 ∗ atPos ER (dcell c (sfzS 2)) 0 ∅ 0 ∗ atPos ER (dcell c (rfzS 2)) 0 ∅ 0)
      ∗ (atPos ER (dcell c (sfyS 3)) 0 ∅ 0 ∗ atPos ER (dcell c (rfyS 3)) 0 ∅ 0 ∗ atPos ER (dcell c (sfzS 3)) 0 ∅ 0 ∗ atPos ER (dcell c (rfzS 3)) 0 ∅ 0)
      ∗ (atPos ER (dcell c (sfyS 4)) 0 ∅ 0 ∗ atPos ER (dcell c (rfyS 4)) 0 ∅ 0 ∗ atPos ER (dcell c (sfzS 4)) 0 ∅ 0 ∗ atPos ER (dcell c (rfzS 4)) 0 ∅ 0)
      ∗ (atPos ER (dcell c (sfyS 5)) 0 ∅ 0 ∗ atPos ER (dcell c (rfyS 5)) 0 ∅ 0 ∗ atPos ER (dcell c (sfzS 5)) 0 ∅ 0 ∗ atPos ER (dcell c (rfzS 5)) 0 ∅ 0)
      ∗ (atPos ER (dcell c (sfyS 6)) 0 ∅ 0 ∗ atPos ER (dcell c (rfyS 6)) 0 ∅ 0 ∗ atPos ER (dcell c (sfzS 6)) 0 ∅ 0 ∗ atPos ER (dcell c (rfzS 6)) 0 ∅ 0)
      ∗ (atPos ER (dcell c (sfyS 7)) 0 ∅ 0 ∗ atPos ER (dcell c (rfyS 7)) 0 ∅ 0 ∗ atPos ER (dcell c (sfzS 7)) 0 ∅ 0 ∗ atPos ER (dcell c (rfzS 7)) 0 ∅ 0))) := by
  unfold poss; rw [bigSep_fin10, bigSep_fin8, bigSep_fin8]

theorem toks_eq (c : Dev nD) : (toks c : sProp 𝕄) = iprop(dutyTok ER (barCell (px c)) 0 0 ∗ dutyTok ER (barCell (py c)) 0 1 ∗ dutyTok ER (barCell (pz c)) 0 2
    ∗ ((dutyTok ER (dcell c (sxS 0)) 0 0 ∗ dutyTok ER (dcell (px c) (rxS 0)) 0 0)
      ∗ (dutyTok ER (dcell c (sxS 1)) 0 0 ∗ dutyTok ER (dcell (px c) (rxS 1)) 0 0)
      ∗ (dutyTok ER (dcell c (sxS 2)) 0 0 ∗ dutyTok ER (dcell (px c) (rxS 2)) 0 0)
      ∗ (dutyTok ER (dcell c (sxS 3)) 0 0 ∗ dutyTok ER (dcell (px c) (rxS 3)) 0 0)
      ∗ (dutyTok ER (dcell c (sxS 4)) 0 0 ∗ dutyTok ER (dcell (px c) (rxS 4)) 0 0)
      ∗ (dutyTok ER (dcell c (sxS 5)) 0 0 ∗ dutyTok ER (dcell (px c) (rxS 5)) 0 0)
      ∗ (dutyTok ER (dcell c (sxS 6)) 0 0 ∗ dutyTok ER (dcell (px c) (rxS 6)) 0 0)
      ∗ (dutyTok ER (dcell c (sxS 7)) 0 0 ∗ dutyTok ER (dcell (px c) (rxS 7)) 0 0)
      ∗ (dutyTok ER (dcell c (sxS 8)) 0 0 ∗ dutyTok ER (dcell (px c) (rxS 8)) 0 0)
      ∗ (dutyTok ER (dcell c (sxS 9)) 0 0 ∗ dutyTok ER (dcell (px c) (rxS 9)) 0 0))
    ∗ ((dutyTok ER (dcell c (syS 0)) 0 0 ∗ dutyTok ER (dcell (py c) (ryS 0)) 0 0 ∗ dutyTok ER (dcell c (szS 0)) 0 0 ∗ dutyTok ER (dcell (pz c) (rzS 0)) 0 0)
      ∗ (dutyTok ER (dcell c (syS 1)) 0 0 ∗ dutyTok ER (dcell (py c) (ryS 1)) 0 0 ∗ dutyTok ER (dcell c (szS 1)) 0 0 ∗ dutyTok ER (dcell (pz c) (rzS 1)) 0 0)
      ∗ (dutyTok ER (dcell c (syS 2)) 0 0 ∗ dutyTok ER (dcell (py c) (ryS 2)) 0 0 ∗ dutyTok ER (dcell c (szS 2)) 0 0 ∗ dutyTok ER (dcell (pz c) (rzS 2)) 0 0)
      ∗ (dutyTok ER (dcell c (syS 3)) 0 0 ∗ dutyTok ER (dcell (py c) (ryS 3)) 0 0 ∗ dutyTok ER (dcell c (szS 3)) 0 0 ∗ dutyTok ER (dcell (pz c) (rzS 3)) 0 0)
      ∗ (dutyTok ER (dcell c (syS 4)) 0 0 ∗ dutyTok ER (dcell (py c) (ryS 4)) 0 0 ∗ dutyTok ER (dcell c (szS 4)) 0 0 ∗ dutyTok ER (dcell (pz c) (rzS 4)) 0 0)
      ∗ (dutyTok ER (dcell c (syS 5)) 0 0 ∗ dutyTok ER (dcell (py c) (ryS 5)) 0 0 ∗ dutyTok ER (dcell c (szS 5)) 0 0 ∗ dutyTok ER (dcell (pz c) (rzS 5)) 0 0)
      ∗ (dutyTok ER (dcell c (syS 6)) 0 0 ∗ dutyTok ER (dcell (py c) (ryS 6)) 0 0 ∗ dutyTok ER (dcell c (szS 6)) 0 0 ∗ dutyTok ER (dcell (pz c) (rzS 6)) 0 0)
      ∗ (dutyTok ER (dcell c (syS 7)) 0 0 ∗ dutyTok ER (dcell (py c) (ryS 7)) 0 0 ∗ dutyTok ER (dcell c (szS 7)) 0 0 ∗ dutyTok ER (dcell (pz c) (rzS 7)) 0 0))
    ∗ ((dutyTok ER (dcell c (sfzS (fz 0))) 0 0 ∗ dutyTok ER (dcell (pz c) (rfzS (fz 0))) 0 0)
      ∗ (dutyTok ER (dcell c (sfzS (fz 1))) 0 0 ∗ dutyTok ER (dcell (pz c) (rfzS (fz 1))) 0 0)
      ∗ (dutyTok ER (dcell c (sfzS (fz 2))) 0 0 ∗ dutyTok ER (dcell (pz c) (rfzS (fz 2))) 0 0))
    ∗ ((dutyTok ER (dcell c (sfyS (fy 0))) 0 0 ∗ dutyTok ER (dcell (py c) (rfyS (fy 0))) 0 0)
      ∗ (dutyTok ER (dcell c (sfyS (fy 1))) 0 0 ∗ dutyTok ER (dcell (py c) (rfyS (fy 1))) 0 0)
      ∗ (dutyTok ER (dcell c (sfyS (fy 2))) 0 0 ∗ dutyTok ER (dcell (py c) (rfyS (fy 2))) 0 0))) := by
  unfold toks; rw [bigSep_fin10, bigSep_fin8, bigSep_fin3, bigSep_fin3]

theorem creds_eq (c : Dev nD) : (creds c : sProp 𝕄) = iprop(cred (tallyAt (barCell c) () 3)
    ∗ (cred (tallyAt (dcell c (rxS 0)) () N) ∗ cred (tallyAt (dcell c (rxS 1)) () N) ∗ cred (tallyAt (dcell c (rxS 2)) () N) ∗ cred (tallyAt (dcell c (rxS 3)) () N) ∗ cred (tallyAt (dcell c (rxS 4)) () N) ∗ cred (tallyAt (dcell c (rxS 5)) () N) ∗ cred (tallyAt (dcell c (rxS 6)) () N) ∗ cred (tallyAt (dcell c (rxS 7)) () N) ∗ cred (tallyAt (dcell c (rxS 8)) () N) ∗ cred (tallyAt (dcell c (rxS 9)) () N))
    ∗ ((cred (tallyAt (dcell c (ryS 0)) () N) ∗ cred (tallyAt (dcell c (rzS 0)) () N))
      ∗ (cred (tallyAt (dcell c (ryS 1)) () N) ∗ cred (tallyAt (dcell c (rzS 1)) () N))
      ∗ (cred (tallyAt (dcell c (ryS 2)) () N) ∗ cred (tallyAt (dcell c (rzS 2)) () N))
      ∗ (cred (tallyAt (dcell c (ryS 3)) () N) ∗ cred (tallyAt (dcell c (rzS 3)) () N))
      ∗ (cred (tallyAt (dcell c (ryS 4)) () N) ∗ cred (tallyAt (dcell c (rzS 4)) () N))
      ∗ (cred (tallyAt (dcell c (ryS 5)) () N) ∗ cred (tallyAt (dcell c (rzS 5)) () N))
      ∗ (cred (tallyAt (dcell c (ryS 6)) () N) ∗ cred (tallyAt (dcell c (rzS 6)) () N))
      ∗ (cred (tallyAt (dcell c (ryS 7)) () N) ∗ cred (tallyAt (dcell c (rzS 7)) () N)))
    ∗ (cred (tallyAt (dcell c (rfzS (fz 0))) () N) ∗ cred (tallyAt (dcell c (rfzS (fz 1))) () N) ∗ cred (tallyAt (dcell c (rfzS (fz 2))) () N))
    ∗ (cred (tallyAt (dcell c (rfyS (fy 0))) () N) ∗ cred (tallyAt (dcell c (rfyS (fy 1))) () N) ∗ cred (tallyAt (dcell c (rfyS (fy 2))) () N))) := by
  unfold creds; rw [bigSep_fin10, bigSep_fin8, bigSep_fin3, bigSep_fin3]

end Cert.KernelIdeal.AR

end
-- ==== Proof.BodyPre.lean ====
import proofs.«900722_g7700000000000723_dist_ar_v7x_xyz2x4x4_x_m1024_n512_f32_1_alg».proof.Proof.Steps
import proofs.«900722_g7700000000000723_dist_ar_v7x_xyz2x4x4_x_m1024_n512_f32_1_alg».proof.Proof.SegBar
import proofs.«900722_g7700000000000723_dist_ar_v7x_xyz2x4x4_x_m1024_n512_f32_1_alg».proof.Proof.Seg2
import proofs.«900722_g7700000000000723_dist_ar_v7x_xyz2x4x4_x_m1024_n512_f32_1_alg».proof.Proof.Seg3
import proofs.«900722_g7700000000000723_dist_ar_v7x_xyz2x4x4_x_m1024_n512_f32_1_alg».proof.Proof.Seg45
import proofs.«900722_g7700000000000723_dist_ar_v7x_xyz2x4x4_x_m1024_n512_f32_1_alg».proof.Proof.ViewLemmas3
import proofs.«900722_g7700000000000723_dist_ar_v7x_xyz2x4x4_x_m1024_n512_f32_1_alg».proof.Proof.CloseOpen
import proofs.«900722_g7700000000000723_dist_ar_v7x_xyz2x4x4_x_m1024_n512_f32_1_alg».proof.Proof.OutValue
import proofs.«900722_g7700000000000723_dist_ar_v7x_xyz2x4x4_x_m1024_n512_f32_1_alg».proof.Proof.CloseCells
import proofs.«900722_g7700000000000723_dist_ar_v7x_xyz2x4x4_x_m1024_n512_f32_1_alg».proof.Proof.GhostOpen

set_option maxRecDepth 16384

noncomputable section
namespace Cert.KernelIdeal.AR
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
theorem barPay_0 (c : Dev nD) : (barPay (F := F) c 0 : sProp 𝕄) = iprop((free (F := F) (px c) (ch cxM 0) ∗ free (F := F) (px c) (ch cxM 1) ∗ free (F := F) (px c) (ch cxM 2) ∗ free (F := F) (px c) (ch cxM 3)
    ∗ free (F := F) (px c) (ch cxM 4) ∗ free (F := F) (px c) (ch cxM 5) ∗ free (F := F) (px c) (ch cxM 6) ∗ free (F := F) (px c) (ch cxM 7)) ∗ free (F := F) (px c) (ch64 0) ∗ free (F := F) (px c) (ch64 1)) := rfl
omit [FloatOps F] in
theorem barPay_1 (c : Dev nD) : (barPay (F := F) c 1 : sProp 𝕄) = iprop((free (F := F) (py c) (ch ryM 0) ∗ free (F := F) (py c) (ch ryM 1) ∗ free (F := F) (py c) (ch ryM 2) ∗ free (F := F) (py c) (ch ryM 3)
    ∗ free (F := F) (py c) (ch ryM 4) ∗ free (F := F) (py c) (ch ryM 5) ∗ free (F := F) (py c) (ch ryM 6) ∗ free (F := F) (py c) (ch ryM 7)) ∗ free (F := F) (py c) (ch rdM 3) ∗ free (F := F) (py c) (ch rdM 4) ∗ free (F := F) (py c) (ch rdM 5)) := rfl
omit [FloatOps F] in
theorem barPay_2 (c : Dev nD) : (barPay (F := F) c 2 : sProp 𝕄) = iprop((free (F := F) (pz c) (ch rzM 0) ∗ free (F := F) (pz c) (ch rzM 1) ∗ free (F := F) (pz c) (ch rzM 2) ∗ free (F := F) (pz c) (ch rzM 3)
    ∗ free (F := F) (pz c) (ch rzM 4) ∗ free (F := F) (pz c) (ch rzM 5) ∗ free (F := F) (pz c) (ch rzM 6) ∗ free (F := F) (pz c) (ch rzM 7)) ∗ free (F := F) (pz c) (ch rdM 0) ∗ free (F := F) (pz c) (ch rdM 1) ∗ free (F := F) (pz c) (ch rdM 2)) := rfl
omit [FloatOps F] in
theorem barOut_0 (c : Dev nD) : (barPay (F := F) (px c) 0 : sProp 𝕄) = iprop(free8 (F := F) c cxM ∗ free (F := F) c (ch64 0) ∗ free (F := F) c (ch64 1)) := by
  show iprop(free8 (F := F) (px (px c)) cxM ∗ free (F := F) (px (px c)) (ch64 0) ∗ free (F := F) (px (px c)) (ch64 1)) = _; rw [px_px]
omit [FloatOps F] in
theorem barOut_1 (c : Dev nD) : (barPay (F := F) (py c) 1 : sProp 𝕄) = iprop(free8 (F := F) c ryM ∗ free (F := F) c (ch rdM 3) ∗ free (F := F) c (ch rdM 4) ∗ free (F := F) c (ch rdM 5)) := by
  show iprop(free8 (F := F) (py (py c)) ryM ∗ free (F := F) (py (py c)) (ch rdM 3) ∗ free (F := F) (py (py c)) (ch rdM 4) ∗ free (F := F) (py (py c)) (ch rdM 5)) = _; rw [py_py]
omit [FloatOps F] in
theorem barOut_2 (c : Dev nD) : (barPay (F := F) (pz c) 2 : sProp 𝕄) = iprop(free8 (F := F) c rzM ∗ free (F := F) c (ch rdM 0) ∗ free (F := F) c (ch rdM 1) ∗ free (F := F) c (ch rdM 2)) := by
  show iprop(free8 (F := F) (pz (pz c)) rzM ∗ free (F := F) (pz (pz c)) (ch rdM 0) ∗ free (F := F) (pz (pz c)) (ch rdM 1) ∗ free (F := F) (pz (pz c)) (ch rdM 2)) = _; rw [pz_pz]

theorem holds_pts (c : Dev nD) (v v' : Memref sig .tc .vmem S32x512 .f32) (h : v = v') (q : PosShare TreeShare) (V : Vec F S32x512 .f32) :
    holds m c v q V ⊢ (v'.view.loc (c : Thread nD τ) ↦[v'.view.set]{q} canon m c v' V : sProp 𝕄) := by
  subst h; unfold holds; exact BI.Entails.refl _

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What one device holds when its body starts: the launch invariant, what it owes, and the two staged blocks. -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What it holds at the end: the scratch buffers back, nothing owed, the argument block unchanged and the result block at its value. -/
def bodyPost (c : Dev nD) : sProp 𝕄 :=
  iprop(Φ₁ c ∗ (dats m ρ 0 c).owesAt () t0_0.succ ∗ stg c cc0_stg0_0 (xb m c) ∗ stg c cc0_stg1_0 (outv m c))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.AR
end
-- ==== Proof.Launch.lean ====
import proofs.«900722_g7700000000000723_dist_ar_v7x_xyz2x4x4_x_m1024_n512_f32_1_alg».proof.Proof.Deal
import proofs.«900722_g7700000000000723_dist_ar_v7x_xyz2x4x4_x_m1024_n512_f32_1_alg».proof.Proof.BodyPre
import proofs.«900722_g7700000000000723_dist_ar_v7x_xyz2x4x4_x_m1024_n512_f32_1_alg».proof.Proof.Gen.KernelIdeal.Frame

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem :=
  ⟨fun k => by revert k; decide, osem_injective, fun k w s => by revert k w s; decide⟩

def u₀ : UU :=
  (initOf (Pipeline.cells cfgs cellOf_inj) (Pipeline.launchToks cfgs cellOf_inj), initOf arCells arToks)

theorem lv_stage (c : Dev nD) (w : Fin cfg0.W) (s : Fin (cfg0.win w).nbuf) :
    lv ((c : Thread nD τ), .dma ((cfg0.win w).sem s)) () = 0 := by
  show lvCK (decode (.dma ((cfg0.win w).sem s))) = 0
  revert w s; decide

def start (c : Dev nD) : sProp 𝕄 := iprop(ghost m c ∗ creds c ∗ levAts L lv)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (launch_creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start scratch
  iintro ⟨⟨Hg, Hc, Hl⟩, -, Hr⟩
  isplitl [Hg]; · iexact Hg
  isplitl [Hc]; · iexact Hc
  isplitl [Hl]; · iexact Hl
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch Pipeline.ownSems0
  iintro ⟨Hr, Hs⟩
  isplitr; · iempintro
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (lv_stage c w s) 0
    · exact mayWait_zero c _

theorem cfg0_N : cfg0.N = 1 := by decide

def t₀ : Fin cfg0.N := ⟨0, by rw [cfg0_N]; decide⟩

set_option maxRecDepth 100000 in
theorem arrAt_after {c : Dev nD} (dat : Dat τ (Elt F) Unit ℕ UU ℕ cfg0 c) :
    dat.arrAt (1 : Fin 2) cfg0.N = dat.after (1 : Fin 2) t₀ := by
  rw [show cfg0.N = (t₀ : Fin cfg0.N).val + 1 from rfl, dat.arrAt_succ (1 : Fin 2) t₀,
    if_pos (show (cfg0.win (1 : Fin 2)).flush t₀ = true from by decide)]
  have hz : (fun a => (cfg0.win (1 : Fin 2)).index t₀ a * (cfg0.win (1 : Fin 2)).size a) = fun _ => 0 :=
    funext fun a => Nat.zero_mul _
  exact Memref.write_access_unit_zero_univ (Elt F) main_v1 hz (fun a => by rw [congrFun hz a]; simp) _ _

theorem arrAt_out (c : Dev nD) : (dats (F := F) m ρ 0 c).arrAt (1 : Fin 2) cfg0.N = outv m c := by
  rw [arrAt_after]
  dsimp only [dats]

set_option maxHeartbeats 4000000 in
/-- The body obligation at the one grid point is the body's triple, whatever table runs that body. -/
theorem obligation_of_sound {D₀ : Defs nD τ sig (Elt F) Λ₀}
    (h : ∀ c : Dev nD, bodyPre m ρ c ⊢ wp frame (wpE D₀ 𝒱₀ c none) Set.univ
      (D₀ .tc cfg0.body (cfg0.bodyArgs t0_0 (cfg0.slots t0_0))) (fun _ => bodyPost m ρ c)) (c : Dev nD) :
    BodyObligation (dats (F := F) m ρ 0 c) D₀ 𝒱₀ () Set.univ := fun t => by
  rw [fin_N0 t]
  rw [bigSep_W0, bigSep_W0]
  simp only [owns_whole_eq]
  exact h c

set_option maxRecDepth 100000 in
/-- From the body's triple to the run on all 32 devices: every device ends with its result block at its value and its argument block unchanged. -/
theorem run_of_sound {D₀ : Defs nD τ sig (Elt F) Λ₀}
    (h : ∀ c : Dev nD, bodyPre m ρ c ⊢ wp frame (wpE D₀ 𝒱₀ c none) Set.univ
      (D₀ .tc cfg0.body (cfg0.bodyArgs t0_0 (cfg0.slots t0_0))) (fun _ => bodyPost m ρ c)) :
    θ_run (Pipeline.defs (pcfgs (F := F)) D₀) (onTc (τ := τ) (main (F := F))) ⟨m, fun _ => 0, ρ⟩
    (fun r => ∀ c : Dev nD, r.2.mem ((c : Thread nD τ).loc main_v1) = outv m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP D₀ 𝒱₀ m ρ main
    (hmain := fun _ => rfl)
    (hbody := obligation_of_sound m ρ h) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_ar m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 (1 : Fin 2)).trans (arrAt_out m ρ c),
      ((h c).1 (0 : Fin 2)).trans ((dats (F := F) m ρ 0 c).arrAt_in (0 : Fin 2) rfl _)⟩)

end Cert.KernelIdeal.AR

end
-- ==== Proof.Pays.lean ====
import proofs.«900722_g7700000000000723_dist_ar_v7x_xyz2x4x4_x_m1024_n512_f32_1_alg».proof.Proof.Data
import proofs.«900722_g7700000000000723_dist_ar_v7x_xyz2x4x4_x_m1024_n512_f32_1_alg».proof.Proof.Gen.KernelIdeal.Skeleton
import Idealize.ShloMosaic.Lib.Pipeline.Value

set_option maxRecDepth 16384

noncomputable section
namespace Cert.KernelIdeal.AR
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- A reshape to the same shape changes nothing. -/
theorem sc32 (v : Vec F S32x512 .f32) : shapeCast S32x512 v shapeCasts_S32x512_S32x512 = v := shapeCast_self _ _

/-! Every payload of the body is the sum of the two chunks it loads (own block first), possibly reshaped to the same shape. -/
theorem pay1 (a b : Vec F S32x512 .f32) : k0_pay1 a b = addf a b := by unfold k0_pay1; simp only [shapeCast_self]
theorem pay3 (a b : Vec F S32x512 .f32) : k0_pay3 a b = addf a b := by unfold k0_pay3; simp only [shapeCast_self]
theorem pay5 (a b : Vec F S32x512 .f32) : k0_pay5 a b = addf a b := by unfold k0_pay5; simp only [shapeCast_self]
theorem pay7 (a b : Vec F S32x512 .f32) : k0_pay7 a b = addf a b := by unfold k0_pay7; simp only [shapeCast_self]
theorem pay9 (a b : Vec F S32x512 .f32) : k0_pay9 a b = addf a b := by unfold k0_pay9; simp only [shapeCast_self]
theorem pay11 (a b : Vec F S32x512 .f32) : k0_pay11 a b = addf a b := by unfold k0_pay11; simp only [shapeCast_self]
theorem pay16 (a b : Vec F S32x512 .f32) : k0_pay16 a b = addf a b := by unfold k0_pay16; simp only [shapeCast_self]
theorem pay18 (a b : Vec F S32x512 .f32) : k0_pay18 a b = addf a b := by unfold k0_pay18; simp only [shapeCast_self]
theorem pay19 (a b : Vec F S32x512 .f32) : k0_pay19 a b = addf a b := by unfold k0_pay19; simp only [shapeCast_self]
theorem pay2 (a b : Vec F S32x512 .f32) : k0_pay2 a b = addf a b := by unfold k0_pay2; simp only [pay1, shapeCast_self]
theorem pay4 (a b : Vec F S32x512 .f32) : k0_pay4 a b = addf a b := by unfold k0_pay4; simp only [pay3, shapeCast_self]
theorem pay8 (a b : Vec F S32x512 .f32) : k0_pay8 a b = addf a b := by unfold k0_pay8; simp only [pay7, shapeCast_self]
theorem pay12 (a b : Vec F S32x512 .f32) : k0_pay12 a b = addf a b := by unfold k0_pay12; simp only [pay11, shapeCast_self]
theorem pay17 (a b : Vec F S32x512 .f32) : k0_pay17 a b = addf a b := by unfold k0_pay17; simp only [pay16, shapeCast_self]
theorem pay6 (a : Vec F S32x512 .f32) : k0_pay6 a = a := by unfold k0_pay6; simp only [shapeCast_self]
theorem pay10 (a : Vec F S32x512 .f32) : k0_pay10 a = a := by unfold k0_pay10; simp only [shapeCast_self]
theorem pay13 (a : Vec F S32x512 .f32) : k0_pay13 a = a := by unfold k0_pay13; simp only [shapeCast_self]
theorem pay14 (a b : Vec F S32x512 .f32) : k0_pay14 a b = addf a b := by unfold k0_pay14; rfl
theorem pay15 (a b : Vec F S32x512 .f32) : k0_pay15 a b = addf a b := by unfold k0_pay15; simp only [pay14, shapeCast_self]

end Cert.KernelIdeal.AR
end
-- ==== Proof.Body.lean ====
import proofs.«900722_g7700000000000723_dist_ar_v7x_xyz2x4x4_x_m1024_n512_f32_1_alg».proof.Proof.BodyPre
import proofs.«900722_g7700000000000723_dist_ar_v7x_xyz2x4x4_x_m1024_n512_f32_1_alg».proof.Proof.Pays
import proofs.«900722_g7700000000000723_dist_ar_v7x_xyz2x4x4_x_m1024_n512_f32_1_alg».proof.Proof.Gen.KernelIdeal.Frame

set_option maxRecDepth 16384

noncomputable section
namespace Cert.KernelIdeal.AR
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT Cert.KernelIdeal.nD Cert.KernelIdeal.τ Cert.KernelIdeal.sig Unit (Elt F) ℕ UU ℕ
variable (m : (ℓ : Loc Cert.KernelIdeal.nD Cert.KernelIdeal.τ Cert.KernelIdeal.sig) → Buf (Elt F) ℓ) (ρ : Dev Cert.KernelIdeal.nD → PrngReg)

set_option maxHeartbeats 6400000 in
/-- One device's body from the launch invariant: the handshake with its three partners, ten rows sent across x, eight chunks reduced and sent on, the y and z receives with their forwards, the diagonal quarter, and the closing waits on every send cell. -/
theorem sound_body (c : Dev nD) :
    bodyPre m ρ c ⊢ wp frame (wpE (defs₀ (F := F)) 𝒱₀ c none) Set.univ
      ((defs₀ (F := F)) .tc Cert.KernelIdeal.cfg0.body (Cert.KernelIdeal.cfg0.bodyArgs Cert.KernelIdeal.Gen.t0_0 (Cert.KernelIdeal.cfg0.slots Cert.KernelIdeal.Gen.t0_0)))
      (fun _ => bodyPost m ρ c) := by
  show bodyPre m ρ c ⊢ wp frame (wpE (defs₀ (F := F)) 𝒱₀ c none) Set.univ (bodyAt0 (F := F) Cert.KernelIdeal.Gen.t0_0) (fun _ => bodyPost m ρ c)
  unfold bodyPre Φ₀ ghost scratch
  rw [poss_eq, toks_eq, creds_eq]
  iintro ⟨⟨⟨%K, #Hrec, ⟨Hp_bar, ⟨⟨Hp_sx0, Hp_rx0⟩, ⟨Hp_sx1, Hp_rx1⟩, ⟨Hp_sx2, Hp_rx2⟩, ⟨Hp_sx3, Hp_rx3⟩, ⟨Hp_sx4, Hp_rx4⟩, ⟨Hp_sx5, Hp_rx5⟩, ⟨Hp_sx6, Hp_rx6⟩, ⟨Hp_sx7, Hp_rx7⟩, ⟨Hp_sx8, Hp_rx8⟩, ⟨Hp_sx9, Hp_rx9⟩⟩, ⟨⟨Hp_sy0, Hp_ry0, Hp_sz0, Hp_rz0⟩, ⟨Hp_sy1, Hp_ry1, Hp_sz1, Hp_rz1⟩, ⟨Hp_sy2, Hp_ry2, Hp_sz2, Hp_rz2⟩, ⟨Hp_sy3, Hp_ry3, Hp_sz3, Hp_rz3⟩, ⟨Hp_sy4, Hp_ry4, Hp_sz4, Hp_rz4⟩, ⟨Hp_sy5, Hp_ry5, Hp_sz5, Hp_rz5⟩, ⟨Hp_sy6, Hp_ry6, Hp_sz6, Hp_rz6⟩, ⟨Hp_sy7, Hp_ry7, Hp_sz7, Hp_rz7⟩⟩, ⟨⟨Hp_sfy0, Hp_rfy0, Hp_sfz0, Hp_rfz0⟩, ⟨Hp_sfy1, Hp_rfy1, Hp_sfz1, Hp_rfz1⟩, ⟨Hp_sfy2, Hp_rfy2, Hp_sfz2, Hp_rfz2⟩, ⟨Hp_sfy3, Hp_rfy3, Hp_sfz3, Hp_rfz3⟩, ⟨Hp_sfy4, Hp_rfy4, Hp_sfz4, Hp_rfz4⟩, ⟨Hp_sfy5, Hp_rfy5, Hp_sfz5, Hp_rfz5⟩, ⟨Hp_sfy6, Hp_rfy6, Hp_sfz6, Hp_rfz6⟩, ⟨Hp_sfy7, Hp_rfy7, Hp_sfz7, Hp_rfz7⟩⟩⟩, ⟨Ht_bx, Ht_by, Ht_bz, ⟨⟨Ht_sx0, Ht_rx0⟩, ⟨Ht_sx1, Ht_rx1⟩, ⟨Ht_sx2, Ht_rx2⟩, ⟨Ht_sx3, Ht_rx3⟩, ⟨Ht_sx4, Ht_rx4⟩, ⟨Ht_sx5, Ht_rx5⟩, ⟨Ht_sx6, Ht_rx6⟩, ⟨Ht_sx7, Ht_rx7⟩, ⟨Ht_sx8, Ht_rx8⟩, ⟨Ht_sx9, Ht_rx9⟩⟩, ⟨⟨Ht_sy0, Ht_ry0, Ht_sz0, Ht_rz0⟩, ⟨Ht_sy1, Ht_ry1, Ht_sz1, Ht_rz1⟩, ⟨Ht_sy2, Ht_ry2, Ht_sz2, Ht_rz2⟩, ⟨Ht_sy3, Ht_ry3, Ht_sz3, Ht_rz3⟩, ⟨Ht_sy4, Ht_ry4, Ht_sz4, Ht_rz4⟩, ⟨Ht_sy5, Ht_ry5, Ht_sz5, Ht_rz5⟩, ⟨Ht_sy6, Ht_ry6, Ht_sz6, Ht_rz6⟩, ⟨Ht_sy7, Ht_ry7, Ht_sz7, Ht_rz7⟩⟩, ⟨⟨Ht_sfz0, Ht_rfz0⟩, ⟨Ht_sfz1, Ht_rfz1⟩, ⟨Ht_sfz2, Ht_rfz2⟩⟩, ⟨⟨Ht_sfy3, Ht_rfy3⟩, ⟨Ht_sfy4, Ht_rfy4⟩, ⟨Ht_sfy5, Ht_rfy5⟩⟩⟩⟩, ⟨Hc_bar, ⟨Hc_rx0, Hc_rx1, Hc_rx2, Hc_rx3, Hc_rx4, Hc_rx5, Hc_rx6, Hc_rx7, Hc_rx8, Hc_rx9⟩, ⟨⟨Hc_ry0, Hc_rz0⟩, ⟨Hc_ry1, Hc_rz1⟩, ⟨Hc_ry2, Hc_rz2⟩, ⟨Hc_ry3, Hc_rz3⟩, ⟨Hc_ry4, Hc_rz4⟩, ⟨Hc_ry5, Hc_rz5⟩, ⟨Hc_ry6, Hc_rz6⟩, ⟨Hc_ry7, Hc_rz7⟩⟩, ⟨Hc_rfz0, Hc_rfz1, Hc_rfz2⟩, ⟨Hc_rfy3, Hc_rfy4, Hc_rfy5⟩⟩, #Hlev, ⟨%f0, Hs0⟩, ⟨%f1, Hs1⟩, ⟨%f2, Hs2⟩, ⟨%f3, Hs3⟩, ⟨%f4, Hs4⟩, ⟨%f5, Hs5⟩⟩, Ho, ⟨%d0, %g0, %hg0, Hx⟩, ⟨%d1, %g1, %hg1, Hout⟩⟩
  have hx : g0 = xb m c := by rw [hg0]; unfold Dat.before; rw [if_pos (Cert.KernelIdeal.Gen.fetch0_0 Cert.KernelIdeal.Gen.t0_0)]; rfl
  subst hx
  unfold Dat.owesAt Pipeline.owesWithin
  icases Ho with ⟨%W, %hW, HO⟩
  rw [show (dats m ρ 0 c).owed Cert.KernelIdeal.Gen.t0_0.castSucc = O₀ c from rfl]

  unfold bodyAt0
  sl_unfold [cc0_body]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel
  simp only [semSignalWord, semWaitWord, Prog.lift, Prog.bind_op, Prog.bind_ret, Prog.pure_eq_ret, Prog.bind_assoc, bind_assoc, pure_bind, wp_deviceId]

  ihave Hs0 := (Entails.of_eq (whole_pts c cc0_scratch0 f0)) $$ Hs0
  ihave Hs1 := (Entails.of_eq (whole_pts c cc0_scratch1 f1)) $$ Hs1
  ihave Hs2 := (Entails.of_eq (whole_pts c cc0_scratch2 f2)) $$ Hs2
  ihave Hs3 := (Entails.of_eq (whole_pts c cc0_scratch3 f3)) $$ Hs3
  ihave Hs4 := (Entails.of_eq (whole_pts c cc0_scratch4 f4)) $$ Hs4
  ihave Hs5 := (Entails.of_eq (whole_pts c cc0_scratch5 f5)) $$ Hs5
  ihave Hcx8 := (free8_of_whole c cxM f0) $$ Hs0
  ihave Hry8 := (free8_of_whole c ryM f3) $$ Hs3
  ihave Hrz8 := (free8_of_whole c rzM f4) $$ Hs4
  ihave Hcd := (split2 c fullShare f1).1 $$ Hs1
  icases Hcd with ⟨Hcd0, Hcd1⟩
  ihave Hsq := (split8 c sqM fullShare f2).1 $$ Hs2
  icases Hsq with ⟨Hsq0, Hsq1, Hsq2, Hsq3, Hsq4, Hsq5, Hsq6, Hsq7⟩
  ihave Hrd := (split8 c rdM fullShare f5).1 $$ Hs5
  icases Hrd with ⟨Hrd0, Hrd1, Hrd2, Hrd3, Hrd4, Hrd5, Hrd6, Hrd7⟩

  ihave #HIb := (rec_bar m K c) $$ Hrec
  ihave #HIbx := (rec_bar m K (px c)) $$ Hrec
  ihave #HIby := (rec_bar m K (py c)) $$ Hrec
  ihave #HIbz := (rec_bar m K (pz c)) $$ Hrec
  icases HIb with ⟨#HIb, -⟩
  icases HIbx with ⟨#HIbx, #Hrbx⟩
  icases HIby with ⟨#HIby, #Hrby⟩
  icases HIbz with ⟨#HIbz, #Hrbz⟩
  ihave Hmw := (mayWait_barS (F := F) c 3 (le_refl _)) $$ Hlev
  iapply (seg_bar m c _ _ _ (dev1_eq c) (dev2_eq c) (dev3_eq c) _ rfl (K (barCell c)) (K (barCell (px c))) (K (barCell (py c))) (K (barCell (pz c))) W (owedL ((paid c).drop 3)))
    $$ [HO Ht_bx Ht_by Ht_bz Hc_bar Hp_bar Hcx8 Hcd0 Hcd1 Hry8 Hrz8 Hrd0 Hrd1 Hrd2 Hrd3 Hrd4 Hrd5 Hmw]
  · isplitr; · iexact HIb
    isplitr; · iexact HIbx
    isplitr; · iexact HIby
    isplitr; · iexact HIbz
    isplitr; · iexact Hrbx
    isplitr; · iexact Hrby
    isplitr; · iexact Hrbz
    isplitl [Ht_bx]; · iexact Ht_bx
    isplitl [Ht_by]; · iexact Ht_by
    isplitl [Ht_bz]; · iexact Ht_bz
    isplitl [Hcx8 Hcd0 Hcd1]
    · rw [barOut_0]
      isplitl [Hcx8]; · iexact Hcx8
      isplitl [Hcd0]; · (unfold free; iexists f1; iexact Hcd0)
      unfold free; iexists f1; iexact Hcd1
    isplitl [Hry8 Hrd3 Hrd4 Hrd5]
    · rw [barOut_1]
      isplitl [Hry8]; · iexact Hry8
      isplitl [Hrd3]; · (unfold free; iexists f5; iexact Hrd3)
      isplitl [Hrd4]; · (unfold free; iexists f5; iexact Hrd4)
      unfold free; iexists f5; iexact Hrd5
    isplitl [Hrz8 Hrd0 Hrd1 Hrd2]
    · rw [barOut_2]
      isplitl [Hrz8]; · iexact Hrz8
      isplitl [Hrd0]; · (unfold free; iexists f5; iexact Hrd0)
      isplitl [Hrd1]; · (unfold free; iexists f5; iexact Hrd1)
      unfold free; iexists f5; iexact Hrd2
    isplitl [HO]; · iexact HO
    isplitl [Hc_bar]; · iexact Hc_bar
    isplitl [Hp_bar]; · iexact Hp_bar
    iexact Hmw
  iintro ⟨HO, Hp_bar, Hq0, Hq1, Hq2⟩
  ihave Hq0 := (Entails.of_eq (barPay_0 (F := F) c)) $$ Hq0
  ihave Hq1 := (Entails.of_eq (barPay_1 (F := F) c)) $$ Hq1
  ihave Hq2 := (Entails.of_eq (barPay_2 (F := F) c)) $$ Hq2
  icases Hq0 with ⟨⟨Hd_cx0, Hd_cx1, Hd_cx2, Hd_cx3, Hd_cx4, Hd_cx5, Hd_cx6, Hd_cx7⟩, Hd_cd0, Hd_cd1⟩
  icases Hq1 with ⟨⟨Hd_ry0, Hd_ry1, Hd_ry2, Hd_ry3, Hd_ry4, Hd_ry5, Hd_ry6, Hd_ry7⟩, Hd_rd3, Hd_rd4, Hd_rd5⟩
  icases Hq2 with ⟨⟨Hd_rz0, Hd_rz1, Hd_rz2, Hd_rz3, Hd_rz4, Hd_rz5, Hd_rz6, Hd_rz7⟩, Hd_rd0, Hd_rd1, Hd_rd2⟩
  ihave Hx := (Entails.of_eq (whole_pts c cc0_stg0_0 (xb m c))) $$ Hx
  ihave Hx := (share_halves (xb m c)).1 $$ Hx
  icases Hx with ⟨HxL, HxR⟩
  ihave HxL := (take10 m c hL).1 $$ HxL
  icases HxL with ⟨Hxh0, Hxh1, Hxh2, Hxh3, Hxh4, Hxh5, Hxh6, Hxh7, Hxh8, Hxh9, Hxrest⟩

  iapply (copyX m K c 0 _ (dev4_eq c) _ _ (off1_w0 c) _ (owedL ((paid c).drop 4))) $$ [Hxh0 Hd_cx0 HO Ht_sx0 Ht_rx0]
  · isplitr; · iexact Hrec
    isplitl [Hxh0]; · iexact Hxh0
    isplitl [Hd_cx0]; · iexact Hd_cx0
    isplitl [HO]; · iexact HO
    isplitl [Ht_sx0]; · iexact Ht_sx0
    iexact Ht_rx0
  iintro ⟨Hcs_sx0, HO⟩

  iapply (copyX m K c 1 _ (dev5_eq c) _ _ (off1_w32 c) _ (owedL ((paid c).drop 5))) $$ [Hxh1 Hd_cx1 HO Ht_sx1 Ht_rx1]
  · isplitr; · iexact Hrec
    isplitl [Hxh1]; · iexact Hxh1
    isplitl [Hd_cx1]; · iexact Hd_cx1
    isplitl [HO]; · iexact HO
    isplitl [Ht_sx1]; · iexact Ht_sx1
    iexact Ht_rx1
  iintro ⟨Hcs_sx1, HO⟩

  iapply (copyX m K c 2 _ (dev6_eq c) _ _ (off1_w64 c) _ (owedL ((paid c).drop 6))) $$ [Hxh2 Hd_cx2 HO Ht_sx2 Ht_rx2]
  · isplitr; · iexact Hrec
    isplitl [Hxh2]; · iexact Hxh2
    isplitl [Hd_cx2]; · iexact Hd_cx2
    isplitl [HO]; · iexact HO
    isplitl [Ht_sx2]; · iexact Ht_sx2
    iexact Ht_rx2
  iintro ⟨Hcs_sx2, HO⟩

  iapply (copyX m K c 3 _ (dev7_eq c) _ _ (off1_w96 c) _ (owedL ((paid c).drop 7))) $$ [Hxh3 Hd_cx3 HO Ht_sx3 Ht_rx3]
  · isplitr; · iexact Hrec
    isplitl [Hxh3]; · iexact Hxh3
    isplitl [Hd_cx3]; · iexact Hd_cx3
    isplitl [HO]; · iexact HO
    isplitl [Ht_sx3]; · iexact Ht_sx3
    iexact Ht_rx3
  iintro ⟨Hcs_sx3, HO⟩

  iapply (copyX m K c 4 _ (dev8_eq c) _ _ (off1_w128 c) _ (owedL ((paid c).drop 8))) $$ [Hxh4 Hd_cx4 HO Ht_sx4 Ht_rx4]
  · isplitr; · iexact Hrec
    isplitl [Hxh4]; · iexact Hxh4
    isplitl [Hd_cx4]; · iexact Hd_cx4
    isplitl [HO]; · iexact HO
    isplitl [Ht_sx4]; · iexact Ht_sx4
    iexact Ht_rx4
  iintro ⟨Hcs_sx4, HO⟩

  iapply (copyX m K c 5 _ (dev9_eq c) _ _ (off1_w160 c) _ (owedL ((paid c).drop 9))) $$ [Hxh5 Hd_cx5 HO Ht_sx5 Ht_rx5]
  · isplitr; · iexact Hrec
    isplitl [Hxh5]; · iexact Hxh5
    isplitl [Hd_cx5]; · iexact Hd_cx5
    isplitl [HO]; · iexact HO
    isplitl [Ht_sx5]; · iexact Ht_sx5
    iexact Ht_rx5
  iintro ⟨Hcs_sx5, HO⟩

  iapply (copyX m K c 6 _ (dev10_eq c) _ _ (off1_w192 c) _ (owedL ((paid c).drop 10))) $$ [Hxh6 Hd_cx6 HO Ht_sx6 Ht_rx6]
  · isplitr; · iexact Hrec
    isplitl [Hxh6]; · iexact Hxh6
    isplitl [Hd_cx6]; · iexact Hd_cx6
    isplitl [HO]; · iexact HO
    isplitl [Ht_sx6]; · iexact Ht_sx6
    iexact Ht_rx6
  iintro ⟨Hcs_sx6, HO⟩

  iapply (copyX m K c 7 _ (dev11_eq c) _ _ (off1_w224 c) _ (owedL ((paid c).drop 11))) $$ [Hxh7 Hd_cx7 HO Ht_sx7 Ht_rx7]
  · isplitr; · iexact Hrec
    isplitl [Hxh7]; · iexact Hxh7
    isplitl [Hd_cx7]; · iexact Hd_cx7
    isplitl [HO]; · iexact HO
    isplitl [Ht_sx7]; · iexact Ht_sx7
    iexact Ht_rx7
  iintro ⟨Hcs_sx7, HO⟩

  iapply (copyX m K c 8 _ (dev12_eq c) _ _ (off2_w192 c) _ (owedL ((paid c).drop 12))) $$ [Hxh8 Hd_cd0 HO Ht_sx8 Ht_rx8]
  · isplitr; · iexact Hrec
    isplitl [Hxh8]; · iexact Hxh8
    isplitl [Hd_cd0]; · iexact Hd_cd0
    isplitl [HO]; · iexact HO
    isplitl [Ht_sx8]; · iexact Ht_sx8
    iexact Ht_rx8
  iintro ⟨Hcs_sx8, HO⟩

  iapply (copyX m K c 9 _ (dev13_eq c) _ _ (off2_w224 c) _ (owedL ((paid c).drop 13))) $$ [Hxh9 Hd_cd1 HO Ht_sx9 Ht_rx9]
  · isplitr; · iexact Hrec
    isplitl [Hxh9]; · iexact Hxh9
    isplitl [Hd_cd1]; · iexact Hd_cd1
    isplitl [HO]; · iexact HO
    isplitl [Ht_sx9]; · iexact Ht_sx9
    iexact Ht_rx9
  iintro ⟨Hcs_sx9, HO⟩
  ihave Hout := (Entails.of_eq (whole_pts c cc0_stg1_0 g1)) $$ Hout

  ihave Hmw := (mayWait_rx (F := F) c 0 13 (by omega)) $$ Hlev
  iapply (seg2 m K c 0 _ _ (dev14_eq c) (dev15_eq c) _ _ _ _ (off3_w0 c) (off3_w0 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 15)) _)
    $$ [Hc_rx0 Hp_rx0 Hmw HO HxR Hsq0 Hd_ry0 Hd_rz0 Ht_sy0 Ht_ry0 Ht_sz0 Ht_rz0 Hout]
  · isplitr; · iexact Hrec
    isplitl [Hc_rx0]; · iexact Hc_rx0
    isplitl [Hp_rx0]; · iexact Hp_rx0
    isplitl [Hmw]; · iexact Hmw
    isplitl [HO]; · iexact HO
    isplitl [HxR]; · iexact HxR
    isplitl [Hsq0]; · iexact Hsq0
    isplitl [Hd_ry0]; · iexact Hd_ry0
    isplitl [Hd_rz0]; · iexact Hd_rz0
    isplitl [Ht_sy0]; · iexact Ht_sy0
    isplitl [Ht_ry0]; · iexact Ht_ry0
    isplitl [Ht_sz0]; · iexact Ht_sz0
    isplitl [Ht_rz0]; · iexact Ht_rz0
    iexact Hout
  iintro ⟨HO, Hp_rx0, Hcx0, HxR, Hcs_sy0, Hcs_sz0, Hout⟩

  ihave Hmw := (mayWait_rx (F := F) c 1 15 (by omega)) $$ Hlev
  iapply (seg2 m K c 1 _ _ (dev16_eq c) (dev17_eq c) _ _ _ _ (off3_w32 c) (off3_w32 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 17)) _)
    $$ [Hc_rx1 Hp_rx1 Hmw HO HxR Hsq1 Hd_ry1 Hd_rz1 Ht_sy1 Ht_ry1 Ht_sz1 Ht_rz1 Hout]
  · isplitr; · iexact Hrec
    isplitl [Hc_rx1]; · iexact Hc_rx1
    isplitl [Hp_rx1]; · iexact Hp_rx1
    isplitl [Hmw]; · iexact Hmw
    isplitl [HO]; · iexact HO
    isplitl [HxR]; · iexact HxR
    isplitl [Hsq1]; · iexact Hsq1
    isplitl [Hd_ry1]; · iexact Hd_ry1
    isplitl [Hd_rz1]; · iexact Hd_rz1
    isplitl [Ht_sy1]; · iexact Ht_sy1
    isplitl [Ht_ry1]; · iexact Ht_ry1
    isplitl [Ht_sz1]; · iexact Ht_sz1
    isplitl [Ht_rz1]; · iexact Ht_rz1
    iexact Hout
  iintro ⟨HO, Hp_rx1, Hcx1, HxR, Hcs_sy1, Hcs_sz1, Hout⟩

  ihave Hmw := (mayWait_rx (F := F) c 2 17 (by omega)) $$ Hlev
  iapply (seg2 m K c 2 _ _ (dev18_eq c) (dev19_eq c) _ _ _ _ (off3_w64 c) (off3_w64 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 19)) _)
    $$ [Hc_rx2 Hp_rx2 Hmw HO HxR Hsq2 Hd_ry2 Hd_rz2 Ht_sy2 Ht_ry2 Ht_sz2 Ht_rz2 Hout]
  · isplitr; · iexact Hrec
    isplitl [Hc_rx2]; · iexact Hc_rx2
    isplitl [Hp_rx2]; · iexact Hp_rx2
    isplitl [Hmw]; · iexact Hmw
    isplitl [HO]; · iexact HO
    isplitl [HxR]; · iexact HxR
    isplitl [Hsq2]; · iexact Hsq2
    isplitl [Hd_ry2]; · iexact Hd_ry2
    isplitl [Hd_rz2]; · iexact Hd_rz2
    isplitl [Ht_sy2]; · iexact Ht_sy2
    isplitl [Ht_ry2]; · iexact Ht_ry2
    isplitl [Ht_sz2]; · iexact Ht_sz2
    isplitl [Ht_rz2]; · iexact Ht_rz2
    iexact Hout
  iintro ⟨HO, Hp_rx2, Hcx2, HxR, Hcs_sy2, Hcs_sz2, Hout⟩

  ihave Hmw := (mayWait_rx (F := F) c 3 19 (by omega)) $$ Hlev
  iapply (seg2 m K c 3 _ _ (dev20_eq c) (dev21_eq c) _ _ _ _ (off3_w96 c) (off3_w96 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 21)) _)
    $$ [Hc_rx3 Hp_rx3 Hmw HO HxR Hsq3 Hd_ry3 Hd_rz3 Ht_sy3 Ht_ry3 Ht_sz3 Ht_rz3 Hout]
  · isplitr; · iexact Hrec
    isplitl [Hc_rx3]; · iexact Hc_rx3
    isplitl [Hp_rx3]; · iexact Hp_rx3
    isplitl [Hmw]; · iexact Hmw
    isplitl [HO]; · iexact HO
    isplitl [HxR]; · iexact HxR
    isplitl [Hsq3]; · iexact Hsq3
    isplitl [Hd_ry3]; · iexact Hd_ry3
    isplitl [Hd_rz3]; · iexact Hd_rz3
    isplitl [Ht_sy3]; · iexact Ht_sy3
    isplitl [Ht_ry3]; · iexact Ht_ry3
    isplitl [Ht_sz3]; · iexact Ht_sz3
    isplitl [Ht_rz3]; · iexact Ht_rz3
    iexact Hout
  iintro ⟨HO, Hp_rx3, Hcx3, HxR, Hcs_sy3, Hcs_sz3, Hout⟩

  ihave Hmw := (mayWait_rx (F := F) c 4 21 (by omega)) $$ Hlev
  iapply (seg2 m K c 4 _ _ (dev22_eq c) (dev23_eq c) _ _ _ _ (off3_w128 c) (off3_w128 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 23)) _)
    $$ [Hc_rx4 Hp_rx4 Hmw HO HxR Hsq4 Hd_ry4 Hd_rz4 Ht_sy4 Ht_ry4 Ht_sz4 Ht_rz4 Hout]
  · isplitr; · iexact Hrec
    isplitl [Hc_rx4]; · iexact Hc_rx4
    isplitl [Hp_rx4]; · iexact Hp_rx4
    isplitl [Hmw]; · iexact Hmw
    isplitl [HO]; · iexact HO
    isplitl [HxR]; · iexact HxR
    isplitl [Hsq4]; · iexact Hsq4
    isplitl [Hd_ry4]; · iexact Hd_ry4
    isplitl [Hd_rz4]; · iexact Hd_rz4
    isplitl [Ht_sy4]; · iexact Ht_sy4
    isplitl [Ht_ry4]; · iexact Ht_ry4
    isplitl [Ht_sz4]; · iexact Ht_sz4
    isplitl [Ht_rz4]; · iexact Ht_rz4
    iexact Hout
  iintro ⟨HO, Hp_rx4, Hcx4, HxR, Hcs_sy4, Hcs_sz4, Hout⟩

  ihave Hmw := (mayWait_rx (F := F) c 5 23 (by omega)) $$ Hlev
  iapply (seg2 m K c 5 _ _ (dev24_eq c) (dev25_eq c) _ _ _ _ (off3_w160 c) (off3_w160 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 25)) _)
    $$ [Hc_rx5 Hp_rx5 Hmw HO HxR Hsq5 Hd_ry5 Hd_rz5 Ht_sy5 Ht_ry5 Ht_sz5 Ht_rz5 Hout]
  · isplitr; · iexact Hrec
    isplitl [Hc_rx5]; · iexact Hc_rx5
    isplitl [Hp_rx5]; · iexact Hp_rx5
    isplitl [Hmw]; · iexact Hmw
    isplitl [HO]; · iexact HO
    isplitl [HxR]; · iexact HxR
    isplitl [Hsq5]; · iexact Hsq5
    isplitl [Hd_ry5]; · iexact Hd_ry5
    isplitl [Hd_rz5]; · iexact Hd_rz5
    isplitl [Ht_sy5]; · iexact Ht_sy5
    isplitl [Ht_ry5]; · iexact Ht_ry5
    isplitl [Ht_sz5]; · iexact Ht_sz5
    isplitl [Ht_rz5]; · iexact Ht_rz5
    iexact Hout
  iintro ⟨HO, Hp_rx5, Hcx5, HxR, Hcs_sy5, Hcs_sz5, Hout⟩

  ihave Hmw := (mayWait_rx (F := F) c 6 25 (by omega)) $$ Hlev
  iapply (seg2 m K c 6 _ _ (dev26_eq c) (dev27_eq c) _ _ _ _ (off3_w192 c) (off3_w192 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 27)) _)
    $$ [Hc_rx6 Hp_rx6 Hmw HO HxR Hsq6 Hd_ry6 Hd_rz6 Ht_sy6 Ht_ry6 Ht_sz6 Ht_rz6 Hout]
  · isplitr; · iexact Hrec
    isplitl [Hc_rx6]; · iexact Hc_rx6
    isplitl [Hp_rx6]; · iexact Hp_rx6
    isplitl [Hmw]; · iexact Hmw
    isplitl [HO]; · iexact HO
    isplitl [HxR]; · iexact HxR
    isplitl [Hsq6]; · iexact Hsq6
    isplitl [Hd_ry6]; · iexact Hd_ry6
    isplitl [Hd_rz6]; · iexact Hd_rz6
    isplitl [Ht_sy6]; · iexact Ht_sy6
    isplitl [Ht_ry6]; · iexact Ht_ry6
    isplitl [Ht_sz6]; · iexact Ht_sz6
    isplitl [Ht_rz6]; · iexact Ht_rz6
    iexact Hout
  iintro ⟨HO, Hp_rx6, Hcx6, HxR, Hcs_sy6, Hcs_sz6, Hout⟩

  ihave Hmw := (mayWait_rx (F := F) c 7 27 (by omega)) $$ Hlev
  iapply (seg2 m K c 7 _ _ (dev28_eq c) (dev29_eq c) _ _ _ _ (off3_w224 c) (off3_w224 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 29)) _)
    $$ [Hc_rx7 Hp_rx7 Hmw HO HxR Hsq7 Hd_ry7 Hd_rz7 Ht_sy7 Ht_ry7 Ht_sz7 Ht_rz7 Hout]
  · isplitr; · iexact Hrec
    isplitl [Hc_rx7]; · iexact Hc_rx7
    isplitl [Hp_rx7]; · iexact Hp_rx7
    isplitl [Hmw]; · iexact Hmw
    isplitl [HO]; · iexact HO
    isplitl [HxR]; · iexact HxR
    isplitl [Hsq7]; · iexact Hsq7
    isplitl [Hd_ry7]; · iexact Hd_ry7
    isplitl [Hd_rz7]; · iexact Hd_rz7
    isplitl [Ht_sy7]; · iexact Ht_sy7
    isplitl [Ht_ry7]; · iexact Ht_ry7
    isplitl [Ht_sz7]; · iexact Ht_sz7
    isplitl [Ht_rz7]; · iexact Ht_rz7
    iexact Hout
  iintro ⟨HO, Hp_rx7, Hcx7, HxR, Hcs_sy7, Hcs_sz7, Hout⟩

  ihave Hmw := (mayWait_ry (F := F) c 0 29 (by omega)) $$ Hlev
  iapply (seg3y_fwd m K c 0 (by decide) _ (dev30_eq c) _ _ (off4_w0 c) _ _ (by rfl) _ (owedL ((paid c).drop 30)) _) $$ [Hc_ry0 Hp_ry0 Hmw HO Hout Hd_rd0 Ht_sfz0 Ht_rfz0]
  · isplitr; · iexact Hrec
    isplitl [Hc_ry0]; · iexact Hc_ry0
    isplitl [Hp_ry0]; · iexact Hp_ry0
    isplitl [Hmw]; · iexact Hmw
    isplitl [HO]; · iexact HO
    isplitl [Hout]; · iexact Hout
    isplitl [Hd_rd0]; · iexact Hd_rd0
    isplitl [Ht_sfz0]; · iexact Ht_sfz0
    iexact Ht_rfz0
  iintro ⟨HO, Hp_ry0, Hout, Hcs_sfz0⟩

  ihave Hmw := (mayWait_rz (F := F) c 0 30 (by omega)) $$ Hlev
  iapply (seg3z m K c 0 _ _ (off5_w0 c) _ _ (by rfl) _ (owedL ((paid c).drop 30)) _) $$ [Hc_rz0 Hp_rz0 Hmw HO Hout]
  · isplitr; · iexact Hrec
    isplitl [Hc_rz0]; · iexact Hc_rz0
    isplitl [Hp_rz0]; · iexact Hp_rz0
    isplitl [Hmw]; · iexact Hmw
    isplitl [HO]; · iexact HO
    iexact Hout
  iintro ⟨HO, Hp_rz0, Hout, Hrz0⟩

  ihave Hmw := (mayWait_ry (F := F) c 1 30 (by omega)) $$ Hlev
  iapply (seg3y_fwd m K c 1 (by decide) _ (dev31_eq c) _ _ (off4_w32 c) _ _ (by rfl) _ (owedL ((paid c).drop 31)) _) $$ [Hc_ry1 Hp_ry1 Hmw HO Hout Hd_rd1 Ht_sfz1 Ht_rfz1]
  · isplitr; · iexact Hrec
    isplitl [Hc_ry1]; · iexact Hc_ry1
    isplitl [Hp_ry1]; · iexact Hp_ry1
    isplitl [Hmw]; · iexact Hmw
    isplitl [HO]; · iexact HO
    isplitl [Hout]; · iexact Hout
    isplitl [Hd_rd1]; · iexact Hd_rd1
    isplitl [Ht_sfz1]; · iexact Ht_sfz1
    iexact Ht_rfz1
  iintro ⟨HO, Hp_ry1, Hout, Hcs_sfz1⟩

  ihave Hmw := (mayWait_rz (F := F) c 1 31 (by omega)) $$ Hlev
  iapply (seg3z m K c 1 _ _ (off5_w32 c) _ _ (by rfl) _ (owedL ((paid c).drop 31)) _) $$ [Hc_rz1 Hp_rz1 Hmw HO Hout]
  · isplitr; · iexact Hrec
    isplitl [Hc_rz1]; · iexact Hc_rz1
    isplitl [Hp_rz1]; · iexact Hp_rz1
    isplitl [Hmw]; · iexact Hmw
    isplitl [HO]; · iexact HO
    iexact Hout
  iintro ⟨HO, Hp_rz1, Hout, Hrz1⟩

  ihave Hmw := (mayWait_ry (F := F) c 2 31 (by omega)) $$ Hlev
  iapply (seg3y_fwd m K c 2 (by decide) _ (dev32_eq c) _ _ (off4_w64 c) _ _ (by rfl) _ (owedL ((paid c).drop 32)) _) $$ [Hc_ry2 Hp_ry2 Hmw HO Hout Hd_rd2 Ht_sfz2 Ht_rfz2]
  · isplitr; · iexact Hrec
    isplitl [Hc_ry2]; · iexact Hc_ry2
    isplitl [Hp_ry2]; · iexact Hp_ry2
    isplitl [Hmw]; · iexact Hmw
    isplitl [HO]; · iexact HO
    isplitl [Hout]; · iexact Hout
    isplitl [Hd_rd2]; · iexact Hd_rd2
    isplitl [Ht_sfz2]; · iexact Ht_sfz2
    iexact Ht_rfz2
  iintro ⟨HO, Hp_ry2, Hout, Hcs_sfz2⟩

  ihave Hmw := (mayWait_rz (F := F) c 2 32 (by omega)) $$ Hlev
  iapply (seg3z m K c 2 _ _ (off5_w64 c) _ _ (by rfl) _ (owedL ((paid c).drop 32)) _) $$ [Hc_rz2 Hp_rz2 Hmw HO Hout]
  · isplitr; · iexact Hrec
    isplitl [Hc_rz2]; · iexact Hc_rz2
    isplitl [Hp_rz2]; · iexact Hp_rz2
    isplitl [Hmw]; · iexact Hmw
    isplitl [HO]; · iexact HO
    iexact Hout
  iintro ⟨HO, Hp_rz2, Hout, Hrz2⟩

  ihave Hmw := (mayWait_ry (F := F) c 3 32 (by omega)) $$ Hlev
  iapply (seg3y m K c 3 _ _ (off4_w96 c) _ _ (by rfl) _ (owedL ((paid c).drop 32)) _) $$ [Hc_ry3 Hp_ry3 Hmw HO Hout]
  · isplitr; · iexact Hrec
    isplitl [Hc_ry3]; · iexact Hc_ry3
    isplitl [Hp_ry3]; · iexact Hp_ry3
    isplitl [Hmw]; · iexact Hmw
    isplitl [HO]; · iexact HO
    iexact Hout
  iintro ⟨HO, Hp_ry3, Hout, Hry3⟩

  ihave Hmw := (mayWait_rz (F := F) c 3 32 (by omega)) $$ Hlev
  iapply (seg3z_fwd m K c 3 (by decide) _ (dev33_eq c) _ _ (off5_w96 c) _ _ (by rfl) _ (owedL ((paid c).drop 33)) _) $$ [Hc_rz3 Hp_rz3 Hmw HO Hout Hd_rd3 Ht_sfy3 Ht_rfy3]
  · isplitr; · iexact Hrec
    isplitl [Hc_rz3]; · iexact Hc_rz3
    isplitl [Hp_rz3]; · iexact Hp_rz3
    isplitl [Hmw]; · iexact Hmw
    isplitl [HO]; · iexact HO
    isplitl [Hout]; · iexact Hout
    isplitl [Hd_rd3]; · iexact Hd_rd3
    isplitl [Ht_sfy3]; · iexact Ht_sfy3
    iexact Ht_rfy3
  iintro ⟨HO, Hp_rz3, Hout, Hcs_sfy3⟩

  ihave Hmw := (mayWait_ry (F := F) c 4 33 (by omega)) $$ Hlev
  iapply (seg3y m K c 4 _ _ (off4_w128 c) _ _ (by rfl) _ (owedL ((paid c).drop 33)) _) $$ [Hc_ry4 Hp_ry4 Hmw HO Hout]
  · isplitr; · iexact Hrec
    isplitl [Hc_ry4]; · iexact Hc_ry4
    isplitl [Hp_ry4]; · iexact Hp_ry4
    isplitl [Hmw]; · iexact Hmw
    isplitl [HO]; · iexact HO
    iexact Hout
  iintro ⟨HO, Hp_ry4, Hout, Hry4⟩

  ihave Hmw := (mayWait_rz (F := F) c 4 33 (by omega)) $$ Hlev
  iapply (seg3z_fwd m K c 4 (by decide) _ (dev34_eq c) _ _ (off5_w128 c) _ _ (by rfl) _ (owedL ((paid c).drop 34)) _) $$ [Hc_rz4 Hp_rz4 Hmw HO Hout Hd_rd4 Ht_sfy4 Ht_rfy4]
  · isplitr; · iexact Hrec
    isplitl [Hc_rz4]; · iexact Hc_rz4
    isplitl [Hp_rz4]; · iexact Hp_rz4
    isplitl [Hmw]; · iexact Hmw
    isplitl [HO]; · iexact HO
    isplitl [Hout]; · iexact Hout
    isplitl [Hd_rd4]; · iexact Hd_rd4
    isplitl [Ht_sfy4]; · iexact Ht_sfy4
    iexact Ht_rfy4
  iintro ⟨HO, Hp_rz4, Hout, Hcs_sfy4⟩

  ihave Hmw := (mayWait_ry (F := F) c 5 34 (by omega)) $$ Hlev
  iapply (seg3y m K c 5 _ _ (off4_w160 c) _ _ (by rfl) _ (owedL ((paid c).drop 34)) _) $$ [Hc_ry5 Hp_ry5 Hmw HO Hout]
  · isplitr; · iexact Hrec
    isplitl [Hc_ry5]; · iexact Hc_ry5
    isplitl [Hp_ry5]; · iexact Hp_ry5
    isplitl [Hmw]; · iexact Hmw
    isplitl [HO]; · iexact HO
    iexact Hout
  iintro ⟨HO, Hp_ry5, Hout, Hry5⟩

  ihave Hmw := (mayWait_rz (F := F) c 5 34 (by omega)) $$ Hlev
  iapply (seg3z_fwd m K c 5 (by decide) _ (dev35_eq c) _ _ (off5_w160 c) _ _ (by rfl) _ (owedL ((paid c).drop 35)) _) $$ [Hc_rz5 Hp_rz5 Hmw HO Hout Hd_rd5 Ht_sfy5 Ht_rfy5]
  · isplitr; · iexact Hrec
    isplitl [Hc_rz5]; · iexact Hc_rz5
    isplitl [Hp_rz5]; · iexact Hp_rz5
    isplitl [Hmw]; · iexact Hmw
    isplitl [HO]; · iexact HO
    isplitl [Hout]; · iexact Hout
    isplitl [Hd_rd5]; · iexact Hd_rd5
    isplitl [Ht_sfy5]; · iexact Ht_sfy5
    iexact Ht_rfy5
  iintro ⟨HO, Hp_rz5, Hout, Hcs_sfy5⟩

  ihave Hmw := (mayWait_ry (F := F) c 6 35 (by omega)) $$ Hlev
  iapply (seg3y m K c 6 _ _ (off4_w192 c) _ _ (by rfl) _ (owedL ((paid c).drop 35)) _) $$ [Hc_ry6 Hp_ry6 Hmw HO Hout]
  · isplitr; · iexact Hrec
    isplitl [Hc_ry6]; · iexact Hc_ry6
    isplitl [Hp_ry6]; · iexact Hp_ry6
    isplitl [Hmw]; · iexact Hmw
    isplitl [HO]; · iexact HO
    iexact Hout
  iintro ⟨HO, Hp_ry6, Hout, Hry6⟩

  ihave Hmw := (mayWait_rz (F := F) c 6 35 (by omega)) $$ Hlev
  iapply (seg3z m K c 6 _ _ (off5_w192 c) _ _ (by rfl) _ (owedL ((paid c).drop 35)) _) $$ [Hc_rz6 Hp_rz6 Hmw HO Hout]
  · isplitr; · iexact Hrec
    isplitl [Hc_rz6]; · iexact Hc_rz6
    isplitl [Hp_rz6]; · iexact Hp_rz6
    isplitl [Hmw]; · iexact Hmw
    isplitl [HO]; · iexact HO
    iexact Hout
  iintro ⟨HO, Hp_rz6, Hout, Hrz6⟩

  ihave Hmw := (mayWait_ry (F := F) c 7 35 (by omega)) $$ Hlev
  iapply (seg3y m K c 7 _ _ (off4_w224 c) _ _ (by rfl) _ (owedL ((paid c).drop 35)) _) $$ [Hc_ry7 Hp_ry7 Hmw HO Hout]
  · isplitr; · iexact Hrec
    isplitl [Hc_ry7]; · iexact Hc_ry7
    isplitl [Hp_ry7]; · iexact Hp_ry7
    isplitl [Hmw]; · iexact Hmw
    isplitl [HO]; · iexact HO
    iexact Hout
  iintro ⟨HO, Hp_ry7, Hout, Hry7⟩

  ihave Hmw := (mayWait_rz (F := F) c 7 35 (by omega)) $$ Hlev
  iapply (seg3z m K c 7 _ _ (off5_w224 c) _ _ (by rfl) _ (owedL ((paid c).drop 35)) _) $$ [Hc_rz7 Hp_rz7 Hmw HO Hout]
  · isplitr; · iexact Hrec
    isplitl [Hc_rz7]; · iexact Hc_rz7
    isplitl [Hp_rz7]; · iexact Hp_rz7
    isplitl [Hmw]; · iexact Hmw
    isplitl [HO]; · iexact HO
    iexact Hout
  iintro ⟨HO, Hp_rz7, Hout, Hrz7⟩

  iapply (seg4 m K c 0 _ _ _ _ (off6_w192 c) (off6_w192 c) _ (fun a b => by simp only [pay1, pay2, pay3, pay4, pay5, pay6, pay7, pay8, pay9, pay10, pay11, pay12, pay13, pay14, pay15, pay16, pay17, pay18, pay19]) _ _ (by rfl) _ _) $$ [Hc_rx8 Hp_rx8 HO HxR Hout]
  · isplitr; · iexact Hrec
    isplitl [Hc_rx8]; · iexact Hc_rx8
    isplitl [Hp_rx8]; · iexact Hp_rx8
    isplitl [HO]; · iexact HO
    isplitr; · iexact Hlev
    isplitl [HxR]; · iexact HxR
    iexact Hout
  iintro ⟨HO, Hp_rx8, Hcd0, HxR, Hout⟩

  iapply (seg4 m K c 1 _ _ _ _ (off6_w224 c) (off6_w224 c) _ (fun a b => by simp only [pay1, pay2, pay3, pay4, pay5, pay6, pay7, pay8, pay9, pay10, pay11, pay12, pay13, pay14, pay15, pay16, pay17, pay18, pay19]) _ _ (by rfl) _ _) $$ [Hc_rx9 Hp_rx9 HO HxR Hout]
  · isplitr; · iexact Hrec
    isplitl [Hc_rx9]; · iexact Hc_rx9
    isplitl [Hp_rx9]; · iexact Hp_rx9
    isplitl [HO]; · iexact HO
    isplitr; · iexact Hlev
    isplitl [HxR]; · iexact HxR
    iexact Hout
  iintro ⟨HO, Hp_rx9, Hcd1, HxR, Hout⟩

  iapply (seg5z m K c 0 (by decide) _ _ (off6_w0 c) _ _ (by rfl) _ _) $$ [Hc_rfz0 Hp_rfz0 HO Hout]
  · isplitr; · iexact Hrec
    isplitl [Hc_rfz0]; · iexact Hc_rfz0
    isplitl [Hp_rfz0]; · iexact Hp_rfz0
    isplitl [HO]; · iexact HO
    isplitr; · iexact Hlev
    iexact Hout
  iintro ⟨HO, Hp_rfz0, Hrd0, Hout⟩

  iapply (seg5z m K c 1 (by decide) _ _ (off6_w32 c) _ _ (by rfl) _ _) $$ [Hc_rfz1 Hp_rfz1 HO Hout]
  · isplitr; · iexact Hrec
    isplitl [Hc_rfz1]; · iexact Hc_rfz1
    isplitl [Hp_rfz1]; · iexact Hp_rfz1
    isplitl [HO]; · iexact HO
    isplitr; · iexact Hlev
    iexact Hout
  iintro ⟨HO, Hp_rfz1, Hrd1, Hout⟩

  iapply (seg5z m K c 2 (by decide) _ _ (off6_w64 c) _ _ (by rfl) _ _) $$ [Hc_rfz2 Hp_rfz2 HO Hout]
  · isplitr; · iexact Hrec
    isplitl [Hc_rfz2]; · iexact Hc_rfz2
    isplitl [Hp_rfz2]; · iexact Hp_rfz2
    isplitl [HO]; · iexact HO
    isplitr; · iexact Hlev
    iexact Hout
  iintro ⟨HO, Hp_rfz2, Hrd2, Hout⟩

  iapply (seg5y m K c 3 (by decide) _ _ (off6_w96 c) _ _ (by rfl) _ _) $$ [Hc_rfy3 Hp_rfy3 HO Hout]
  · isplitr; · iexact Hrec
    isplitl [Hc_rfy3]; · iexact Hc_rfy3
    isplitl [Hp_rfy3]; · iexact Hp_rfy3
    isplitl [HO]; · iexact HO
    isplitr; · iexact Hlev
    iexact Hout
  iintro ⟨HO, Hp_rfy3, Hrd3, Hout⟩

  iapply (seg5y m K c 4 (by decide) _ _ (off6_w128 c) _ _ (by rfl) _ _) $$ [Hc_rfy4 Hp_rfy4 HO Hout]
  · isplitr; · iexact Hrec
    isplitl [Hc_rfy4]; · iexact Hc_rfy4
    isplitl [Hp_rfy4]; · iexact Hp_rfy4
    isplitl [HO]; · iexact HO
    isplitr; · iexact Hlev
    iexact Hout
  iintro ⟨HO, Hp_rfy4, Hrd4, Hout⟩

  iapply (seg5y m K c 5 (by decide) _ _ (off6_w160 c) _ _ (by rfl) _ _) $$ [Hc_rfy5 Hp_rfy5 HO Hout]
  · isplitr; · iexact Hrec
    isplitl [Hc_rfy5]; · iexact Hc_rfy5
    isplitl [Hp_rfy5]; · iexact Hp_rfy5
    isplitl [HO]; · iexact HO
    isplitr; · iexact Hlev
    iexact Hout
  iintro ⟨HO, Hp_rfy5, Hrd5, Hout⟩

  iapply (wsx m K c 0 _ _ (by rfl) _) $$ [Hcs_sx0 Hp_sx0 HO]
  · isplitr; · iexact Hrec
    isplitl [Hcs_sx0]; · iexact Hcs_sx0
    isplitl [Hp_sx0]; · iexact Hp_sx0
    isplitl [HO]; · iexact HO
    iexact Hlev
  iintro ⟨HO, Hp_sx0, Hxh0⟩

  iapply (wsx m K c 1 _ _ (by rfl) _) $$ [Hcs_sx1 Hp_sx1 HO]
  · isplitr; · iexact Hrec
    isplitl [Hcs_sx1]; · iexact Hcs_sx1
    isplitl [Hp_sx1]; · iexact Hp_sx1
    isplitl [HO]; · iexact HO
    iexact Hlev
  iintro ⟨HO, Hp_sx1, Hxh1⟩

  iapply (wsx m K c 2 _ _ (by rfl) _) $$ [Hcs_sx2 Hp_sx2 HO]
  · isplitr; · iexact Hrec
    isplitl [Hcs_sx2]; · iexact Hcs_sx2
    isplitl [Hp_sx2]; · iexact Hp_sx2
    isplitl [HO]; · iexact HO
    iexact Hlev
  iintro ⟨HO, Hp_sx2, Hxh2⟩

  iapply (wsx m K c 3 _ _ (by rfl) _) $$ [Hcs_sx3 Hp_sx3 HO]
  · isplitr; · iexact Hrec
    isplitl [Hcs_sx3]; · iexact Hcs_sx3
    isplitl [Hp_sx3]; · iexact Hp_sx3
    isplitl [HO]; · iexact HO
    iexact Hlev
  iintro ⟨HO, Hp_sx3, Hxh3⟩

  iapply (wsx m K c 4 _ _ (by rfl) _) $$ [Hcs_sx4 Hp_sx4 HO]
  · isplitr; · iexact Hrec
    isplitl [Hcs_sx4]; · iexact Hcs_sx4
    isplitl [Hp_sx4]; · iexact Hp_sx4
    isplitl [HO]; · iexact HO
    iexact Hlev
  iintro ⟨HO, Hp_sx4, Hxh4⟩

  iapply (wsx m K c 5 _ _ (by rfl) _) $$ [Hcs_sx5 Hp_sx5 HO]
  · isplitr; · iexact Hrec
    isplitl [Hcs_sx5]; · iexact Hcs_sx5
    isplitl [Hp_sx5]; · iexact Hp_sx5
    isplitl [HO]; · iexact HO
    iexact Hlev
  iintro ⟨HO, Hp_sx5, Hxh5⟩

  iapply (wsx m K c 6 _ _ (by rfl) _) $$ [Hcs_sx6 Hp_sx6 HO]
  · isplitr; · iexact Hrec
    isplitl [Hcs_sx6]; · iexact Hcs_sx6
    isplitl [Hp_sx6]; · iexact Hp_sx6
    isplitl [HO]; · iexact HO
    iexact Hlev
  iintro ⟨HO, Hp_sx6, Hxh6⟩

  iapply (wsx m K c 7 _ _ (by rfl) _) $$ [Hcs_sx7 Hp_sx7 HO]
  · isplitr; · iexact Hrec
    isplitl [Hcs_sx7]; · iexact Hcs_sx7
    isplitl [Hp_sx7]; · iexact Hp_sx7
    isplitl [HO]; · iexact HO
    iexact Hlev
  iintro ⟨HO, Hp_sx7, Hxh7⟩

  iapply (wsx m K c 8 _ _ (by rfl) _) $$ [Hcs_sx8 Hp_sx8 HO]
  · isplitr; · iexact Hrec
    isplitl [Hcs_sx8]; · iexact Hcs_sx8
    isplitl [Hp_sx8]; · iexact Hp_sx8
    isplitl [HO]; · iexact HO
    iexact Hlev
  iintro ⟨HO, Hp_sx8, Hxh8⟩

  iapply (wsx m K c 9 _ _ (by rfl) _) $$ [Hcs_sx9 Hp_sx9 HO]
  · isplitr; · iexact Hrec
    isplitl [Hcs_sx9]; · iexact Hcs_sx9
    isplitl [Hp_sx9]; · iexact Hp_sx9
    isplitl [HO]; · iexact HO
    iexact Hlev
  iintro ⟨HO, Hp_sx9, Hxh9⟩

  iapply (wsy m K c 0 _ _ (by rfl) _) $$ [Hcs_sy0 Hp_sy0 HO]
  · isplitr; · iexact Hrec
    isplitl [Hcs_sy0]; · iexact Hcs_sy0
    isplitl [Hp_sy0]; · iexact Hp_sy0
    isplitl [HO]; · iexact HO
    iexact Hlev
  iintro ⟨HO, Hp_sy0, HsqL0⟩

  iapply (wsz m K c 0 _ _ (by rfl) _) $$ [Hcs_sz0 Hp_sz0 HO]
  · isplitr; · iexact Hrec
    isplitl [Hcs_sz0]; · iexact Hcs_sz0
    isplitl [Hp_sz0]; · iexact Hp_sz0
    isplitl [HO]; · iexact HO
    iexact Hlev
  iintro ⟨HO, Hp_sz0, HsqR0⟩

  iapply (wsy m K c 1 _ _ (by rfl) _) $$ [Hcs_sy1 Hp_sy1 HO]
  · isplitr; · iexact Hrec
    isplitl [Hcs_sy1]; · iexact Hcs_sy1
    isplitl [Hp_sy1]; · iexact Hp_sy1
    isplitl [HO]; · iexact HO
    iexact Hlev
  iintro ⟨HO, Hp_sy1, HsqL1⟩

  iapply (wsz m K c 1 _ _ (by rfl) _) $$ [Hcs_sz1 Hp_sz1 HO]
  · isplitr; · iexact Hrec
    isplitl [Hcs_sz1]; · iexact Hcs_sz1
    isplitl [Hp_sz1]; · iexact Hp_sz1
    isplitl [HO]; · iexact HO
    iexact Hlev
  iintro ⟨HO, Hp_sz1, HsqR1⟩

  iapply (wsy m K c 2 _ _ (by rfl) _) $$ [Hcs_sy2 Hp_sy2 HO]
  · isplitr; · iexact Hrec
    isplitl [Hcs_sy2]; · iexact Hcs_sy2
    isplitl [Hp_sy2]; · iexact Hp_sy2
    isplitl [HO]; · iexact HO
    iexact Hlev
  iintro ⟨HO, Hp_sy2, HsqL2⟩

  iapply (wsz m K c 2 _ _ (by rfl) _) $$ [Hcs_sz2 Hp_sz2 HO]
  · isplitr; · iexact Hrec
    isplitl [Hcs_sz2]; · iexact Hcs_sz2
    isplitl [Hp_sz2]; · iexact Hp_sz2
    isplitl [HO]; · iexact HO
    iexact Hlev
  iintro ⟨HO, Hp_sz2, HsqR2⟩

  iapply (wsy m K c 3 _ _ (by rfl) _) $$ [Hcs_sy3 Hp_sy3 HO]
  · isplitr; · iexact Hrec
    isplitl [Hcs_sy3]; · iexact Hcs_sy3
    isplitl [Hp_sy3]; · iexact Hp_sy3
    isplitl [HO]; · iexact HO
    iexact Hlev
  iintro ⟨HO, Hp_sy3, HsqL3⟩

  iapply (wsz m K c 3 _ _ (by rfl) _) $$ [Hcs_sz3 Hp_sz3 HO]
  · isplitr; · iexact Hrec
    isplitl [Hcs_sz3]; · iexact Hcs_sz3
    isplitl [Hp_sz3]; · iexact Hp_sz3
    isplitl [HO]; · iexact HO
    iexact Hlev
  iintro ⟨HO, Hp_sz3, HsqR3⟩

  iapply (wsy m K c 4 _ _ (by rfl) _) $$ [Hcs_sy4 Hp_sy4 HO]
  · isplitr; · iexact Hrec
    isplitl [Hcs_sy4]; · iexact Hcs_sy4
    isplitl [Hp_sy4]; · iexact Hp_sy4
    isplitl [HO]; · iexact HO
    iexact Hlev
  iintro ⟨HO, Hp_sy4, HsqL4⟩

  iapply (wsz m K c 4 _ _ (by rfl) _) $$ [Hcs_sz4 Hp_sz4 HO]
  · isplitr; · iexact Hrec
    isplitl [Hcs_sz4]; · iexact Hcs_sz4
    isplitl [Hp_sz4]; · iexact Hp_sz4
    isplitl [HO]; · iexact HO
    iexact Hlev
  iintro ⟨HO, Hp_sz4, HsqR4⟩

  iapply (wsy m K c 5 _ _ (by rfl) _) $$ [Hcs_sy5 Hp_sy5 HO]
  · isplitr; · iexact Hrec
    isplitl [Hcs_sy5]; · iexact Hcs_sy5
    isplitl [Hp_sy5]; · iexact Hp_sy5
    isplitl [HO]; · iexact HO
    iexact Hlev
  iintro ⟨HO, Hp_sy5, HsqL5⟩

  iapply (wsz m K c 5 _ _ (by rfl) _) $$ [Hcs_sz5 Hp_sz5 HO]
  · isplitr; · iexact Hrec
    isplitl [Hcs_sz5]; · iexact Hcs_sz5
    isplitl [Hp_sz5]; · iexact Hp_sz5
    isplitl [HO]; · iexact HO
    iexact Hlev
  iintro ⟨HO, Hp_sz5, HsqR5⟩

  iapply (wsy m K c 6 _ _ (by rfl) _) $$ [Hcs_sy6 Hp_sy6 HO]
  · isplitr; · iexact Hrec
    isplitl [Hcs_sy6]; · iexact Hcs_sy6
    isplitl [Hp_sy6]; · iexact Hp_sy6
    isplitl [HO]; · iexact HO
    iexact Hlev
  iintro ⟨HO, Hp_sy6, HsqL6⟩

  iapply (wsz m K c 6 _ _ (by rfl) _) $$ [Hcs_sz6 Hp_sz6 HO]
  · isplitr; · iexact Hrec
    isplitl [Hcs_sz6]; · iexact Hcs_sz6
    isplitl [Hp_sz6]; · iexact Hp_sz6
    isplitl [HO]; · iexact HO
    iexact Hlev
  iintro ⟨HO, Hp_sz6, HsqR6⟩

  iapply (wsy m K c 7 _ _ (by rfl) _) $$ [Hcs_sy7 Hp_sy7 HO]
  · isplitr; · iexact Hrec
    isplitl [Hcs_sy7]; · iexact Hcs_sy7
    isplitl [Hp_sy7]; · iexact Hp_sy7
    isplitl [HO]; · iexact HO
    iexact Hlev
  iintro ⟨HO, Hp_sy7, HsqL7⟩

  iapply (wsz m K c 7 _ _ (by rfl) _) $$ [Hcs_sz7 Hp_sz7 HO]
  · isplitr; · iexact Hrec
    isplitl [Hcs_sz7]; · iexact Hcs_sz7
    isplitl [Hp_sz7]; · iexact Hp_sz7
    isplitl [HO]; · iexact HO
    iexact Hlev
  iintro ⟨HO, Hp_sz7, HsqR7⟩

  iapply (wsfz m K c 0 (by decide) _ _ (by rfl) _) $$ [Hcs_sfz0 Hp_sfz0 HO]
  · isplitr; · iexact Hrec
    isplitl [Hcs_sfz0]; · iexact Hcs_sfz0
    isplitl [Hp_sfz0]; · iexact Hp_sfz0
    isplitl [HO]; · iexact HO
    iexact Hlev
  iintro ⟨HO, Hp_sfz0, Hry0⟩

  iapply (wsfz m K c 1 (by decide) _ _ (by rfl) _) $$ [Hcs_sfz1 Hp_sfz1 HO]
  · isplitr; · iexact Hrec
    isplitl [Hcs_sfz1]; · iexact Hcs_sfz1
    isplitl [Hp_sfz1]; · iexact Hp_sfz1
    isplitl [HO]; · iexact HO
    iexact Hlev
  iintro ⟨HO, Hp_sfz1, Hry1⟩

  iapply (wsfz m K c 2 (by decide) _ _ (by rfl) _) $$ [Hcs_sfz2 Hp_sfz2 HO]
  · isplitr; · iexact Hrec
    isplitl [Hcs_sfz2]; · iexact Hcs_sfz2
    isplitl [Hp_sfz2]; · iexact Hp_sfz2
    isplitl [HO]; · iexact HO
    iexact Hlev
  iintro ⟨HO, Hp_sfz2, Hry2⟩

  iapply (wsfy m K c 3 (by decide) _ _ (by rfl) _) $$ [Hcs_sfy3 Hp_sfy3 HO]
  · isplitr; · iexact Hrec
    isplitl [Hcs_sfy3]; · iexact Hcs_sfy3
    isplitl [Hp_sfy3]; · iexact Hp_sfy3
    isplitl [HO]; · iexact HO
    iexact Hlev
  iintro ⟨HO, Hp_sfy3, Hrz3⟩

  iapply (wsfy m K c 4 (by decide) _ _ (by rfl) _) $$ [Hcs_sfy4 Hp_sfy4 HO]
  · isplitr; · iexact Hrec
    isplitl [Hcs_sfy4]; · iexact Hcs_sfy4
    isplitl [Hp_sfy4]; · iexact Hp_sfy4
    isplitl [HO]; · iexact HO
    iexact Hlev
  iintro ⟨HO, Hp_sfy4, Hrz4⟩

  iapply (wsfy m K c 5 (by decide) _ _ (by rfl) _) $$ [Hcs_sfy5 Hp_sfy5 HO]
  · isplitr; · iexact Hrec
    isplitl [Hcs_sfy5]; · iexact Hcs_sfy5
    isplitl [Hp_sfy5]; · iexact Hp_sfy5
    isplitl [HO]; · iexact HO
    iexact Hlev
  iintro ⟨HO, Hp_sfy5, Hrz5⟩

  ihave HxL := (take10 m c hL).2 $$ [Hxh0 Hxh1 Hxh2 Hxh3 Hxh4 Hxh5 Hxh6 Hxh7 Hxh8 Hxh9 Hxrest]
  · isplitl [Hxh0]; · iexact Hxh0
    isplitl [Hxh1]; · iexact Hxh1
    isplitl [Hxh2]; · iexact Hxh2
    isplitl [Hxh3]; · iexact Hxh3
    isplitl [Hxh4]; · iexact Hxh4
    isplitl [Hxh5]; · iexact Hxh5
    isplitl [Hxh6]; · iexact Hxh6
    isplitl [Hxh7]; · iexact Hxh7
    isplitl [Hxh8]; · iexact Hxh8
    isplitl [Hxh9]; · iexact Hxh9
    iexact Hxrest
  ihave Hx := (share_halves (ℓ := (xM : Memref sig .tc .vmem S1024x512 .f32).view.loc (c : Thread nD τ)) (S := (xM : Memref sig .tc .vmem S1024x512 .f32).view.set) (xb m c)).2 $$ [HxL HxR]
  · isplitl [HxL]; · iexact HxL
    iexact HxR
  ihave Hx := (Entails.of_eq (whole_pts c cc0_stg0_0 (xb m c)).symm) $$ Hx

  ihave Hcx0 := (holds_pts m c (xdst (k10 0)) (ch cxM 0) rfl _ _) $$ Hcx0
  ihave Hcx1 := (holds_pts m c (xdst (k10 1)) (ch cxM 1) rfl _ _) $$ Hcx1
  ihave Hcx2 := (holds_pts m c (xdst (k10 2)) (ch cxM 2) rfl _ _) $$ Hcx2
  ihave Hcx3 := (holds_pts m c (xdst (k10 3)) (ch cxM 3) rfl _ _) $$ Hcx3
  ihave Hcx4 := (holds_pts m c (xdst (k10 4)) (ch cxM 4) rfl _ _) $$ Hcx4
  ihave Hcx5 := (holds_pts m c (xdst (k10 5)) (ch cxM 5) rfl _ _) $$ Hcx5
  ihave Hcx6 := (holds_pts m c (xdst (k10 6)) (ch cxM 6) rfl _ _) $$ Hcx6
  ihave Hcx7 := (holds_pts m c (xdst (k10 7)) (ch cxM 7) rfl _ _) $$ Hcx7
  ihave Hs0 := (join8_whole c cxM (Memref.isWhole_whole _) _ _ _ _ _ _ _ _) $$ [Hcx0 Hcx1 Hcx2 Hcx3 Hcx4 Hcx5 Hcx6 Hcx7]
  · isplitl [Hcx0]; · iexact Hcx0
    isplitl [Hcx1]; · iexact Hcx1
    isplitl [Hcx2]; · iexact Hcx2
    isplitl [Hcx3]; · iexact Hcx3
    isplitl [Hcx4]; · iexact Hcx4
    isplitl [Hcx5]; · iexact Hcx5
    isplitl [Hcx6]; · iexact Hcx6
    iexact Hcx7
  ihave Hcd0 := (holds_pts m c (xdst (jx 0)) (ch64 0) rfl _ _) $$ Hcd0
  ihave Hcd1 := (holds_pts m c (xdst (jx 1)) (ch64 1) rfl _ _) $$ Hcd1
  ihave Hs1 := (join2_whole c _ _) $$ [Hcd0 Hcd1]
  · isplitl [Hcd0]; · iexact Hcd0
    iexact Hcd1
  ihave Hsq0 := (holds_halves m c (ch sqM 0) (SQ m c 0)).2 $$ [HsqL0 HsqR0]
  · isplitl [HsqL0]; · iexact HsqL0
    iexact HsqR0
  ihave Hsq0 := (holds_pts m c _ (ch sqM 0) rfl _ _) $$ Hsq0
  ihave Hsq1 := (holds_halves m c (ch sqM 1) (SQ m c 1)).2 $$ [HsqL1 HsqR1]
  · isplitl [HsqL1]; · iexact HsqL1
    iexact HsqR1
  ihave Hsq1 := (holds_pts m c _ (ch sqM 1) rfl _ _) $$ Hsq1
  ihave Hsq2 := (holds_halves m c (ch sqM 2) (SQ m c 2)).2 $$ [HsqL2 HsqR2]
  · isplitl [HsqL2]; · iexact HsqL2
    iexact HsqR2
  ihave Hsq2 := (holds_pts m c _ (ch sqM 2) rfl _ _) $$ Hsq2
  ihave Hsq3 := (holds_halves m c (ch sqM 3) (SQ m c 3)).2 $$ [HsqL3 HsqR3]
  · isplitl [HsqL3]; · iexact HsqL3
    iexact HsqR3
  ihave Hsq3 := (holds_pts m c _ (ch sqM 3) rfl _ _) $$ Hsq3
  ihave Hsq4 := (holds_halves m c (ch sqM 4) (SQ m c 4)).2 $$ [HsqL4 HsqR4]
  · isplitl [HsqL4]; · iexact HsqL4
    iexact HsqR4
  ihave Hsq4 := (holds_pts m c _ (ch sqM 4) rfl _ _) $$ Hsq4
  ihave Hsq5 := (holds_halves m c (ch sqM 5) (SQ m c 5)).2 $$ [HsqL5 HsqR5]
  · isplitl [HsqL5]; · iexact HsqL5
    iexact HsqR5
  ihave Hsq5 := (holds_pts m c _ (ch sqM 5) rfl _ _) $$ Hsq5
  ihave Hsq6 := (holds_halves m c (ch sqM 6) (SQ m c 6)).2 $$ [HsqL6 HsqR6]
  · isplitl [HsqL6]; · iexact HsqL6
    iexact HsqR6
  ihave Hsq6 := (holds_pts m c _ (ch sqM 6) rfl _ _) $$ Hsq6
  ihave Hsq7 := (holds_halves m c (ch sqM 7) (SQ m c 7)).2 $$ [HsqL7 HsqR7]
  · isplitl [HsqL7]; · iexact HsqL7
    iexact HsqR7
  ihave Hsq7 := (holds_pts m c _ (ch sqM 7) rfl _ _) $$ Hsq7
  ihave Hs2 := (join8_whole c sqM (Memref.isWhole_whole _) _ _ _ _ _ _ _ _) $$ [Hsq0 Hsq1 Hsq2 Hsq3 Hsq4 Hsq5 Hsq6 Hsq7]
  · isplitl [Hsq0]; · iexact Hsq0
    isplitl [Hsq1]; · iexact Hsq1
    isplitl [Hsq2]; · iexact Hsq2
    isplitl [Hsq3]; · iexact Hsq3
    isplitl [Hsq4]; · iexact Hsq4
    isplitl [Hsq5]; · iexact Hsq5
    isplitl [Hsq6]; · iexact Hsq6
    iexact Hsq7
  ihave Hry0 := (holds_pts m c _ (ch ryM 0) rfl _ _) $$ Hry0
  ihave Hry1 := (holds_pts m c _ (ch ryM 1) rfl _ _) $$ Hry1
  ihave Hry2 := (holds_pts m c _ (ch ryM 2) rfl _ _) $$ Hry2
  ihave Hry3 := (holds_pts m c _ (ch ryM 3) rfl _ _) $$ Hry3
  ihave Hry4 := (holds_pts m c _ (ch ryM 4) rfl _ _) $$ Hry4
  ihave Hry5 := (holds_pts m c _ (ch ryM 5) rfl _ _) $$ Hry5
  ihave Hry6 := (holds_pts m c _ (ch ryM 6) rfl _ _) $$ Hry6
  ihave Hry7 := (holds_pts m c _ (ch ryM 7) rfl _ _) $$ Hry7
  ihave Hs3 := (join8_whole c ryM (Memref.isWhole_whole _) _ _ _ _ _ _ _ _) $$ [Hry0 Hry1 Hry2 Hry3 Hry4 Hry5 Hry6 Hry7]
  · isplitl [Hry0]; · iexact Hry0
    isplitl [Hry1]; · iexact Hry1
    isplitl [Hry2]; · iexact Hry2
    isplitl [Hry3]; · iexact Hry3
    isplitl [Hry4]; · iexact Hry4
    isplitl [Hry5]; · iexact Hry5
    isplitl [Hry6]; · iexact Hry6
    iexact Hry7
  ihave Hrz0 := (holds_pts m c _ (ch rzM 0) rfl _ _) $$ Hrz0
  ihave Hrz1 := (holds_pts m c _ (ch rzM 1) rfl _ _) $$ Hrz1
  ihave Hrz2 := (holds_pts m c _ (ch rzM 2) rfl _ _) $$ Hrz2
  ihave Hrz3 := (holds_pts m c _ (ch rzM 3) rfl _ _) $$ Hrz3
  ihave Hrz4 := (holds_pts m c _ (ch rzM 4) rfl _ _) $$ Hrz4
  ihave Hrz5 := (holds_pts m c _ (ch rzM 5) rfl _ _) $$ Hrz5
  ihave Hrz6 := (holds_pts m c _ (ch rzM 6) rfl _ _) $$ Hrz6
  ihave Hrz7 := (holds_pts m c _ (ch rzM 7) rfl _ _) $$ Hrz7
  ihave Hs4 := (join8_whole c rzM (Memref.isWhole_whole _) _ _ _ _ _ _ _ _) $$ [Hrz0 Hrz1 Hrz2 Hrz3 Hrz4 Hrz5 Hrz6 Hrz7]
  · isplitl [Hrz0]; · iexact Hrz0
    isplitl [Hrz1]; · iexact Hrz1
    isplitl [Hrz2]; · iexact Hrz2
    isplitl [Hrz3]; · iexact Hrz3
    isplitl [Hrz4]; · iexact Hrz4
    isplitl [Hrz5]; · iexact Hrz5
    isplitl [Hrz6]; · iexact Hrz6
    iexact Hrz7
  ihave Hrd0 := (holds_pts m c _ (ch rdM 0) rfl _ _) $$ Hrd0
  ihave Hrd1 := (holds_pts m c _ (ch rdM 1) rfl _ _) $$ Hrd1
  ihave Hrd2 := (holds_pts m c _ (ch rdM 2) rfl _ _) $$ Hrd2
  ihave Hrd3 := (holds_pts m c _ (ch rdM 3) rfl _ _) $$ Hrd3
  ihave Hrd4 := (holds_pts m c _ (ch rdM 4) rfl _ _) $$ Hrd4
  ihave Hrd5 := (holds_pts m c _ (ch rdM 5) rfl _ _) $$ Hrd5
  ihave Hs5 := (join8_whole c rdM (Memref.isWhole_whole _) _ _ _ _ _ _ _ _) $$ [Hrd0 Hrd1 Hrd2 Hrd3 Hrd4 Hrd5 Hrd6 Hrd7]
  · isplitl [Hrd0]; · iexact Hrd0
    isplitl [Hrd1]; · iexact Hrd1
    isplitl [Hrd2]; · iexact Hrd2
    isplitl [Hrd3]; · iexact Hrd3
    isplitl [Hrd4]; · iexact Hrd4
    isplitl [Hrd5]; · iexact Hrd5
    isplitl [Hrd6]; · iexact Hrd6
    iexact Hrd7

  ihave Hpe := (Entails.of_eq (possEnd_eq (F := F) c).symm) $$ [Hp_sx0 Hp_rx0 Hp_sx1 Hp_rx1 Hp_sx2 Hp_rx2 Hp_sx3 Hp_rx3 Hp_sx4 Hp_rx4 Hp_sx5 Hp_rx5 Hp_sx6 Hp_rx6 Hp_sx7 Hp_rx7 Hp_sx8 Hp_rx8 Hp_sx9 Hp_rx9 Hp_sy0 Hp_ry0 Hp_sz0 Hp_rz0 Hp_sy1 Hp_ry1 Hp_sz1 Hp_rz1 Hp_sy2 Hp_ry2 Hp_sz2 Hp_rz2 Hp_sy3 Hp_ry3 Hp_sz3 Hp_rz3 Hp_sy4 Hp_ry4 Hp_sz4 Hp_rz4 Hp_sy5 Hp_ry5 Hp_sz5 Hp_rz5 Hp_sy6 Hp_ry6 Hp_sz6 Hp_rz6 Hp_sy7 Hp_ry7 Hp_sz7 Hp_rz7 Hp_sfy0 Hp_rfy0 Hp_sfz0 Hp_rfz0 Hp_sfy1 Hp_rfy1 Hp_sfz1 Hp_rfz1 Hp_sfy2 Hp_rfy2 Hp_sfz2 Hp_rfz2 Hp_sfy3 Hp_rfy3 Hp_sfz3 Hp_rfz3 Hp_sfy4 Hp_rfy4 Hp_sfz4 Hp_rfz4 Hp_sfy5 Hp_rfy5 Hp_sfz5 Hp_rfz5 Hp_sfy6 Hp_rfy6 Hp_sfz6 Hp_rfz6 Hp_sfy7 Hp_rfy7 Hp_sfz7 Hp_rfz7]
  · isplitl [Hp_sx0 Hp_rx0 Hp_sx1 Hp_rx1 Hp_sx2 Hp_rx2 Hp_sx3 Hp_rx3 Hp_sx4 Hp_rx4 Hp_sx5 Hp_rx5 Hp_sx6 Hp_rx6 Hp_sx7 Hp_rx7 Hp_sx8 Hp_rx8 Hp_sx9 Hp_rx9]
    · isplitl [Hp_sx0 Hp_rx0]
      · isplitl [Hp_sx0]; · iexact Hp_sx0
        iexact Hp_rx0
      isplitl [Hp_sx1 Hp_rx1]
      · isplitl [Hp_sx1]; · iexact Hp_sx1
        iexact Hp_rx1
      isplitl [Hp_sx2 Hp_rx2]
      · isplitl [Hp_sx2]; · iexact Hp_sx2
        iexact Hp_rx2
      isplitl [Hp_sx3 Hp_rx3]
      · isplitl [Hp_sx3]; · iexact Hp_sx3
        iexact Hp_rx3
      isplitl [Hp_sx4 Hp_rx4]
      · isplitl [Hp_sx4]; · iexact Hp_sx4
        iexact Hp_rx4
      isplitl [Hp_sx5 Hp_rx5]
      · isplitl [Hp_sx5]; · iexact Hp_sx5
        iexact Hp_rx5
      isplitl [Hp_sx6 Hp_rx6]
      · isplitl [Hp_sx6]; · iexact Hp_sx6
        iexact Hp_rx6
      isplitl [Hp_sx7 Hp_rx7]
      · isplitl [Hp_sx7]; · iexact Hp_sx7
        iexact Hp_rx7
      isplitl [Hp_sx8 Hp_rx8]
      · isplitl [Hp_sx8]; · iexact Hp_sx8
        iexact Hp_rx8
      isplitl [Hp_sx9]; · iexact Hp_sx9
      iexact Hp_rx9
    isplitl [Hp_sy0 Hp_ry0 Hp_sz0 Hp_rz0 Hp_sy1 Hp_ry1 Hp_sz1 Hp_rz1 Hp_sy2 Hp_ry2 Hp_sz2 Hp_rz2 Hp_sy3 Hp_ry3 Hp_sz3 Hp_rz3 Hp_sy4 Hp_ry4 Hp_sz4 Hp_rz4 Hp_sy5 Hp_ry5 Hp_sz5 Hp_rz5 Hp_sy6 Hp_ry6 Hp_sz6 Hp_rz6 Hp_sy7 Hp_ry7 Hp_sz7 Hp_rz7]
    · isplitl [Hp_sy0 Hp_ry0 Hp_sz0 Hp_rz0]
      · isplitl [Hp_sy0]; · iexact Hp_sy0
        isplitl [Hp_ry0]; · iexact Hp_ry0
        isplitl [Hp_sz0]; · iexact Hp_sz0
        iexact Hp_rz0
      isplitl [Hp_sy1 Hp_ry1 Hp_sz1 Hp_rz1]
      · isplitl [Hp_sy1]; · iexact Hp_sy1
        isplitl [Hp_ry1]; · iexact Hp_ry1
        isplitl [Hp_sz1]; · iexact Hp_sz1
        iexact Hp_rz1
      isplitl [Hp_sy2 Hp_ry2 Hp_sz2 Hp_rz2]
      · isplitl [Hp_sy2]; · iexact Hp_sy2
        isplitl [Hp_ry2]; · iexact Hp_ry2
        isplitl [Hp_sz2]; · iexact Hp_sz2
        iexact Hp_rz2
      isplitl [Hp_sy3 Hp_ry3 Hp_sz3 Hp_rz3]
      · isplitl [Hp_sy3]; · iexact Hp_sy3
        isplitl [Hp_ry3]; · iexact Hp_ry3
        isplitl [Hp_sz3]; · iexact Hp_sz3
        iexact Hp_rz3
      isplitl [Hp_sy4 Hp_ry4 Hp_sz4 Hp_rz4]
      · isplitl [Hp_sy4]; · iexact Hp_sy4
        isplitl [Hp_ry4]; · iexact Hp_ry4
        isplitl [Hp_sz4]; · iexact Hp_sz4
        iexact Hp_rz4
      isplitl [Hp_sy5 Hp_ry5 Hp_sz5 Hp_rz5]
      · isplitl [Hp_sy5]; · iexact Hp_sy5
        isplitl [Hp_ry5]; · iexact Hp_ry5
        isplitl [Hp_sz5]; · iexact Hp_sz5
        iexact Hp_rz5
      isplitl [Hp_sy6 Hp_ry6 Hp_sz6 Hp_rz6]
      · isplitl [Hp_sy6]; · iexact Hp_sy6
        isplitl [Hp_ry6]; · iexact Hp_ry6
        isplitl [Hp_sz6]; · iexact Hp_sz6
        iexact Hp_rz6
      isplitl [Hp_sy7]; · iexact Hp_sy7
      isplitl [Hp_ry7]; · iexact Hp_ry7
      isplitl [Hp_sz7]; · iexact Hp_sz7
      iexact Hp_rz7
    isplitl [Hp_sfy0 Hp_rfy0 Hp_sfz0 Hp_rfz0]
    · isplitl [Hp_sfy0]; · iexact Hp_sfy0
      isplitl [Hp_rfy0]; · iexact Hp_rfy0
      isplitl [Hp_sfz0]; · iexact Hp_sfz0
      iexact Hp_rfz0
    isplitl [Hp_sfy1 Hp_rfy1 Hp_sfz1 Hp_rfz1]
    · isplitl [Hp_sfy1]; · iexact Hp_sfy1
      isplitl [Hp_rfy1]; · iexact Hp_rfy1
      isplitl [Hp_sfz1]; · iexact Hp_sfz1
      iexact Hp_rfz1
    isplitl [Hp_sfy2 Hp_rfy2 Hp_sfz2 Hp_rfz2]
    · isplitl [Hp_sfy2]; · iexact Hp_sfy2
      isplitl [Hp_rfy2]; · iexact Hp_rfy2
      isplitl [Hp_sfz2]; · iexact Hp_sfz2
      iexact Hp_rfz2
    isplitl [Hp_sfy3 Hp_rfy3 Hp_sfz3 Hp_rfz3]
    · isplitl [Hp_sfy3]; · iexact Hp_sfy3
      isplitl [Hp_rfy3]; · iexact Hp_rfy3
      isplitl [Hp_sfz3]; · iexact Hp_sfz3
      iexact Hp_rfz3
    isplitl [Hp_sfy4 Hp_rfy4 Hp_sfz4 Hp_rfz4]
    · isplitl [Hp_sfy4]; · iexact Hp_sfy4
      isplitl [Hp_rfy4]; · iexact Hp_rfy4
      isplitl [Hp_sfz4]; · iexact Hp_sfz4
      iexact Hp_rfz4
    isplitl [Hp_sfy5 Hp_rfy5 Hp_sfz5 Hp_rfz5]
    · isplitl [Hp_sfy5]; · iexact Hp_sfy5
      isplitl [Hp_rfy5]; · iexact Hp_rfy5
      isplitl [Hp_sfz5]; · iexact Hp_sfz5
      iexact Hp_rfz5
    isplitl [Hp_sfy6 Hp_rfy6 Hp_sfz6 Hp_rfz6]
    · isplitl [Hp_sfy6]; · iexact Hp_sfy6
      isplitl [Hp_rfy6]; · iexact Hp_rfy6
      isplitl [Hp_sfz6]; · iexact Hp_sfz6
      iexact Hp_rfz6
    isplitl [Hp_sfy7]; · iexact Hp_sfy7
    isplitl [Hp_rfy7]; · iexact Hp_rfy7
    isplitl [Hp_sfz7]; · iexact Hp_sfz7
    iexact Hp_rfz7
  imod (close_all m K c) $$ [Hpe] with Hz
  · isplitr; · iexact Hrec
    iexact Hpe
  rw [wp_ret]; imodintro
  ihave Hout := (Entails.of_eq (whole_pts c cc0_stg1_0 _).symm) $$ Hout
  unfold bodyPost Φ₁ scratch Dat.owesAt Pipeline.owesWithin
  rw [show (dats m ρ 0 c).owed Cert.KernelIdeal.Gen.t0_0.succ = 0 from rfl]
  isplitl [Hs0 Hs1 Hs2 Hs3 Hs4 Hs5 Hz]
  · isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    iexact Hz
  isplitl [HO]
  · iexists _
    isplitr
    rotate_left
    · iexact HO
    · ipureintro; exact fun _ _ => Or.inl trivial
  isplitl [Hx]
  · iexists _
    isplitr; · (ipureintro; rfl)
    iexact Hx
  iexists _
  isplitr
  rotate_left
  · iexact Hout
  · ipureintro; exact outW_base m c g1 (xb m c)

end Cert.KernelIdeal.AR
end
-- ==== Proof.Bits.Pays.lean ====
import proofs.«900722_g7700000000000723_dist_ar_v7x_xyz2x4x4_x_m1024_n512_f32_1_alg».proof.Proof.Data
import proofs.«900722_g7700000000000723_dist_ar_v7x_xyz2x4x4_x_m1024_n512_f32_1_alg».proof.Proof.Gen.Kernel.Skeleton
import Idealize.ShloMosaic.Lib.Pipeline.Value

set_option maxRecDepth 16384

noncomputable section
namespace Cert.Kernel.AR
open Cert.KernelIdeal.AR
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- A reshape to the same shape changes nothing. -/
theorem sc32 (v : Vec F S32x512 .f32) : shapeCast S32x512 v shapeCasts_S32x512_S32x512 = v := shapeCast_self _ _

/-! Every payload of the body is the sum of the two chunks it loads (own block first), possibly reshaped to the same shape. -/
theorem pay1 (a b : Vec F S32x512 .f32) : k0_pay1 a b = addf a b := by unfold k0_pay1; simp only [shapeCast_self]
theorem pay3 (a b : Vec F S32x512 .f32) : k0_pay3 a b = addf a b := by unfold k0_pay3; simp only [shapeCast_self]
theorem pay5 (a b : Vec F S32x512 .f32) : k0_pay5 a b = addf a b := by unfold k0_pay5; simp only [shapeCast_self]
theorem pay7 (a b : Vec F S32x512 .f32) : k0_pay7 a b = addf a b := by unfold k0_pay7; simp only [shapeCast_self]
theorem pay9 (a b : Vec F S32x512 .f32) : k0_pay9 a b = addf a b := by unfold k0_pay9; simp only [shapeCast_self]
theorem pay11 (a b : Vec F S32x512 .f32) : k0_pay11 a b = addf a b := by unfold k0_pay11; simp only [shapeCast_self]
theorem pay16 (a b : Vec F S32x512 .f32) : k0_pay16 a b = addf a b := by unfold k0_pay16; simp only [shapeCast_self]
theorem pay18 (a b : Vec F S32x512 .f32) : k0_pay18 a b = addf a b := by unfold k0_pay18; simp only [shapeCast_self]
theorem pay19 (a b : Vec F S32x512 .f32) : k0_pay19 a b = addf a b := by unfold k0_pay19; simp only [shapeCast_self]
theorem pay2 (a b : Vec F S32x512 .f32) : k0_pay2 a b = addf a b := by unfold k0_pay2; simp only [pay1, shapeCast_self]
theorem pay4 (a b : Vec F S32x512 .f32) : k0_pay4 a b = addf a b := by unfold k0_pay4; simp only [pay3, shapeCast_self]
theorem pay8 (a b : Vec F S32x512 .f32) : k0_pay8 a b = addf a b := by unfold k0_pay8; simp only [pay7, shapeCast_self]
theorem pay12 (a b : Vec F S32x512 .f32) : k0_pay12 a b = addf a b := by unfold k0_pay12; simp only [pay11, shapeCast_self]
theorem pay17 (a b : Vec F S32x512 .f32) : k0_pay17 a b = addf a b := by unfold k0_pay17; simp only [pay16, shapeCast_self]
theorem pay6 (a : Vec F S32x512 .f32) : k0_pay6 a = a := by unfold k0_pay6; simp only [shapeCast_self]
theorem pay10 (a : Vec F S32x512 .f32) : k0_pay10 a = a := by unfold k0_pay10; simp only [shapeCast_self]
theorem pay13 (a : Vec F S32x512 .f32) : k0_pay13 a = a := by unfold k0_pay13; simp only [shapeCast_self]
theorem pay14 (a b : Vec F S32x512 .f32) : k0_pay14 a b = addf a b := by unfold k0_pay14; rfl
theorem pay15 (a b : Vec F S32x512 .f32) : k0_pay15 a b = addf a b := by unfold k0_pay15; simp only [pay14, shapeCast_self]

end Cert.Kernel.AR
end
-- ==== Proof.Bits.Vocab.lean ====
import proofs.«900722_g7700000000000723_dist_ar_v7x_xyz2x4x4_x_m1024_n512_f32_1_alg».proof.Proof.Gen.Kernel
import proofs.«900722_g7700000000000723_dist_ar_v7x_xyz2x4x4_x_m1024_n512_f32_1_alg».proof.Proof.Gen.KernelIdeal

/-! The two printed programs spell out one signature: the same mesh, shapes, buffers, semaphore arrays, device and offset
    arithmetic and windows, under two names. Each equation holds by unfolding both sides. -/

open Idealize.ShloMosaic

namespace Cert.Kernel.AR

theorem nD_eq : Cert.Kernel.nD = Cert.KernelIdeal.nD := rfl
theorem τ_eq : Cert.Kernel.τ = Cert.KernelIdeal.τ := rfl
theorem sig_eq : Cert.Kernel.sig = Cert.KernelIdeal.sig := rfl
theorem S1024x512_eq : Cert.Kernel.S1024x512 = Cert.KernelIdeal.S1024x512 := rfl
theorem S256x512_eq : Cert.Kernel.S256x512 = Cert.KernelIdeal.S256x512 := rfl
theorem S64x512_eq : Cert.Kernel.S64x512 = Cert.KernelIdeal.S64x512 := rfl
theorem S10_eq : Cert.Kernel.S10 = Cert.KernelIdeal.S10 := rfl
theorem S8_eq : Cert.Kernel.S8 = Cert.KernelIdeal.S8 := rfl
theorem S__eq : Cert.Kernel.S_ = Cert.KernelIdeal.S_ := rfl
theorem S1_eq : Cert.Kernel.S1 = Cert.KernelIdeal.S1 := rfl
theorem S32x512_eq : Cert.Kernel.S32x512 = Cert.KernelIdeal.S32x512 := rfl
theorem grid0_eq : Cert.Kernel.grid0 = Cert.KernelIdeal.grid0 := rfl
theorem main_arg0_eq : Cert.Kernel.main_arg0 = Cert.KernelIdeal.main_arg0 := rfl
theorem main_v1_eq : Cert.Kernel.main_v1 = Cert.KernelIdeal.main_v1 := rfl
theorem cc0_stg0_0_eq : Cert.Kernel.cc0_stg0_0 = Cert.KernelIdeal.cc0_stg0_0 := rfl
theorem cc0_stg1_0_eq : Cert.Kernel.cc0_stg1_0 = Cert.KernelIdeal.cc0_stg1_0 := rfl
theorem cc0_scratch0_eq : Cert.Kernel.cc0_scratch0 = Cert.KernelIdeal.cc0_scratch0 := rfl
theorem cc0_scratch1_eq : Cert.Kernel.cc0_scratch1 = Cert.KernelIdeal.cc0_scratch1 := rfl
theorem cc0_scratch2_eq : Cert.Kernel.cc0_scratch2 = Cert.KernelIdeal.cc0_scratch2 := rfl
theorem cc0_scratch3_eq : Cert.Kernel.cc0_scratch3 = Cert.KernelIdeal.cc0_scratch3 := rfl
theorem cc0_scratch4_eq : Cert.Kernel.cc0_scratch4 = Cert.KernelIdeal.cc0_scratch4 := rfl
theorem cc0_scratch5_eq : Cert.Kernel.cc0_scratch5 = Cert.KernelIdeal.cc0_scratch5 := rfl
theorem cc0_sem0_0_eq : Cert.Kernel.cc0_sem0_0 = Cert.KernelIdeal.cc0_sem0_0 := rfl
theorem cc0_sem1_0_eq : Cert.Kernel.cc0_sem1_0 = Cert.KernelIdeal.cc0_sem1_0 := rfl
theorem barrier0_eq : Cert.Kernel.barrier0 = Cert.KernelIdeal.barrier0 := rfl
theorem k0_dev1_eq : Cert.Kernel.k0_dev1 = Cert.KernelIdeal.k0_dev1 := rfl
theorem k0_dev2_eq : Cert.Kernel.k0_dev2 = Cert.KernelIdeal.k0_dev2 := rfl
theorem k0_dev3_eq : Cert.Kernel.k0_dev3 = Cert.KernelIdeal.k0_dev3 := rfl
theorem k0_dev4_eq : Cert.Kernel.k0_dev4 = Cert.KernelIdeal.k0_dev4 := rfl
theorem k0_dev5_eq : Cert.Kernel.k0_dev5 = Cert.KernelIdeal.k0_dev5 := rfl
theorem k0_dev6_eq : Cert.Kernel.k0_dev6 = Cert.KernelIdeal.k0_dev6 := rfl
theorem k0_dev7_eq : Cert.Kernel.k0_dev7 = Cert.KernelIdeal.k0_dev7 := rfl
theorem k0_dev8_eq : Cert.Kernel.k0_dev8 = Cert.KernelIdeal.k0_dev8 := rfl
theorem k0_dev9_eq : Cert.Kernel.k0_dev9 = Cert.KernelIdeal.k0_dev9 := rfl
theorem k0_dev10_eq : Cert.Kernel.k0_dev10 = Cert.KernelIdeal.k0_dev10 := rfl
theorem k0_dev11_eq : Cert.Kernel.k0_dev11 = Cert.KernelIdeal.k0_dev11 := rfl
theorem k0_dev12_eq : Cert.Kernel.k0_dev12 = Cert.KernelIdeal.k0_dev12 := rfl
theorem k0_dev13_eq : Cert.Kernel.k0_dev13 = Cert.KernelIdeal.k0_dev13 := rfl
theorem k0_dev14_eq : Cert.Kernel.k0_dev14 = Cert.KernelIdeal.k0_dev14 := rfl
theorem k0_dev15_eq : Cert.Kernel.k0_dev15 = Cert.KernelIdeal.k0_dev15 := rfl
theorem k0_dev16_eq : Cert.Kernel.k0_dev16 = Cert.KernelIdeal.k0_dev16 := rfl
theorem k0_dev17_eq : Cert.Kernel.k0_dev17 = Cert.KernelIdeal.k0_dev17 := rfl
theorem k0_dev18_eq : Cert.Kernel.k0_dev18 = Cert.KernelIdeal.k0_dev18 := rfl
theorem k0_dev19_eq : Cert.Kernel.k0_dev19 = Cert.KernelIdeal.k0_dev19 := rfl
theorem k0_dev20_eq : Cert.Kernel.k0_dev20 = Cert.KernelIdeal.k0_dev20 := rfl
theorem k0_dev21_eq : Cert.Kernel.k0_dev21 = Cert.KernelIdeal.k0_dev21 := rfl
theorem k0_dev22_eq : Cert.Kernel.k0_dev22 = Cert.KernelIdeal.k0_dev22 := rfl
theorem k0_dev23_eq : Cert.Kernel.k0_dev23 = Cert.KernelIdeal.k0_dev23 := rfl
theorem k0_dev24_eq : Cert.Kernel.k0_dev24 = Cert.KernelIdeal.k0_dev24 := rfl
theorem k0_dev25_eq : Cert.Kernel.k0_dev25 = Cert.KernelIdeal.k0_dev25 := rfl
theorem k0_dev26_eq : Cert.Kernel.k0_dev26 = Cert.KernelIdeal.k0_dev26 := rfl
theorem k0_dev27_eq : Cert.Kernel.k0_dev27 = Cert.KernelIdeal.k0_dev27 := rfl
theorem k0_dev28_eq : Cert.Kernel.k0_dev28 = Cert.KernelIdeal.k0_dev28 := rfl
theorem k0_dev29_eq : Cert.Kernel.k0_dev29 = Cert.KernelIdeal.k0_dev29 := rfl
theorem k0_dev30_eq : Cert.Kernel.k0_dev30 = Cert.KernelIdeal.k0_dev30 := rfl
theorem k0_dev31_eq : Cert.Kernel.k0_dev31 = Cert.KernelIdeal.k0_dev31 := rfl
theorem k0_dev32_eq : Cert.Kernel.k0_dev32 = Cert.KernelIdeal.k0_dev32 := rfl
theorem k0_dev33_eq : Cert.Kernel.k0_dev33 = Cert.KernelIdeal.k0_dev33 := rfl
theorem k0_dev34_eq : Cert.Kernel.k0_dev34 = Cert.KernelIdeal.k0_dev34 := rfl
theorem k0_dev35_eq : Cert.Kernel.k0_dev35 = Cert.KernelIdeal.k0_dev35 := rfl
theorem k0_off1_eq : Cert.Kernel.k0_off1 = Cert.KernelIdeal.k0_off1 := rfl
theorem k0_off2_eq : Cert.Kernel.k0_off2 = Cert.KernelIdeal.k0_off2 := rfl
theorem k0_off3_eq : Cert.Kernel.k0_off3 = Cert.KernelIdeal.k0_off3 := rfl
theorem k0_off4_eq : Cert.Kernel.k0_off4 = Cert.KernelIdeal.k0_off4 := rfl
theorem k0_off5_eq : Cert.Kernel.k0_off5 = Cert.KernelIdeal.k0_off5 := rfl
theorem k0_off6_eq : Cert.Kernel.k0_off6 = Cert.KernelIdeal.k0_off6 := rfl
theorem stage0_0_eq : Cert.Kernel.stage0_0 = Cert.KernelIdeal.stage0_0 := rfl
theorem stage0_1_eq : Cert.Kernel.stage0_1 = Cert.KernelIdeal.stage0_1 := rfl
theorem sem0_0_eq : Cert.Kernel.sem0_0 = Cert.KernelIdeal.sem0_0 := rfl
theorem sem0_1_eq : Cert.Kernel.sem0_1 = Cert.KernelIdeal.sem0_1 := rfl
theorem cc0_scratch6_eq : Cert.Kernel.cc0_scratch6 = Cert.KernelIdeal.cc0_scratch6 := rfl
theorem cc0_scratch7_eq : Cert.Kernel.cc0_scratch7 = Cert.KernelIdeal.cc0_scratch7 := rfl
theorem cc0_scratch8_eq : Cert.Kernel.cc0_scratch8 = Cert.KernelIdeal.cc0_scratch8 := rfl
theorem cc0_scratch9_eq : Cert.Kernel.cc0_scratch9 = Cert.KernelIdeal.cc0_scratch9 := rfl
theorem cc0_scratch10_eq : Cert.Kernel.cc0_scratch10 = Cert.KernelIdeal.cc0_scratch10 := rfl
theorem cc0_scratch11_eq : Cert.Kernel.cc0_scratch11 = Cert.KernelIdeal.cc0_scratch11 := rfl
theorem cc0_scratch12_eq : Cert.Kernel.cc0_scratch12 = Cert.KernelIdeal.cc0_scratch12 := rfl
theorem cc0_scratch13_eq : Cert.Kernel.cc0_scratch13 = Cert.KernelIdeal.cc0_scratch13 := rfl
theorem cc0_scratch14_eq : Cert.Kernel.cc0_scratch14 = Cert.KernelIdeal.cc0_scratch14 := rfl
theorem cc0_scratch15_eq : Cert.Kernel.cc0_scratch15 = Cert.KernelIdeal.cc0_scratch15 := rfl
theorem win0_0_eq : Cert.Kernel.win0_0 = Cert.KernelIdeal.win0_0 := rfl
theorem win0_1_eq : Cert.Kernel.win0_1 = Cert.KernelIdeal.win0_1 := rfl
theorem win0_eq : Cert.Kernel.win0 = Cert.KernelIdeal.win0 := rfl
theorem spec0_eq : Cert.Kernel.spec0 = Cert.KernelIdeal.spec0 := rfl
theorem Λ₀_eq : Cert.Kernel.Λ₀ = Cert.KernelIdeal.Λ₀ := rfl
theorem cfg0_eq : Cert.Kernel.cfg0 = Cert.KernelIdeal.cfg0 := rfl
theorem cfgs_eq : Cert.Kernel.cfgs = Cert.KernelIdeal.cfgs := rfl
theorem pcfgs_eq {F : FTy → Type} : Cert.Kernel.pcfgs (F := F) = Cert.KernelIdeal.pcfgs (F := F) := rfl

/-- The word-level program's body table, typed over the shared signature. -/
noncomputable def defsK {F : FTy → Type} [FloatOps F] : Defs Cert.KernelIdeal.nD Cert.KernelIdeal.τ Cert.KernelIdeal.sig (Elt F) Cert.KernelIdeal.Λ₀ :=
  Cert.Kernel.defs₀

end Cert.Kernel.AR
-- ==== Proof.Bits.Body.lean ====
import proofs.«900722_g7700000000000723_dist_ar_v7x_xyz2x4x4_x_m1024_n512_f32_1_alg».proof.Proof.BodyPre
import proofs.«900722_g7700000000000723_dist_ar_v7x_xyz2x4x4_x_m1024_n512_f32_1_alg».proof.Proof.Bits.Pays
import proofs.«900722_g7700000000000723_dist_ar_v7x_xyz2x4x4_x_m1024_n512_f32_1_alg».proof.Proof.Bits.Vocab
import proofs.«900722_g7700000000000723_dist_ar_v7x_xyz2x4x4_x_m1024_n512_f32_1_alg».proof.Proof.Gen.Kernel.Frame

set_option maxRecDepth 16384

noncomputable section
namespace Cert.Kernel.AR
open Cert.KernelIdeal.AR
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT Cert.KernelIdeal.nD Cert.KernelIdeal.τ Cert.KernelIdeal.sig Unit (Elt F) ℕ UU ℕ
variable (m : (ℓ : Loc Cert.KernelIdeal.nD Cert.KernelIdeal.τ Cert.KernelIdeal.sig) → Buf (Elt F) ℓ) (ρ : Dev Cert.KernelIdeal.nD → PrngReg)

set_option maxHeartbeats 6400000 in
/-- One device's body from the launch invariant: the handshake with its three partners, ten rows sent across x, eight chunks reduced and sent on, the y and z receives with their forwards, the diagonal quarter, and the closing waits on every send cell. -/
theorem sound_body (c : Dev nD) :
    bodyPre m ρ c ⊢ wp frame (wpE (defsK (F := F)) 𝒱₀ c none) Set.univ
      ((defsK (F := F)) .tc Cert.KernelIdeal.cfg0.body (Cert.KernelIdeal.cfg0.bodyArgs Cert.KernelIdeal.Gen.t0_0 (Cert.KernelIdeal.cfg0.slots Cert.KernelIdeal.Gen.t0_0)))
      (fun _ => bodyPost m ρ c) := by
  show bodyPre m ρ c ⊢ wp frame (wpE (defsK (F := F)) 𝒱₀ c none) Set.univ (bodyAt0 (F := F) Cert.KernelIdeal.Gen.t0_0) (fun _ => bodyPost m ρ c)
  unfold bodyPre Φ₀ ghost scratch
  rw [poss_eq, toks_eq, creds_eq]
  iintro ⟨⟨⟨%K, #Hrec, ⟨Hp_bar, ⟨⟨Hp_sx0, Hp_rx0⟩, ⟨Hp_sx1, Hp_rx1⟩, ⟨Hp_sx2, Hp_rx2⟩, ⟨Hp_sx3, Hp_rx3⟩, ⟨Hp_sx4, Hp_rx4⟩, ⟨Hp_sx5, Hp_rx5⟩, ⟨Hp_sx6, Hp_rx6⟩, ⟨Hp_sx7, Hp_rx7⟩, ⟨Hp_sx8, Hp_rx8⟩, ⟨Hp_sx9, Hp_rx9⟩⟩, ⟨⟨Hp_sy0, Hp_ry0, Hp_sz0, Hp_rz0⟩, ⟨Hp_sy1, Hp_ry1, Hp_sz1, Hp_rz1⟩, ⟨Hp_sy2, Hp_ry2, Hp_sz2, Hp_rz2⟩, ⟨Hp_sy3, Hp_ry3, Hp_sz3, Hp_rz3⟩, ⟨Hp_sy4, Hp_ry4, Hp_sz4, Hp_rz4⟩, ⟨Hp_sy5, Hp_ry5, Hp_sz5, Hp_rz5⟩, ⟨Hp_sy6, Hp_ry6, Hp_sz6, Hp_rz6⟩, ⟨Hp_sy7, Hp_ry7, Hp_sz7, Hp_rz7⟩⟩, ⟨⟨Hp_sfy0, Hp_rfy0, Hp_sfz0, Hp_rfz0⟩, ⟨Hp_sfy1, Hp_rfy1, Hp_sfz1, Hp_rfz1⟩, ⟨Hp_sfy2, Hp_rfy2, Hp_sfz2, Hp_rfz2⟩, ⟨Hp_sfy3, Hp_rfy3, Hp_sfz3, Hp_rfz3⟩, ⟨Hp_sfy4, Hp_rfy4, Hp_sfz4, Hp_rfz4⟩, ⟨Hp_sfy5, Hp_rfy5, Hp_sfz5, Hp_rfz5⟩, ⟨Hp_sfy6, Hp_rfy6, Hp_sfz6, Hp_rfz6⟩, ⟨Hp_sfy7, Hp_rfy7, Hp_sfz7, Hp_rfz7⟩⟩⟩, ⟨Ht_bx, Ht_by, Ht_bz, ⟨⟨Ht_sx0, Ht_rx0⟩, ⟨Ht_sx1, Ht_rx1⟩, ⟨Ht_sx2, Ht_rx2⟩, ⟨Ht_sx3, Ht_rx3⟩, ⟨Ht_sx4, Ht_rx4⟩, ⟨Ht_sx5, Ht_rx5⟩, ⟨Ht_sx6, Ht_rx6⟩, ⟨Ht_sx7, Ht_rx7⟩, ⟨Ht_sx8, Ht_rx8⟩, ⟨Ht_sx9, Ht_rx9⟩⟩, ⟨⟨Ht_sy0, Ht_ry0, Ht_sz0, Ht_rz0⟩, ⟨Ht_sy1, Ht_ry1, Ht_sz1, Ht_rz1⟩, ⟨Ht_sy2, Ht_ry2, Ht_sz2, Ht_rz2⟩, ⟨Ht_sy3, Ht_ry3, Ht_sz3, Ht_rz3⟩, ⟨Ht_sy4, Ht_ry4, Ht_sz4, Ht_rz4⟩, ⟨Ht_sy5, Ht_ry5, Ht_sz5, Ht_rz5⟩, ⟨Ht_sy6, Ht_ry6, Ht_sz6, Ht_rz6⟩, ⟨Ht_sy7, Ht_ry7, Ht_sz7, Ht_rz7⟩⟩, ⟨⟨Ht_sfz0, Ht_rfz0⟩, ⟨Ht_sfz1, Ht_rfz1⟩, ⟨Ht_sfz2, Ht_rfz2⟩⟩, ⟨⟨Ht_sfy3, Ht_rfy3⟩, ⟨Ht_sfy4, Ht_rfy4⟩, ⟨Ht_sfy5, Ht_rfy5⟩⟩⟩⟩, ⟨Hc_bar, ⟨Hc_rx0, Hc_rx1, Hc_rx2, Hc_rx3, Hc_rx4, Hc_rx5, Hc_rx6, Hc_rx7, Hc_rx8, Hc_rx9⟩, ⟨⟨Hc_ry0, Hc_rz0⟩, ⟨Hc_ry1, Hc_rz1⟩, ⟨Hc_ry2, Hc_rz2⟩, ⟨Hc_ry3, Hc_rz3⟩, ⟨Hc_ry4, Hc_rz4⟩, ⟨Hc_ry5, Hc_rz5⟩, ⟨Hc_ry6, Hc_rz6⟩, ⟨Hc_ry7, Hc_rz7⟩⟩, ⟨Hc_rfz0, Hc_rfz1, Hc_rfz2⟩, ⟨Hc_rfy3, Hc_rfy4, Hc_rfy5⟩⟩, #Hlev, ⟨%f0, Hs0⟩, ⟨%f1, Hs1⟩, ⟨%f2, Hs2⟩, ⟨%f3, Hs3⟩, ⟨%f4, Hs4⟩, ⟨%f5, Hs5⟩⟩, Ho, ⟨%d0, %g0, %hg0, Hx⟩, ⟨%d1, %g1, %hg1, Hout⟩⟩
  have hx : g0 = xb m c := by rw [hg0]; unfold Dat.before; rw [if_pos (Cert.KernelIdeal.Gen.fetch0_0 Cert.KernelIdeal.Gen.t0_0)]; rfl
  subst hx
  unfold Dat.owesAt Pipeline.owesWithin
  icases Ho with ⟨%W, %hW, HO⟩
  rw [show (dats m ρ 0 c).owed Cert.KernelIdeal.Gen.t0_0.castSucc = O₀ c from rfl]

  unfold bodyAt0
  sl_unfold [cc0_body]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel
  simp only [semSignalWord, semWaitWord, Prog.lift, Prog.bind_op, Prog.bind_ret, Prog.pure_eq_ret, Prog.bind_assoc, bind_assoc, pure_bind, wp_deviceId]
  dsimp +instances only [nD_eq, τ_eq, sig_eq, S1024x512_eq, S256x512_eq, S64x512_eq, S10_eq, S8_eq, S__eq, S1_eq, S32x512_eq, grid0_eq, main_arg0_eq, main_v1_eq, cc0_stg0_0_eq, cc0_stg1_0_eq, cc0_scratch0_eq, cc0_scratch1_eq, cc0_scratch2_eq, cc0_scratch3_eq, cc0_scratch4_eq, cc0_scratch5_eq, cc0_sem0_0_eq, cc0_sem1_0_eq, barrier0_eq, k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_off1_eq, k0_off2_eq, k0_off3_eq, k0_off4_eq, k0_off5_eq, k0_off6_eq, stage0_0_eq, stage0_1_eq, sem0_0_eq, sem0_1_eq, cc0_scratch6_eq, cc0_scratch7_eq, cc0_scratch8_eq, cc0_scratch9_eq, cc0_scratch10_eq, cc0_scratch11_eq, cc0_scratch12_eq, cc0_scratch13_eq, cc0_scratch14_eq, cc0_scratch15_eq, win0_0_eq, win0_1_eq, win0_eq, spec0_eq, Λ₀_eq, cfg0_eq, cfgs_eq]

  ihave Hs0 := (Entails.of_eq (whole_pts c cc0_scratch0 f0)) $$ Hs0
  ihave Hs1 := (Entails.of_eq (whole_pts c cc0_scratch1 f1)) $$ Hs1
  ihave Hs2 := (Entails.of_eq (whole_pts c cc0_scratch2 f2)) $$ Hs2
  ihave Hs3 := (Entails.of_eq (whole_pts c cc0_scratch3 f3)) $$ Hs3
  ihave Hs4 := (Entails.of_eq (whole_pts c cc0_scratch4 f4)) $$ Hs4
  ihave Hs5 := (Entails.of_eq (whole_pts c cc0_scratch5 f5)) $$ Hs5
  ihave Hcx8 := (free8_of_whole c cxM f0) $$ Hs0
  ihave Hry8 := (free8_of_whole c ryM f3) $$ Hs3
  ihave Hrz8 := (free8_of_whole c rzM f4) $$ Hs4
  ihave Hcd := (split2 c fullShare f1).1 $$ Hs1
  icases Hcd with ⟨Hcd0, Hcd1⟩
  ihave Hsq := (split8 c sqM fullShare f2).1 $$ Hs2
  icases Hsq with ⟨Hsq0, Hsq1, Hsq2, Hsq3, Hsq4, Hsq5, Hsq6, Hsq7⟩
  ihave Hrd := (split8 c rdM fullShare f5).1 $$ Hs5
  icases Hrd with ⟨Hrd0, Hrd1, Hrd2, Hrd3, Hrd4, Hrd5, Hrd6, Hrd7⟩

  ihave #HIb := (rec_bar m K c) $$ Hrec
  ihave #HIbx := (rec_bar m K (px c)) $$ Hrec
  ihave #HIby := (rec_bar m K (py c)) $$ Hrec
  ihave #HIbz := (rec_bar m K (pz c)) $$ Hrec
  icases HIb with ⟨#HIb, -⟩
  icases HIbx with ⟨#HIbx, #Hrbx⟩
  icases HIby with ⟨#HIby, #Hrby⟩
  icases HIbz with ⟨#HIbz, #Hrbz⟩
  ihave Hmw := (mayWait_barS (F := F) c 3 (le_refl _)) $$ Hlev
  iapply (seg_bar m c _ _ _ (dev1_eq c) (dev2_eq c) (dev3_eq c) _ rfl (K (barCell c)) (K (barCell (px c))) (K (barCell (py c))) (K (barCell (pz c))) W (owedL ((paid c).drop 3)))
    $$ [HO Ht_bx Ht_by Ht_bz Hc_bar Hp_bar Hcx8 Hcd0 Hcd1 Hry8 Hrz8 Hrd0 Hrd1 Hrd2 Hrd3 Hrd4 Hrd5 Hmw]
  · isplitr; · iexact HIb
    isplitr; · iexact HIbx
    isplitr; · iexact HIby
    isplitr; · iexact HIbz
    isplitr; · iexact Hrbx
    isplitr; · iexact Hrby
    isplitr; · iexact Hrbz
    isplitl [Ht_bx]; · iexact Ht_bx
    isplitl [Ht_by]; · iexact Ht_by
    isplitl [Ht_bz]; · iexact Ht_bz
    isplitl [Hcx8 Hcd0 Hcd1]
    · rw [barOut_0]
      isplitl [Hcx8]; · iexact Hcx8
      isplitl [Hcd0]; · (unfold free; iexists f1; iexact Hcd0)
      unfold free; iexists f1; iexact Hcd1
    isplitl [Hry8 Hrd3 Hrd4 Hrd5]
    · rw [barOut_1]
      isplitl [Hry8]; · iexact Hry8
      isplitl [Hrd3]; · (unfold free; iexists f5; iexact Hrd3)
      isplitl [Hrd4]; · (unfold free; iexists f5; iexact Hrd4)
      unfold free; iexists f5; iexact Hrd5
    isplitl [Hrz8 Hrd0 Hrd1 Hrd2]
    · rw [barOut_2]
      isplitl [Hrz8]; · iexact Hrz8
      isplitl [Hrd0]; · (unfold free; iexists f5; iexact Hrd0)
      isplitl [Hrd1]; · (unfold free; iexists f5; iexact Hrd1)
      unfold free; iexists f5; iexact Hrd2
    isplitl [HO]; · iexact HO
    isplitl [Hc_bar]; · iexact Hc_bar
    isplitl [Hp_bar]; · iexact Hp_bar
    iexact Hmw
  iintro ⟨HO, Hp_bar, Hq0, Hq1, Hq2⟩
  ihave Hq0 := (Entails.of_eq (barPay_0 (F := F) c)) $$ Hq0
  ihave Hq1 := (Entails.of_eq (barPay_1 (F := F) c)) $$ Hq1
  ihave Hq2 := (Entails.of_eq (barPay_2 (F := F) c)) $$ Hq2
  icases Hq0 with ⟨⟨Hd_cx0, Hd_cx1, Hd_cx2, Hd_cx3, Hd_cx4, Hd_cx5, Hd_cx6, Hd_cx7⟩, Hd_cd0, Hd_cd1⟩
  icases Hq1 with ⟨⟨Hd_ry0, Hd_ry1, Hd_ry2, Hd_ry3, Hd_ry4, Hd_ry5, Hd_ry6, Hd_ry7⟩, Hd_rd3, Hd_rd4, Hd_rd5⟩
  icases Hq2 with ⟨⟨Hd_rz0, Hd_rz1, Hd_rz2, Hd_rz3, Hd_rz4, Hd_rz5, Hd_rz6, Hd_rz7⟩, Hd_rd0, Hd_rd1, Hd_rd2⟩
  ihave Hx := (Entails.of_eq (whole_pts c cc0_stg0_0 (xb m c))) $$ Hx
  ihave Hx := (share_halves (xb m c)).1 $$ Hx
  icases Hx with ⟨HxL, HxR⟩
  ihave HxL := (take10 m c hL).1 $$ HxL
  icases HxL with ⟨Hxh0, Hxh1, Hxh2, Hxh3, Hxh4, Hxh5, Hxh6, Hxh7, Hxh8, Hxh9, Hxrest⟩

  iapply (copyX m K c 0 _ (dev4_eq c) _ _ (off1_w0 c) _ (owedL ((paid c).drop 4))) $$ [Hxh0 Hd_cx0 HO Ht_sx0 Ht_rx0]
  · isplitr; · iexact Hrec
    isplitl [Hxh0]; · iexact Hxh0
    isplitl [Hd_cx0]; · iexact Hd_cx0
    isplitl [HO]; · iexact HO
    isplitl [Ht_sx0]; · iexact Ht_sx0
    iexact Ht_rx0
  iintro ⟨Hcs_sx0, HO⟩

  iapply (copyX m K c 1 _ (dev5_eq c) _ _ (off1_w32 c) _ (owedL ((paid c).drop 5))) $$ [Hxh1 Hd_cx1 HO Ht_sx1 Ht_rx1]
  · isplitr; · iexact Hrec
    isplitl [Hxh1]; · iexact Hxh1
    isplitl [Hd_cx1]; · iexact Hd_cx1
    isplitl [HO]; · iexact HO
    isplitl [Ht_sx1]; · iexact Ht_sx1
    iexact Ht_rx1
  iintro ⟨Hcs_sx1, HO⟩

  iapply (copyX m K c 2 _ (dev6_eq c) _ _ (off1_w64 c) _ (owedL ((paid c).drop 6))) $$ [Hxh2 Hd_cx2 HO Ht_sx2 Ht_rx2]
  · isplitr; · iexact Hrec
    isplitl [Hxh2]; · iexact Hxh2
    isplitl [Hd_cx2]; · iexact Hd_cx2
    isplitl [HO]; · iexact HO
    isplitl [Ht_sx2]; · iexact Ht_sx2
    iexact Ht_rx2
  iintro ⟨Hcs_sx2, HO⟩

  iapply (copyX m K c 3 _ (dev7_eq c) _ _ (off1_w96 c) _ (owedL ((paid c).drop 7))) $$ [Hxh3 Hd_cx3 HO Ht_sx3 Ht_rx3]
  · isplitr; · iexact Hrec
    isplitl [Hxh3]; · iexact Hxh3
    isplitl [Hd_cx3]; · iexact Hd_cx3
    isplitl [HO]; · iexact HO
    isplitl [Ht_sx3]; · iexact Ht_sx3
    iexact Ht_rx3
  iintro ⟨Hcs_sx3, HO⟩

  iapply (copyX m K c 4 _ (dev8_eq c) _ _ (off1_w128 c) _ (owedL ((paid c).drop 8))) $$ [Hxh4 Hd_cx4 HO Ht_sx4 Ht_rx4]
  · isplitr; · iexact Hrec
    isplitl [Hxh4]; · iexact Hxh4
    isplitl [Hd_cx4]; · iexact Hd_cx4
    isplitl [HO]; · iexact HO
    isplitl [Ht_sx4]; · iexact Ht_sx4
    iexact Ht_rx4
  iintro ⟨Hcs_sx4, HO⟩

  iapply (copyX m K c 5 _ (dev9_eq c) _ _ (off1_w160 c) _ (owedL ((paid c).drop 9))) $$ [Hxh5 Hd_cx5 HO Ht_sx5 Ht_rx5]
  · isplitr; · iexact Hrec
    isplitl [Hxh5]; · iexact Hxh5
    isplitl [Hd_cx5]; · iexact Hd_cx5
    isplitl [HO]; · iexact HO
    isplitl [Ht_sx5]; · iexact Ht_sx5
    iexact Ht_rx5
  iintro ⟨Hcs_sx5, HO⟩

  iapply (copyX m K c 6 _ (dev10_eq c) _ _ (off1_w192 c) _ (owedL ((paid c).drop 10))) $$ [Hxh6 Hd_cx6 HO Ht_sx6 Ht_rx6]
  · isplitr; · iexact Hrec
    isplitl [Hxh6]; · iexact Hxh6
    isplitl [Hd_cx6]; · iexact Hd_cx6
    isplitl [HO]; · iexact HO
    isplitl [Ht_sx6]; · iexact Ht_sx6
    iexact Ht_rx6
  iintro ⟨Hcs_sx6, HO⟩

  iapply (copyX m K c 7 _ (dev11_eq c) _ _ (off1_w224 c) _ (owedL ((paid c).drop 11))) $$ [Hxh7 Hd_cx7 HO Ht_sx7 Ht_rx7]
  · isplitr; · iexact Hrec
    isplitl [Hxh7]; · iexact Hxh7
    isplitl [Hd_cx7]; · iexact Hd_cx7
    isplitl [HO]; · iexact HO
    isplitl [Ht_sx7]; · iexact Ht_sx7
    iexact Ht_rx7
  iintro ⟨Hcs_sx7, HO⟩

  iapply (copyX m K c 8 _ (dev12_eq c) _ _ (off2_w192 c) _ (owedL ((paid c).drop 12))) $$ [Hxh8 Hd_cd0 HO Ht_sx8 Ht_rx8]
  · isplitr; · iexact Hrec
    isplitl [Hxh8]; · iexact Hxh8
    isplitl [Hd_cd0]; · iexact Hd_cd0
    isplitl [HO]; · iexact HO
    isplitl [Ht_sx8]; · iexact Ht_sx8
    iexact Ht_rx8
  iintro ⟨Hcs_sx8, HO⟩

  iapply (copyX m K c 9 _ (dev13_eq c) _ _ (off2_w224 c) _ (owedL ((paid c).drop 13))) $$ [Hxh9 Hd_cd1 HO Ht_sx9 Ht_rx9]
  · isplitr; · iexact Hrec
    isplitl [Hxh9]; · iexact Hxh9
    isplitl [Hd_cd1]; · iexact Hd_cd1
    isplitl [HO]; · iexact HO
    isplitl [Ht_sx9]; · iexact Ht_sx9
    iexact Ht_rx9
  iintro ⟨Hcs_sx9, HO⟩
  ihave Hout := (Entails.of_eq (whole_pts c cc0_stg1_0 g1)) $$ Hout

  ihave Hmw := (mayWait_rx (F := F) c 0 13 (by omega)) $$ Hlev
  iapply (seg2 m K c 0 _ _ (dev14_eq c) (dev15_eq c) _ _ _ _ (off3_w0 c) (off3_w0 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 15)) _)
    $$ [Hc_rx0 Hp_rx0 Hmw HO HxR Hsq0 Hd_ry0 Hd_rz0 Ht_sy0 Ht_ry0 Ht_sz0 Ht_rz0 Hout]
  · isplitr; · iexact Hrec
    isplitl [Hc_rx0]; · iexact Hc_rx0
    isplitl [Hp_rx0]; · iexact Hp_rx0
    isplitl [Hmw]; · iexact Hmw
    isplitl [HO]; · iexact HO
    isplitl [HxR]; · iexact HxR
    isplitl [Hsq0]; · iexact Hsq0
    isplitl [Hd_ry0]; · iexact Hd_ry0
    isplitl [Hd_rz0]; · iexact Hd_rz0
    isplitl [Ht_sy0]; · iexact Ht_sy0
    isplitl [Ht_ry0]; · iexact Ht_ry0
    isplitl [Ht_sz0]; · iexact Ht_sz0
    isplitl [Ht_rz0]; · iexact Ht_rz0
    iexact Hout
  iintro ⟨HO, Hp_rx0, Hcx0, HxR, Hcs_sy0, Hcs_sz0, Hout⟩

  ihave Hmw := (mayWait_rx (F := F) c 1 15 (by omega)) $$ Hlev
  iapply (seg2 m K c 1 _ _ (dev16_eq c) (dev17_eq c) _ _ _ _ (off3_w32 c) (off3_w32 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 17)) _)
    $$ [Hc_rx1 Hp_rx1 Hmw HO HxR Hsq1 Hd_ry1 Hd_rz1 Ht_sy1 Ht_ry1 Ht_sz1 Ht_rz1 Hout]
  · isplitr; · iexact Hrec
    isplitl [Hc_rx1]; · iexact Hc_rx1
    isplitl [Hp_rx1]; · iexact Hp_rx1
    isplitl [Hmw]; · iexact Hmw
    isplitl [HO]; · iexact HO
    isplitl [HxR]; · iexact HxR
    isplitl [Hsq1]; · iexact Hsq1
    isplitl [Hd_ry1]; · iexact Hd_ry1
    isplitl [Hd_rz1]; · iexact Hd_rz1
    isplitl [Ht_sy1]; · iexact Ht_sy1
    isplitl [Ht_ry1]; · iexact Ht_ry1
    isplitl [Ht_sz1]; · iexact Ht_sz1
    isplitl [Ht_rz1]; · iexact Ht_rz1
    iexact Hout
  iintro ⟨HO, Hp_rx1, Hcx1, HxR, Hcs_sy1, Hcs_sz1, Hout⟩

  ihave Hmw := (mayWait_rx (F := F) c 2 17 (by omega)) $$ Hlev
  iapply (seg2 m K c 2 _ _ (dev18_eq c) (dev19_eq c) _ _ _ _ (off3_w64 c) (off3_w64 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 19)) _)
    $$ [Hc_rx2 Hp_rx2 Hmw HO HxR Hsq2 Hd_ry2 Hd_rz2 Ht_sy2 Ht_ry2 Ht_sz2 Ht_rz2 Hout]
  · isplitr; · iexact Hrec
    isplitl [Hc_rx2]; · iexact Hc_rx2
    isplitl [Hp_rx2]; · iexact Hp_rx2
    isplitl [Hmw]; · iexact Hmw
    isplitl [HO]; · iexact HO
    isplitl [HxR]; · iexact HxR
    isplitl [Hsq2]; · iexact Hsq2
    isplitl [Hd_ry2]; · iexact Hd_ry2
    isplitl [Hd_rz2]; · iexact Hd_rz2
    isplitl [Ht_sy2]; · iexact Ht_sy2
    isplitl [Ht_ry2]; · iexact Ht_ry2
    isplitl [Ht_sz2]; · iexact Ht_sz2
    isplitl [Ht_rz2]; · iexact Ht_rz2
    iexact Hout
  iintro ⟨HO, Hp_rx2, Hcx2, HxR, Hcs_sy2, Hcs_sz2, Hout⟩

  ihave Hmw := (mayWait_rx (F := F) c 3 19 (by omega)) $$ Hlev
  iapply (seg2 m K c 3 _ _ (dev20_eq c) (dev21_eq c) _ _ _ _ (off3_w96 c) (off3_w96 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 21)) _)
    $$ [Hc_rx3 Hp_rx3 Hmw HO HxR Hsq3 Hd_ry3 Hd_rz3 Ht_sy3 Ht_ry3 Ht_sz3 Ht_rz3 Hout]
  · isplitr; · iexact Hrec
    isplitl [Hc_rx3]; · iexact Hc_rx3
    isplitl [Hp_rx3]; · iexact Hp_rx3
    isplitl [Hmw]; · iexact Hmw
    isplitl [HO]; · iexact HO
    isplitl [HxR]; · iexact HxR
    isplitl [Hsq3]; · iexact Hsq3
    isplitl [Hd_ry3]; · iexact Hd_ry3
    isplitl [Hd_rz3]; · iexact Hd_rz3
    isplitl [Ht_sy3]; · iexact Ht_sy3
    isplitl [Ht_ry3]; · iexact Ht_ry3
    isplitl [Ht_sz3]; · iexact Ht_sz3
    isplitl [Ht_rz3]; · iexact Ht_rz3
    iexact Hout
  iintro ⟨HO, Hp_rx3, Hcx3, HxR, Hcs_sy3, Hcs_sz3, Hout⟩

  ihave Hmw := (mayWait_rx (F := F) c 4 21 (by omega)) $$ Hlev
  iapply (seg2 m K c 4 _ _ (dev22_eq c) (dev23_eq c) _ _ _ _ (off3_w128 c) (off3_w128 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 23)) _)
    $$ [Hc_rx4 Hp_rx4 Hmw HO HxR Hsq4 Hd_ry4 Hd_rz4 Ht_sy4 Ht_ry4 Ht_sz4 Ht_rz4 Hout]
  · isplitr; · iexact Hrec
    isplitl [Hc_rx4]; · iexact Hc_rx4
    isplitl [Hp_rx4]; · iexact Hp_rx4
    isplitl [Hmw]; · iexact Hmw
    isplitl [HO]; · iexact HO
    isplitl [HxR]; · iexact HxR
    isplitl [Hsq4]; · iexact Hsq4
    isplitl [Hd_ry4]; · iexact Hd_ry4
    isplitl [Hd_rz4]; · iexact Hd_rz4
    isplitl [Ht_sy4]; · iexact Ht_sy4
    isplitl [Ht_ry4]; · iexact Ht_ry4
    isplitl [Ht_sz4]; · iexact Ht_sz4
    isplitl [Ht_rz4]; · iexact Ht_rz4
    iexact Hout
  iintro ⟨HO, Hp_rx4, Hcx4, HxR, Hcs_sy4, Hcs_sz4, Hout⟩

  ihave Hmw := (mayWait_rx (F := F) c 5 23 (by omega)) $$ Hlev
  iapply (seg2 m K c 5 _ _ (dev24_eq c) (dev25_eq c) _ _ _ _ (off3_w160 c) (off3_w160 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 25)) _)
    $$ [Hc_rx5 Hp_rx5 Hmw HO HxR Hsq5 Hd_ry5 Hd_rz5 Ht_sy5 Ht_ry5 Ht_sz5 Ht_rz5 Hout]
  · isplitr; · iexact Hrec
    isplitl [Hc_rx5]; · iexact Hc_rx5
    isplitl [Hp_rx5]; · iexact Hp_rx5
    isplitl [Hmw]; · iexact Hmw
    isplitl [HO]; · iexact HO
    isplitl [HxR]; · iexact HxR
    isplitl [Hsq5]; · iexact Hsq5
    isplitl [Hd_ry5]; · iexact Hd_ry5
    isplitl [Hd_rz5]; · iexact Hd_rz5
    isplitl [Ht_sy5]; · iexact Ht_sy5
    isplitl [Ht_ry5]; · iexact Ht_ry5
    isplitl [Ht_sz5]; · iexact Ht_sz5
    isplitl [Ht_rz5]; · iexact Ht_rz5
    iexact Hout
  iintro ⟨HO, Hp_rx5, Hcx5, HxR, Hcs_sy5, Hcs_sz5, Hout⟩

  ihave Hmw := (mayWait_rx (F := F) c 6 25 (by omega)) $$ Hlev
  iapply (seg2 m K c 6 _ _ (dev26_eq c) (dev27_eq c) _ _ _ _ (off3_w192 c) (off3_w192 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 27)) _)
    $$ [Hc_rx6 Hp_rx6 Hmw HO HxR Hsq6 Hd_ry6 Hd_rz6 Ht_sy6 Ht_ry6 Ht_sz6 Ht_rz6 Hout]
  · isplitr; · iexact Hrec
    isplitl [Hc_rx6]; · iexact Hc_rx6
    isplitl [Hp_rx6]; · iexact Hp_rx6
    isplitl [Hmw]; · iexact Hmw
    isplitl [HO]; · iexact HO
    isplitl [HxR]; · iexact HxR
    isplitl [Hsq6]; · iexact Hsq6
    isplitl [Hd_ry6]; · iexact Hd_ry6
    isplitl [Hd_rz6]; · iexact Hd_rz6
    isplitl [Ht_sy6]; · iexact Ht_sy6
    isplitl [Ht_ry6]; · iexact Ht_ry6
    isplitl [Ht_sz6]; · iexact Ht_sz6
    isplitl [Ht_rz6]; · iexact Ht_rz6
    iexact Hout
  iintro ⟨HO, Hp_rx6, Hcx6, HxR, Hcs_sy6, Hcs_sz6, Hout⟩

  ihave Hmw := (mayWait_rx (F := F) c 7 27 (by omega)) $$ Hlev
  iapply (seg2 m K c 7 _ _ (dev28_eq c) (dev29_eq c) _ _ _ _ (off3_w224 c) (off3_w224 c) _ _ (fun a b => by simp only [pay1, pay2, pay3, pay4, pay5, pay6, pay7, pay8, pay9, pay10, pay11, pay12, pay13, pay14, pay15, pay16, pay17, pay18, pay19]) (fun a b => by simp only [pay1, pay2, pay3, pay4, pay5, pay6, pay7, pay8, pay9, pay10, pay11, pay12, pay13, pay14, pay15, pay16, pay17, pay18, pay19]) _ _ (by rfl) f2 _ (owedL ((paid c).drop 29)) _)
    $$ [Hc_rx7 Hp_rx7 Hmw HO HxR Hsq7 Hd_ry7 Hd_rz7 Ht_sy7 Ht_ry7 Ht_sz7 Ht_rz7 Hout]
  · isplitr; · iexact Hrec
    isplitl [Hc_rx7]; · iexact Hc_rx7
    isplitl [Hp_rx7]; · iexact Hp_rx7
    isplitl [Hmw]; · iexact Hmw
    isplitl [HO]; · iexact HO
    isplitl [HxR]; · iexact HxR
    isplitl [Hsq7]; · iexact Hsq7
    isplitl [Hd_ry7]; · iexact Hd_ry7
    isplitl [Hd_rz7]; · iexact Hd_rz7
    isplitl [Ht_sy7]; · iexact Ht_sy7
    isplitl [Ht_ry7]; · iexact Ht_ry7
    isplitl [Ht_sz7]; · iexact Ht_sz7
    isplitl [Ht_rz7]; · iexact Ht_rz7
    iexact Hout
  iintro ⟨HO, Hp_rx7, Hcx7, HxR, Hcs_sy7, Hcs_sz7, Hout⟩

  ihave Hmw := (mayWait_ry (F := F) c 0 29 (by omega)) $$ Hlev
  iapply (seg3y_fwd m K c 0 (by decide) _ (dev30_eq c) _ _ (off4_w0 c) _ _ (by rfl) _ (owedL ((paid c).drop 30)) _) $$ [Hc_ry0 Hp_ry0 Hmw HO Hout Hd_rd0 Ht_sfz0 Ht_rfz0]
  · isplitr; · iexact Hrec
    isplitl [Hc_ry0]; · iexact Hc_ry0
    isplitl [Hp_ry0]; · iexact Hp_ry0
    isplitl [Hmw]; · iexact Hmw
    isplitl [HO]; · iexact HO
    isplitl [Hout]; · iexact Hout
    isplitl [Hd_rd0]; · iexact Hd_rd0
    isplitl [Ht_sfz0]; · iexact Ht_sfz0
    iexact Ht_rfz0
  iintro ⟨HO, Hp_ry0, Hout, Hcs_sfz0⟩

  ihave Hmw := (mayWait_rz (F := F) c 0 30 (by omega)) $$ Hlev
  iapply (seg3z m K c 0 _ _ (off5_w0 c) _ _ (by rfl) _ (owedL ((paid c).drop 30)) _) $$ [Hc_rz0 Hp_rz0 Hmw HO Hout]
  · isplitr; · iexact Hrec
    isplitl [Hc_rz0]; · iexact Hc_rz0
    isplitl [Hp_rz0]; · iexact Hp_rz0
    isplitl [Hmw]; · iexact Hmw
    isplitl [HO]; · iexact HO
    iexact Hout
  iintro ⟨HO, Hp_rz0, Hout, Hrz0⟩

  ihave Hmw := (mayWait_ry (F := F) c 1 30 (by omega)) $$ Hlev
  iapply (seg3y_fwd m K c 1 (by decide) _ (dev31_eq c) _ _ (off4_w32 c) _ _ (by rfl) _ (owedL ((paid c).drop 31)) _) $$ [Hc_ry1 Hp_ry1 Hmw HO Hout Hd_rd1 Ht_sfz1 Ht_rfz1]
  · isplitr; · iexact Hrec
    isplitl [Hc_ry1]; · iexact Hc_ry1
    isplitl [Hp_ry1]; · iexact Hp_ry1
    isplitl [Hmw]; · iexact Hmw
    isplitl [HO]; · iexact HO
    isplitl [Hout]; · iexact Hout
    isplitl [Hd_rd1]; · iexact Hd_rd1
    isplitl [Ht_sfz1]; · iexact Ht_sfz1
    iexact Ht_rfz1
  iintro ⟨HO, Hp_ry1, Hout, Hcs_sfz1⟩

  ihave Hmw := (mayWait_rz (F := F) c 1 31 (by omega)) $$ Hlev
  iapply (seg3z m K c 1 _ _ (off5_w32 c) _ _ (by rfl) _ (owedL ((paid c).drop 31)) _) $$ [Hc_rz1 Hp_rz1 Hmw HO Hout]
  · isplitr; · iexact Hrec
    isplitl [Hc_rz1]; · iexact Hc_rz1
    isplitl [Hp_rz1]; · iexact Hp_rz1
    isplitl [Hmw]; · iexact Hmw
    isplitl [HO]; · iexact HO
    iexact Hout
  iintro ⟨HO, Hp_rz1, Hout, Hrz1⟩

  ihave Hmw := (mayWait_ry (F := F) c 2 31 (by omega)) $$ Hlev
  iapply (seg3y_fwd m K c 2 (by decide) _ (dev32_eq c) _ _ (off4_w64 c) _ _ (by rfl) _ (owedL ((paid c).drop 32)) _) $$ [Hc_ry2 Hp_ry2 Hmw HO Hout Hd_rd2 Ht_sfz2 Ht_rfz2]
  · isplitr; · iexact Hrec
    isplitl [Hc_ry2]; · iexact Hc_ry2
    isplitl [Hp_ry2]; · iexact Hp_ry2
    isplitl [Hmw]; · iexact Hmw
    isplitl [HO]; · iexact HO
    isplitl [Hout]; · iexact Hout
    isplitl [Hd_rd2]; · iexact Hd_rd2
    isplitl [Ht_sfz2]; · iexact Ht_sfz2
    iexact Ht_rfz2
  iintro ⟨HO, Hp_ry2, Hout, Hcs_sfz2⟩

  ihave Hmw := (mayWait_rz (F := F) c 2 32 (by omega)) $$ Hlev
  iapply (seg3z m K c 2 _ _ (off5_w64 c) _ _ (by rfl) _ (owedL ((paid c).drop 32)) _) $$ [Hc_rz2 Hp_rz2 Hmw HO Hout]
  · isplitr; · iexact Hrec
    isplitl [Hc_rz2]; · iexact Hc_rz2
    isplitl [Hp_rz2]; · iexact Hp_rz2
    isplitl [Hmw]; · iexact Hmw
    isplitl [HO]; · iexact HO
    iexact Hout
  iintro ⟨HO, Hp_rz2, Hout, Hrz2⟩

  ihave Hmw := (mayWait_ry (F := F) c 3 32 (by omega)) $$ Hlev
  iapply (seg3y m K c 3 _ _ (off4_w96 c) _ _ (by rfl) _ (owedL ((paid c).drop 32)) _) $$ [Hc_ry3 Hp_ry3 Hmw HO Hout]
  · isplitr; · iexact Hrec
    isplitl [Hc_ry3]; · iexact Hc_ry3
    isplitl [Hp_ry3]; · iexact Hp_ry3
    isplitl [Hmw]; · iexact Hmw
    isplitl [HO]; · iexact HO
    iexact Hout
  iintro ⟨HO, Hp_ry3, Hout, Hry3⟩

  ihave Hmw := (mayWait_rz (F := F) c 3 32 (by omega)) $$ Hlev
  iapply (seg3z_fwd m K c 3 (by decide) _ (dev33_eq c) _ _ (off5_w96 c) _ _ (by rfl) _ (owedL ((paid c).drop 33)) _) $$ [Hc_rz3 Hp_rz3 Hmw HO Hout Hd_rd3 Ht_sfy3 Ht_rfy3]
  · isplitr; · iexact Hrec
    isplitl [Hc_rz3]; · iexact Hc_rz3
    isplitl [Hp_rz3]; · iexact Hp_rz3
    isplitl [Hmw]; · iexact Hmw
    isplitl [HO]; · iexact HO
    isplitl [Hout]; · iexact Hout
    isplitl [Hd_rd3]; · iexact Hd_rd3
    isplitl [Ht_sfy3]; · iexact Ht_sfy3
    iexact Ht_rfy3
  iintro ⟨HO, Hp_rz3, Hout, Hcs_sfy3⟩

  ihave Hmw := (mayWait_ry (F := F) c 4 33 (by omega)) $$ Hlev
  iapply (seg3y m K c 4 _ _ (off4_w128 c) _ _ (by rfl) _ (owedL ((paid c).drop 33)) _) $$ [Hc_ry4 Hp_ry4 Hmw HO Hout]
  · isplitr; · iexact Hrec
    isplitl [Hc_ry4]; · iexact Hc_ry4
    isplitl [Hp_ry4]; · iexact Hp_ry4
    isplitl [Hmw]; · iexact Hmw
    isplitl [HO]; · iexact HO
    iexact Hout
  iintro ⟨HO, Hp_ry4, Hout, Hry4⟩

  ihave Hmw := (mayWait_rz (F := F) c 4 33 (by omega)) $$ Hlev
  iapply (seg3z_fwd m K c 4 (by decide) _ (dev34_eq c) _ _ (off5_w128 c) _ _ (by rfl) _ (owedL ((paid c).drop 34)) _) $$ [Hc_rz4 Hp_rz4 Hmw HO Hout Hd_rd4 Ht_sfy4 Ht_rfy4]
  · isplitr; · iexact Hrec
    isplitl [Hc_rz4]; · iexact Hc_rz4
    isplitl [Hp_rz4]; · iexact Hp_rz4
    isplitl [Hmw]; · iexact Hmw
    isplitl [HO]; · iexact HO
    isplitl [Hout]; · iexact Hout
    isplitl [Hd_rd4]; · iexact Hd_rd4
    isplitl [Ht_sfy4]; · iexact Ht_sfy4
    iexact Ht_rfy4
  iintro ⟨HO, Hp_rz4, Hout, Hcs_sfy4⟩

  ihave Hmw := (mayWait_ry (F := F) c 5 34 (by omega)) $$ Hlev
  iapply (seg3y m K c 5 _ _ (off4_w160 c) _ _ (by rfl) _ (owedL ((paid c).drop 34)) _) $$ [Hc_ry5 Hp_ry5 Hmw HO Hout]
  · isplitr; · iexact Hrec
    isplitl [Hc_ry5]; · iexact Hc_ry5
    isplitl [Hp_ry5]; · iexact Hp_ry5
    isplitl [Hmw]; · iexact Hmw
    isplitl [HO]; · iexact HO
    iexact Hout
  iintro ⟨HO, Hp_ry5, Hout, Hry5⟩

  ihave Hmw := (mayWait_rz (F := F) c 5 34 (by omega)) $$ Hlev
  iapply (seg3z_fwd m K c 5 (by decide) _ (dev35_eq c) _ _ (off5_w160 c) _ _ (by rfl) _ (owedL ((paid c).drop 35)) _) $$ [Hc_rz5 Hp_rz5 Hmw HO Hout Hd_rd5 Ht_sfy5 Ht_rfy5]
  · isplitr; · iexact Hrec
    isplitl [Hc_rz5]; · iexact Hc_rz5
    isplitl [Hp_rz5]; · iexact Hp_rz5
    isplitl [Hmw]; · iexact Hmw
    isplitl [HO]; · iexact HO
    isplitl [Hout]; · iexact Hout
    isplitl [Hd_rd5]; · iexact Hd_rd5
    isplitl [Ht_sfy5]; · iexact Ht_sfy5
    iexact Ht_rfy5
  iintro ⟨HO, Hp_rz5, Hout, Hcs_sfy5⟩

  ihave Hmw := (mayWait_ry (F := F) c 6 35 (by omega)) $$ Hlev
  iapply (seg3y m K c 6 _ _ (off4_w192 c) _ _ (by rfl) _ (owedL ((paid c).drop 35)) _) $$ [Hc_ry6 Hp_ry6 Hmw HO Hout]
  · isplitr; · iexact Hrec
    isplitl [Hc_ry6]; · iexact Hc_ry6
    isplitl [Hp_ry6]; · iexact Hp_ry6
    isplitl [Hmw]; · iexact Hmw
    isplitl [HO]; · iexact HO
    iexact Hout
  iintro ⟨HO, Hp_ry6, Hout, Hry6⟩

  ihave Hmw := (mayWait_rz (F := F) c 6 35 (by omega)) $$ Hlev
  iapply (seg3z m K c 6 _ _ (off5_w192 c) _ _ (by rfl) _ (owedL ((paid c).drop 35)) _) $$ [Hc_rz6 Hp_rz6 Hmw HO Hout]
  · isplitr; · iexact Hrec
    isplitl [Hc_rz6]; · iexact Hc_rz6
    isplitl [Hp_rz6]; · iexact Hp_rz6
    isplitl [Hmw]; · iexact Hmw
    isplitl [HO]; · iexact HO
    iexact Hout
  iintro ⟨HO, Hp_rz6, Hout, Hrz6⟩

  ihave Hmw := (mayWait_ry (F := F) c 7 35 (by omega)) $$ Hlev
  iapply (seg3y m K c 7 _ _ (off4_w224 c) _ _ (by rfl) _ (owedL ((paid c).drop 35)) _) $$ [Hc_ry7 Hp_ry7 Hmw HO Hout]
  · isplitr; · iexact Hrec
    isplitl [Hc_ry7]; · iexact Hc_ry7
    isplitl [Hp_ry7]; · iexact Hp_ry7
    isplitl [Hmw]; · iexact Hmw
    isplitl [HO]; · iexact HO
    iexact Hout
  iintro ⟨HO, Hp_ry7, Hout, Hry7⟩

  ihave Hmw := (mayWait_rz (F := F) c 7 35 (by omega)) $$ Hlev
  iapply (seg3z m K c 7 _ _ (off5_w224 c) _ _ (by rfl) _ (owedL ((paid c).drop 35)) _) $$ [Hc_rz7 Hp_rz7 Hmw HO Hout]
  · isplitr; · iexact Hrec
    isplitl [Hc_rz7]; · iexact Hc_rz7
    isplitl [Hp_rz7]; · iexact Hp_rz7
    isplitl [Hmw]; · iexact Hmw
    isplitl [HO]; · iexact HO
    iexact Hout
  iintro ⟨HO, Hp_rz7, Hout, Hrz7⟩

  iapply (seg4 m K c 0 _ _ _ _ (off6_w192 c) (off6_w192 c) _ (fun a b => by simp only [pay1, pay2, pay3, pay4, pay5, pay6, pay7, pay8, pay9, pay10, pay11, pay12, pay13, pay14, pay15, pay16, pay17, pay18, pay19]) _ _ (by rfl) _ _) $$ [Hc_rx8 Hp_rx8 HO HxR Hout]
  · isplitr; · iexact Hrec
    isplitl [Hc_rx8]; · iexact Hc_rx8
    isplitl [Hp_rx8]; · iexact Hp_rx8
    isplitl [HO]; · iexact HO
    isplitr; · iexact Hlev
    isplitl [HxR]; · iexact HxR
    iexact Hout
  iintro ⟨HO, Hp_rx8, Hcd0, HxR, Hout⟩

  iapply (seg4 m K c 1 _ _ _ _ (off6_w224 c) (off6_w224 c) _ (fun a b => by simp only [pay1, pay2, pay3, pay4, pay5, pay6, pay7, pay8, pay9, pay10, pay11, pay12, pay13, pay14, pay15, pay16, pay17, pay18, pay19]) _ _ (by rfl) _ _) $$ [Hc_rx9 Hp_rx9 HO HxR Hout]
  · isplitr; · iexact Hrec
    isplitl [Hc_rx9]; · iexact Hc_rx9
    isplitl [Hp_rx9]; · iexact Hp_rx9
    isplitl [HO]; · iexact HO
    isplitr; · iexact Hlev
    isplitl [HxR]; · iexact HxR
    iexact Hout
  iintro ⟨HO, Hp_rx9, Hcd1, HxR, Hout⟩

  iapply (seg5z m K c 0 (by decide) _ _ (off6_w0 c) _ _ (by rfl) _ _) $$ [Hc_rfz0 Hp_rfz0 HO Hout]
  · isplitr; · iexact Hrec
    isplitl [Hc_rfz0]; · iexact Hc_rfz0
    isplitl [Hp_rfz0]; · iexact Hp_rfz0
    isplitl [HO]; · iexact HO
    isplitr; · iexact Hlev
    iexact Hout
  iintro ⟨HO, Hp_rfz0, Hrd0, Hout⟩

  iapply (seg5z m K c 1 (by decide) _ _ (off6_w32 c) _ _ (by rfl) _ _) $$ [Hc_rfz1 Hp_rfz1 HO Hout]
  · isplitr; · iexact Hrec
    isplitl [Hc_rfz1]; · iexact Hc_rfz1
    isplitl [Hp_rfz1]; · iexact Hp_rfz1
    isplitl [HO]; · iexact HO
    isplitr; · iexact Hlev
    iexact Hout
  iintro ⟨HO, Hp_rfz1, Hrd1, Hout⟩

  iapply (seg5z m K c 2 (by decide) _ _ (off6_w64 c) _ _ (by rfl) _ _) $$ [Hc_rfz2 Hp_rfz2 HO Hout]
  · isplitr; · iexact Hrec
    isplitl [Hc_rfz2]; · iexact Hc_rfz2
    isplitl [Hp_rfz2]; · iexact Hp_rfz2
    isplitl [HO]; · iexact HO
    isplitr; · iexact Hlev
    iexact Hout
  iintro ⟨HO, Hp_rfz2, Hrd2, Hout⟩

  iapply (seg5y m K c 3 (by decide) _ _ (off6_w96 c) _ _ (by rfl) _ _) $$ [Hc_rfy3 Hp_rfy3 HO Hout]
  · isplitr; · iexact Hrec
    isplitl [Hc_rfy3]; · iexact Hc_rfy3
    isplitl [Hp_rfy3]; · iexact Hp_rfy3
    isplitl [HO]; · iexact HO
    isplitr; · iexact Hlev
    iexact Hout
  iintro ⟨HO, Hp_rfy3, Hrd3, Hout⟩

  iapply (seg5y m K c 4 (by decide) _ _ (off6_w128 c) _ _ (by rfl) _ _) $$ [Hc_rfy4 Hp_rfy4 HO Hout]
  · isplitr; · iexact Hrec
    isplitl [Hc_rfy4]; · iexact Hc_rfy4
    isplitl [Hp_rfy4]; · iexact Hp_rfy4
    isplitl [HO]; · iexact HO
    isplitr; · iexact Hlev
    iexact Hout
  iintro ⟨HO, Hp_rfy4, Hrd4, Hout⟩

  iapply (seg5y m K c 5 (by decide) _ _ (off6_w160 c) _ _ (by rfl) _ _) $$ [Hc_rfy5 Hp_rfy5 HO Hout]
  · isplitr; · iexact Hrec
    isplitl [Hc_rfy5]; · iexact Hc_rfy5
    isplitl [Hp_rfy5]; · iexact Hp_rfy5
    isplitl [HO]; · iexact HO
    isplitr; · iexact Hlev
    iexact Hout
  iintro ⟨HO, Hp_rfy5, Hrd5, Hout⟩

  iapply (wsx m K c 0 _ _ (by rfl) _) $$ [Hcs_sx0 Hp_sx0 HO]
  · isplitr; · iexact Hrec
    isplitl [Hcs_sx0]; · iexact Hcs_sx0
    isplitl [Hp_sx0]; · iexact Hp_sx0
    isplitl [HO]; · iexact HO
    iexact Hlev
  iintro ⟨HO, Hp_sx0, Hxh0⟩

  iapply (wsx m K c 1 _ _ (by rfl) _) $$ [Hcs_sx1 Hp_sx1 HO]
  · isplitr; · iexact Hrec
    isplitl [Hcs_sx1]; · iexact Hcs_sx1
    isplitl [Hp_sx1]; · iexact Hp_sx1
    isplitl [HO]; · iexact HO
    iexact Hlev
  iintro ⟨HO, Hp_sx1, Hxh1⟩

  iapply (wsx m K c 2 _ _ (by rfl) _) $$ [Hcs_sx2 Hp_sx2 HO]
  · isplitr; · iexact Hrec
    isplitl [Hcs_sx2]; · iexact Hcs_sx2
    isplitl [Hp_sx2]; · iexact Hp_sx2
    isplitl [HO]; · iexact HO
    iexact Hlev
  iintro ⟨HO, Hp_sx2, Hxh2⟩

  iapply (wsx m K c 3 _ _ (by rfl) _) $$ [Hcs_sx3 Hp_sx3 HO]
  · isplitr; · iexact Hrec
    isplitl [Hcs_sx3]; · iexact Hcs_sx3
    isplitl [Hp_sx3]; · iexact Hp_sx3
    isplitl [HO]; · iexact HO
    iexact Hlev
  iintro ⟨HO, Hp_sx3, Hxh3⟩

  iapply (wsx m K c 4 _ _ (by rfl) _) $$ [Hcs_sx4 Hp_sx4 HO]
  · isplitr; · iexact Hrec
    isplitl [Hcs_sx4]; · iexact Hcs_sx4
    isplitl [Hp_sx4]; · iexact Hp_sx4
    isplitl [HO]; · iexact HO
    iexact Hlev
  iintro ⟨HO, Hp_sx4, Hxh4⟩

  iapply (wsx m K c 5 _ _ (by rfl) _) $$ [Hcs_sx5 Hp_sx5 HO]
  · isplitr; · iexact Hrec
    isplitl [Hcs_sx5]; · iexact Hcs_sx5
    isplitl [Hp_sx5]; · iexact Hp_sx5
    isplitl [HO]; · iexact HO
    iexact Hlev
  iintro ⟨HO, Hp_sx5, Hxh5⟩

  iapply (wsx m K c 6 _ _ (by rfl) _) $$ [Hcs_sx6 Hp_sx6 HO]
  · isplitr; · iexact Hrec
    isplitl [Hcs_sx6]; · iexact Hcs_sx6
    isplitl [Hp_sx6]; · iexact Hp_sx6
    isplitl [HO]; · iexact HO
    iexact Hlev
  iintro ⟨HO, Hp_sx6, Hxh6⟩

  iapply (wsx m K c 7 _ _ (by rfl) _) $$ [Hcs_sx7 Hp_sx7 HO]
  · isplitr; · iexact Hrec
    isplitl [Hcs_sx7]; · iexact Hcs_sx7
    isplitl [Hp_sx7]; · iexact Hp_sx7
    isplitl [HO]; · iexact HO
    iexact Hlev
  iintro ⟨HO, Hp_sx7, Hxh7⟩

  iapply (wsx m K c 8 _ _ (by rfl) _) $$ [Hcs_sx8 Hp_sx8 HO]
  · isplitr; · iexact Hrec
    isplitl [Hcs_sx8]; · iexact Hcs_sx8
    isplitl [Hp_sx8]; · iexact Hp_sx8
    isplitl [HO]; · iexact HO
    iexact Hlev
  iintro ⟨HO, Hp_sx8, Hxh8⟩

  iapply (wsx m K c 9 _ _ (by rfl) _) $$ [Hcs_sx9 Hp_sx9 HO]
  · isplitr; · iexact Hrec
    isplitl [Hcs_sx9]; · iexact Hcs_sx9
    isplitl [Hp_sx9]; · iexact Hp_sx9
    isplitl [HO]; · iexact HO
    iexact Hlev
  iintro ⟨HO, Hp_sx9, Hxh9⟩

  iapply (wsy m K c 0 _ _ (by rfl) _) $$ [Hcs_sy0 Hp_sy0 HO]
  · isplitr; · iexact Hrec
    isplitl [Hcs_sy0]; · iexact Hcs_sy0
    isplitl [Hp_sy0]; · iexact Hp_sy0
    isplitl [HO]; · iexact HO
    iexact Hlev
  iintro ⟨HO, Hp_sy0, HsqL0⟩

  iapply (wsz m K c 0 _ _ (by rfl) _) $$ [Hcs_sz0 Hp_sz0 HO]
  · isplitr; · iexact Hrec
    isplitl [Hcs_sz0]; · iexact Hcs_sz0
    isplitl [Hp_sz0]; · iexact Hp_sz0
    isplitl [HO]; · iexact HO
    iexact Hlev
  iintro ⟨HO, Hp_sz0, HsqR0⟩

  iapply (wsy m K c 1 _ _ (by rfl) _) $$ [Hcs_sy1 Hp_sy1 HO]
  · isplitr; · iexact Hrec
    isplitl [Hcs_sy1]; · iexact Hcs_sy1
    isplitl [Hp_sy1]; · iexact Hp_sy1
    isplitl [HO]; · iexact HO
    iexact Hlev
  iintro ⟨HO, Hp_sy1, HsqL1⟩

  iapply (wsz m K c 1 _ _ (by rfl) _) $$ [Hcs_sz1 Hp_sz1 HO]
  · isplitr; · iexact Hrec
    isplitl [Hcs_sz1]; · iexact Hcs_sz1
    isplitl [Hp_sz1]; · iexact Hp_sz1
    isplitl [HO]; · iexact HO
    iexact Hlev
  iintro ⟨HO, Hp_sz1, HsqR1⟩

  iapply (wsy m K c 2 _ _ (by rfl) _) $$ [Hcs_sy2 Hp_sy2 HO]
  · isplitr; · iexact Hrec
    isplitl [Hcs_sy2]; · iexact Hcs_sy2
    isplitl [Hp_sy2]; · iexact Hp_sy2
    isplitl [HO]; · iexact HO
    iexact Hlev
  iintro ⟨HO, Hp_sy2, HsqL2⟩

  iapply (wsz m K c 2 _ _ (by rfl) _) $$ [Hcs_sz2 Hp_sz2 HO]
  · isplitr; · iexact Hrec
    isplitl [Hcs_sz2]; · iexact Hcs_sz2
    isplitl [Hp_sz2]; · iexact Hp_sz2
    isplitl [HO]; · iexact HO
    iexact Hlev
  iintro ⟨HO, Hp_sz2, HsqR2⟩

  iapply (wsy m K c 3 _ _ (by rfl) _) $$ [Hcs_sy3 Hp_sy3 HO]
  · isplitr; · iexact Hrec
    isplitl [Hcs_sy3]; · iexact Hcs_sy3
    isplitl [Hp_sy3]; · iexact Hp_sy3
    isplitl [HO]; · iexact HO
    iexact Hlev
  iintro ⟨HO, Hp_sy3, HsqL3⟩

  iapply (wsz m K c 3 _ _ (by rfl) _) $$ [Hcs_sz3 Hp_sz3 HO]
  · isplitr; · iexact Hrec
    isplitl [Hcs_sz3]; · iexact Hcs_sz3
    isplitl [Hp_sz3]; · iexact Hp_sz3
    isplitl [HO]; · iexact HO
    iexact Hlev
  iintro ⟨HO, Hp_sz3, HsqR3⟩

  iapply (wsy m K c 4 _ _ (by rfl) _) $$ [Hcs_sy4 Hp_sy4 HO]
  · isplitr; · iexact Hrec
    isplitl [Hcs_sy4]; · iexact Hcs_sy4
    isplitl [Hp_sy4]; · iexact Hp_sy4
    isplitl [HO]; · iexact HO
    iexact Hlev
  iintro ⟨HO, Hp_sy4, HsqL4⟩

  iapply (wsz m K c 4 _ _ (by rfl) _) $$ [Hcs_sz4 Hp_sz4 HO]
  · isplitr; · iexact Hrec
    isplitl [Hcs_sz4]; · iexact Hcs_sz4
    isplitl [Hp_sz4]; · iexact Hp_sz4
    isplitl [HO]; · iexact HO
    iexact Hlev
  iintro ⟨HO, Hp_sz4, HsqR4⟩

  iapply (wsy m K c 5 _ _ (by rfl) _) $$ [Hcs_sy5 Hp_sy5 HO]
  · isplitr; · iexact Hrec
    isplitl [Hcs_sy5]; · iexact Hcs_sy5
    isplitl [Hp_sy5]; · iexact Hp_sy5
    isplitl [HO]; · iexact HO
    iexact Hlev
  iintro ⟨HO, Hp_sy5, HsqL5⟩

  iapply (wsz m K c 5 _ _ (by rfl) _) $$ [Hcs_sz5 Hp_sz5 HO]
  · isplitr; · iexact Hrec
    isplitl [Hcs_sz5]; · iexact Hcs_sz5
    isplitl [Hp_sz5]; · iexact Hp_sz5
    isplitl [HO]; · iexact HO
    iexact Hlev
  iintro ⟨HO, Hp_sz5, HsqR5⟩

  iapply (wsy m K c 6 _ _ (by rfl) _) $$ [Hcs_sy6 Hp_sy6 HO]
  · isplitr; · iexact Hrec
    isplitl [Hcs_sy6]; · iexact Hcs_sy6
    isplitl [Hp_sy6]; · iexact Hp_sy6
    isplitl [HO]; · iexact HO
    iexact Hlev
  iintro ⟨HO, Hp_sy6, HsqL6⟩

  iapply (wsz m K c 6 _ _ (by rfl) _) $$ [Hcs_sz6 Hp_sz6 HO]
  · isplitr; · iexact Hrec
    isplitl [Hcs_sz6]; · iexact Hcs_sz6
    isplitl [Hp_sz6]; · iexact Hp_sz6
    isplitl [HO]; · iexact HO
    iexact Hlev
  iintro ⟨HO, Hp_sz6, HsqR6⟩

  iapply (wsy m K c 7 _ _ (by rfl) _) $$ [Hcs_sy7 Hp_sy7 HO]
  · isplitr; · iexact Hrec
    isplitl [Hcs_sy7]; · iexact Hcs_sy7
    isplitl [Hp_sy7]; · iexact Hp_sy7
    isplitl [HO]; · iexact HO
    iexact Hlev
  iintro ⟨HO, Hp_sy7, HsqL7⟩

  iapply (wsz m K c 7 _ _ (by rfl) _) $$ [Hcs_sz7 Hp_sz7 HO]
  · isplitr; · iexact Hrec
    isplitl [Hcs_sz7]; · iexact Hcs_sz7
    isplitl [Hp_sz7]; · iexact Hp_sz7
    isplitl [HO]; · iexact HO
    iexact Hlev
  iintro ⟨HO, Hp_sz7, HsqR7⟩

  iapply (wsfz m K c 0 (by decide) _ _ (by rfl) _) $$ [Hcs_sfz0 Hp_sfz0 HO]
  · isplitr; · iexact Hrec
    isplitl [Hcs_sfz0]; · iexact Hcs_sfz0
    isplitl [Hp_sfz0]; · iexact Hp_sfz0
    isplitl [HO]; · iexact HO
    iexact Hlev
  iintro ⟨HO, Hp_sfz0, Hry0⟩

  iapply (wsfz m K c 1 (by decide) _ _ (by rfl) _) $$ [Hcs_sfz1 Hp_sfz1 HO]
  · isplitr; · iexact Hrec
    isplitl [Hcs_sfz1]; · iexact Hcs_sfz1
    isplitl [Hp_sfz1]; · iexact Hp_sfz1
    isplitl [HO]; · iexact HO
    iexact Hlev
  iintro ⟨HO, Hp_sfz1, Hry1⟩

  iapply (wsfz m K c 2 (by decide) _ _ (by rfl) _) $$ [Hcs_sfz2 Hp_sfz2 HO]
  · isplitr; · iexact Hrec
    isplitl [Hcs_sfz2]; · iexact Hcs_sfz2
    isplitl [Hp_sfz2]; · iexact Hp_sfz2
    isplitl [HO]; · iexact HO
    iexact Hlev
  iintro ⟨HO, Hp_sfz2, Hry2⟩

  iapply (wsfy m K c 3 (by decide) _ _ (by rfl) _) $$ [Hcs_sfy3 Hp_sfy3 HO]
  · isplitr; · iexact Hrec
    isplitl [Hcs_sfy3]; · iexact Hcs_sfy3
    isplitl [Hp_sfy3]; · iexact Hp_sfy3
    isplitl [HO]; · iexact HO
    iexact Hlev
  iintro ⟨HO, Hp_sfy3, Hrz3⟩

  iapply (wsfy m K c 4 (by decide) _ _ (by rfl) _) $$ [Hcs_sfy4 Hp_sfy4 HO]
  · isplitr; · iexact Hrec
    isplitl [Hcs_sfy4]; · iexact Hcs_sfy4
    isplitl [Hp_sfy4]; · iexact Hp_sfy4
    isplitl [HO]; · iexact HO
    iexact Hlev
  iintro ⟨HO, Hp_sfy4, Hrz4⟩

  iapply (wsfy m K c 5 (by decide) _ _ (by rfl) _) $$ [Hcs_sfy5 Hp_sfy5 HO]
  · isplitr; · iexact Hrec
    isplitl [Hcs_sfy5]; · iexact Hcs_sfy5
    isplitl [Hp_sfy5]; · iexact Hp_sfy5
    isplitl [HO]; · iexact HO
    iexact Hlev
  iintro ⟨HO, Hp_sfy5, Hrz5⟩

  ihave HxL := (take10 m c hL).2 $$ [Hxh0 Hxh1 Hxh2 Hxh3 Hxh4 Hxh5 Hxh6 Hxh7 Hxh8 Hxh9 Hxrest]
  · isplitl [Hxh0]; · iexact Hxh0
    isplitl [Hxh1]; · iexact Hxh1
    isplitl [Hxh2]; · iexact Hxh2
    isplitl [Hxh3]; · iexact Hxh3
    isplitl [Hxh4]; · iexact Hxh4
    isplitl [Hxh5]; · iexact Hxh5
    isplitl [Hxh6]; · iexact Hxh6
    isplitl [Hxh7]; · iexact Hxh7
    isplitl [Hxh8]; · iexact Hxh8
    isplitl [Hxh9]; · iexact Hxh9
    iexact Hxrest
  ihave Hx := (share_halves (ℓ := (xM : Memref sig .tc .vmem S1024x512 .f32).view.loc (c : Thread nD τ)) (S := (xM : Memref sig .tc .vmem S1024x512 .f32).view.set) (xb m c)).2 $$ [HxL HxR]
  · isplitl [HxL]; · iexact HxL
    iexact HxR
  ihave Hx := (Entails.of_eq (whole_pts c cc0_stg0_0 (xb m c)).symm) $$ Hx

  ihave Hcx0 := (holds_pts m c (xdst (k10 0)) (ch cxM 0) rfl _ _) $$ Hcx0
  ihave Hcx1 := (holds_pts m c (xdst (k10 1)) (ch cxM 1) rfl _ _) $$ Hcx1
  ihave Hcx2 := (holds_pts m c (xdst (k10 2)) (ch cxM 2) rfl _ _) $$ Hcx2
  ihave Hcx3 := (holds_pts m c (xdst (k10 3)) (ch cxM 3) rfl _ _) $$ Hcx3
  ihave Hcx4 := (holds_pts m c (xdst (k10 4)) (ch cxM 4) rfl _ _) $$ Hcx4
  ihave Hcx5 := (holds_pts m c (xdst (k10 5)) (ch cxM 5) rfl _ _) $$ Hcx5
  ihave Hcx6 := (holds_pts m c (xdst (k10 6)) (ch cxM 6) rfl _ _) $$ Hcx6
  ihave Hcx7 := (holds_pts m c (xdst (k10 7)) (ch cxM 7) rfl _ _) $$ Hcx7
  ihave Hs0 := (join8_whole c cxM (Memref.isWhole_whole _) _ _ _ _ _ _ _ _) $$ [Hcx0 Hcx1 Hcx2 Hcx3 Hcx4 Hcx5 Hcx6 Hcx7]
  · isplitl [Hcx0]; · iexact Hcx0
    isplitl [Hcx1]; · iexact Hcx1
    isplitl [Hcx2]; · iexact Hcx2
    isplitl [Hcx3]; · iexact Hcx3
    isplitl [Hcx4]; · iexact Hcx4
    isplitl [Hcx5]; · iexact Hcx5
    isplitl [Hcx6]; · iexact Hcx6
    iexact Hcx7
  ihave Hcd0 := (holds_pts m c (xdst (jx 0)) (ch64 0) rfl _ _) $$ Hcd0
  ihave Hcd1 := (holds_pts m c (xdst (jx 1)) (ch64 1) rfl _ _) $$ Hcd1
  ihave Hs1 := (join2_whole c _ _) $$ [Hcd0 Hcd1]
  · isplitl [Hcd0]; · iexact Hcd0
    iexact Hcd1
  ihave Hsq0 := (holds_halves m c (ch sqM 0) (SQ m c 0)).2 $$ [HsqL0 HsqR0]
  · isplitl [HsqL0]; · iexact HsqL0
    iexact HsqR0
  ihave Hsq0 := (holds_pts m c _ (ch sqM 0) rfl _ _) $$ Hsq0
  ihave Hsq1 := (holds_halves m c (ch sqM 1) (SQ m c 1)).2 $$ [HsqL1 HsqR1]
  · isplitl [HsqL1]; · iexact HsqL1
    iexact HsqR1
  ihave Hsq1 := (holds_pts m c _ (ch sqM 1) rfl _ _) $$ Hsq1
  ihave Hsq2 := (holds_halves m c (ch sqM 2) (SQ m c 2)).2 $$ [HsqL2 HsqR2]
  · isplitl [HsqL2]; · iexact HsqL2
    iexact HsqR2
  ihave Hsq2 := (holds_pts m c _ (ch sqM 2) rfl _ _) $$ Hsq2
  ihave Hsq3 := (holds_halves m c (ch sqM 3) (SQ m c 3)).2 $$ [HsqL3 HsqR3]
  · isplitl [HsqL3]; · iexact HsqL3
    iexact HsqR3
  ihave Hsq3 := (holds_pts m c _ (ch sqM 3) rfl _ _) $$ Hsq3
  ihave Hsq4 := (holds_halves m c (ch sqM 4) (SQ m c 4)).2 $$ [HsqL4 HsqR4]
  · isplitl [HsqL4]; · iexact HsqL4
    iexact HsqR4
  ihave Hsq4 := (holds_pts m c _ (ch sqM 4) rfl _ _) $$ Hsq4
  ihave Hsq5 := (holds_halves m c (ch sqM 5) (SQ m c 5)).2 $$ [HsqL5 HsqR5]
  · isplitl [HsqL5]; · iexact HsqL5
    iexact HsqR5
  ihave Hsq5 := (holds_pts m c _ (ch sqM 5) rfl _ _) $$ Hsq5
  ihave Hsq6 := (holds_halves m c (ch sqM 6) (SQ m c 6)).2 $$ [HsqL6 HsqR6]
  · isplitl [HsqL6]; · iexact HsqL6
    iexact HsqR6
  ihave Hsq6 := (holds_pts m c _ (ch sqM 6) rfl _ _) $$ Hsq6
  ihave Hsq7 := (holds_halves m c (ch sqM 7) (SQ m c 7)).2 $$ [HsqL7 HsqR7]
  · isplitl [HsqL7]; · iexact HsqL7
    iexact HsqR7
  ihave Hsq7 := (holds_pts m c _ (ch sqM 7) rfl _ _) $$ Hsq7
  ihave Hs2 := (join8_whole c sqM (Memref.isWhole_whole _) _ _ _ _ _ _ _ _) $$ [Hsq0 Hsq1 Hsq2 Hsq3 Hsq4 Hsq5 Hsq6 Hsq7]
  · isplitl [Hsq0]; · iexact Hsq0
    isplitl [Hsq1]; · iexact Hsq1
    isplitl [Hsq2]; · iexact Hsq2
    isplitl [Hsq3]; · iexact Hsq3
    isplitl [Hsq4]; · iexact Hsq4
    isplitl [Hsq5]; · iexact Hsq5
    isplitl [Hsq6]; · iexact Hsq6
    iexact Hsq7
  ihave Hry0 := (holds_pts m c _ (ch ryM 0) rfl _ _) $$ Hry0
  ihave Hry1 := (holds_pts m c _ (ch ryM 1) rfl _ _) $$ Hry1
  ihave Hry2 := (holds_pts m c _ (ch ryM 2) rfl _ _) $$ Hry2
  ihave Hry3 := (holds_pts m c _ (ch ryM 3) rfl _ _) $$ Hry3
  ihave Hry4 := (holds_pts m c _ (ch ryM 4) rfl _ _) $$ Hry4
  ihave Hry5 := (holds_pts m c _ (ch ryM 5) rfl _ _) $$ Hry5
  ihave Hry6 := (holds_pts m c _ (ch ryM 6) rfl _ _) $$ Hry6
  ihave Hry7 := (holds_pts m c _ (ch ryM 7) rfl _ _) $$ Hry7
  ihave Hs3 := (join8_whole c ryM (Memref.isWhole_whole _) _ _ _ _ _ _ _ _) $$ [Hry0 Hry1 Hry2 Hry3 Hry4 Hry5 Hry6 Hry7]
  · isplitl [Hry0]; · iexact Hry0
    isplitl [Hry1]; · iexact Hry1
    isplitl [Hry2]; · iexact Hry2
    isplitl [Hry3]; · iexact Hry3
    isplitl [Hry4]; · iexact Hry4
    isplitl [Hry5]; · iexact Hry5
    isplitl [Hry6]; · iexact Hry6
    iexact Hry7
  ihave Hrz0 := (holds_pts m c _ (ch rzM 0) rfl _ _) $$ Hrz0
  ihave Hrz1 := (holds_pts m c _ (ch rzM 1) rfl _ _) $$ Hrz1
  ihave Hrz2 := (holds_pts m c _ (ch rzM 2) rfl _ _) $$ Hrz2
  ihave Hrz3 := (holds_pts m c _ (ch rzM 3) rfl _ _) $$ Hrz3
  ihave Hrz4 := (holds_pts m c _ (ch rzM 4) rfl _ _) $$ Hrz4
  ihave Hrz5 := (holds_pts m c _ (ch rzM 5) rfl _ _) $$ Hrz5
  ihave Hrz6 := (holds_pts m c _ (ch rzM 6) rfl _ _) $$ Hrz6
  ihave Hrz7 := (holds_pts m c _ (ch rzM 7) rfl _ _) $$ Hrz7
  ihave Hs4 := (join8_whole c rzM (Memref.isWhole_whole _) _ _ _ _ _ _ _ _) $$ [Hrz0 Hrz1 Hrz2 Hrz3 Hrz4 Hrz5 Hrz6 Hrz7]
  · isplitl [Hrz0]; · iexact Hrz0
    isplitl [Hrz1]; · iexact Hrz1
    isplitl [Hrz2]; · iexact Hrz2
    isplitl [Hrz3]; · iexact Hrz3
    isplitl [Hrz4]; · iexact Hrz4
    isplitl [Hrz5]; · iexact Hrz5
    isplitl [Hrz6]; · iexact Hrz6
    iexact Hrz7
  ihave Hrd0 := (holds_pts m c _ (ch rdM 0) rfl _ _) $$ Hrd0
  ihave Hrd1 := (holds_pts m c _ (ch rdM 1) rfl _ _) $$ Hrd1
  ihave Hrd2 := (holds_pts m c _ (ch rdM 2) rfl _ _) $$ Hrd2
  ihave Hrd3 := (holds_pts m c _ (ch rdM 3) rfl _ _) $$ Hrd3
  ihave Hrd4 := (holds_pts m c _ (ch rdM 4) rfl _ _) $$ Hrd4
  ihave Hrd5 := (holds_pts m c _ (ch rdM 5) rfl _ _) $$ Hrd5
  ihave Hs5 := (join8_whole c rdM (Memref.isWhole_whole _) _ _ _ _ _ _ _ _) $$ [Hrd0 Hrd1 Hrd2 Hrd3 Hrd4 Hrd5 Hrd6 Hrd7]
  · isplitl [Hrd0]; · iexact Hrd0
    isplitl [Hrd1]; · iexact Hrd1
    isplitl [Hrd2]; · iexact Hrd2
    isplitl [Hrd3]; · iexact Hrd3
    isplitl [Hrd4]; · iexact Hrd4
    isplitl [Hrd5]; · iexact Hrd5
    isplitl [Hrd6]; · iexact Hrd6
    iexact Hrd7

  ihave Hpe := (Entails.of_eq (possEnd_eq (F := F) c).symm) $$ [Hp_sx0 Hp_rx0 Hp_sx1 Hp_rx1 Hp_sx2 Hp_rx2 Hp_sx3 Hp_rx3 Hp_sx4 Hp_rx4 Hp_sx5 Hp_rx5 Hp_sx6 Hp_rx6 Hp_sx7 Hp_rx7 Hp_sx8 Hp_rx8 Hp_sx9 Hp_rx9 Hp_sy0 Hp_ry0 Hp_sz0 Hp_rz0 Hp_sy1 Hp_ry1 Hp_sz1 Hp_rz1 Hp_sy2 Hp_ry2 Hp_sz2 Hp_rz2 Hp_sy3 Hp_ry3 Hp_sz3 Hp_rz3 Hp_sy4 Hp_ry4 Hp_sz4 Hp_rz4 Hp_sy5 Hp_ry5 Hp_sz5 Hp_rz5 Hp_sy6 Hp_ry6 Hp_sz6 Hp_rz6 Hp_sy7 Hp_ry7 Hp_sz7 Hp_rz7 Hp_sfy0 Hp_rfy0 Hp_sfz0 Hp_rfz0 Hp_sfy1 Hp_rfy1 Hp_sfz1 Hp_rfz1 Hp_sfy2 Hp_rfy2 Hp_sfz2 Hp_rfz2 Hp_sfy3 Hp_rfy3 Hp_sfz3 Hp_rfz3 Hp_sfy4 Hp_rfy4 Hp_sfz4 Hp_rfz4 Hp_sfy5 Hp_rfy5 Hp_sfz5 Hp_rfz5 Hp_sfy6 Hp_rfy6 Hp_sfz6 Hp_rfz6 Hp_sfy7 Hp_rfy7 Hp_sfz7 Hp_rfz7]
  · isplitl [Hp_sx0 Hp_rx0 Hp_sx1 Hp_rx1 Hp_sx2 Hp_rx2 Hp_sx3 Hp_rx3 Hp_sx4 Hp_rx4 Hp_sx5 Hp_rx5 Hp_sx6 Hp_rx6 Hp_sx7 Hp_rx7 Hp_sx8 Hp_rx8 Hp_sx9 Hp_rx9]
    · isplitl [Hp_sx0 Hp_rx0]
      · isplitl [Hp_sx0]; · iexact Hp_sx0
        iexact Hp_rx0
      isplitl [Hp_sx1 Hp_rx1]
      · isplitl [Hp_sx1]; · iexact Hp_sx1
        iexact Hp_rx1
      isplitl [Hp_sx2 Hp_rx2]
      · isplitl [Hp_sx2]; · iexact Hp_sx2
        iexact Hp_rx2
      isplitl [Hp_sx3 Hp_rx3]
      · isplitl [Hp_sx3]; · iexact Hp_sx3
        iexact Hp_rx3
      isplitl [Hp_sx4 Hp_rx4]
      · isplitl [Hp_sx4]; · iexact Hp_sx4
        iexact Hp_rx4
      isplitl [Hp_sx5 Hp_rx5]
      · isplitl [Hp_sx5]; · iexact Hp_sx5
        iexact Hp_rx5
      isplitl [Hp_sx6 Hp_rx6]
      · isplitl [Hp_sx6]; · iexact Hp_sx6
        iexact Hp_rx6
      isplitl [Hp_sx7 Hp_rx7]
      · isplitl [Hp_sx7]; · iexact Hp_sx7
        iexact Hp_rx7
      isplitl [Hp_sx8 Hp_rx8]
      · isplitl [Hp_sx8]; · iexact Hp_sx8
        iexact Hp_rx8
      isplitl [Hp_sx9]; · iexact Hp_sx9
      iexact Hp_rx9
    isplitl [Hp_sy0 Hp_ry0 Hp_sz0 Hp_rz0 Hp_sy1 Hp_ry1 Hp_sz1 Hp_rz1 Hp_sy2 Hp_ry2 Hp_sz2 Hp_rz2 Hp_sy3 Hp_ry3 Hp_sz3 Hp_rz3 Hp_sy4 Hp_ry4 Hp_sz4 Hp_rz4 Hp_sy5 Hp_ry5 Hp_sz5 Hp_rz5 Hp_sy6 Hp_ry6 Hp_sz6 Hp_rz6 Hp_sy7 Hp_ry7 Hp_sz7 Hp_rz7]
    · isplitl [Hp_sy0 Hp_ry0 Hp_sz0 Hp_rz0]
      · isplitl [Hp_sy0]; · iexact Hp_sy0
        isplitl [Hp_ry0]; · iexact Hp_ry0
        isplitl [Hp_sz0]; · iexact Hp_sz0
        iexact Hp_rz0
      isplitl [Hp_sy1 Hp_ry1 Hp_sz1 Hp_rz1]
      · isplitl [Hp_sy1]; · iexact Hp_sy1
        isplitl [Hp_ry1]; · iexact Hp_ry1
        isplitl [Hp_sz1]; · iexact Hp_sz1
        iexact Hp_rz1
      isplitl [Hp_sy2 Hp_ry2 Hp_sz2 Hp_rz2]
      · isplitl [Hp_sy2]; · iexact Hp_sy2
        isplitl [Hp_ry2]; · iexact Hp_ry2
        isplitl [Hp_sz2]; · iexact Hp_sz2
        iexact Hp_rz2
      isplitl [Hp_sy3 Hp_ry3 Hp_sz3 Hp_rz3]
      · isplitl [Hp_sy3]; · iexact Hp_sy3
        isplitl [Hp_ry3]; · iexact Hp_ry3
        isplitl [Hp_sz3]; · iexact Hp_sz3
        iexact Hp_rz3
      isplitl [Hp_sy4 Hp_ry4 Hp_sz4 Hp_rz4]
      · isplitl [Hp_sy4]; · iexact Hp_sy4
        isplitl [Hp_ry4]; · iexact Hp_ry4
        isplitl [Hp_sz4]; · iexact Hp_sz4
        iexact Hp_rz4
      isplitl [Hp_sy5 Hp_ry5 Hp_sz5 Hp_rz5]
      · isplitl [Hp_sy5]; · iexact Hp_sy5
        isplitl [Hp_ry5]; · iexact Hp_ry5
        isplitl [Hp_sz5]; · iexact Hp_sz5
        iexact Hp_rz5
      isplitl [Hp_sy6 Hp_ry6 Hp_sz6 Hp_rz6]
      · isplitl [Hp_sy6]; · iexact Hp_sy6
        isplitl [Hp_ry6]; · iexact Hp_ry6
        isplitl [Hp_sz6]; · iexact Hp_sz6
        iexact Hp_rz6
      isplitl [Hp_sy7]; · iexact Hp_sy7
      isplitl [Hp_ry7]; · iexact Hp_ry7
      isplitl [Hp_sz7]; · iexact Hp_sz7
      iexact Hp_rz7
    isplitl [Hp_sfy0 Hp_rfy0 Hp_sfz0 Hp_rfz0]
    · isplitl [Hp_sfy0]; · iexact Hp_sfy0
      isplitl [Hp_rfy0]; · iexact Hp_rfy0
      isplitl [Hp_sfz0]; · iexact Hp_sfz0
      iexact Hp_rfz0
    isplitl [Hp_sfy1 Hp_rfy1 Hp_sfz1 Hp_rfz1]
    · isplitl [Hp_sfy1]; · iexact Hp_sfy1
      isplitl [Hp_rfy1]; · iexact Hp_rfy1
      isplitl [Hp_sfz1]; · iexact Hp_sfz1
      iexact Hp_rfz1
    isplitl [Hp_sfy2 Hp_rfy2 Hp_sfz2 Hp_rfz2]
    · isplitl [Hp_sfy2]; · iexact Hp_sfy2
      isplitl [Hp_rfy2]; · iexact Hp_rfy2
      isplitl [Hp_sfz2]; · iexact Hp_sfz2
      iexact Hp_rfz2
    isplitl [Hp_sfy3 Hp_rfy3 Hp_sfz3 Hp_rfz3]
    · isplitl [Hp_sfy3]; · iexact Hp_sfy3
      isplitl [Hp_rfy3]; · iexact Hp_rfy3
      isplitl [Hp_sfz3]; · iexact Hp_sfz3
      iexact Hp_rfz3
    isplitl [Hp_sfy4 Hp_rfy4 Hp_sfz4 Hp_rfz4]
    · isplitl [Hp_sfy4]; · iexact Hp_sfy4
      isplitl [Hp_rfy4]; · iexact Hp_rfy4
      isplitl [Hp_sfz4]; · iexact Hp_sfz4
      iexact Hp_rfz4
    isplitl [Hp_sfy5 Hp_rfy5 Hp_sfz5 Hp_rfz5]
    · isplitl [Hp_sfy5]; · iexact Hp_sfy5
      isplitl [Hp_rfy5]; · iexact Hp_rfy5
      isplitl [Hp_sfz5]; · iexact Hp_sfz5
      iexact Hp_rfz5
    isplitl [Hp_sfy6 Hp_rfy6 Hp_sfz6 Hp_rfz6]
    · isplitl [Hp_sfy6]; · iexact Hp_sfy6
      isplitl [Hp_rfy6]; · iexact Hp_rfy6
      isplitl [Hp_sfz6]; · iexact Hp_sfz6
      iexact Hp_rfz6
    isplitl [Hp_sfy7]; · iexact Hp_sfy7
    isplitl [Hp_rfy7]; · iexact Hp_rfy7
    isplitl [Hp_sfz7]; · iexact Hp_sfz7
    iexact Hp_rfz7
  imod (close_all m K c) $$ [Hpe] with Hz
  · isplitr; · iexact Hrec
    iexact Hpe
  rw [wp_ret]; imodintro
  ihave Hout := (Entails.of_eq (whole_pts c cc0_stg1_0 _).symm) $$ Hout
  unfold bodyPost Φ₁ scratch Dat.owesAt Pipeline.owesWithin
  rw [show (dats m ρ 0 c).owed Cert.KernelIdeal.Gen.t0_0.succ = 0 from rfl]
  isplitl [Hs0 Hs1 Hs2 Hs3 Hs4 Hs5 Hz]
  · isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    iexact Hz
  isplitl [HO]
  · iexists _
    isplitr
    rotate_left
    · iexact HO
    · ipureintro; exact fun _ _ => Or.inl trivial
  isplitl [Hx]
  · iexists _
    isplitr; · (ipureintro; rfl)
    iexact Hx
  iexists _
  isplitr
  rotate_left
  · iexact Hout
  · ipureintro; exact outW_base m c g1 (xb m c)

end Cert.Kernel.AR
end
-- ==== Proof.lean ====
import proofs.«900722_g7700000000000723_dist_ar_v7x_xyz2x4x4_x_m1024_n512_f32_1_alg».proof.Defs
import proofs.«900722_g7700000000000723_dist_ar_v7x_xyz2x4x4_x_m1024_n512_f32_1_alg».proof.Proof.Gen.Kernel
import proofs.«900722_g7700000000000723_dist_ar_v7x_xyz2x4x4_x_m1024_n512_f32_1_alg».proof.Proof.Gen.Kernel.Skeleton
import proofs.«900722_g7700000000000723_dist_ar_v7x_xyz2x4x4_x_m1024_n512_f32_1_alg».proof.Proof.Gen.Kernel.Launch
import proofs.«900722_g7700000000000723_dist_ar_v7x_xyz2x4x4_x_m1024_n512_f32_1_alg».proof.Proof.Gen.Kernel.Points
import proofs.«900722_g7700000000000723_dist_ar_v7x_xyz2x4x4_x_m1024_n512_f32_1_alg».proof.Proof.Gen.Kernel.Frame
import proofs.«900722_g7700000000000723_dist_ar_v7x_xyz2x4x4_x_m1024_n512_f32_1_alg».proof.Proof.Gen.KernelIdeal
import proofs.«900722_g7700000000000723_dist_ar_v7x_xyz2x4x4_x_m1024_n512_f32_1_alg».proof.Proof.Gen.KernelIdeal.Skeleton
import proofs.«900722_g7700000000000723_dist_ar_v7x_xyz2x4x4_x_m1024_n512_f32_1_alg».proof.Proof.Gen.KernelIdeal.Launch
import proofs.«900722_g7700000000000723_dist_ar_v7x_xyz2x4x4_x_m1024_n512_f32_1_alg».proof.Proof.Gen.KernelIdeal.Points
import proofs.«900722_g7700000000000723_dist_ar_v7x_xyz2x4x4_x_m1024_n512_f32_1_alg».proof.Proof.Gen.KernelIdeal.Frame
import proofs.«900722_g7700000000000723_dist_ar_v7x_xyz2x4x4_x_m1024_n512_f32_1_alg».proof.Proof.Gen.ReferenceIdeal
import proofs.«900722_g7700000000000723_dist_ar_v7x_xyz2x4x4_x_m1024_n512_f32_1_alg».proof.Proof.Gen.Pre_finite_inputs_Kernel
import proofs.«900722_g7700000000000723_dist_ar_v7x_xyz2x4x4_x_m1024_n512_f32_1_alg».proof.Proof.Gen.Pre_finite_inputs_ReferenceIdeal
import proofs.«900722_g7700000000000723_dist_ar_v7x_xyz2x4x4_x_m1024_n512_f32_1_alg».proof.Proof.RefValue
import proofs.«900722_g7700000000000723_dist_ar_v7x_xyz2x4x4_x_m1024_n512_f32_1_alg».proof.Proof.OutIdeal
import proofs.«900722_g7700000000000723_dist_ar_v7x_xyz2x4x4_x_m1024_n512_f32_1_alg».proof.Proof.Launch
import proofs.«900722_g7700000000000723_dist_ar_v7x_xyz2x4x4_x_m1024_n512_f32_1_alg».proof.Proof.Body
import proofs.«900722_g7700000000000723_dist_ar_v7x_xyz2x4x4_x_m1024_n512_f32_1_alg».proof.Proof.Bits.Body
import proofs.«900722_g7700000000000723_dist_ar_v7x_xyz2x4x4_x_m1024_n512_f32_1_alg».proof.Proof.Bits.Vocab
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => by
  have h : θ_run Cert.Kernel.defs (onTc (τ := Cert.Kernel.τ) (Cert.Kernel.main (F := Bits))) ⟨m, fun _ => 0, ρ⟩
      (fun r => ∀ c : Dev Cert.KernelIdeal.nD, r.2.mem ((c : Thread Cert.KernelIdeal.nD Cert.KernelIdeal.τ).loc Cert.KernelIdeal.main_v1) = Cert.KernelIdeal.AR.outv m c
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)) := by
    unfold Cert.Kernel.defs Cert.Kernel.main
    dsimp +instances only [Cert.Kernel.AR.pcfgs_eq, Cert.Kernel.AR.nD_eq, Cert.Kernel.AR.τ_eq, Cert.Kernel.AR.sig_eq, Cert.Kernel.AR.S1024x512_eq, Cert.Kernel.AR.S256x512_eq, Cert.Kernel.AR.S64x512_eq, Cert.Kernel.AR.S10_eq, Cert.Kernel.AR.S8_eq, Cert.Kernel.AR.S__eq, Cert.Kernel.AR.S1_eq, Cert.Kernel.AR.S32x512_eq, Cert.Kernel.AR.grid0_eq, Cert.Kernel.AR.main_arg0_eq, Cert.Kernel.AR.main_v1_eq, Cert.Kernel.AR.cc0_stg0_0_eq, Cert.Kernel.AR.cc0_stg1_0_eq, Cert.Kernel.AR.cc0_scratch0_eq, Cert.Kernel.AR.cc0_scratch1_eq, Cert.Kernel.AR.cc0_scratch2_eq, Cert.Kernel.AR.cc0_scratch3_eq, Cert.Kernel.AR.cc0_scratch4_eq, Cert.Kernel.AR.cc0_scratch5_eq, Cert.Kernel.AR.cc0_sem0_0_eq, Cert.Kernel.AR.cc0_sem1_0_eq, Cert.Kernel.AR.barrier0_eq, Cert.Kernel.AR.k0_dev1_eq, Cert.Kernel.AR.k0_dev2_eq, Cert.Kernel.AR.k0_dev3_eq, Cert.Kernel.AR.k0_dev4_eq, Cert.Kernel.AR.k0_dev5_eq, Cert.Kernel.AR.k0_dev6_eq, Cert.Kernel.AR.k0_dev7_eq, Cert.Kernel.AR.k0_dev8_eq, Cert.Kernel.AR.k0_dev9_eq, Cert.Kernel.AR.k0_dev10_eq, Cert.Kernel.AR.k0_dev11_eq, Cert.Kernel.AR.k0_dev12_eq, Cert.Kernel.AR.k0_dev13_eq, Cert.Kernel.AR.k0_dev14_eq, Cert.Kernel.AR.k0_dev15_eq, Cert.Kernel.AR.k0_dev16_eq, Cert.Kernel.AR.k0_dev17_eq, Cert.Kernel.AR.k0_dev18_eq, Cert.Kernel.AR.k0_dev19_eq, Cert.Kernel.AR.k0_dev20_eq, Cert.Kernel.AR.k0_dev21_eq, Cert.Kernel.AR.k0_dev22_eq, Cert.Kernel.AR.k0_dev23_eq, Cert.Kernel.AR.k0_dev24_eq, Cert.Kernel.AR.k0_dev25_eq, Cert.Kernel.AR.k0_dev26_eq, Cert.Kernel.AR.k0_dev27_eq, Cert.Kernel.AR.k0_dev28_eq, Cert.Kernel.AR.k0_dev29_eq, Cert.Kernel.AR.k0_dev30_eq, Cert.Kernel.AR.k0_dev31_eq, Cert.Kernel.AR.k0_dev32_eq, Cert.Kernel.AR.k0_dev33_eq, Cert.Kernel.AR.k0_dev34_eq, Cert.Kernel.AR.k0_dev35_eq, Cert.Kernel.AR.k0_off1_eq, Cert.Kernel.AR.k0_off2_eq, Cert.Kernel.AR.k0_off3_eq, Cert.Kernel.AR.k0_off4_eq, Cert.Kernel.AR.k0_off5_eq, Cert.Kernel.AR.k0_off6_eq, Cert.Kernel.AR.stage0_0_eq, Cert.Kernel.AR.stage0_1_eq, Cert.Kernel.AR.sem0_0_eq, Cert.Kernel.AR.sem0_1_eq, Cert.Kernel.AR.cc0_scratch6_eq, Cert.Kernel.AR.cc0_scratch7_eq, Cert.Kernel.AR.cc0_scratch8_eq, Cert.Kernel.AR.cc0_scratch9_eq, Cert.Kernel.AR.cc0_scratch10_eq, Cert.Kernel.AR.cc0_scratch11_eq, Cert.Kernel.AR.cc0_scratch12_eq, Cert.Kernel.AR.cc0_scratch13_eq, Cert.Kernel.AR.cc0_scratch14_eq, Cert.Kernel.AR.cc0_scratch15_eq, Cert.Kernel.AR.win0_0_eq, Cert.Kernel.AR.win0_1_eq, Cert.Kernel.AR.win0_eq, Cert.Kernel.AR.spec0_eq, Cert.Kernel.AR.Λ₀_eq, Cert.Kernel.AR.cfg0_eq, Cert.Kernel.AR.cfgs_eq]
    exact Cert.KernelIdeal.AR.run_of_sound m ρ (D₀ := Cert.Kernel.AR.defsK) fun c => Cert.Kernel.AR.sound_body m ρ c
  exact (θ_run Cert.Kernel.defs _ _).mono (fun _ h c => (h c).2) h

theorem frame_ki : Cert.frame_KernelIdeal := fun m ρ _ =>
  (θ_run Cert.KernelIdeal.defs _ _).mono (fun _ h c => (h c).2)
    (Cert.KernelIdeal.AR.run_of_sound (F := Ideal) m ρ (D₀ := Cert.KernelIdeal.defs₀) fun c => Cert.KernelIdeal.AR.sound_body m ρ c)

theorem claim : Cert.Claim :=
  ⟨Cert.Kernel.Gen.facts, Cert.KernelIdeal.Gen.facts, Cert.ReferenceIdeal.Gen.facts,
   Cert.Pre_finite_inputs_Kernel.Gen.facts, Cert.Pre_finite_inputs_ReferenceIdeal.Gen.facts,
   frame_k, frame_ki, Cert.ARValue.frame_ri, trivial,
   Cert.KernelIdeal.AR.algebraic_of_kernel_run fun m ρ =>
     Cert.KernelIdeal.AR.run_of_sound (F := Ideal) m ρ (D₀ := Cert.KernelIdeal.defs₀) fun c => Cert.KernelIdeal.AR.sound_body m ρ c⟩

end Cert.Proof

end
